-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part3 {F : FTy → Type} [FloatOps F] (main_arg7 : IVec S600000 32) (main_arg10 : IVec S600000 32) (main_v45 : IVec S_ 1) (main_v50 : IVec S600000 1) : IVec S_ 1 :=
  let main_c_19 : IVec S_ 1 := constantI S_ 1 1#1
  let main_v51 : IVec S_ 1 := (fun x v => Host.reduce IntOp.andi x v reducesTo_S600000_S_d0 h_S_) main_v50 main_c_19
  let main_v52 : IVec S_ 1 := andi main_v45 main_v51
  let main_c_20 : IVec S_ 32 := constantI S_ 32 0#32
  let main_v53 : IVec S600000 32 := broadcastInDim S600000 ![] bcast_S_S600000 main_c_20
  let main_v54 : IVec S600000 1 := cmpi .sge main_arg7 main_v53
  let main_c_21 : IVec S_ 32 := constantI S_ 32 50000#32
  let main_v55 : IVec S600000 32 := broadcastInDim S600000 ![] bcast_S_S600000 main_c_21
  let main_v56 : IVec S600000 1 := cmpi .slt main_arg7 main_v55
  let main_v57 : IVec S600000 1 := andi main_v54 main_v56
  let main_c_22 : IVec S_ 1 := constantI S_ 1 1#1
  let main_v58 : IVec S_ 1 := (fun x v => Host.reduce IntOp.andi x v reducesTo_S600000_S_d0 h_S_) main_v57 main_c_22
  let main_v59 : IVec S_ 1 := andi main_v52 main_v58
  let main_c_23 : IVec S_ 32 := constantI S_ 32 0#32
  let main_v60 : IVec S600000 32 := broadcastInDim S600000 ![] bcast_S_S600000 main_c_23
  let main_v61 : IVec S600000 1 := cmpi .sge main_arg10 main_v60
  let main_c_24 : IVec S_ 32 := constantI S_ 32 50000#32
  let main_v62 : IVec S600000 32 := broadcastInDim S600000 ![] bcast_S_S600000 main_c_24
  let main_v63 : IVec S600000 1 := cmpi .slt main_arg10 main_v62
  let main_v64 : IVec S600000 1 := andi main_v61 main_v63
  let main_c_25 : IVec S_ 1 := constantI S_ 1 1#1
  let main_v65 : IVec S_ 1 := (fun x v => Host.reduce IntOp.andi x v reducesTo_S600000_S_d0 h_S_) main_v64 main_c_25
  let main_v66 : IVec S_ 1 := andi main_v59 main_v65
  main_v66

def fn_part2 {F : FTy → Type} [FloatOps F] (main_arg1 : IVec S600000 32) (main_arg4 : IVec S600000 32) (main_arg7 : IVec S600000 32) (main_arg10 : IVec S600000 32) (main_arg15 : FVec F S128 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S600000 32 := broadcastInDim S600000 ![] bcast_S_S600000 main_c_14
  let main_v40 : IVec S600000 1 := cmpi .sge main_arg1 main_v39
  let main_c_15 : IVec S_ 32 := constantI S_ 32 50000#32
  let main_v41 : IVec S600000 32 := broadcastInDim S600000 ![] bcast_S_S600000 main_c_15
  let main_v42 : IVec S600000 1 := cmpi .slt main_arg1 main_v41
  let main_v43 : IVec S600000 1 := andi main_v40 main_v42
  let main_c_16 : IVec S_ 1 := constantI S_ 1 1#1
  let main_v44 : IVec S_ 1 := (fun x v => Host.reduce IntOp.andi x v reducesTo_S600000_S_d0 h_S_) main_v43 main_c_16
  let main_v45 : IVec S_ 1 := andi main_v38 main_v44
  let main_c_17 : IVec S_ 32 := constantI S_ 32 0#32
  let main_v46 : IVec S600000 32 := broadcastInDim S600000 ![] bcast_S_S600000 main_c_17
  let main_v47 : IVec S600000 1 := cmpi .sge main_arg4 main_v46
  let main_c_18 : IVec S_ 32 := constantI S_ 32 50000#32
  let main_v48 : IVec S600000 32 := broadcastInDim S600000 ![] bcast_S_S600000 main_c_18
  let main_v49 : IVec S600000 1 := cmpi .slt main_arg4 main_v48
  let main_v50 : IVec S600000 1 := andi main_v47 main_v49
  fn_part3 (F := F) main_arg7 main_arg10 main_v45 main_v50

def fn_part1 {F : FTy → Type} [FloatOps F] (main_arg1 : IVec S600000 32) (main_arg4 : IVec S600000 32) (main_arg7 : IVec S600000 32) (main_arg10 : IVec S600000 32) (main_arg12 : FVec F S128x128 .f32) (main_arg13 : FVec F S128 .f32) (main_arg14 : FVec F S128x128 .f32) (main_arg15 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg12
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg13
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg14
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg4 main_arg7 main_arg10 main_arg15 main_v33

def fn {F : FTy → Type} [FloatOps F] (main_arg0 : FVec F S50000x128 .f32) (main_arg1 : IVec S600000 32) (main_arg2 : IVec S600000 32) (main_arg3 : FVec F S50000x128 .f32) (main_arg4 : IVec S600000 32) (main_arg5 : IVec S600000 32) (main_arg6 : FVec F S50000x128 .f32) (main_arg7 : IVec S600000 32) (main_arg8 : IVec S600000 32) (main_arg9 : FVec F S50000x128 .f32) (main_arg10 : IVec S600000 32) (main_arg11 : IVec S600000 32) (main_arg12 : FVec F S128x128 .f32) (main_arg13 : FVec F S128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg6
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg9
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg1 main_arg4 main_arg7 main_arg10 main_arg12 main_arg13 main_arg14 main_arg15 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S200000x128 : Shape := ⟨2, ![200000, 128]⟩

abbrev nBuf : Space → Nat
  | .hbm => 370
  | .vmem => 112
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000x128, .f32⟩
  | 4 => ⟨S600000, .i32⟩
  | 5 => ⟨S600000, .i32⟩
  | 6 => ⟨S50000x128, .f32⟩
  | 7 => ⟨S600000, .i32⟩
  | 8 => ⟨S600000, .i32⟩
  | 9 => ⟨S50000x128, .f32⟩
  | 10 => ⟨S600000, .i32⟩
  | 11 => ⟨S600000, .i32⟩
  | 12 => ⟨S128x128, .f32⟩
  | 13 => ⟨S128, .f32⟩
  | 14 => ⟨S128x128, .f32⟩
  | 15 => ⟨S128, .f32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S_, .f32⟩
  | 30 => ⟨S600000, .f32⟩
  | 31 => ⟨S_, .f32⟩
  | 32 => ⟨S50000, .f32⟩
  | 33 => ⟨S600000x1, .i32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S1, .i32⟩
  | 52 => ⟨S_, .i32⟩
  | 53 => ⟨S600000x1, .i32⟩
  | 54 => ⟨S600000x1, .i1⟩
  | 55 => ⟨S1x1, .i32⟩
  | 56 => ⟨S600000x1, .i32⟩
  | 57 => ⟨S600000x1, .i1⟩
  | 58 => ⟨S600000x1, .i1⟩
  | 59 => ⟨S_, .i1⟩
  | 60 => ⟨S600000, .i1⟩
  | 61 => ⟨S600000x128, .f32⟩
  | 62 => ⟨S600000x128, .i1⟩
  | 63 => ⟨S_, .f32⟩
  | 64 => ⟨S600000x128, .f32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S1x128, .f32⟩
  | 71 => ⟨S50000x128, .f32⟩
  | 72 => ⟨S50000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S1, .i32⟩
  | 82 => ⟨S_, .i32⟩
  | 83 => ⟨S600000x1, .i32⟩
  | 84 => ⟨S600000x1, .i1⟩
  | 85 => ⟨S1x1, .i32⟩
  | 86 => ⟨S600000x1, .i32⟩
  | 87 => ⟨S600000x1, .i1⟩
  | 88 => ⟨S600000x1, .i1⟩
  | 89 => ⟨S_, .i1⟩
  | 90 => ⟨S600000, .i1⟩
  | 91 => ⟨S600000x128, .f32⟩
  | 92 => ⟨S600000x128, .i1⟩
  | 93 => ⟨S_, .f32⟩
  | 94 => ⟨S600000x128, .f32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S1x128, .f32⟩
  | 101 => ⟨S50000x128, .f32⟩
  | 102 => ⟨S_, .f32⟩
  | 103 => ⟨S600000, .f32⟩
  | 104 => ⟨S_, .f32⟩
  | 105 => ⟨S50000, .f32⟩
  | 106 => ⟨S600000x1, .i32⟩
  | 107 => ⟨S50000, .f32⟩
  | 108 => ⟨S_, .f32⟩
  | 109 => ⟨S50000, .f32⟩
  | 110 => ⟨S50000, .f32⟩
  | 111 => ⟨S_, .f32⟩
  | 112 => ⟨S50000, .f32⟩
  | 113 => ⟨S50000, .f32⟩
  | 114 => ⟨S50000x1, .f32⟩
  | 115 => ⟨S_, .f32⟩
  | 116 => ⟨S600000, .f32⟩
  | 117 => ⟨S_, .f32⟩
  | 118 => ⟨S50000, .f32⟩
  | 119 => ⟨S600000x1, .i32⟩
  | 120 => ⟨S50000, .f32⟩
  | 121 => ⟨S_, .f32⟩
  | 122 => ⟨S50000, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S1, .i32⟩
  | 10 => ⟨S_, .i32⟩
  | 11 => ⟨S600000x1, .i32⟩
  | 12 => ⟨S600000x1, .i1⟩
  | 13 => ⟨S1x1, .i32⟩
  | 14 => ⟨S600000x1, .i32⟩
  | 15 => ⟨S600000x1, .i1⟩
  | 16 => ⟨S600000x1, .i1⟩
  | 17 => ⟨S_, .i1⟩
  | 18 => ⟨S600000, .i1⟩
  | 19 => ⟨S600000x128, .f32⟩
  | 20 => ⟨S600000x128, .i1⟩
  | 21 => ⟨S_, .f32⟩
  | 22 => ⟨S600000x128, .f32⟩
  | 23 => ⟨S600000x128, .f32⟩
  | 24 => ⟨S_, .f32⟩
  | 25 => ⟨S50000x128, .f32⟩
  | 26 => ⟨S600000x1, .i32⟩
  | 27 => ⟨S50000x128, .f32⟩
  | 28 => ⟨S1x128, .f32⟩
  | 29 => ⟨S50000x128, .f32⟩
  | 30 => ⟨S50000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S1, .i32⟩
  | 40 => ⟨S_, .i32⟩
  | 41 => ⟨S600000x1, .i32⟩
  | 42 => ⟨S600000x1, .i1⟩
  | 43 => ⟨S1x1, .i32⟩
  | 44 => ⟨S600000x1, .i32⟩
  | 45 => ⟨S600000x1, .i1⟩
  | 46 => ⟨S600000x1, .i1⟩
  | 47 => ⟨S_, .i1⟩
  | 48 => ⟨S600000, .i1⟩
  | 49 => ⟨S600000x128, .f32⟩
  | 50 => ⟨S600000x128, .i1⟩
  | 51 => ⟨S_, .f32⟩
  | 52 => ⟨S600000x128, .f32⟩
  | 53 => ⟨S600000x128, .f32⟩
  | 54 => ⟨S_, .f32⟩
  | 55 => ⟨S50000x128, .f32⟩
  | 56 => ⟨S600000x1, .i32⟩
  | 57 => ⟨S50000x128, .f32⟩
  | 58 => ⟨S1x128, .f32⟩
  | 59 => ⟨S50000x128, .f32⟩
  | 60 => ⟨S_, .f32⟩
  | 61 => ⟨S600000, .f32⟩
  | 62 => ⟨S_, .f32⟩
  | 63 => ⟨S50000, .f32⟩
  | 64 => ⟨S600000x1, .i32⟩
  | 65 => ⟨S50000, .f32⟩
  | 66 => ⟨S_, .f32⟩
  | 67 => ⟨S50000, .f32⟩
  | 68 => ⟨S50000, .f32⟩
  | 69 => ⟨S_, .f32⟩
  | 70 => ⟨S50000, .f32⟩
  | 71 => ⟨S50000, .f32⟩
  | 72 => ⟨S50000x1, .f32⟩
  | 73 => ⟨S_, .f32⟩
  | 74 => ⟨S600000, .f32⟩
  | 75 => ⟨S_, .f32⟩
  | 76 => ⟨S50000, .f32⟩
  | 77 => ⟨S600000x1, .i32⟩
  | 78 => ⟨S50000, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S1, .i32⟩
  | 96 => ⟨S_, .i32⟩
  | 97 => ⟨S600000x1, .i32⟩
  | 98 => ⟨S600000x1, .i1⟩
  | 99 => ⟨S1x1, .i32⟩
  | 100 => ⟨S600000x1, .i32⟩
  | 101 => ⟨S600000x1, .i1⟩
  | 102 => ⟨S600000x1, .i1⟩
  | 103 => ⟨S_, .i1⟩
  | 104 => ⟨S600000, .i1⟩
  | 105 => ⟨S600000x128, .f32⟩
  | 106 => ⟨S600000x128, .i1⟩
  | 107 => ⟨S_, .f32⟩
  | 108 => ⟨S600000x128, .f32⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S1x128, .f32⟩
  | 115 => ⟨S50000x128, .f32⟩
  | 116 => ⟨S50000x128, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S1, .i32⟩
  | 126 => ⟨S_, .i32⟩
  | 127 => ⟨S600000x1, .i32⟩
  | _ => ⟨S50000x128, .f32⟩

abbrev hbmTy0_2 (i : Nat) : BufTy := match i % 128 with
  | 0 => ⟨S600000x1, .i1⟩
  | 1 => ⟨S1x1, .i32⟩
  | 2 => ⟨S600000x1, .i32⟩
  | 3 => ⟨S600000x1, .i1⟩
  | 4 => ⟨S600000x1, .i1⟩
  | 5 => ⟨S_, .i1⟩
  | 6 => ⟨S600000, .i1⟩
  | 7 => ⟨S600000x128, .f32⟩
  | 8 => ⟨S600000x128, .i1⟩
  | 9 => ⟨S_, .f32⟩
  | 10 => ⟨S600000x128, .f32⟩
  | 11 => ⟨S600000x128, .f32⟩
  | 12 => ⟨S_, .f32⟩
  | 13 => ⟨S50000x128, .f32⟩
  | 14 => ⟨S600000x1, .i32⟩
  | 15 => ⟨S50000x128, .f32⟩
  | 16 => ⟨S1x128, .f32⟩
  | 17 => ⟨S50000x128, .f32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S_, .f32⟩
  | 32 => ⟨S600000, .f32⟩
  | 33 => ⟨S_, .f32⟩
  | 34 => ⟨S50000, .f32⟩
  | 35 => ⟨S600000x1, .i32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S1, .i32⟩
  | 54 => ⟨S_, .i32⟩
  | 55 => ⟨S600000x1, .i32⟩
  | 56 => ⟨S600000x1, .i1⟩
  | 57 => ⟨S1x1, .i32⟩
  | 58 => ⟨S600000x1, .i32⟩
  | 59 => ⟨S600000x1, .i1⟩
  | 60 => ⟨S600000x1, .i1⟩
  | 61 => ⟨S_, .i1⟩
  | 62 => ⟨S600000, .i1⟩
  | 63 => ⟨S600000x128, .f32⟩
  | 64 => ⟨S600000x128, .i1⟩
  | 65 => ⟨S_, .f32⟩
  | 66 => ⟨S600000x128, .f32⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S1x128, .f32⟩
  | 73 => ⟨S50000x128, .f32⟩
  | 74 => ⟨S50000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S1, .i32⟩
  | 84 => ⟨S_, .i32⟩
  | 85 => ⟨S600000x1, .i32⟩
  | 86 => ⟨S600000x1, .i1⟩
  | 87 => ⟨S1x1, .i32⟩
  | 88 => ⟨S600000x1, .i32⟩
  | 89 => ⟨S600000x1, .i1⟩
  | 90 => ⟨S600000x1, .i1⟩
  | 91 => ⟨S_, .i1⟩
  | 92 => ⟨S600000, .i1⟩
  | 93 => ⟨S600000x128, .f32⟩
  | 94 => ⟨S600000x128, .i1⟩
  | 95 => ⟨S_, .f32⟩
  | 96 => ⟨S600000x128, .f32⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S1x128, .f32⟩
  | 103 => ⟨S50000x128, .f32⟩
  | 104 => ⟨S200000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .f32⟩
  | 111 => ⟨S_, .f32⟩
  | 112 => ⟨S_, .f32⟩
  | 113 => ⟨S_, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .f32⟩
  | .local _ .vmem, ⟨45, _⟩ => ⟨S5000x1, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .f32⟩
  | .local _ .vmem, ⟨59, _⟩ => ⟨S5000x1, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x1, .f32⟩
  | .local _ .vmem, ⟨73, _⟩ => ⟨S5000x1, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x1, .f32⟩
  | .local _ .vmem, ⟨79, _⟩ => ⟨S5000x1, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S5000x1, .f32⟩
  | .local _ .vmem, ⟨87, _⟩ => ⟨S5000x1, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x1, .f32⟩
  | .local _ .vmem, ⟨93, _⟩ => ⟨S5000x1, .f32⟩
  | .local _ .vmem, ⟨94, _⟩ => ⟨S128x128, .f32⟩
  | .local _ .vmem, ⟨95, _⟩ => ⟨S1x128, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S5000x1, .f32⟩
  | .local _ .vmem, ⟨101, _⟩ => ⟨S5000x1, .f32⟩
  | .local _ .vmem, ⟨102, _⟩ => ⟨S5000x128, .f32⟩
  | .local _ .vmem, ⟨103, _⟩ => ⟨S5000x128, .f32⟩
  | .local _ .vmem, ⟨104, _⟩ => ⟨S5000x128, .f32⟩
  | .local _ .vmem, ⟨105, _⟩ => ⟨S5000x128, .f32⟩
  | .local _ .vmem, ⟨106, _⟩ => ⟨S5000x1, .f32⟩
  | .local _ .vmem, ⟨107, _⟩ => ⟨S5000x1, .f32⟩
  | .local _ .vmem, ⟨108, _⟩ => ⟨S128x128, .f32⟩
  | .local _ .vmem, ⟨109, _⟩ => ⟨S1x128, .f32⟩
  | .local _ .vmem, ⟨110, _⟩ => ⟨S5000x128, .f32⟩
  | .local _ .vmem, ⟨111, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v19 : Ref sig .tc := ⟨.hbm, 65, rfl⟩
abbrev main_cst_7 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v26 : Ref sig .tc := ⟨.hbm, 95, rfl⟩
abbrev main_cst_8 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_cst_9 : Ref sig .tc := ⟨.hbm, 102, rfl⟩
abbrev main_v32 : Ref sig .tc := ⟨.hbm, 103, rfl⟩
abbrev main_cst_10 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_cst_11 : Ref sig .tc := ⟨.hbm, 108, rfl⟩
abbrev main_v36 : Ref sig .tc := ⟨.hbm, 109, rfl⟩
abbrev main_v37 : Ref sig .tc := ⟨.hbm, 110, rfl⟩
abbrev main_cst_12 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_13 : Ref sig .tc := ⟨.hbm, 115, rfl⟩
abbrev main_v41 : Ref sig .tc := ⟨.hbm, 116, rfl⟩
abbrev main_cst_14 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_cst_15 : Ref sig .tc := ⟨.hbm, 121, rfl⟩
abbrev main_v45 : Ref sig .tc := ⟨.hbm, 122, rfl⟩
abbrev main_v46 : Ref sig .tc := ⟨.hbm, 123, rfl⟩
abbrev main_cst_16 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_call2_c : Ref sig .tc := ⟨.hbm, 129, rfl⟩
abbrev main_call2_v0 : Ref sig .tc := ⟨.hbm, 130, rfl⟩
abbrev main_call2_v1 : Ref sig .tc := ⟨.hbm, 131, rfl⟩
abbrev main_call2_c_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_c_1 : Ref sig .tc := ⟨.hbm, 137, rfl⟩
abbrev main_call2_c_2 : Ref sig .tc := ⟨.hbm, 138, rfl⟩
abbrev main_call2_v6 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_c_3 : Ref sig .tc := ⟨.hbm, 145, rfl⟩
abbrev main_call2_v12 : Ref sig .tc := ⟨.hbm, 146, rfl⟩
abbrev main_call2_v13 : Ref sig .tc := ⟨.hbm, 147, rfl⟩
abbrev main_call2_v14 : Ref sig .tc := ⟨.hbm, 148, rfl⟩
abbrev main_call2_cst : Ref sig .tc := ⟨.hbm, 149, rfl⟩
abbrev main_call2_v15 : Ref sig .tc := ⟨.hbm, 150, rfl⟩
abbrev main_v51 : Ref sig .tc := ⟨.hbm, 151, rfl⟩
abbrev main_cst_17 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_call3_c : Ref sig .tc := ⟨.hbm, 159, rfl⟩
abbrev main_call3_v0 : Ref sig .tc := ⟨.hbm, 160, rfl⟩
abbrev main_call3_v1 : Ref sig .tc := ⟨.hbm, 161, rfl⟩
abbrev main_call3_c_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_c_1 : Ref sig .tc := ⟨.hbm, 167, rfl⟩
abbrev main_call3_c_2 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_c_3 : Ref sig .tc := ⟨.hbm, 175, rfl⟩
abbrev main_call3_v12 : Ref sig .tc := ⟨.hbm, 176, rfl⟩
abbrev main_call3_v13 : Ref sig .tc := ⟨.hbm, 177, rfl⟩
abbrev main_call3_v14 : Ref sig .tc := ⟨.hbm, 178, rfl⟩
abbrev main_call3_cst : Ref sig .tc := ⟨.hbm, 179, rfl⟩
abbrev main_call3_v15 : Ref sig .tc := ⟨.hbm, 180, rfl⟩
abbrev main_v58 : Ref sig .tc := ⟨.hbm, 181, rfl⟩
abbrev main_cst_18 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_cst_19 : Ref sig .tc := ⟨.hbm, 188, rfl⟩
abbrev main_v64 : Ref sig .tc := ⟨.hbm, 189, rfl⟩
abbrev main_cst_20 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩
abbrev main_cst_21 : Ref sig .tc := ⟨.hbm, 194, rfl⟩
abbrev main_v68 : Ref sig .tc := ⟨.hbm, 195, rfl⟩
abbrev main_v69 : Ref sig .tc := ⟨.hbm, 196, rfl⟩
abbrev main_cst_22 : Ref sig .tc := ⟨.hbm, 197, rfl⟩
abbrev main_v70 : Ref sig .tc := ⟨.hbm, 198, rfl⟩
abbrev main_v71 : Ref sig .tc := ⟨.hbm, 199, rfl⟩
abbrev main_v72 : Ref sig .tc := ⟨.hbm, 200, rfl⟩
abbrev main_cst_23 : Ref sig .tc := ⟨.hbm, 201, rfl⟩
abbrev main_v73 : Ref sig .tc := ⟨.hbm, 202, rfl⟩
abbrev main_cst_24 : Ref sig .tc := ⟨.hbm, 203, rfl⟩
abbrev main_v74 : Ref sig .tc := ⟨.hbm, 204, rfl⟩
abbrev main_v75 : Ref sig .tc := ⟨.hbm, 205, rfl⟩
abbrev main_v76 : Ref sig .tc := ⟨.hbm, 206, rfl⟩
abbrev main_cst_25 : Ref sig .tc := ⟨.hbm, 207, rfl⟩
abbrev main_v77 : Ref sig .tc := ⟨.hbm, 208, rfl⟩
abbrev main_v78 : Ref sig .tc := ⟨.hbm, 209, rfl⟩
abbrev main_cst_26 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_call4_c : Ref sig .tc := ⟨.hbm, 215, rfl⟩
abbrev main_call4_v0 : Ref sig .tc := ⟨.hbm, 216, rfl⟩
abbrev main_call4_v1 : Ref sig .tc := ⟨.hbm, 217, rfl⟩
abbrev main_call4_c_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_c_1 : Ref sig .tc := ⟨.hbm, 223, rfl⟩
abbrev main_call4_c_2 : Ref sig .tc := ⟨.hbm, 224, rfl⟩
abbrev main_call4_v6 : Ref sig .tc := ⟨.hbm, 225, rfl⟩
abbrev main_call4_v7 : Ref sig .tc := ⟨.hbm, 226, rfl⟩
abbrev main_call4_v8 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_c_3 : Ref sig .tc := ⟨.hbm, 231, rfl⟩
abbrev main_call4_v12 : Ref sig .tc := ⟨.hbm, 232, rfl⟩
abbrev main_call4_v13 : Ref sig .tc := ⟨.hbm, 233, rfl⟩
abbrev main_call4_v14 : Ref sig .tc := ⟨.hbm, 234, rfl⟩
abbrev main_call4_cst : Ref sig .tc := ⟨.hbm, 235, rfl⟩
abbrev main_call4_v15 : Ref sig .tc := ⟨.hbm, 236, rfl⟩
abbrev main_v83 : Ref sig .tc := ⟨.hbm, 237, rfl⟩
abbrev main_cst_27 : Ref sig .tc := ⟨.hbm, 238, rfl⟩
abbrev main_v84 : Ref sig .tc := ⟨.hbm, 239, rfl⟩
abbrev main_v85 : Ref sig .tc := ⟨.hbm, 240, rfl⟩
abbrev main_v86 : Ref sig .tc := ⟨.hbm, 241, rfl⟩
abbrev main_v87 : Ref sig .tc := ⟨.hbm, 242, rfl⟩
abbrev main_v88 : Ref sig .tc := ⟨.hbm, 243, rfl⟩
abbrev main_v89 : Ref sig .tc := ⟨.hbm, 244, rfl⟩
abbrev main_call5_c : Ref sig .tc := ⟨.hbm, 245, rfl⟩
abbrev main_call5_v0 : Ref sig .tc := ⟨.hbm, 246, rfl⟩
abbrev main_call5_v1 : Ref sig .tc := ⟨.hbm, 247, rfl⟩
abbrev main_call5_c_0 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_c_1 : Ref sig .tc := ⟨.hbm, 253, rfl⟩
abbrev main_call5_c_2 : Ref sig .tc := ⟨.hbm, 254, rfl⟩
abbrev main_call5_v6 : Ref sig .tc := ⟨.hbm, 255, rfl⟩
abbrev main_call5_v7 : Ref sig .tc := ⟨.hbm, 256, rfl⟩
abbrev main_call5_v8 : Ref sig .tc := ⟨.hbm, 257, rfl⟩
abbrev main_call5_v9 : Ref sig .tc := ⟨.hbm, 258, rfl⟩
abbrev main_call5_v10 : Ref sig .tc := ⟨.hbm, 259, rfl⟩
abbrev main_call5_v11 : Ref sig .tc := ⟨.hbm, 260, rfl⟩
abbrev main_call5_c_3 : Ref sig .tc := ⟨.hbm, 261, rfl⟩
abbrev main_call5_v12 : Ref sig .tc := ⟨.hbm, 262, rfl⟩
abbrev main_call5_v13 : Ref sig .tc := ⟨.hbm, 263, rfl⟩
abbrev main_call5_v14 : Ref sig .tc := ⟨.hbm, 264, rfl⟩
abbrev main_call5_cst : Ref sig .tc := ⟨.hbm, 265, rfl⟩
abbrev main_call5_v15 : Ref sig .tc := ⟨.hbm, 266, rfl⟩
abbrev main_v90 : Ref sig .tc := ⟨.hbm, 267, rfl⟩
abbrev main_cst_28 : Ref sig .tc := ⟨.hbm, 268, rfl⟩
abbrev main_v91 : Ref sig .tc := ⟨.hbm, 269, rfl⟩
abbrev main_v92 : Ref sig .tc := ⟨.hbm, 270, rfl⟩
abbrev main_v93 : Ref sig .tc := ⟨.hbm, 271, rfl⟩
abbrev main_v94 : Ref sig .tc := ⟨.hbm, 272, rfl⟩
abbrev main_v95 : Ref sig .tc := ⟨.hbm, 273, rfl⟩
abbrev main_cst_29 : Ref sig .tc := ⟨.hbm, 274, rfl⟩
abbrev main_v96 : Ref sig .tc := ⟨.hbm, 275, rfl⟩
abbrev main_cst_30 : Ref sig .tc := ⟨.hbm, 276, rfl⟩
abbrev main_v97 : Ref sig .tc := ⟨.hbm, 277, rfl⟩
abbrev main_v98 : Ref sig .tc := ⟨.hbm, 278, rfl⟩
abbrev main_v99 : Ref sig .tc := ⟨.hbm, 279, rfl⟩
abbrev main_cst_31 : Ref sig .tc := ⟨.hbm, 280, rfl⟩
abbrev main_v100 : Ref sig .tc := ⟨.hbm, 281, rfl⟩
abbrev main_v101 : Ref sig .tc := ⟨.hbm, 282, rfl⟩
abbrev main_cst_32 : Ref sig .tc := ⟨.hbm, 283, rfl⟩
abbrev main_v102 : Ref sig .tc := ⟨.hbm, 284, rfl⟩
abbrev main_v103 : Ref sig .tc := ⟨.hbm, 285, rfl⟩
abbrev main_v104 : Ref sig .tc := ⟨.hbm, 286, rfl⟩
abbrev main_cst_33 : Ref sig .tc := ⟨.hbm, 287, rfl⟩
abbrev main_v105 : Ref sig .tc := ⟨.hbm, 288, rfl⟩
abbrev main_cst_34 : Ref sig .tc := ⟨.hbm, 289, rfl⟩
abbrev main_v106 : Ref sig .tc := ⟨.hbm, 290, rfl⟩
abbrev main_v107 : Ref sig .tc := ⟨.hbm, 291, rfl⟩
abbrev main_v108 : Ref sig .tc := ⟨.hbm, 292, rfl⟩
abbrev main_cst_35 : Ref sig .tc := ⟨.hbm, 293, rfl⟩
abbrev main_v109 : Ref sig .tc := ⟨.hbm, 294, rfl⟩
abbrev main_v110 : Ref sig .tc := ⟨.hbm, 295, rfl⟩
abbrev main_cst_36 : Ref sig .tc := ⟨.hbm, 296, rfl⟩
abbrev main_v111 : Ref sig .tc := ⟨.hbm, 297, rfl⟩
abbrev main_v112 : Ref sig .tc := ⟨.hbm, 298, rfl⟩
abbrev main_v113 : Ref sig .tc := ⟨.hbm, 299, rfl⟩
abbrev main_v114 : Ref sig .tc := ⟨.hbm, 300, rfl⟩
abbrev main_call6_c : Ref sig .tc := ⟨.hbm, 301, rfl⟩
abbrev main_call6_v0 : Ref sig .tc := ⟨.hbm, 302, rfl⟩
abbrev main_call6_v1 : Ref sig .tc := ⟨.hbm, 303, rfl⟩
abbrev main_call6_c_0 : Ref sig .tc := ⟨.hbm, 304, rfl⟩
abbrev main_call6_v2 : Ref sig .tc := ⟨.hbm, 305, rfl⟩
abbrev main_call6_v3 : Ref sig .tc := ⟨.hbm, 306, rfl⟩
abbrev main_call6_v4 : Ref sig .tc := ⟨.hbm, 307, rfl⟩
abbrev main_call6_v5 : Ref sig .tc := ⟨.hbm, 308, rfl⟩
abbrev main_call6_c_1 : Ref sig .tc := ⟨.hbm, 309, rfl⟩
abbrev main_call6_c_2 : Ref sig .tc := ⟨.hbm, 310, rfl⟩
abbrev main_call6_v6 : Ref sig .tc := ⟨.hbm, 311, rfl⟩
abbrev main_call6_v7 : Ref sig .tc := ⟨.hbm, 312, rfl⟩
abbrev main_call6_v8 : Ref sig .tc := ⟨.hbm, 313, rfl⟩
abbrev main_call6_v9 : Ref sig .tc := ⟨.hbm, 314, rfl⟩
abbrev main_call6_v10 : Ref sig .tc := ⟨.hbm, 315, rfl⟩
abbrev main_call6_v11 : Ref sig .tc := ⟨.hbm, 316, rfl⟩
abbrev main_call6_c_3 : Ref sig .tc := ⟨.hbm, 317, rfl⟩
abbrev main_call6_v12 : Ref sig .tc := ⟨.hbm, 318, rfl⟩
abbrev main_call6_v13 : Ref sig .tc := ⟨.hbm, 319, rfl⟩
abbrev main_call6_v14 : Ref sig .tc := ⟨.hbm, 320, rfl⟩
abbrev main_call6_cst : Ref sig .tc := ⟨.hbm, 321, rfl⟩
abbrev main_call6_v15 : Ref sig .tc := ⟨.hbm, 322, rfl⟩
abbrev main_v115 : Ref sig .tc := ⟨.hbm, 323, rfl⟩
abbrev main_cst_37 : Ref sig .tc := ⟨.hbm, 324, rfl⟩
abbrev main_v116 : Ref sig .tc := ⟨.hbm, 325, rfl⟩
abbrev main_v117 : Ref sig .tc := ⟨.hbm, 326, rfl⟩
abbrev main_v118 : Ref sig .tc := ⟨.hbm, 327, rfl⟩
abbrev main_v119 : Ref sig .tc := ⟨.hbm, 328, rfl⟩
abbrev main_v120 : Ref sig .tc := ⟨.hbm, 329, rfl⟩
abbrev main_v121 : Ref sig .tc := ⟨.hbm, 330, rfl⟩
abbrev main_call7_c : Ref sig .tc := ⟨.hbm, 331, rfl⟩
abbrev main_call7_v0 : Ref sig .tc := ⟨.hbm, 332, rfl⟩
abbrev main_call7_v1 : Ref sig .tc := ⟨.hbm, 333, rfl⟩
abbrev main_call7_c_0 : Ref sig .tc := ⟨.hbm, 334, rfl⟩
abbrev main_call7_v2 : Ref sig .tc := ⟨.hbm, 335, rfl⟩
abbrev main_call7_v3 : Ref sig .tc := ⟨.hbm, 336, rfl⟩
abbrev main_call7_v4 : Ref sig .tc := ⟨.hbm, 337, rfl⟩
abbrev main_call7_v5 : Ref sig .tc := ⟨.hbm, 338, rfl⟩
abbrev main_call7_c_1 : Ref sig .tc := ⟨.hbm, 339, rfl⟩
abbrev main_call7_c_2 : Ref sig .tc := ⟨.hbm, 340, rfl⟩
abbrev main_call7_v6 : Ref sig .tc := ⟨.hbm, 341, rfl⟩
abbrev main_call7_v7 : Ref sig .tc := ⟨.hbm, 342, rfl⟩
abbrev main_call7_v8 : Ref sig .tc := ⟨.hbm, 343, rfl⟩
abbrev main_call7_v9 : Ref sig .tc := ⟨.hbm, 344, rfl⟩
abbrev main_call7_v10 : Ref sig .tc := ⟨.hbm, 345, rfl⟩
abbrev main_call7_v11 : Ref sig .tc := ⟨.hbm, 346, rfl⟩
abbrev main_call7_c_3 : Ref sig .tc := ⟨.hbm, 347, rfl⟩
abbrev main_call7_v12 : Ref sig .tc := ⟨.hbm, 348, rfl⟩
abbrev main_call7_v13 : Ref sig .tc := ⟨.hbm, 349, rfl⟩
abbrev main_call7_v14 : Ref sig .tc := ⟨.hbm, 350, rfl⟩
abbrev main_call7_cst : Ref sig .tc := ⟨.hbm, 351, rfl⟩
abbrev main_call7_v15 : Ref sig .tc := ⟨.hbm, 352, rfl⟩
abbrev main_v122 : Ref sig .tc := ⟨.hbm, 353, rfl⟩
abbrev main_cst_38 : Ref sig .tc := ⟨.hbm, 354, rfl⟩
abbrev main_v123 : Ref sig .tc := ⟨.hbm, 355, rfl⟩
abbrev main_v124 : Ref sig .tc := ⟨.hbm, 356, rfl⟩
abbrev main_v125 : Ref sig .tc := ⟨.hbm, 357, rfl⟩
abbrev main_v126 : Ref sig .tc := ⟨.hbm, 358, rfl⟩
abbrev main_v127 : Ref sig .tc := ⟨.hbm, 359, rfl⟩
abbrev main_v128 : Ref sig .tc := ⟨.hbm, 360, rfl⟩
abbrev main_cst_39 : Ref sig .tc := ⟨.hbm, 361, rfl⟩
abbrev main_v129 : Ref sig .tc := ⟨.hbm, 362, rfl⟩
abbrev main_cst_40 : Ref sig .tc := ⟨.hbm, 363, rfl⟩
abbrev main_v130 : Ref sig .tc := ⟨.hbm, 364, rfl⟩
abbrev main_v131 : Ref sig .tc := ⟨.hbm, 365, rfl⟩
abbrev main_cst_41 : Ref sig .tc := ⟨.hbm, 366, rfl⟩
abbrev main_v132 : Ref sig .tc := ⟨.hbm, 367, rfl⟩
abbrev main_cst_42 : Ref sig .tc := ⟨.hbm, 368, rfl⟩
abbrev main_v133 : Ref sig .tc := ⟨.hbm, 369, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg1_1 : Ref sig .tc := ⟨.vmem, 79, rfl⟩
abbrev cc11_stg2_0 : Ref sig .tc := ⟨.vmem, 80, rfl⟩
abbrev cc11_stg3_0 : Ref sig .tc := ⟨.vmem, 81, rfl⟩
abbrev cc11_stg4_0 : Ref sig .tc := ⟨.vmem, 82, rfl⟩
abbrev cc11_stg4_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg1_1 : Ref sig .tc := ⟨.vmem, 87, rfl⟩
abbrev cc12_stg2_0 : Ref sig .tc := ⟨.vmem, 88, rfl⟩
abbrev cc12_stg2_1 : Ref sig .tc := ⟨.vmem, 89, rfl⟩
abbrev cc13_stg0_0 : Ref sig .tc := ⟨.vmem, 90, rfl⟩
abbrev cc13_stg0_1 : Ref sig .tc := ⟨.vmem, 91, rfl⟩
abbrev cc13_stg1_0 : Ref sig .tc := ⟨.vmem, 92, rfl⟩
abbrev cc13_stg1_1 : Ref sig .tc := ⟨.vmem, 93, rfl⟩
abbrev cc13_stg2_0 : Ref sig .tc := ⟨.vmem, 94, rfl⟩
abbrev cc13_stg3_0 : Ref sig .tc := ⟨.vmem, 95, rfl⟩
abbrev cc13_stg4_0 : Ref sig .tc := ⟨.vmem, 96, rfl⟩
abbrev cc13_stg4_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg1_1 : Ref sig .tc := ⟨.vmem, 101, rfl⟩
abbrev cc14_stg2_0 : Ref sig .tc := ⟨.vmem, 102, rfl⟩
abbrev cc14_stg2_1 : Ref sig .tc := ⟨.vmem, 103, rfl⟩
abbrev cc15_stg0_0 : Ref sig .tc := ⟨.vmem, 104, rfl⟩
abbrev cc15_stg0_1 : Ref sig .tc := ⟨.vmem, 105, rfl⟩
abbrev cc15_stg1_0 : Ref sig .tc := ⟨.vmem, 106, rfl⟩
abbrev cc15_stg1_1 : Ref sig .tc := ⟨.vmem, 107, rfl⟩
abbrev cc15_stg2_0 : Ref sig .tc := ⟨.vmem, 108, rfl⟩
abbrev cc15_stg3_0 : Ref sig .tc := ⟨.vmem, 109, rfl⟩
abbrev cc15_stg4_0 : Ref sig .tc := ⟨.vmem, 110, rfl⟩
abbrev cc15_stg4_1 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75
abbrev cc11_sem0_0 : DmaSem sig := 76
abbrev cc11_sem0_1 : DmaSem sig := 77
abbrev cc11_sem1_0 : DmaSem sig := 78
abbrev cc11_sem1_1 : DmaSem sig := 79
abbrev cc11_sem2_0 : DmaSem sig := 80
abbrev cc11_sem3_0 : DmaSem sig := 81
abbrev cc11_sem4_0 : DmaSem sig := 82
abbrev cc11_sem4_1 : DmaSem sig := 83
abbrev cc12_sem0_0 : DmaSem sig := 84
abbrev cc12_sem0_1 : DmaSem sig := 85
abbrev cc12_sem1_0 : DmaSem sig := 86
abbrev cc12_sem1_1 : DmaSem sig := 87
abbrev cc12_sem2_0 : DmaSem sig := 88
abbrev cc12_sem2_1 : DmaSem sig := 89
abbrev cc13_sem0_0 : DmaSem sig := 90
abbrev cc13_sem0_1 : DmaSem sig := 91
abbrev cc13_sem1_0 : DmaSem sig := 92
abbrev cc13_sem1_1 : DmaSem sig := 93
abbrev cc13_sem2_0 : DmaSem sig := 94
abbrev cc13_sem3_0 : DmaSem sig := 95
abbrev cc13_sem4_0 : DmaSem sig := 96
abbrev cc13_sem4_1 : DmaSem sig := 97
abbrev cc14_sem0_0 : DmaSem sig := 98
abbrev cc14_sem0_1 : DmaSem sig := 99
abbrev cc14_sem1_0 : DmaSem sig := 100
abbrev cc14_sem1_1 : DmaSem sig := 101
abbrev cc14_sem2_0 : DmaSem sig := 102
abbrev cc14_sem2_1 : DmaSem sig := 103
abbrev cc15_sem0_0 : DmaSem sig := 104
abbrev cc15_sem0_1 : DmaSem sig := 105
abbrev cc15_sem1_0 : DmaSem sig := 106
abbrev cc15_sem1_1 : DmaSem sig := 107
abbrev cc15_sem2_0 : DmaSem sig := 108
abbrev cc15_sem3_0 : DmaSem sig := 109
abbrev cc15_sem4_0 : DmaSem sig := 110
abbrev cc15_sem4_1 : DmaSem sig := 111

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x1 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S5000x128 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S50000x128_S50000x128_S50000x128_S50000x128_S200000x128_d0 : Shape.Concatenates [S50000x128, S50000x128, S50000x128, S50000x128] S200000x128 0
  reducesTo_S200000x128_S128_d0 : S200000x128.ReducesTo [0] S128
  bcast_S_S128 : S_.BroadcastsInDim S128 (![] : Fin 0 → Fin S128.rank)
  reducesTo_S128_S_d0 : S128.ReducesTo [0] S_
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .f32 = 32 ∨ (Rect.block (s := S50000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S50000x128.size a
  hwx9_4 : ∀ i : grid9.Coords, EltTy.bits .f32 = 32 ∨ (Rect.block (s := S50000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S50000x1.size a
  hwx10_1 : ∀ i : grid10.Coords, EltTy.bits .f32 = 32 ∨ (Rect.block (s := S50000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S50000x1.size a
  hwx11_1 : ∀ i : grid11.Coords, EltTy.bits .f32 = 32 ∨ (Rect.block (s := S50000x1) S5000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x128.size a ≤ S50000x128.size a
  hwx11_4 : ∀ i : grid11.Coords, EltTy.bits .f32 = 32 ∨ (Rect.block (s := S50000x128) S5000x128.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x1.size a ≤ S50000x1.size a
  hwx12_1 : ∀ i : grid12.Coords, EltTy.bits .f32 = 32 ∨ (Rect.block (s := S50000x1) S5000x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S50000x128.size a
  hwx12_2 : ∀ i : grid12.Coords, EltTy.bits .f32 = 32 ∨ (Rect.block (s := S50000x128) S5000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S50000x1.size a
  hwx13_1 : ∀ i : grid13.Coords, EltTy.bits .f32 = 32 ∨ (Rect.block (s := S50000x1) S5000x1.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S50000x128.size a
  hwx13_4 : ∀ i : grid13.Coords, EltTy.bits .f32 = 32 ∨ (Rect.block (s := S50000x128) S5000x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x1.size a ≤ S50000x1.size a
  hwx14_1 : ∀ i : grid14.Coords, EltTy.bits .f32 = 32 ∨ (Rect.block (s := S50000x1) S5000x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x128.size a ≤ S50000x128.size a
  hwx14_2 : ∀ i : grid14.Coords, EltTy.bits .f32 = 32 ∨ (Rect.block (s := S50000x128) S5000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x1.size a ≤ S50000x1.size a
  hwx15_1 : ∀ i : grid15.Coords, EltTy.bits .f32 = 32 ∨ (Rect.block (s := S50000x1) S5000x1.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128x128.size a ≤ S128x128.size a
  hwx15_2 : ∀ i : grid15.Coords, EltTy.bits .f32 = 32 ∨ (Rect.block (s := S128x128) S128x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S5000x128.size a ≤ S50000x128.size a
  hwx15_4 : ∀ i : grid15.Coords, EltTy.bits .f32 = 32 ∨ (Rect.block (s := S50000x128) S5000x128.size (cc15_transform_4 i) (hinb15_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg3) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v56) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v40) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v61) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v49) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg14) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v62) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v63) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_arg6) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v72) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v82) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v86) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v81) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg12) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v87) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v88) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v88) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v72) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v89) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v93) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v81) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg14) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v94) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v95) S5000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_arg9) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v104) S5000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v114) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v118) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v113) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_arg12) S128x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v119) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v120) S5000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v120) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v104) S5000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v121) S5000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v125) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v113) S5000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_arg14) S128x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v126) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v127) S5000x128.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S200000x128 : Shape := ⟨2, ![200000, 128]⟩

abbrev nBuf : Space → Nat
  | .hbm => 410
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000x128, .f32⟩
  | 4 => ⟨S600000, .i32⟩
  | 5 => ⟨S600000, .i32⟩
  | 6 => ⟨S50000x128, .f32⟩
  | 7 => ⟨S600000, .i32⟩
  | 8 => ⟨S600000, .i32⟩
  | 9 => ⟨S50000x128, .f32⟩
  | 10 => ⟨S600000, .i32⟩
  | 11 => ⟨S600000, .i32⟩
  | 12 => ⟨S128x128, .f32⟩
  | 13 => ⟨S128, .f32⟩
  | 14 => ⟨S128x128, .f32⟩
  | 15 => ⟨S128, .f32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S600000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S_, .f32⟩
  | 65 => ⟨S600000, .f32⟩
  | 66 => ⟨S_, .f32⟩
  | 67 => ⟨S50000, .f32⟩
  | 68 => ⟨S600000x1, .i32⟩
  | 69 => ⟨S50000, .f32⟩
  | 70 => ⟨S_, .f32⟩
  | 71 => ⟨S50000, .f32⟩
  | 72 => ⟨S50000, .f32⟩
  | 73 => ⟨S_, .f32⟩
  | 74 => ⟨S50000, .f32⟩
  | 75 => ⟨S600000x1, .i32⟩
  | 76 => ⟨S50000, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .f32⟩
  | 113 => ⟨S600000, .f32⟩
  | 114 => ⟨S_, .f32⟩
  | 115 => ⟨S50000, .f32⟩
  | 116 => ⟨S600000x1, .i32⟩
  | 117 => ⟨S50000, .f32⟩
  | 118 => ⟨S_, .f32⟩
  | 119 => ⟨S50000, .f32⟩
  | 120 => ⟨S50000, .f32⟩
  | 121 => ⟨S_, .f32⟩
  | 122 => ⟨S50000, .f32⟩
  | 123 => ⟨S600000x1, .i32⟩
  | 124 => ⟨S50000, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S_, .f32⟩
  | 16 => ⟨S50000x128, .f32⟩
  | 17 => ⟨S600000x1, .i32⟩
  | 18 => ⟨S50000x128, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S_, .f32⟩
  | 33 => ⟨S600000, .f32⟩
  | 34 => ⟨S_, .f32⟩
  | 35 => ⟨S50000, .f32⟩
  | 36 => ⟨S600000x1, .i32⟩
  | 37 => ⟨S50000, .f32⟩
  | 38 => ⟨S_, .f32⟩
  | 39 => ⟨S50000, .f32⟩
  | 40 => ⟨S50000, .f32⟩
  | 41 => ⟨S_, .f32⟩
  | 42 => ⟨S50000, .f32⟩
  | 43 => ⟨S600000x1, .i32⟩
  | 44 => ⟨S50000, .f32⟩
  | 45 => ⟨S_, .f32⟩
  | 46 => ⟨S50000, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x128, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S_, .f32⟩
  | 68 => ⟨S50000, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S600000, .f32⟩
  | 82 => ⟨S_, .f32⟩
  | 83 => ⟨S50000, .f32⟩
  | 84 => ⟨S600000x1, .i32⟩
  | 85 => ⟨S50000, .f32⟩
  | 86 => ⟨S_, .f32⟩
  | 87 => ⟨S50000, .f32⟩
  | 88 => ⟨S50000, .f32⟩
  | 89 => ⟨S_, .f32⟩
  | 90 => ⟨S50000, .f32⟩
  | 91 => ⟨S600000x1, .i32⟩
  | 92 => ⟨S50000, .f32⟩
  | 93 => ⟨S_, .f32⟩
  | 94 => ⟨S50000, .f32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S_, .f32⟩
  | 116 => ⟨S50000, .f32⟩
  | 117 => ⟨S50000, .f32⟩
  | 118 => ⟨S50000x1, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S600000, .f32⟩
  | 2 => ⟨S_, .f32⟩
  | 3 => ⟨S50000, .f32⟩
  | 4 => ⟨S600000x1, .i32⟩
  | 5 => ⟨S50000, .f32⟩
  | 6 => ⟨S_, .f32⟩
  | 7 => ⟨S50000, .f32⟩
  | 8 => ⟨S50000, .f32⟩
  | 9 => ⟨S_, .f32⟩
  | 10 => ⟨S50000, .f32⟩
  | 11 => ⟨S600000x1, .i32⟩
  | 12 => ⟨S50000, .f32⟩
  | 13 => ⟨S_, .f32⟩
  | 14 => ⟨S50000, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S600000, .f32⟩
  | 50 => ⟨S_, .f32⟩
  | 51 => ⟨S50000, .f32⟩
  | 52 => ⟨S600000x1, .i32⟩
  | 53 => ⟨S50000, .f32⟩
  | 54 => ⟨S_, .f32⟩
  | 55 => ⟨S50000, .f32⟩
  | 56 => ⟨S50000, .f32⟩
  | 57 => ⟨S_, .f32⟩
  | 58 => ⟨S50000, .f32⟩
  | 59 => ⟨S600000x1, .i32⟩
  | 60 => ⟨S50000, .f32⟩
  | 61 => ⟨S_, .f32⟩
  | 62 => ⟨S50000, .f32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S_, .f32⟩
  | 84 => ⟨S50000, .f32⟩
  | 85 => ⟨S50000, .f32⟩
  | 86 => ⟨S50000x1, .f32⟩
  | 87 => ⟨S50000x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .f32⟩
  | 97 => ⟨S600000, .f32⟩
  | 98 => ⟨S_, .f32⟩
  | 99 => ⟨S50000, .f32⟩
  | 100 => ⟨S600000x1, .i32⟩
  | 101 => ⟨S50000, .f32⟩
  | 102 => ⟨S_, .f32⟩
  | 103 => ⟨S50000, .f32⟩
  | 104 => ⟨S50000, .f32⟩
  | 105 => ⟨S_, .f32⟩
  | 106 => ⟨S50000, .f32⟩
  | 107 => ⟨S600000x1, .i32⟩
  | 108 => ⟨S50000, .f32⟩
  | 109 => ⟨S_, .f32⟩
  | 110 => ⟨S50000, .f32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x128, .f32⟩
  | 117 => ⟨S50000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S_, .f32⟩
  | _ => ⟨S50000x128, .f32⟩

abbrev hbmTy0_3 (i : Nat) : BufTy := match i % 128 with
  | 0 => ⟨S50000x128, .f32⟩
  | 1 => ⟨S600000x1, .i32⟩
  | 2 => ⟨S50000x128, .f32⟩
  | 3 => ⟨S_, .f32⟩
  | 4 => ⟨S50000, .f32⟩
  | 5 => ⟨S50000, .f32⟩
  | 6 => ⟨S50000x1, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S200000x128, .f32⟩
  | 17 => ⟨S_, .f32⟩
  | 18 => ⟨S128, .f32⟩
  | 19 => ⟨S_, .f32⟩
  | 20 => ⟨S128, .f32⟩
  | 21 => ⟨S128, .f32⟩
  | 22 => ⟨S_, .f32⟩
  | 23 => ⟨S_, .f32⟩
  | 24 => ⟨S_, .f32⟩
  | 25 => ⟨S_, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call0_cst : Ref sig .tc := ⟨.hbm, 61, rfl⟩
abbrev main_call0_v0 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_12 : Ref sig .tc := ⟨.hbm, 77, rfl⟩
abbrev main_v45 : Ref sig .tc := ⟨.hbm, 78, rfl⟩
abbrev main_v46 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_14 : Ref sig .tc := ⟨.hbm, 86, rfl⟩
abbrev main_v52 : Ref sig .tc := ⟨.hbm, 87, rfl⟩
abbrev main_v53 : Ref sig .tc := ⟨.hbm, 88, rfl⟩
abbrev main_c_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_17 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_call1_cst : Ref sig .tc := ⟨.hbm, 109, rfl⟩
abbrev main_call1_v0 : Ref sig .tc := ⟨.hbm, 110, rfl⟩
abbrev main_v71 : Ref sig .tc := ⟨.hbm, 111, rfl⟩
abbrev main_cst_18 : Ref sig .tc := ⟨.hbm, 112, rfl⟩
abbrev main_v72 : Ref sig .tc := ⟨.hbm, 113, rfl⟩
abbrev main_cst_19 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_20 : Ref sig .tc := ⟨.hbm, 118, rfl⟩
abbrev main_v76 : Ref sig .tc := ⟨.hbm, 119, rfl⟩
abbrev main_v77 : Ref sig .tc := ⟨.hbm, 120, rfl⟩
abbrev main_cst_21 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_22 : Ref sig .tc := ⟨.hbm, 125, rfl⟩
abbrev main_v81 : Ref sig .tc := ⟨.hbm, 126, rfl⟩
abbrev main_v82 : Ref sig .tc := ⟨.hbm, 127, rfl⟩
abbrev main_cst_23 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_24 : Ref sig .tc := ⟨.hbm, 134, rfl⟩
abbrev main_v88 : Ref sig .tc := ⟨.hbm, 135, rfl⟩
abbrev main_v89 : Ref sig .tc := ⟨.hbm, 136, rfl⟩
abbrev main_c_25 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_26 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_27 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_call2_cst : Ref sig .tc := ⟨.hbm, 157, rfl⟩
abbrev main_call2_v0 : Ref sig .tc := ⟨.hbm, 158, rfl⟩
abbrev main_v107 : Ref sig .tc := ⟨.hbm, 159, rfl⟩
abbrev main_cst_28 : Ref sig .tc := ⟨.hbm, 160, rfl⟩
abbrev main_v108 : Ref sig .tc := ⟨.hbm, 161, rfl⟩
abbrev main_cst_29 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_30 : Ref sig .tc := ⟨.hbm, 166, rfl⟩
abbrev main_v112 : Ref sig .tc := ⟨.hbm, 167, rfl⟩
abbrev main_v113 : Ref sig .tc := ⟨.hbm, 168, rfl⟩
abbrev main_cst_31 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_32 : Ref sig .tc := ⟨.hbm, 173, rfl⟩
abbrev main_v117 : Ref sig .tc := ⟨.hbm, 174, rfl⟩
abbrev main_v118 : Ref sig .tc := ⟨.hbm, 175, rfl⟩
abbrev main_cst_33 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_c_34 : Ref sig .tc := ⟨.hbm, 182, rfl⟩
abbrev main_v124 : Ref sig .tc := ⟨.hbm, 183, rfl⟩
abbrev main_v125 : Ref sig .tc := ⟨.hbm, 184, rfl⟩
abbrev main_c_35 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_36 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_37 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_call3_cst : Ref sig .tc := ⟨.hbm, 205, rfl⟩
abbrev main_call3_v0 : Ref sig .tc := ⟨.hbm, 206, rfl⟩
abbrev main_v143 : Ref sig .tc := ⟨.hbm, 207, rfl⟩
abbrev main_cst_38 : Ref sig .tc := ⟨.hbm, 208, rfl⟩
abbrev main_v144 : Ref sig .tc := ⟨.hbm, 209, rfl⟩
abbrev main_cst_39 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_cst_40 : Ref sig .tc := ⟨.hbm, 214, rfl⟩
abbrev main_v148 : Ref sig .tc := ⟨.hbm, 215, rfl⟩
abbrev main_v149 : Ref sig .tc := ⟨.hbm, 216, rfl⟩
abbrev main_cst_41 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_42 : Ref sig .tc := ⟨.hbm, 221, rfl⟩
abbrev main_v153 : Ref sig .tc := ⟨.hbm, 222, rfl⟩
abbrev main_v154 : Ref sig .tc := ⟨.hbm, 223, rfl⟩
abbrev main_cst_43 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_c_44 : Ref sig .tc := ⟨.hbm, 230, rfl⟩
abbrev main_v160 : Ref sig .tc := ⟨.hbm, 231, rfl⟩
abbrev main_v161 : Ref sig .tc := ⟨.hbm, 232, rfl⟩
abbrev main_c_45 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_cst_46 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_cst_47 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_call4_cst : Ref sig .tc := ⟨.hbm, 253, rfl⟩
abbrev main_call4_v0 : Ref sig .tc := ⟨.hbm, 254, rfl⟩
abbrev main_v179 : Ref sig .tc := ⟨.hbm, 255, rfl⟩
abbrev main_cst_48 : Ref sig .tc := ⟨.hbm, 256, rfl⟩
abbrev main_v180 : Ref sig .tc := ⟨.hbm, 257, rfl⟩
abbrev main_cst_49 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_cst_50 : Ref sig .tc := ⟨.hbm, 262, rfl⟩
abbrev main_v184 : Ref sig .tc := ⟨.hbm, 263, rfl⟩
abbrev main_v185 : Ref sig .tc := ⟨.hbm, 264, rfl⟩
abbrev main_cst_51 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_cst_52 : Ref sig .tc := ⟨.hbm, 269, rfl⟩
abbrev main_v189 : Ref sig .tc := ⟨.hbm, 270, rfl⟩
abbrev main_v190 : Ref sig .tc := ⟨.hbm, 271, rfl⟩
abbrev main_cst_53 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_c_54 : Ref sig .tc := ⟨.hbm, 278, rfl⟩
abbrev main_v196 : Ref sig .tc := ⟨.hbm, 279, rfl⟩
abbrev main_v197 : Ref sig .tc := ⟨.hbm, 280, rfl⟩
abbrev main_c_55 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_56 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_cst_57 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_call5_cst : Ref sig .tc := ⟨.hbm, 301, rfl⟩
abbrev main_call5_v0 : Ref sig .tc := ⟨.hbm, 302, rfl⟩
abbrev main_v215 : Ref sig .tc := ⟨.hbm, 303, rfl⟩
abbrev main_cst_58 : Ref sig .tc := ⟨.hbm, 304, rfl⟩
abbrev main_v216 : Ref sig .tc := ⟨.hbm, 305, rfl⟩
abbrev main_cst_59 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_cst_60 : Ref sig .tc := ⟨.hbm, 310, rfl⟩
abbrev main_v220 : Ref sig .tc := ⟨.hbm, 311, rfl⟩
abbrev main_v221 : Ref sig .tc := ⟨.hbm, 312, rfl⟩
abbrev main_cst_61 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_cst_62 : Ref sig .tc := ⟨.hbm, 317, rfl⟩
abbrev main_v225 : Ref sig .tc := ⟨.hbm, 318, rfl⟩
abbrev main_v226 : Ref sig .tc := ⟨.hbm, 319, rfl⟩
abbrev main_cst_63 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_c_64 : Ref sig .tc := ⟨.hbm, 326, rfl⟩
abbrev main_v232 : Ref sig .tc := ⟨.hbm, 327, rfl⟩
abbrev main_v233 : Ref sig .tc := ⟨.hbm, 328, rfl⟩
abbrev main_c_65 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_cst_66 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_cst_67 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_call6_cst : Ref sig .tc := ⟨.hbm, 349, rfl⟩
abbrev main_call6_v0 : Ref sig .tc := ⟨.hbm, 350, rfl⟩
abbrev main_v251 : Ref sig .tc := ⟨.hbm, 351, rfl⟩
abbrev main_cst_68 : Ref sig .tc := ⟨.hbm, 352, rfl⟩
abbrev main_v252 : Ref sig .tc := ⟨.hbm, 353, rfl⟩
abbrev main_cst_69 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_cst_70 : Ref sig .tc := ⟨.hbm, 358, rfl⟩
abbrev main_v256 : Ref sig .tc := ⟨.hbm, 359, rfl⟩
abbrev main_v257 : Ref sig .tc := ⟨.hbm, 360, rfl⟩
abbrev main_cst_71 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_cst_72 : Ref sig .tc := ⟨.hbm, 365, rfl⟩
abbrev main_v261 : Ref sig .tc := ⟨.hbm, 366, rfl⟩
abbrev main_v262 : Ref sig .tc := ⟨.hbm, 367, rfl⟩
abbrev main_cst_73 : Ref sig .tc := ⟨.hbm, 368, rfl⟩
abbrev main_v263 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_c_74 : Ref sig .tc := ⟨.hbm, 374, rfl⟩
abbrev main_v268 : Ref sig .tc := ⟨.hbm, 375, rfl⟩
abbrev main_v269 : Ref sig .tc := ⟨.hbm, 376, rfl⟩
abbrev main_c_75 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_cst_76 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_cst_77 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_v282 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_call7_cst : Ref sig .tc := ⟨.hbm, 397, rfl⟩
abbrev main_call7_v0 : Ref sig .tc := ⟨.hbm, 398, rfl⟩
abbrev main_v287 : Ref sig .tc := ⟨.hbm, 399, rfl⟩
abbrev main_v288 : Ref sig .tc := ⟨.hbm, 400, rfl⟩
abbrev main_cst_78 : Ref sig .tc := ⟨.hbm, 401, rfl⟩
abbrev main_v289 : Ref sig .tc := ⟨.hbm, 402, rfl⟩
abbrev main_cst_79 : Ref sig .tc := ⟨.hbm, 403, rfl⟩
abbrev main_v290 : Ref sig .tc := ⟨.hbm, 404, rfl⟩
abbrev main_v291 : Ref sig .tc := ⟨.hbm, 405, rfl⟩
abbrev main_cst_80 : Ref sig .tc := ⟨.hbm, 406, rfl⟩
abbrev main_v292 : Ref sig .tc := ⟨.hbm, 407, rfl⟩
abbrev main_cst_81 : Ref sig .tc := ⟨.hbm, 408, rfl⟩
abbrev main_v293 : Ref sig .tc := ⟨.hbm, 409, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x128_S200000x128_d0 : Shape.Concatenates [S50000x128, S50000x128, S50000x128, S50000x128] S200000x128 0
  reducesTo_S200000x128_S128_d0 : S200000x128.ReducesTo [0] S128
  h_S_ : 0 < S_.numel
  bcast_S_S128 : S_.BroadcastsInDim S128 (![] : Fin 0 → Fin S128.rank)
  reducesTo_S128_S_d0 : S128.ReducesTo [0] S_
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRegions.lean ====
import proofs.«413962_j523986010479_1_alg».proof.Proof.Gen.Kernel.Launch
import Idealize.ShloMosaic.Lib.Pipeline.Frame
import Idealize.ShloMosaic.Lib.Pipeline.Regions

set_option maxRecDepth 2440

noncomputable section

namespace Cert.Kernel.GenP

open Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v18 (outs 2 main_v18 c)

abbrev V3 (c : Dev nD) : Valuation τ sig (Elt F) := StableHlo.after hostOps1 (V2 m outs c)

abbrev V4 (c : Dev nD) : Valuation τ sig (Elt F) := StableHlo.after hostOps1_1 (V3 m outs c)

abbrev V5 (c : Dev nD) : Valuation τ sig (Elt F) := Function.update (V4 m outs c) main_v24 (outs 5 main_v24 c)

abbrev V6 (c : Dev nD) : Valuation τ sig (Elt F) := Function.update (V5 m outs c) main_v25 (outs 6 main_v25 c)

abbrev V7 (c : Dev nD) : Valuation τ sig (Elt F) := StableHlo.after hostOps3 (V6 m outs c)

abbrev V8 (c : Dev nD) : Valuation τ sig (Elt F) := StableHlo.after hostOps3_1 (V7 m outs c)

abbrev V9 (c : Dev nD) : Valuation τ sig (Elt F) := Function.update (V8 m outs c) main_v31 (outs 9 main_v31 c)

abbrev V10 (c : Dev nD) : Valuation τ sig (Elt F) := StableHlo.after hostOps4 (V9 m outs c)

abbrev V11 (c : Dev nD) : Valuation τ sig (Elt F) := Function.update (V10 m outs c) main_v50 (outs 11 main_v50 c)

abbrev V12 (c : Dev nD) : Valuation τ sig (Elt F) := StableHlo.after hostOps5 (V11 m outs c)

abbrev V13 (c : Dev nD) : Valuation τ sig (Elt F) := StableHlo.after hostOps5_1 (V12 m outs c)

abbrev V14 (c : Dev nD) : Valuation τ sig (Elt F) := Function.update (V13 m outs c) main_v56 (outs 14 main_v56 c)

abbrev V15 (c : Dev nD) : Valuation τ sig (Elt F) := Function.update (V14 m outs c) main_v57 (outs 15 main_v57 c)

abbrev V16 (c : Dev nD) : Valuation τ sig (Elt F) := StableHlo.after hostOps7 (V15 m outs c)

abbrev V17 (c : Dev nD) : Valuation τ sig (Elt F) := StableHlo.after hostOps7_1 (V16 m outs c)

abbrev V18 (c : Dev nD) : Valuation τ sig (Elt F) := Function.update (V17 m outs c) main_v63 (outs 18 main_v63 c)

abbrev V19 (c : Dev nD) : Valuation τ sig (Elt F) := StableHlo.after hostOps8 (V18 m outs c)

abbrev V20 (c : Dev nD) : Valuation τ sig (Elt F) := Function.update (V19 m outs c) main_v82 (outs 20 main_v82 c)

abbrev V21 (c : Dev nD) : Valuation τ sig (Elt F) := StableHlo.after hostOps9 (V20 m outs c)

abbrev V22 (c : Dev nD) : Valuation τ sig (Elt F) := StableHlo.after hostOps9_1 (V21 m outs c)

abbrev V23 (c : Dev nD) : Valuation τ sig (Elt F) := Function.update (V22 m outs c) main_v88 (outs 23 main_v88 c)

abbrev V24 (c : Dev nD) : Valuation τ sig (Elt F) := Function.update (V23 m outs c) main_v89 (outs 24 main_v89 c)

abbrev V25 (c : Dev nD) : Valuation τ sig (Elt F) := StableHlo.after hostOps11 (V24 m outs c)

abbrev V26 (c : Dev nD) : Valuation τ sig (Elt F) := StableHlo.after hostOps11_1 (V25 m outs c)

abbrev V27 (c : Dev nD) : Valuation τ sig (Elt F) := Function.update (V26 m outs c) main_v95 (outs 27 main_v95 c)

abbrev V28 (c : Dev nD) : Valuation τ sig (Elt F) := StableHlo.after hostOps12 (V27 m outs c)

abbrev V29 (c : Dev nD) : Valuation τ sig (Elt F) := Function.update (V28 m outs c) main_v114 (outs 29 main_v114 c)

abbrev V30 (c : Dev nD) : Valuation τ sig (Elt F) := StableHlo.after hostOps13 (V29 m outs c)

abbrev V31 (c : Dev nD) : Valuation τ sig (Elt F) := StableHlo.after hostOps13_1 (V30 m outs c)

abbrev V32 (c : Dev nD) : Valuation τ sig (Elt F) := Function.update (V31 m outs c) main_v120 (outs 32 main_v120 c)

abbrev V33 (c : Dev nD) : Valuation τ sig (Elt F) := Function.update (V32 m outs c) main_v121 (outs 33 main_v121 c)

abbrev V34 (c : Dev nD) : Valuation τ sig (Elt F) := StableHlo.after hostOps15 (V33 m outs c)

abbrev V35 (c : Dev nD) : Valuation τ sig (Elt F) := StableHlo.after hostOps15_1 (V34 m outs c)

abbrev V36 (c : Dev nD) : Valuation τ sig (Elt F) := Function.update (V35 m outs c) main_v127 (outs 36 main_v127 c)

abbrev V37 (c : Dev nD) : Valuation τ sig (Elt F) := StableHlo.after hostOps16 (V36 m outs c)

theorem hostOps0_fresh : (hostOps0 : List (HloOp τ sig (Elt F))).Forall fun op => op.fresh = ∅ := by
  simp only [List.Forall]; repeat' constructor

abbrev hostOps0_W : List (Ref sig .tc) := [main_cst, main_v0, main_cst_0, main_v1, main_v2, main_v3, main_cst_1, main_v4, main_v5, main_cst_2, main_v6, main_v7, main_v8, main_cst_3, main_v9, main_cst_4, main_v10, main_v11, main_v12, main_cst_5, main_v13, main_v14, main_cst_6, main_v15, main_v16, main_v17]
theorem hostOps0_writes : (hostOps0 : List (HloOp τ sig (Elt F))).Forall fun op => op.writes ⊆ (hostOps0_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v19]
theorem hostOps1_writes : (hostOps1 : List (HloOp τ sig (Elt F))).Forall fun op => op.writes ⊆ (hostOps1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor

abbrev hostOps1_1_W : List (Ref sig .tc) := [main_cst_7, main_v20, main_v21, main_v22, main_v23]
theorem hostOps1_1_writes : (hostOps1_1 : List (HloOp τ sig (Elt F))).Forall fun op => op.writes ⊆ (hostOps1_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v26]
theorem hostOps3_writes : (hostOps3 : List (HloOp τ sig (Elt F))).Forall fun op => op.writes ⊆ (hostOps3_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

abbrev hostOps3_1_W : List (Ref sig .tc) := [main_cst_8, main_v27, main_v28, main_v29, main_v30]
theorem hostOps3_1_writes : (hostOps3_1 : List (HloOp τ sig (Elt F))).Forall fun op => op.writes ⊆ (hostOps3_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_cst_9, main_v32, main_cst_10, main_v33, main_v34, main_v35, main_cst_11, main_v36, main_v37, main_cst_12, main_v38, main_v39, main_v40, main_cst_13, main_v41, main_cst_14, main_v42, main_v43, main_v44, main_cst_15, main_v45, main_v46, main_cst_16, main_v47, main_v48, main_v49]
theorem hostOps4_writes : (hostOps4 : List (HloOp τ sig (Elt F))).Forall fun op => op.writes ⊆ (hostOps4_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v51]
theorem hostOps5_writes : (hostOps5 : List (HloOp τ sig (Elt F))).Forall fun op => op.writes ⊆ (hostOps5_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_1_fresh : (hostOps5_1 : List (HloOp τ sig (Elt F))).Forall fun op => op.fresh = ∅ := by
  simp only [List.Forall]; repeat' constructor

abbrev hostOps5_1_W : List (Ref sig .tc) := [main_cst_17, main_v52, main_v53, main_v54, main_v55]
theorem hostOps5_1_writes : (hostOps5_1 : List (HloOp τ sig (Elt F))).Forall fun op => op.writes ⊆ (hostOps5_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor

abbrev hostOps7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v58]
theorem hostOps7_writes : (hostOps7 : List (HloOp τ sig (Elt F))).Forall fun op => op.writes ⊆ (hostOps7_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_1_fresh : (hostOps7_1 : List (HloOp τ sig (Elt F))).Forall fun op => op.fresh = ∅ := by
  simp only [List.Forall]; repeat' constructor

abbrev hostOps7_1_W : List (Ref sig .tc) := [main_cst_18, main_v59, main_v60, main_v61, main_v62]
theorem hostOps7_1_writes : (hostOps7_1 : List (HloOp τ sig (Elt F))).Forall fun op => op.writes ⊆ (hostOps7_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor

abbrev hostOps8_W : List (Ref sig .tc) := [main_cst_19, main_v64, main_cst_20, main_v65, main_v66, main_v67, main_cst_21, main_v68, main_v69, main_cst_22, main_v70, main_v71, main_v72, main_cst_23, main_v73, main_cst_24, main_v74, main_v75, main_v76, main_cst_25, main_v77, main_v78, main_cst_26, main_v79, main_v80, main_v81]
theorem hostOps8_writes : (hostOps8 : List (HloOp τ sig (Elt F))).Forall fun op => op.writes ⊆ (hostOps8_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor

abbrev hostOps9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v83]
theorem hostOps9_writes : (hostOps9 : List (HloOp τ sig (Elt F))).Forall fun op => op.writes ⊆ (hostOps9_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_1_fresh : (hostOps9_1 : List (HloOp τ sig (Elt F))).Forall fun op => op.fresh = ∅ := by
  simp only [List.Forall]; repeat' constructor

abbrev hostOps9_1_W : List (Ref sig .tc) := [main_cst_27, main_v84, main_v85, main_v86, main_v87]
theorem hostOps9_1_writes : (hostOps9_1 : List (HloOp τ sig (Elt F))).Forall fun op => op.writes ⊆ (hostOps9_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor

abbrev hostOps11_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v90]
theorem hostOps11_writes : (hostOps11 : List (HloOp τ sig (Elt F))).Forall fun op => op.writes ⊆ (hostOps11_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_1_fresh : (hostOps11_1 : List (HloOp τ sig (Elt F))).Forall fun op => op.fresh = ∅ := by
  simp only [List.Forall]; repeat' constructor

abbrev hostOps11_1_W : List (Ref sig .tc) := [main_cst_28, main_v91, main_v92, main_v93, main_v94]
theorem hostOps11_1_writes : (hostOps11_1 : List (HloOp τ sig (Elt F))).Forall fun op => op.writes ⊆ (hostOps11_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_fresh : (hostOps12 : List (HloOp τ sig (Elt F))).Forall fun op => op.fresh = ∅ := by
  simp only [List.Forall]; repeat' constructor

abbrev hostOps12_W : List (Ref sig .tc) := [main_cst_29, main_v96, main_cst_30, main_v97, main_v98, main_v99, main_cst_31, main_v100, main_v101, main_cst_32, main_v102, main_v103, main_v104, main_cst_33, main_v105, main_cst_34, main_v106, main_v107, main_v108, main_cst_35, main_v109, main_v110, main_cst_36, main_v111, main_v112, main_v113]
theorem hostOps12_writes : (hostOps12 : List (HloOp τ sig (Elt F))).Forall fun op => op.writes ⊆ (hostOps12_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor

abbrev hostOps13_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v115]
theorem hostOps13_writes : (hostOps13 : List (HloOp τ sig (Elt F))).Forall fun op => op.writes ⊆ (hostOps13_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_1_fresh : (hostOps13_1 : List (HloOp τ sig (Elt F))).Forall fun op => op.fresh = ∅ := by
  simp only [List.Forall]; repeat' constructor

abbrev hostOps13_1_W : List (Ref sig .tc) := [main_cst_37, main_v116, main_v117, main_v118, main_v119]
theorem hostOps13_1_writes : (hostOps13_1 : List (HloOp τ sig (Elt F))).Forall fun op => op.writes ⊆ (hostOps13_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor

abbrev hostOps15_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v122]
theorem hostOps15_writes : (hostOps15 : List (HloOp τ sig (Elt F))).Forall fun op => op.writes ⊆ (hostOps15_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_1_fresh : (hostOps15_1 : List (HloOp τ sig (Elt F))).Forall fun op => op.fresh = ∅ := by
  simp only [List.Forall]; repeat' constructor

abbrev hostOps15_1_W : List (Ref sig .tc) := [main_cst_38, main_v123, main_v124, main_v125, main_v126]
theorem hostOps15_1_writes : (hostOps15_1 : List (HloOp τ sig (Elt F))).Forall fun op => op.writes ⊆ (hostOps15_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor

abbrev hostOps16_W : List (Ref sig .tc) := [main_v128, main_cst_39, main_v129, main_cst_40, main_v130, main_v131, main_cst_41, main_v132, main_cst_42, main_v133]
theorem hostOps16_writes : (hostOps16 : List (HloOp τ sig (Elt F))).Forall fun op => op.writes ⊆ (hostOps16_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v18] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v18)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ hostOps1_1_W) : V4 m outs c r = V3 m outs c r :=
  StableHlo.after_of_writes_sub hostOps1_1 _ hostOps1_1_writes h
theorem V5_of (c : Dev nD) (r : Ref sig .tc) (h : r ∉ ([main_v24] : List (Ref sig .tc))) : V5 m outs c r = V4 m outs c r := by
  simp only [V5, Function.update_of_ne (StableHlo.devRef_ne_of_ne (List.ne_of_not_mem_cons h) : (Proc.devRef .tc r : DevRef τ sig) ≠ Proc.devRef .tc main_v24)]
theorem V6_of (c : Dev nD) (r : Ref sig .tc) (h : r ∉ ([main_v25] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v25)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ hostOps3_1_W) : V8 m outs c r = V7 m outs c r :=
  StableHlo.after_of_writes_sub hostOps3_1 _ hostOps3_1_writes h
theorem V9_of (c : Dev nD) (r : Ref sig .tc) (h : r ∉ ([main_v31] : List (Ref sig .tc))) : V9 m outs c r = V8 m outs c r := by
  simp only [V9, Function.update_of_ne (StableHlo.devRef_ne_of_ne (List.ne_of_not_mem_cons h) : (Proc.devRef .tc r : DevRef τ sig) ≠ Proc.devRef .tc main_v31)]
theorem V10_of (c : Dev nD) (r : Ref sig .tc) (h : r ∉ hostOps4_W) : V10 m outs c r = V9 m outs c r :=
  StableHlo.after_of_writes_sub hostOps4 _ hostOps4_writes h
theorem V11_of (c : Dev nD) (r : Ref sig .tc) (h : r ∉ ([main_v50] : List (Ref sig .tc))) : V11 m outs c r = V10 m outs c r := by
  simp only [V11, Function.update_of_ne (StableHlo.devRef_ne_of_ne (List.ne_of_not_mem_cons h) : (Proc.devRef .tc r : DevRef τ sig) ≠ Proc.devRef .tc main_v50)]
theorem V12_of (c : Dev nD) (r : Ref sig .tc) (h : r ∉ hostOps5_W) : V12 m outs c r = V11 m outs c r :=
  StableHlo.after_of_writes_sub hostOps5 _ hostOps5_writes h
theorem V13_of (c : Dev nD) (r : Ref sig .tc) (h : r ∉ hostOps5_1_W) : V13 m outs c r = V12 m outs c r :=
  StableHlo.after_of_writes_sub hostOps5_1 _ hostOps5_1_writes h
theorem V14_of (c : Dev nD) (r : Ref sig .tc) (h : r ∉ ([main_v56] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v56)]
theorem V15_of (c : Dev nD) (r : Ref sig .tc) (h : r ∉ ([main_v57] : List (Ref sig .tc))) : V15 m outs c r = V14 m outs c r := by
  simp only [V15, Function.update_of_ne (StableHlo.devRef_ne_of_ne (List.ne_of_not_mem_cons h) : (Proc.devRef .tc r : DevRef τ sig) ≠ Proc.devRef .tc main_v57)]
theorem V16_of (c : Dev nD) (r : Ref sig .tc) (h : r ∉ hostOps7_W) : V16 m outs c r = V15 m outs c r :=
  StableHlo.after_of_writes_sub hostOps7 _ hostOps7_writes h
theorem V17_of (c : Dev nD) (r : Ref sig .tc) (h : r ∉ hostOps7_1_W) : V17 m outs c r = V16 m outs c r :=
  StableHlo.after_of_writes_sub hostOps7_1 _ hostOps7_1_writes h
theorem V18_of (c : Dev nD) (r : Ref sig .tc) (h : r ∉ ([main_v63] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v63)]
theorem V19_of (c : Dev nD) (r : Ref sig .tc) (h : r ∉ hostOps8_W) : V19 m outs c r = V18 m outs c r :=
  StableHlo.after_of_writes_sub hostOps8 _ hostOps8_writes h
theorem V20_of (c : Dev nD) (r : Ref sig .tc) (h : r ∉ ([main_v82] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v82)]
theorem V21_of (c : Dev nD) (r : Ref sig .tc) (h : r ∉ hostOps9_W) : V21 m outs c r = V20 m outs c r :=
  StableHlo.after_of_writes_sub hostOps9 _ hostOps9_writes h
theorem V22_of (c : Dev nD) (r : Ref sig .tc) (h : r ∉ hostOps9_1_W) : V22 m outs c r = V21 m outs c r :=
  StableHlo.after_of_writes_sub hostOps9_1 _ hostOps9_1_writes h
theorem V23_of (c : Dev nD) (r : Ref sig .tc) (h : r ∉ ([main_v88] : List (Ref sig .tc))) : V23 m outs c r = V22 m outs c r := by
  simp only [V23, Function.update_of_ne (StableHlo.devRef_ne_of_ne (List.ne_of_not_mem_cons h) : (Proc.devRef .tc r : DevRef τ sig) ≠ Proc.devRef .tc main_v88)]
theorem V24_of (c : Dev nD) (r : Ref sig .tc) (h : r ∉ ([main_v89] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v89)]
theorem V25_of (c : Dev nD) (r : Ref sig .tc) (h : r ∉ hostOps11_W) : V25 m outs c r = V24 m outs c r :=
  StableHlo.after_of_writes_sub hostOps11 _ hostOps11_writes h
theorem V26_of (c : Dev nD) (r : Ref sig .tc) (h : r ∉ hostOps11_1_W) : V26 m outs c r = V25 m outs c r :=
  StableHlo.after_of_writes_sub hostOps11_1 _ hostOps11_1_writes h
theorem V27_of (c : Dev nD) (r : Ref sig .tc) (h : r ∉ ([main_v95] : List (Ref sig .tc))) : V27 m outs c r = V26 m outs c r := by
  simp only [V27, Function.update_of_ne (StableHlo.devRef_ne_of_ne (List.ne_of_not_mem_cons h) : (Proc.devRef .tc r : DevRef τ sig) ≠ Proc.devRef .tc main_v95)]
theorem V28_of (c : Dev nD) (r : Ref sig .tc) (h : r ∉ hostOps12_W) : V28 m outs c r = V27 m outs c r :=
  StableHlo.after_of_writes_sub hostOps12 _ hostOps12_writes h
theorem V29_of (c : Dev nD) (r : Ref sig .tc) (h : r ∉ ([main_v114] : List (Ref sig .tc))) : V29 m outs c r = V28 m outs c r := by
  simp only [V29, Function.update_of_ne (StableHlo.devRef_ne_of_ne (List.ne_of_not_mem_cons h) : (Proc.devRef .tc r : DevRef τ sig) ≠ Proc.devRef .tc main_v114)]
theorem V30_of (c : Dev nD) (r : Ref sig .tc) (h : r ∉ hostOps13_W) : V30 m outs c r = V29 m outs c r :=
  StableHlo.after_of_writes_sub hostOps13 _ hostOps13_writes h
theorem V31_of (c : Dev nD) (r : Ref sig .tc) (h : r ∉ hostOps13_1_W) : V31 m outs c r = V30 m outs c r :=
  StableHlo.after_of_writes_sub hostOps13_1 _ hostOps13_1_writes h
theorem V32_of (c : Dev nD) (r : Ref sig .tc) (h : r ∉ ([main_v120] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v120)]
theorem V33_of (c : Dev nD) (r : Ref sig .tc) (h : r ∉ ([main_v121] : List (Ref sig .tc))) : V33 m outs c r = V32 m outs c r := by
  simp only [V33, Function.update_of_ne (StableHlo.devRef_ne_of_ne (List.ne_of_not_mem_cons h) : (Proc.devRef .tc r : DevRef τ sig) ≠ Proc.devRef .tc main_v121)]
theorem V34_of (c : Dev nD) (r : Ref sig .tc) (h : r ∉ hostOps15_W) : V34 m outs c r = V33 m outs c r :=
  StableHlo.after_of_writes_sub hostOps15 _ hostOps15_writes h
theorem V35_of (c : Dev nD) (r : Ref sig .tc) (h : r ∉ hostOps15_1_W) : V35 m outs c r = V34 m outs c r :=
  StableHlo.after_of_writes_sub hostOps15_1 _ hostOps15_1_writes h
theorem V36_of (c : Dev nD) (r : Ref sig .tc) (h : r ∉ ([main_v127] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v127)]
theorem V37_of (c : Dev nD) (r : Ref sig .tc) (h : r ∉ hostOps16_W) : V37 m outs c r = V36 m outs c r :=
  StableHlo.after_of_writes_sub hostOps16 _ hostOps16_writes h

-- No item of @main writes r: no host stretch, and no region's output array is r.
structure Kept (r : Ref sig .tc) : Prop where
  w1 : r ∉ hostOps0_W
  w2 : r ∉ ([main_v18] : List (Ref sig .tc))
  w3 : r ∉ hostOps1_W
  w4 : r ∉ hostOps1_1_W
  w5 : r ∉ ([main_v24] : List (Ref sig .tc))
  w6 : r ∉ ([main_v25] : List (Ref sig .tc))
  w7 : r ∉ hostOps3_W
  w8 : r ∉ hostOps3_1_W
  w9 : r ∉ ([main_v31] : List (Ref sig .tc))
  w10 : r ∉ hostOps4_W
  w11 : r ∉ ([main_v50] : List (Ref sig .tc))
  w12 : r ∉ hostOps5_W
  w13 : r ∉ hostOps5_1_W
  w14 : r ∉ ([main_v56] : List (Ref sig .tc))
  w15 : r ∉ ([main_v57] : List (Ref sig .tc))
  w16 : r ∉ hostOps7_W
  w17 : r ∉ hostOps7_1_W
  w18 : r ∉ ([main_v63] : List (Ref sig .tc))
  w19 : r ∉ hostOps8_W
  w20 : r ∉ ([main_v82] : List (Ref sig .tc))
  w21 : r ∉ hostOps9_W
  w22 : r ∉ hostOps9_1_W
  w23 : r ∉ ([main_v88] : List (Ref sig .tc))
  w24 : r ∉ ([main_v89] : List (Ref sig .tc))
  w25 : r ∉ hostOps11_W
  w26 : r ∉ hostOps11_1_W
  w27 : r ∉ ([main_v95] : List (Ref sig .tc))
  w28 : r ∉ hostOps12_W
  w29 : r ∉ ([main_v114] : List (Ref sig .tc))
  w30 : r ∉ hostOps13_W
  w31 : r ∉ hostOps13_1_W
  w32 : r ∉ ([main_v120] : List (Ref sig .tc))
  w33 : r ∉ ([main_v121] : List (Ref sig .tc))
  w34 : r ∉ hostOps15_W
  w35 : r ∉ hostOps15_1_W
  w36 : r ∉ ([main_v127] : List (Ref sig .tc))
  w37 : r ∉ hostOps16_W

theorem V37_kept (c : Dev nD) (r : Ref sig .tc) (h : Kept r) : V37 m outs c r = m ((c : Thread nD τ).loc r) :=
  (V37_of m outs c r h.w37).trans <| (V36_of m outs c r h.w36).trans <| (V35_of m outs c r h.w35).trans <| (V34_of m outs c r h.w34).trans <| (V33_of m outs c r h.w33).trans <| (V32_of m outs c r h.w32).trans <| (V31_of m outs c r h.w31).trans <| (V30_of m outs c r h.w30).trans <| (V29_of m outs c r h.w29).trans <| (V28_of m outs c r h.w28).trans <| (V27_of m outs c r h.w27).trans <| (V26_of m outs c r h.w26).trans <| (V25_of m outs c r h.w25).trans <| (V24_of m outs c r h.w24).trans <| (V23_of m outs c r h.w23).trans <| (V22_of m outs c r h.w22).trans <| (V21_of m outs c r h.w21).trans <| (V20_of m outs c r h.w20).trans <| (V19_of m outs c r h.w19).trans <| (V18_of m outs c r h.w18).trans <| (V17_of m outs c r h.w17).trans <| (V16_of m outs c r h.w16).trans <| (V15_of m outs c r h.w15).trans <| (V14_of m outs c r h.w14).trans <| (V13_of m outs c r h.w13).trans <| (V12_of m outs c r h.w12).trans <| (V11_of m outs c r h.w11).trans <| (V10_of m outs c r h.w10).trans <| (V9_of m outs c r h.w9).trans <| (V8_of m outs c r h.w8).trans <| (V7_of m outs c r h.w7).trans <| (V6_of m outs c r h.w6).trans <| (V5_of m outs c r h.w5).trans <| (V4_of m outs c r h.w4).trans <| (V3_of m outs c r h.w3).trans <| (V2_of m outs c r h.w2).trans <| (V1_of m c r h.w1).trans rfl

-- No item writes an argument.
theorem arg0_kept : Kept main_arg0 := by constructor <;> decide
theorem arg1_kept : Kept main_arg1 := by constructor <;> decide
theorem arg2_kept : Kept main_arg2 := by constructor <;> decide
theorem arg3_kept : Kept main_arg3 := by constructor <;> decide
theorem arg4_kept : Kept main_arg4 := by constructor <;> decide
theorem arg5_kept : Kept main_arg5 := by constructor <;> decide
theorem arg6_kept : Kept main_arg6 := by constructor <;> decide
theorem arg7_kept : Kept main_arg7 := by constructor <;> decide
theorem arg8_kept : Kept main_arg8 := by constructor <;> decide
theorem arg9_kept : Kept main_arg9 := by constructor <;> decide
theorem arg10_kept : Kept main_arg10 := by constructor <;> decide
theorem arg11_kept : Kept main_arg11 := by constructor <;> decide
theorem arg12_kept : Kept main_arg12 := by constructor <;> decide
theorem arg13_kept : Kept main_arg13 := by constructor <;> decide
theorem arg14_kept : Kept main_arg14 := by constructor <;> decide
theorem arg15_kept : Kept main_arg15 := by constructor <;> decide

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 17 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V3 m outs) (E 1)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg7 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V7 m outs) (E 3)

def seg9 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V9 m outs) (E 4)

def seg11 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V11 m outs) (E 5)

def seg12 : HostSeg (Ix := Ix) (Name := ℕ) (U := U) (Lvl := Lvl) (pcfgs (F := F)) defs₀ 𝒱₀ L lv :=
  HostSeg.ofOps _ _ _ _ _ (Pipeline.ucRefs τ sig) hostOps5_1
    (fun op h => Pipeline.sub_ucRefs op ((List.forall_iff_forall_mem.mp hostOps5_1_sub) op h))
    (fun op h => (List.forall_iff_forall_mem.mp hostOps5_1_fresh) op h) (V12 m outs) (E 5)

def seg15 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V15 m outs) (E 7)

def seg16 : HostSeg (Ix := Ix) (Name := ℕ) (U := U) (Lvl := Lvl) (pcfgs (F := F)) defs₀ 𝒱₀ L lv :=
  HostSeg.ofOps _ _ _ _ _ (Pipeline.ucRefs τ sig) hostOps7_1
    (fun op h => Pipeline.sub_ucRefs op ((List.forall_iff_forall_mem.mp hostOps7_1_sub) op h))
    (fun op h => (List.forall_iff_forall_mem.mp hostOps7_1_fresh) op h) (V16 m outs) (E 7)

def seg18 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V18 m outs) (E 8)

def seg20 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V20 m outs) (E 9)

def seg21 : HostSeg (Ix := Ix) (Name := ℕ) (U := U) (Lvl := Lvl) (pcfgs (F := F)) defs₀ 𝒱₀ L lv :=
  HostSeg.ofOps _ _ _ _ _ (Pipeline.ucRefs τ sig) hostOps9_1
    (fun op h => Pipeline.sub_ucRefs op ((List.forall_iff_forall_mem.mp hostOps9_1_sub) op h))
    (fun op h => (List.forall_iff_forall_mem.mp hostOps9_1_fresh) op h) (V21 m outs) (E 9)

def seg24 : HostSeg (Ix := Ix) (Name := ℕ) (U := U) (Lvl := Lvl) (pcfgs (F := F)) defs₀ 𝒱₀ L lv :=
  HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (V24 m outs) (E 11)

def seg25 : HostSeg (Ix := Ix) (Name := ℕ) (U := U) (Lvl := Lvl) (pcfgs (F := F)) defs₀ 𝒱₀ L lv :=
  HostSeg.ofOps _ _ _ _ _ (Pipeline.ucRefs τ sig) hostOps11_1
    (fun op h => Pipeline.sub_ucRefs op ((List.forall_iff_forall_mem.mp hostOps11_1_sub) op h))
    (fun op h => (List.forall_iff_forall_mem.mp hostOps11_1_fresh) op h) (V25 m outs) (E 11)

def seg27 : HostSeg (Ix := Ix) (Name := ℕ) (U := U) (Lvl := Lvl) (pcfgs (F := F)) defs₀ 𝒱₀ L lv :=
  HostSeg.ofOps _ _ _ _ _ (Pipeline.ucRefs τ sig) hostOps12
    (fun op h => Pipeline.sub_ucRefs op ((List.forall_iff_forall_mem.mp hostOps12_sub) op h))
    (fun op h => (List.forall_iff_forall_mem.mp hostOps12_fresh) op h) (V27 m outs) (E 12)

def seg29 : HostSeg (Ix := Ix) (Name := ℕ) (U := U) (Lvl := Lvl) (pcfgs (F := F)) defs₀ 𝒱₀ L lv :=
  HostSeg.ofOps _ _ _ _ _ (Pipeline.ucRefs τ sig) hostOps13
    (fun op h => Pipeline.sub_ucRefs op ((List.forall_iff_forall_mem.mp hostOps13_sub) op h))
    (fun op h => (List.forall_iff_forall_mem.mp hostOps13_fresh) op h) (V29 m outs) (E 13)

def seg30 : HostSeg (Ix := Ix) (Name := ℕ) (U := U) (Lvl := Lvl) (pcfgs (F := F)) defs₀ 𝒱₀ L lv :=
  HostSeg.ofOps _ _ _ _ _ (Pipeline.ucRefs τ sig) hostOps13_1
    (fun op h => Pipeline.sub_ucRefs op ((List.forall_iff_forall_mem.mp hostOps13_1_sub) op h))
    (fun op h => (List.forall_iff_forall_mem.mp hostOps13_1_fresh) op h) (V30 m outs) (E 13)

def seg33 : HostSeg (Ix := Ix) (Name := ℕ) (U := U) (Lvl := Lvl) (pcfgs (F := F)) defs₀ 𝒱₀ L lv :=
  HostSeg.ofOps _ _ _ _ _ (Pipeline.ucRefs τ sig) hostOps15
    (fun op h => Pipeline.sub_ucRefs op ((List.forall_iff_forall_mem.mp hostOps15_sub) op h))
    (fun op h => (List.forall_iff_forall_mem.mp hostOps15_fresh) op h) (V33 m outs) (E 15)

def seg34 : HostSeg (Ix := Ix) (Name := ℕ) (U := U) (Lvl := Lvl) (pcfgs (F := F)) defs₀ 𝒱₀ L lv :=
  HostSeg.ofOps _ _ _ _ _ (Pipeline.ucRefs τ sig) hostOps15_1
    (fun op h => Pipeline.sub_ucRefs op ((List.forall_iff_forall_mem.mp hostOps15_1_sub) op h))
    (fun op h => (List.forall_iff_forall_mem.mp hostOps15_1_fresh) op h) (V34 m outs) (E 15)

def seg36 : HostSeg (Ix := Ix) (Name := ℕ) (U := U) (Lvl := Lvl) (pcfgs (F := F)) defs₀ 𝒱₀ L lv :=
  HostSeg.ofOps _ _ _ _ _ (Pipeline.ucRefs τ sig) hostOps16
    (fun op h => Pipeline.sub_ucRefs op ((List.forall_iff_forall_mem.mp hostOps16_sub) op h))
    (fun op h => (List.forall_iff_forall_mem.mp hostOps16_fresh) op h) (V36 m outs) (E 16)

end Segs

section

variable {Ix : Type} [DecidableEq Ix] {U : Type} [URA U] {Lvl : Type} [Preorder Lvl]

abbrev adm : (p : Fin 16) → (pcfgs (F := F) p).Adm := fun p => (cfgs p).toPCfg_adm

abbrev segs (𝒱₀ : Variants) (L : GSem nD τ sig → Finset Ix) (lv : GSem nD τ sig → Ix → Lvl) (E : Fin 17 → Dev nD → sProp (MT nD τ sig Ix (Elt F) ℕ U Lvl)) (ι : Ix)
    (pdats : (p : Fin 16) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (c : Dev nD) :
    List (Seg (pcfgs (F := F)) adm pdats ι defs₀ 𝒱₀ L lv) :=
  [.host (seg0 m 𝒱₀ L lv E), .region R0, .host (seg2 m outs 𝒱₀ L lv E), .host (seg3 m outs 𝒱₀ L lv E), .region R1, .region R2, .host (seg6 m outs 𝒱₀ L lv E), .host (seg7 m outs 𝒱₀ L lv E), .region R3, .host (seg9 m outs 𝒱₀ L lv E), .region R4, .host (seg11 m outs 𝒱₀ L lv E), .host (seg12 m outs 𝒱₀ L lv E), .region R5, .region R6, .host (seg15 m outs 𝒱₀ L lv E), .host (seg16 m outs 𝒱₀ L lv E), .region R7, .host (seg18 m outs 𝒱₀ L lv E), .region R8, .host (seg20 m outs 𝒱₀ L lv E), .host (seg21 m outs 𝒱₀ L lv E), .region R9, .region R10, .host (seg24 m outs 𝒱₀ L lv E), .host (seg25 m outs 𝒱₀ L lv E), .region R11, .host (seg27 m outs 𝒱₀ L lv E), .region R12, .host (seg29 m outs 𝒱₀ L lv E), .host (seg30 m outs 𝒱₀ L lv E), .region R13, .region R14, .host (seg33 m outs 𝒱₀ L lv E), .host (seg34 m outs 𝒱₀ L lv E), .region R15, .host (seg36 m outs 𝒱₀ L lv E)]

end

end Cert.Kernel.GenP

end
-- ==== Proof.KReg0.lean ====
/-
  Region 0 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window holds its block at every point: it is fetched at every point and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the column of scales. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 x 128 block and the whole 5000 x 1 block, as rectangles. -/
abbrev rRows0 : Rect S5000x128 := Rect.unit (s := S5000x128) ![0, 0] S5000x128.size inb_S5000x128_S5000x128_0_0
abbrev rCol0 : Rect S5000x1 := Rect.unit (s := S5000x1) ![0, 0] S5000x1.size inb_S5000x1_S5000x1_0_0

/-- What the body leaves in the output window: its one store, the payload of the two loaded blocks, over the whole block. -/
def out0_2 (x0 : Vec F S5000x128 .f32) (x1 : Vec F S5000x1 .f32) : Vec F S5000x128 .f32 :=
  View.canon [⟨rRows0, k0_pay1 (View.ld x0 rRows0) (View.ld x1 rCol0)⟩]

/-- The one store covers the block. -/
theorem cover0_2 (p0 : Vec F S5000x128 .f32) (y : S5000x128.Idx) :
    ∃ pc ∈ ([⟨rRows0, p0⟩] : List (View.Piece (Elt F) S5000x128 .f32)), y ∈ pc.1.set :=
  View.cover_of_tiled [⟨rRows0, p0⟩] S5000x128.size (by rfl) y

set_option maxHeartbeats 1000000 in
/-- The body on whole staging buffers, the inputs at x0 and x1 and the output at anything, ends with the inputs as
    they were and the output at out of them. -/
theorem sound_kernel0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body at point t each input
    window at its block and the output window at out of the two input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input windows hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  Region 1 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window holds its block at every point: fetched at every point, left in place by the body. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the column of scales. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The matrix window holds the whole matrix at every point: fetched at the first point, its block index never moves afterwards, and the body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same for the row that is added. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as rectangles. -/
abbrev rRows1 : Rect S5000x128 := Rect.unit (s := S5000x128) ![0, 0] S5000x128.size inb_S5000x128_S5000x128_0_0
abbrev rCol1 : Rect S5000x1 := Rect.unit (s := S5000x1) ![0, 0] S5000x1.size inb_S5000x1_S5000x1_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-- What the body leaves in the output window: its one store, the payload of the four loaded blocks, over the whole block. -/
def out1_4 (x0 : Vec F S5000x128 .f32) (x1 : Vec F S5000x1 .f32) (x2 : Vec F S128x128 .f32) (x3 : Vec F S1x128 .f32) : Vec F S5000x128 .f32 :=
  View.canon [⟨rRows1, k1_pay1 (View.ld x0 rRows1) (View.ld x1 rCol1) (View.ld x2 rMat1) (View.ld x3 rRow1)⟩]

/-- The one store covers the block. -/
theorem cover1_4 (p0 : Vec F S5000x128 .f32) (y : S5000x128.Idx) :
    ∃ pc ∈ ([⟨rRows1, p0⟩] : List (View.Piece (Elt F) S5000x128 .f32)), y ∈ pc.1.set :=
  View.cover_of_tiled [⟨rRows1, p0⟩] S5000x128.size (by rfl) y

set_option maxHeartbeats 1000000 in
/-- The body on whole staging buffers, the inputs at x0 .. x3 and the output at anything, ends with the inputs as
    they were and the output at out of them. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__lin_relu_kernel i arg1 harg1 arg2 harg2 arg3 harg3 arg4 harg4 arg5 harg5) K := by
  simp only [cc1__lin_relu_kernel_eq_skeleton]; unfold cc1__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core c: the arrays as the region finds them; after the body at point t each input
    window at its block and the output window at out of the four input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input windows hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  Region 2 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window holds its block at every point: it is fetched at every point and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the column of scales. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 5000 x 128 block and the whole 5000 x 1 block, as rectangles. -/
abbrev rRows2 : Rect S5000x128 := Rect.unit (s := S5000x128) ![0, 0] S5000x128.size inb_S5000x128_S5000x128_0_0
abbrev rCol2 : Rect S5000x1 := Rect.unit (s := S5000x1) ![0, 0] S5000x1.size inb_S5000x1_S5000x1_0_0

/-- What the body leaves in the output window: its one store, the payload of the two loaded blocks, over the whole block. -/
def out2_2 (x0 : Vec F S5000x128 .f32) (x1 : Vec F S5000x1 .f32) : Vec F S5000x128 .f32 :=
  View.canon [⟨rRows2, k2_pay1 (View.ld x0 rRows2) (View.ld x1 rCol2)⟩]

/-- The one store covers the block. -/
theorem cover2_2 (p0 : Vec F S5000x128 .f32) (y : S5000x128.Idx) :
    ∃ pc ∈ ([⟨rRows2, p0⟩] : List (View.Piece (Elt F) S5000x128 .f32)), y ∈ pc.1.set :=
  View.cover_of_tiled [⟨rRows2, p0⟩] S5000x128.size (by rfl) y

set_option maxHeartbeats 1000000 in
/-- The body on whole staging buffers, the inputs at x0 and x1 and the output at anything, ends with the inputs as
    they were and the output at out of them. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core c: the arrays as the region finds them; after the body at point t each input
    window at its block and the output window at out of the two input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input windows hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
/-
  Region 3 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows window holds its block at every point: fetched at every point, left in place by the body. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for the column of scales. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The matrix window holds the whole matrix at every point: fetched at the first point, its block index never moves afterwards, and the body leaves it in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same for the row that is added. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole blocks, as rectangles. -/
abbrev rRows3 : Rect S5000x128 := Rect.unit (s := S5000x128) ![0, 0] S5000x128.size inb_S5000x128_S5000x128_0_0
abbrev rCol3 : Rect S5000x1 := Rect.unit (s := S5000x1) ![0, 0] S5000x1.size inb_S5000x1_S5000x1_0_0
abbrev rMat3 : Rect S128x128 := Rect.unit (s := S128x128) ![0, 0] S128x128.size inb_S128x128_S128x128_0_0
abbrev rRow3 : Rect S1x128 := Rect.unit (s := S1x128) ![0, 0] S1x128.size inb_S1x128_S1x128_0_0

/-- What the body leaves in the output window: its one store, the payload of the four loaded blocks, over the whole block. -/
def out3_4 (x0 : Vec F S5000x128 .f32) (x1 : Vec F S5000x1 .f32) (x2 : Vec F S128x128 .f32) (x3 : Vec F S1x128 .f32) : Vec F S5000x128 .f32 :=
  View.canon [⟨rRows3, k3_pay1 (View.ld x0 rRows3) (View.ld x1 rCol3) (View.ld x2 rMat3) (View.ld x3 rRow3)⟩]

/-- The one store covers the block. -/
theorem cover3_4 (p0 : Vec F S5000x128 .f32) (y : S5000x128.Idx) :
    ∃ pc ∈ ([⟨rRows3, p0⟩] : List (View.Piece (Elt F) S5000x128 .f32)), y ∈ pc.1.set :=
  View.cover_of_tiled [⟨rRows3, p0⟩] S5000x128.size (by rfl) y

set_option maxHeartbeats 1000000 in
/-- The body on whole staging buffers, the inputs at x0 .. x3 and the output at anything, ends with the inputs as
    they were and the output at out of them. -/
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__lin_relu_kernel i arg1 harg1 arg2 harg2 arg3 harg3 arg4 harg4 arg5 harg5) K := by
  simp only [cc3__lin_relu_kernel_eq_skeleton]; unfold cc3__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The pipeline's proof data on core c: the arrays as the region finds them; after the body at point t each input
    window at its block and the output window at out of the four input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input windows hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4.lean ====
/-
  Region 4 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows window holds its block at every point: it is fetched at every point and the body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for the column of scales. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole 5000 x 128 block and the whole 5000 x 1 block, as rectangles. -/
abbrev rRows4 : Rect S5000x128 := Rect.unit (s := S5000x128) ![0, 0] S5000x128.size inb_S5000x128_S5000x128_0_0
abbrev rCol4 : Rect S5000x1 := Rect.unit (s := S5000x1) ![0, 0] S5000x1.size inb_S5000x1_S5000x1_0_0

/-- What the body leaves in the output window: its one store, the payload of the two loaded blocks, over the whole block. -/
def out4_2 (x0 : Vec F S5000x128 .f32) (x1 : Vec F S5000x1 .f32) : Vec F S5000x128 .f32 :=
  View.canon [⟨rRows4, k4_pay1 (View.ld x0 rRows4) (View.ld x1 rCol4)⟩]

/-- The one store covers the block. -/
theorem cover4_2 (p0 : Vec F S5000x128 .f32) (y : S5000x128.Idx) :
    ∃ pc ∈ ([⟨rRows4, p0⟩] : List (View.Piece (Elt F) S5000x128 .f32)), y ∈ pc.1.set :=
  View.cover_of_tiled [⟨rRows4, p0⟩] S5000x128.size (by rfl) y

set_option maxHeartbeats 1000000 in
/-- The body on whole staging buffers, the inputs at x0 and x1 and the output at anything, ends with the inputs as
    they were and the output at out of them. -/
theorem sound_kernel4 (c : Dev nD) (E : Set ℕ) (i : grid4.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core c: the arrays as the region finds them; after the body at point t each input
    window at its block and the output window at out of the two input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input windows hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KReg5.lean ====
/-
  Region 5 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows window holds its block at every point: fetched at every point, left in place by the body. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same for the column of scales. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The matrix window holds the whole matrix at every point: fetched at the first point, its block index never moves afterwards, and the body leaves it in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- The same for the row that is added. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole blocks, as rectangles. -/
abbrev rRows5 : Rect S5000x128 := Rect.unit (s := S5000x128) ![0, 0] S5000x128.size inb_S5000x128_S5000x128_0_0
abbrev rCol5 : Rect S5000x1 := Rect.unit (s := S5000x1) ![0, 0] S5000x1.size inb_S5000x1_S5000x1_0_0
abbrev rMat5 : Rect S128x128 := Rect.unit (s := S128x128) ![0, 0] S128x128.size inb_S128x128_S128x128_0_0
abbrev rRow5 : Rect S1x128 := Rect.unit (s := S1x128) ![0, 0] S1x128.size inb_S1x128_S1x128_0_0

/-- What the body leaves in the output window: its one store, the payload of the four loaded blocks, over the whole block. -/
def out5_4 (x0 : Vec F S5000x128 .f32) (x1 : Vec F S5000x1 .f32) (x2 : Vec F S128x128 .f32) (x3 : Vec F S1x128 .f32) : Vec F S5000x128 .f32 :=
  View.canon [⟨rRows5, k5_pay1 (View.ld x0 rRows5) (View.ld x1 rCol5) (View.ld x2 rMat5) (View.ld x3 rRow5)⟩]

/-- The one store covers the block. -/
theorem cover5_4 (p0 : Vec F S5000x128 .f32) (y : S5000x128.Idx) :
    ∃ pc ∈ ([⟨rRows5, p0⟩] : List (View.Piece (Elt F) S5000x128 .f32)), y ∈ pc.1.set :=
  View.cover_of_tiled [⟨rRows5, p0⟩] S5000x128.size (by rfl) y

set_option maxHeartbeats 1000000 in
/-- The body on whole staging buffers, the inputs at x0 .. x3 and the output at anything, ends with the inputs as
    they were and the output at out of them. -/
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__lin_relu_kernel i arg1 harg1 arg2 harg2 arg3 harg3 arg4 harg4 arg5 harg5) K := by
  simp only [cc5__lin_relu_kernel_eq_skeleton]; unfold cc5__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The pipeline's proof data on core c: the arrays as the region finds them; after the body at point t each input
    window at its block and the output window at out of the four input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input windows hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KReg6.lean ====
/-
  Region 6 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows window holds its block at every point: it is fetched at every point and the body leaves it in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for the column of scales. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole 5000 x 128 block and the whole 5000 x 1 block, as rectangles. -/
abbrev rRows6 : Rect S5000x128 := Rect.unit (s := S5000x128) ![0, 0] S5000x128.size inb_S5000x128_S5000x128_0_0
abbrev rCol6 : Rect S5000x1 := Rect.unit (s := S5000x1) ![0, 0] S5000x1.size inb_S5000x1_S5000x1_0_0

/-- What the body leaves in the output window: its one store, the payload of the two loaded blocks, over the whole block. -/
def out6_2 (x0 : Vec F S5000x128 .f32) (x1 : Vec F S5000x1 .f32) : Vec F S5000x128 .f32 :=
  View.canon [⟨rRows6, k6_pay1 (View.ld x0 rRows6) (View.ld x1 rCol6)⟩]

/-- The one store covers the block. -/
theorem cover6_2 (p0 : Vec F S5000x128 .f32) (y : S5000x128.Idx) :
    ∃ pc ∈ ([⟨rRows6, p0⟩] : List (View.Piece (Elt F) S5000x128 .f32)), y ∈ pc.1.set :=
  View.cover_of_tiled [⟨rRows6, p0⟩] S5000x128.size (by rfl) y

set_option maxHeartbeats 1000000 in
/-- The body on whole staging buffers, the inputs at x0 and x1 and the output at anything, ends with the inputs as
    they were and the output at out of them. -/
theorem sound_kernel6 (c : Dev nD) (E : Set ℕ) (i : grid6.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__scale_kernel i arg1 harg1 arg2 harg2 arg3 harg3) K := by
  simp only [cc6__scale_kernel_eq_skeleton]; unfold cc6__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core c: the arrays as the region finds them; after the body at point t each input
    window at its block and the output window at out of the two input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input windows hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KReg7.lean ====
/-
  Region 7 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The rows window holds its block at every point: fetched at every point, left in place by the body. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for the column of scales. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The matrix window holds the whole matrix at every point: fetched at the first point, its block index never moves afterwards, and the body leaves it in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- The same for the row that is added. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole blocks, as rectangles. -/
abbrev rRows7 : Rect S5000x128 := Rect.unit (s := S5000x128) ![0, 0] S5000x128.size inb_S5000x128_S5000x128_0_0
abbrev rCol7 : Rect S5000x1 := Rect.unit (s := S5000x1) ![0, 0] S5000x1.size inb_S5000x1_S5000x1_0_0
abbrev rMat7 : Rect S128x128 := Rect.unit (s := S128x128) ![0, 0] S128x128.size inb_S128x128_S128x128_0_0
abbrev rRow7 : Rect S1x128 := Rect.unit (s := S1x128) ![0, 0] S1x128.size inb_S1x128_S1x128_0_0

/-- What the body leaves in the output window: its one store, the payload of the four loaded blocks, over the whole block. -/
def out7_4 (x0 : Vec F S5000x128 .f32) (x1 : Vec F S5000x1 .f32) (x2 : Vec F S128x128 .f32) (x3 : Vec F S1x128 .f32) : Vec F S5000x128 .f32 :=
  View.canon [⟨rRows7, k7_pay1 (View.ld x0 rRows7) (View.ld x1 rCol7) (View.ld x2 rMat7) (View.ld x3 rRow7)⟩]

/-- The one store covers the block. -/
theorem cover7_4 (p0 : Vec F S5000x128 .f32) (y : S5000x128.Idx) :
    ∃ pc ∈ ([⟨rRows7, p0⟩] : List (View.Piece (Elt F) S5000x128 .f32)), y ∈ pc.1.set :=
  View.cover_of_tiled [⟨rRows7, p0⟩] S5000x128.size (by rfl) y

set_option maxHeartbeats 1000000 in
/-- The body on whole staging buffers, the inputs at x0 .. x3 and the output at anything, ends with the inputs as
    they were and the output at out of them. -/
theorem sound_kernel7 (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__lin_relu_kernel i arg1 harg1 arg2 harg2 arg3 harg3 arg4 harg4 arg5 harg5) K := by
  simp only [cc7__lin_relu_kernel_eq_skeleton]; unfold cc7__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-- The pipeline's proof data on core c: the arrays as the region finds them; after the body at point t each input
    window at its block and the output window at out of the four input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the input windows hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KReg8.lean ====
/-
  Region 8 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The rows window holds its block at every point: it is fetched at every point and the body leaves it in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same for the column of scales. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole 5000 x 128 block and the whole 5000 x 1 block, as rectangles. -/
abbrev rRows8 : Rect S5000x128 := Rect.unit (s := S5000x128) ![0, 0] S5000x128.size inb_S5000x128_S5000x128_0_0
abbrev rCol8 : Rect S5000x1 := Rect.unit (s := S5000x1) ![0, 0] S5000x1.size inb_S5000x1_S5000x1_0_0

/-- What the body leaves in the output window: its one store, the payload of the two loaded blocks, over the whole block. -/
def out8_2 (x0 : Vec F S5000x128 .f32) (x1 : Vec F S5000x1 .f32) : Vec F S5000x128 .f32 :=
  View.canon [⟨rRows8, k8_pay1 (View.ld x0 rRows8) (View.ld x1 rCol8)⟩]

/-- The one store covers the block. -/
theorem cover8_2 (p0 : Vec F S5000x128 .f32) (y : S5000x128.Idx) :
    ∃ pc ∈ ([⟨rRows8, p0⟩] : List (View.Piece (Elt F) S5000x128 .f32)), y ∈ pc.1.set :=
  View.cover_of_tiled [⟨rRows8, p0⟩] S5000x128.size (by rfl) y

set_option maxHeartbeats 1000000 in
/-- The body on whole staging buffers, the inputs at x0 and x1 and the output at anything, ends with the inputs as
    they were and the output at out of them. -/
theorem sound_kernel8 (c : Dev nD) (E : Set ℕ) (i : grid8.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__scale_kernel i arg1 harg1 arg2 harg2 arg3 harg3) K := by
  simp only [cc8__scale_kernel_eq_skeleton]; unfold cc8__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The pipeline's proof data on core c: the arrays as the region finds them; after the body at point t each input
    window at its block and the output window at out of the two input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the input windows hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KReg9.lean ====
/-
  Region 9 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rows window holds its block at every point: fetched at every point, left in place by the body. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for the column of scales. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The matrix window holds the whole matrix at every point: fetched at the first point, its block index never moves afterwards, and the body leaves it in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same for the row that is added. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole blocks, as rectangles. -/
abbrev rRows9 : Rect S5000x128 := Rect.unit (s := S5000x128) ![0, 0] S5000x128.size inb_S5000x128_S5000x128_0_0
abbrev rCol9 : Rect S5000x1 := Rect.unit (s := S5000x1) ![0, 0] S5000x1.size inb_S5000x1_S5000x1_0_0
abbrev rMat9 : Rect S128x128 := Rect.unit (s := S128x128) ![0, 0] S128x128.size inb_S128x128_S128x128_0_0
abbrev rRow9 : Rect S1x128 := Rect.unit (s := S1x128) ![0, 0] S1x128.size inb_S1x128_S1x128_0_0

/-- What the body leaves in the output window: its one store, the payload of the four loaded blocks, over the whole block. -/
def out9_4 (x0 : Vec F S5000x128 .f32) (x1 : Vec F S5000x1 .f32) (x2 : Vec F S128x128 .f32) (x3 : Vec F S1x128 .f32) : Vec F S5000x128 .f32 :=
  View.canon [⟨rRows9, k9_pay1 (View.ld x0 rRows9) (View.ld x1 rCol9) (View.ld x2 rMat9) (View.ld x3 rRow9)⟩]

/-- The one store covers the block. -/
theorem cover9_4 (p0 : Vec F S5000x128 .f32) (y : S5000x128.Idx) :
    ∃ pc ∈ ([⟨rRows9, p0⟩] : List (View.Piece (Elt F) S5000x128 .f32)), y ∈ pc.1.set :=
  View.cover_of_tiled [⟨rRows9, p0⟩] S5000x128.size (by rfl) y

set_option maxHeartbeats 1000000 in
/-- The body on whole staging buffers, the inputs at x0 .. x3 and the output at anything, ends with the inputs as
    they were and the output at out of them. -/
theorem sound_kernel9 (c : Dev nD) (E : Set ℕ) (i : grid9.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__lin_relu_kernel i arg1 harg1 arg2 harg2 arg3 harg3 arg4 harg4 arg5 harg5) K := by
  simp only [cc9__lin_relu_kernel_eq_skeleton]; unfold cc9__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The pipeline's proof data on core c: the arrays as the region finds them; after the body at point t each input
    window at its block and the output window at out of the four input blocks; the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point t, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the input windows hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KReg10.lean ====
/-
  Region 10 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The rows window holds its block at every point: it is fetched at every point and the body leaves it in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same for the column of scales. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The whole 5000 x 128 block and the whole 5000 x 1 block, as rectangles. -/
abbrev rRows10 : Rect S5000x128 := Rect.unit (s := S5000x128) ![0, 0] S5000x128.size inb_S5000x128_S5000x128_0_0
abbrev rCol10 : Rect S5000x1 := Rect.unit (s := S5000x1) ![0, 0] S5000x1.size inb_S5000x1_S5000x1_0_0

/-- What the body leaves in the output window: its one store, the payload of the two loaded blocks, over the whole block. -/
def out10_2 (x0 : Vec F S5000x128 .f32) (x1 : Vec F S5000x1 .f32) : Vec F S5000x128 .f32 :=
  View.canon [⟨rRows10, k10_pay1 (View.ld x0 rRows10) (View.ld x1 rCol10)⟩]

/-- The one store covers the block. -/
theorem cover10_2 (p0 : Vec F S5000x128 .f32) (y : S5000x128.Idx) :
    ∃ pc ∈ ([⟨rRows10, p0⟩] : List (View.Piece (Elt F) S5000x128 .f32)), y ∈ pc.1.set :=
  View.cover_of_tiled [⟨rRows10, p0⟩] S5000x128.size (by rfl) y

set_option maxHeartbeats 1000000 in
/-- The body on whole staging buffers, the inputs at x0 and x1 and the output at anything, ends with the inputs as
    they were and the output at out of them. -/
theorem sound_kernel10 (c : Dev nD) (E : Set ℕ) (i : grid10.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__scale_kernel i arg1 harg1 arg2 harg2 arg3 harg3) K := by
  simp only [cc10__scale_kernel_eq_skeleton]; unfold cc10__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The pipeline's proof data on core c: the arrays as the region finds them; after the body at point t each input
    window at its block and the output window at out of the two input blocks; the scoped rest and the generator
    register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point t, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the input windows hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.KReg11.lean ====
/-
  Region 11 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The rows window holds its block at every point: fetched at every point, left in place by the body. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same for the column of scales. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The matrix window holds the whole matrix at every point: fetched at the first point, its block index never moves afterwards, and the body leaves it in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- The same for the row that is added. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole blocks, as rectangles. -/
abbrev rRows11 : Rect S5000x128 := Rect.unit (s := S5000x128) ![0, 0] S5000x128.size inb_S5000x128_S5000x128_0_0
abbrev rCol11 : Rect S5000x1 := Rect.unit (s := S5000x1) ![0, 0] S5000x1.size inb_S5000x1_S5000x1_0_0
abbrev rMat11 : Rect S128x128 := Rect.unit (s := S128x128) ![0, 0] S128x128.size inb_S128x128_S128x128_0_0
abbrev rRow11 : Rect S1x128 := Rect.unit (s := S1x128) ![0, 0] S1x128.size inb_S1x128_S1x128_0_0

/-- What the body leaves in the output window: its one store, the payload of the four loaded blocks, over the whole block. -/
def out11_4 (x0 : Vec F S5000x128 .f32) (x1 : Vec F S5000x1 .f32) (x2 : Vec F S128x128 .f32) (x3 : Vec F S1x128 .f32) : Vec F S5000x128 .f32 :=
  View.canon [⟨rRows11, k11_pay1 (View.ld x0 rRows11) (View.ld x1 rCol11) (View.ld x2 rMat11) (View.ld x3 rRow11)⟩]

/-- The one store covers the block. -/
theorem cover11_4 (p0 : Vec F S5000x128 .f32) (y : S5000x128.Idx) :
    ∃ pc ∈ ([⟨rRows11, p0⟩] : List (View.Piece (Elt F) S5000x128 .f32)), y ∈ pc.1.set :=
  View.cover_of_tiled [⟨rRows11, p0⟩] S5000x128.size (by rfl) y

set_option maxHeartbeats 1000000 in
/-- The body on whole staging buffers, the inputs at x0 .. x3 and the output at anything, ends with the inputs as
    they were and the output at out of them. -/
theorem sound_kernel11 (c : Dev nD) (E : Set ℕ) (i : grid11.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out11_4 x0 x1 x2 x3)) -∗ K ⟨⟩))
      ⊢ wp frame (wpE (defs₀ (F := F)) Variants.none c none) E (cc11__lin_relu_kernel i arg1 harg1 arg2 harg2 arg3 harg3 arg4 harg4 arg5 harg5) K := by
  simp only [cc11__lin_relu_kernel_eq_skeleton]; unfold cc11__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-- The pipeline's proof data on core c: the arrays as the region finds them; after the body at point t each input
    window at its block and the output window at out of the four input blocks; the scoped rest and the generator
    register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = out11_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point t, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the input windows hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ (grid11.coords t) _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.KReg12.lean ====
/-
  Region 12 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The rows window holds its block at every point: it is fetched at every point and the body leaves it in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same for the column of scales. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The whole 5000 x 128 block and the whole 5000 x 1 block, as rectangles. -/
abbrev rRows12 : Rect S5000x128 := Rect.unit (s := S5000x128) ![0, 0] S5000x128.size inb_S5000x128_S5000x128_0_0
abbrev rCol12 : Rect S5000x1 := Rect.unit (s := S5000x1) ![0, 0] S5000x1.size inb_S5000x1_S5000x1_0_0

/-- What the body leaves in the output window: its one store, the payload of the two loaded blocks, over the whole block. -/
def out12_2 (x0 : Vec F S5000x128 .f32) (x1 : Vec F S5000x1 .f32) : Vec F S5000x128 .f32 :=
  View.canon [⟨rRows12, k12_pay1 (View.ld x0 rRows12) (View.ld x1 rCol12)⟩]

/-- The one store covers the block. -/
theorem cover12_2 (p0 : Vec F S5000x128 .f32) (y : S5000x128.Idx) :
    ∃ pc ∈ ([⟨rRows12, p0⟩] : List (View.Piece (Elt F) S5000x128 .f32)), y ∈ pc.1.set :=
  View.cover_of_tiled [⟨rRows12, p0⟩] S5000x128.size (by rfl) y

set_option maxHeartbeats 1000000 in
/-- The body on whole staging buffers, the inputs at x0 and x1 and the output at anything, ends with the inputs as
    they were and the output at out of them. -/
theorem sound_kernel12 (c : Dev nD) (E : Set ℕ) (i : grid12.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__scale_kernel i arg1 harg1 arg2 harg2 arg3 harg3) K := by
  simp only [cc12__scale_kernel_eq_skeleton]; unfold cc12__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The pipeline's proof data on core c: the arrays as the region finds them; after the body at point t each input
    window at its block and the output window at out of the two input blocks; the scoped rest and the generator
    register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point t, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the input windows hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.KReg13.lean ====
/-
  Region 13 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The rows window holds its block at every point: fetched at every point, left in place by the body. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The same for the column of scales. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- The matrix window holds the whole matrix at every point: fetched at the first point, its block index never moves afterwards, and the body leaves it in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- The same for the row that is added. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- The whole blocks, as rectangles. -/
abbrev rRows13 : Rect S5000x128 := Rect.unit (s := S5000x128) ![0, 0] S5000x128.size inb_S5000x128_S5000x128_0_0
abbrev rCol13 : Rect S5000x1 := Rect.unit (s := S5000x1) ![0, 0] S5000x1.size inb_S5000x1_S5000x1_0_0
abbrev rMat13 : Rect S128x128 := Rect.unit (s := S128x128) ![0, 0] S128x128.size inb_S128x128_S128x128_0_0
abbrev rRow13 : Rect S1x128 := Rect.unit (s := S1x128) ![0, 0] S1x128.size inb_S1x128_S1x128_0_0

/-- What the body leaves in the output window: its one store, the payload of the four loaded blocks, over the whole block. -/
def out13_4 (x0 : Vec F S5000x128 .f32) (x1 : Vec F S5000x1 .f32) (x2 : Vec F S128x128 .f32) (x3 : Vec F S1x128 .f32) : Vec F S5000x128 .f32 :=
  View.canon [⟨rRows13, k13_pay1 (View.ld x0 rRows13) (View.ld x1 rCol13) (View.ld x2 rMat13) (View.ld x3 rRow13)⟩]

/-- The one store covers the block. -/
theorem cover13_4 (p0 : Vec F S5000x128 .f32) (y : S5000x128.Idx) :
    ∃ pc ∈ ([⟨rRows13, p0⟩] : List (View.Piece (Elt F) S5000x128 .f32)), y ∈ pc.1.set :=
  View.cover_of_tiled [⟨rRows13, p0⟩] S5000x128.size (by rfl) y

set_option maxHeartbeats 1000000 in
/-- The body on whole staging buffers, the inputs at x0 .. x3 and the output at anything, ends with the inputs as
    they were and the output at out of them. -/
theorem sound_kernel13 (c : Dev nD) (E : Set ℕ) (i : grid13.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out13_4 x0 x1 x2 x3)) -∗ K ⟨⟩))
      ⊢ wp frame (wpE (defs₀ (F := F)) Variants.none c none) E (cc13__lin_relu_kernel i arg1 harg1 arg2 harg2 arg3 harg3 arg4 harg4 arg5 harg5) K := by
  simp only [cc13__lin_relu_kernel_eq_skeleton]; unfold cc13__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-- The pipeline's proof data on core c: the arrays as the region finds them; after the body at point t each input
    window at its block and the output window at out of the four input blocks; the scoped rest and the generator
    register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 (iblk13 V c 0 t) (iblk13 V c 1 t) (iblk13 V c 2 t) (iblk13 V c 3 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-- What the body is called with at point t, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the input windows hold their blocks, so the body's triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ (grid13.coords t) _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.KReg14.lean ====
/-
  Region 14 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The rows window holds its block at every point: it is fetched at every point and the body leaves it in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same for the column of scales. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The whole 5000 x 128 block and the whole 5000 x 1 block, as rectangles. -/
abbrev rRows14 : Rect S5000x128 := Rect.unit (s := S5000x128) ![0, 0] S5000x128.size inb_S5000x128_S5000x128_0_0
abbrev rCol14 : Rect S5000x1 := Rect.unit (s := S5000x1) ![0, 0] S5000x1.size inb_S5000x1_S5000x1_0_0

/-- What the body leaves in the output window: its one store, the payload of the two loaded blocks, over the whole block. -/
def out14_2 (x0 : Vec F S5000x128 .f32) (x1 : Vec F S5000x1 .f32) : Vec F S5000x128 .f32 :=
  View.canon [⟨rRows14, k14_pay1 (View.ld x0 rRows14) (View.ld x1 rCol14)⟩]

/-- The one store covers the block. -/
theorem cover14_2 (p0 : Vec F S5000x128 .f32) (y : S5000x128.Idx) :
    ∃ pc ∈ ([⟨rRows14, p0⟩] : List (View.Piece (Elt F) S5000x128 .f32)), y ∈ pc.1.set :=
  View.cover_of_tiled [⟨rRows14, p0⟩] S5000x128.size (by rfl) y

set_option maxHeartbeats 1000000 in
/-- The body on whole staging buffers, the inputs at x0 and x1 and the output at anything, ends with the inputs as
    they were and the output at out of them. -/
theorem sound_kernel14 (c : Dev nD) (E : Set ℕ) (i : grid14.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14_2 x0 x1)) -∗ K ⟨⟩))
      ⊢ wp frame (wpE (defs₀ (F := F)) Variants.none c none) E (cc14__scale_kernel i arg1 harg1 arg2 harg2 arg3 harg3) K := by
  simp only [cc14__scale_kernel_eq_skeleton]; unfold cc14__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The pipeline's proof data on core c: the arrays as the region finds them; after the body at point t each input
    window at its block and the output window at out of the two input blocks; the scoped rest and the generator
    register untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point t, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the input windows hold their blocks, so the body's triple applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ (grid14.coords t) _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.KReg15.lean ====
/-
  Region 15 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.Kernel.Launch
import proofs.«413962_j523986010479_1_alg».proof.Proof.Gen.Kernel.Skeleton
import proofs.«413962_j523986010479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The rows window holds its block at every point: fetched at every point, left in place by the body. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The same for the column of scales. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- The matrix window holds the whole matrix at every point: fetched at the first point, its block index never moves afterwards, and the body leaves it in place. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
/-- The same for the row that is added. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-- The whole blocks, as rectangles. -/
abbrev rRows15 : Rect S5000x128 := Rect.unit (s := S5000x128) ![0, 0] S5000x128.size inb_S5000x128_S5000x128_0_0
abbrev rCol15 : Rect S5000x1 := Rect.unit (s := S5000x1) ![0, 0] S5000x1.size inb_S5000x1_S5000x1_0_0
abbrev rMat15 : Rect S128x128 := Rect.unit (s := S128x128) ![0, 0] S128x128.size inb_S128x128_S128x128_0_0
abbrev rRow15 : Rect S1x128 := Rect.unit (s := S1x128) ![0, 0] S1x128.size inb_S1x128_S1x128_0_0

/-- What the body leaves in the output window: its one store, the payload of the four loaded blocks, over the whole block. -/
def out15_4 (x0 : Vec F S5000x128 .f32) (x1 : Vec F S5000x1 .f32) (x2 : Vec F S128x128 .f32) (x3 : Vec F S1x128 .f32) : Vec F S5000x128 .f32 :=
  View.canon [⟨rRows15, k15_pay1 (View.ld x0 rRows15) (View.ld x1 rCol15) (View.ld x2 rMat15) (View.ld x3 rRow15)⟩]

/-- The one store covers the block. -/
theorem cover15_4 (p0 : Vec F S5000x128 .f32) (y : S5000x128.Idx) :
    ∃ pc ∈ ([⟨rRows15, p0⟩] : List (View.Piece (Elt F) S5000x128 .f32)), y ∈ pc.1.set :=
  View.cover_of_tiled [⟨rRows15, p0⟩] S5000x128.size (by rfl) y

set_option maxHeartbeats 1000000 in
/-- The body on whole staging buffers, the inputs at x0 .. x3 and the output at anything, ends with the inputs as
    they were and the output at out of them. -/
theorem sound_kernel15 (c : Dev nD) (E : Set ℕ) (i : grid15.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out15_4 x0 x1 x2 x3)) -∗ K ⟨⟩))
      ⊢ wp frame (wpE (defs₀ (F := F)) Variants.none c none) E (cc15__lin_relu_kernel i arg1 harg1 arg2 harg2 arg3 harg3 arg4 harg4 arg5 harg5) K := by
  simp only [cc15__lin_relu_kernel_eq_skeleton]; unfold cc15__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover15_4 _)

/-- The pipeline's proof data on core c: the arrays as the region finds them; after the body at point t each input
    window at its block and the output window at out of the four input blocks; the scoped rest and the generator
    register untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = out15_4 (iblk15 V c 0 t) (iblk15 V c 1 t) (iblk15 V c 2 t) (iblk15 V c 3 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d

/-- What the body is called with at point t, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

/-- The body at any point: the input windows hold their blocks, so the body's triple applies; the invariant and the
    core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3]
  rw [show (dat15 V c).Φ t.succ = (dat15 V c).Φ t.castSucc from rfl,
    show (dat15 V c).owesAt () t.succ = (dat15 V c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ (grid15.coords t) _ _ _ _ _ _ _ _ _ _ (iblk15 V c 0 t) (iblk15 V c 1 t) (iblk15 V c 2 t) (iblk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.KFold.lean ====
/-
  What a core's buffers hold after each item of @main, as a fold from the launch memory: after a stretch of host
  operations, the stretch applied to what was there; after a kernel region, the one array the region writes at what
  its pipeline leaves there (the write-backs of its ten points, folded) and every other buffer as it was. Then the
  generated valuations, which are written over unknown region outputs, are these at the outputs read off this fold;
  every pipeline's proof data at its region's entry contents; and, per region, that its arrays end at the exit
  contents (the inputs untouched, the output at the fold) while no other buffer moves.
-/
import proofs.«413962_j523986010479_1_alg».proof.Proof.KRegions
import proofs.«413962_j523986010479_1_alg».proof.Proof.KReg0
import proofs.«413962_j523986010479_1_alg».proof.Proof.KReg1
import proofs.«413962_j523986010479_1_alg».proof.Proof.KReg2
import proofs.«413962_j523986010479_1_alg».proof.Proof.KReg3
import proofs.«413962_j523986010479_1_alg».proof.Proof.KReg4
import proofs.«413962_j523986010479_1_alg».proof.Proof.KReg5
import proofs.«413962_j523986010479_1_alg».proof.Proof.KReg6
import proofs.«413962_j523986010479_1_alg».proof.Proof.KReg7
import proofs.«413962_j523986010479_1_alg».proof.Proof.KReg8
import proofs.«413962_j523986010479_1_alg».proof.Proof.KReg9
import proofs.«413962_j523986010479_1_alg».proof.Proof.KReg10
import proofs.«413962_j523986010479_1_alg».proof.Proof.KReg11
import proofs.«413962_j523986010479_1_alg».proof.Proof.KReg12
import proofs.«413962_j523986010479_1_alg».proof.Proof.KReg13
import proofs.«413962_j523986010479_1_alg».proof.Proof.KReg14
import proofs.«413962_j523986010479_1_alg».proof.Proof.KReg15

set_option maxRecDepth 16384

noncomputable section

namespace Cert.Kernel.Hand

open Cert.Kernel Cert.Kernel.Gen Cert.Kernel.GenP
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The launch memory, read on core c. -/
def W0 (c : Dev nD) : Valuation τ sig (Elt F) := fun b => m (c, b)

/-- After item 0, the host stretch hostOps0. -/
def W1 (c : Dev nD) : Valuation τ sig (Elt F) := StableHlo.after hostOps0 (W0 m c)
/-- After item 1, region 0: main_v18 at what the pipeline leaves there, the rest as entered. -/
def W2 (c : Dev nD) : Valuation τ sig (Elt F) :=
  Function.update (W1 m c) main_v18 ((dat0 (fun c b => W1 m c b) c).arrAt 2 cfg0.N)
/-- After item 2, the host stretch hostOps1. -/
def W3 (c : Dev nD) : Valuation τ sig (Elt F) := StableHlo.after hostOps1 (W2 m c)
/-- After item 3, the host stretch hostOps1_1. -/
def W4 (c : Dev nD) : Valuation τ sig (Elt F) := StableHlo.after hostOps1_1 (W3 m c)
/-- After item 4, region 1: main_v24 at what the pipeline leaves there, the rest as entered. -/
def W5 (c : Dev nD) : Valuation τ sig (Elt F) :=
  Function.update (W4 m c) main_v24 ((dat1 (fun c b => W4 m c b) c).arrAt 4 cfg1.N)
/-- After item 5, region 2: main_v25 at what the pipeline leaves there, the rest as entered. -/
def W6 (c : Dev nD) : Valuation τ sig (Elt F) :=
  Function.update (W5 m c) main_v25 ((dat2 (fun c b => W5 m c b) c).arrAt 2 cfg2.N)
/-- After item 6, the host stretch hostOps3. -/
def W7 (c : Dev nD) : Valuation τ sig (Elt F) := StableHlo.after hostOps3 (W6 m c)
/-- After item 7, the host stretch hostOps3_1. -/
def W8 (c : Dev nD) : Valuation τ sig (Elt F) := StableHlo.after hostOps3_1 (W7 m c)
/-- After item 8, region 3: main_v31 at what the pipeline leaves there, the rest as entered. -/
def W9 (c : Dev nD) : Valuation τ sig (Elt F) :=
  Function.update (W8 m c) main_v31 ((dat3 (fun c b => W8 m c b) c).arrAt 4 cfg3.N)
/-- After item 9, the host stretch hostOps4. -/
def W10 (c : Dev nD) : Valuation τ sig (Elt F) := StableHlo.after hostOps4 (W9 m c)
/-- After item 10, region 4: main_v50 at what the pipeline leaves there, the rest as entered. -/
def W11 (c : Dev nD) : Valuation τ sig (Elt F) :=
  Function.update (W10 m c) main_v50 ((dat4 (fun c b => W10 m c b) c).arrAt 2 cfg4.N)
/-- After item 11, the host stretch hostOps5. -/
def W12 (c : Dev nD) : Valuation τ sig (Elt F) := StableHlo.after hostOps5 (W11 m c)
/-- After item 12, the host stretch hostOps5_1. -/
def W13 (c : Dev nD) : Valuation τ sig (Elt F) := StableHlo.after hostOps5_1 (W12 m c)
/-- After item 13, region 5: main_v56 at what the pipeline leaves there, the rest as entered. -/
def W14 (c : Dev nD) : Valuation τ sig (Elt F) :=
  Function.update (W13 m c) main_v56 ((dat5 (fun c b => W13 m c b) c).arrAt 4 cfg5.N)
/-- After item 14, region 6: main_v57 at what the pipeline leaves there, the rest as entered. -/
def W15 (c : Dev nD) : Valuation τ sig (Elt F) :=
  Function.update (W14 m c) main_v57 ((dat6 (fun c b => W14 m c b) c).arrAt 2 cfg6.N)
/-- After item 15, the host stretch hostOps7. -/
def W16 (c : Dev nD) : Valuation τ sig (Elt F) := StableHlo.after hostOps7 (W15 m c)
/-- After item 16, the host stretch hostOps7_1. -/
def W17 (c : Dev nD) : Valuation τ sig (Elt F) := StableHlo.after hostOps7_1 (W16 m c)
/-- After item 17, region 7: main_v63 at what the pipeline leaves there, the rest as entered. -/
def W18 (c : Dev nD) : Valuation τ sig (Elt F) :=
  Function.update (W17 m c) main_v63 ((dat7 (fun c b => W17 m c b) c).arrAt 4 cfg7.N)
/-- After item 18, the host stretch hostOps8. -/
def W19 (c : Dev nD) : Valuation τ sig (Elt F) := StableHlo.after hostOps8 (W18 m c)
/-- After item 19, region 8: main_v82 at what the pipeline leaves there, the rest as entered. -/
def W20 (c : Dev nD) : Valuation τ sig (Elt F) :=
  Function.update (W19 m c) main_v82 ((dat8 (fun c b => W19 m c b) c).arrAt 2 cfg8.N)
/-- After item 20, the host stretch hostOps9. -/
def W21 (c : Dev nD) : Valuation τ sig (Elt F) := StableHlo.after hostOps9 (W20 m c)
/-- After item 21, the host stretch hostOps9_1. -/
def W22 (c : Dev nD) : Valuation τ sig (Elt F) := StableHlo.after hostOps9_1 (W21 m c)
/-- After item 22, region 9: main_v88 at what the pipeline leaves there, the rest as entered. -/
def W23 (c : Dev nD) : Valuation τ sig (Elt F) :=
  Function.update (W22 m c) main_v88 ((dat9 (fun c b => W22 m c b) c).arrAt 4 cfg9.N)
/-- After item 23, region 10: main_v89 at what the pipeline leaves there, the rest as entered. -/
def W24 (c : Dev nD) : Valuation τ sig (Elt F) :=
  Function.update (W23 m c) main_v89 ((dat10 (fun c b => W23 m c b) c).arrAt 2 cfg10.N)
/-- After item 24, the host stretch hostOps11. -/
def W25 (c : Dev nD) : Valuation τ sig (Elt F) := StableHlo.after hostOps11 (W24 m c)
/-- After item 25, the host stretch hostOps11_1. -/
def W26 (c : Dev nD) : Valuation τ sig (Elt F) := StableHlo.after hostOps11_1 (W25 m c)
/-- After item 26, region 11: main_v95 at what the pipeline leaves there, the rest as entered. -/
def W27 (c : Dev nD) : Valuation τ sig (Elt F) :=
  Function.update (W26 m c) main_v95 ((dat11 (fun c b => W26 m c b) c).arrAt 4 cfg11.N)
/-- After item 27, the host stretch hostOps12. -/
def W28 (c : Dev nD) : Valuation τ sig (Elt F) := StableHlo.after hostOps12 (W27 m c)
/-- After item 28, region 12: main_v114 at what the pipeline leaves there, the rest as entered. -/
def W29 (c : Dev nD) : Valuation τ sig (Elt F) :=
  Function.update (W28 m c) main_v114 ((dat12 (fun c b => W28 m c b) c).arrAt 2 cfg12.N)
/-- After item 29, the host stretch hostOps13. -/
def W30 (c : Dev nD) : Valuation τ sig (Elt F) := StableHlo.after hostOps13 (W29 m c)
/-- After item 30, the host stretch hostOps13_1. -/
def W31 (c : Dev nD) : Valuation τ sig (Elt F) := StableHlo.after hostOps13_1 (W30 m c)
/-- After item 31, region 13: main_v120 at what the pipeline leaves there, the rest as entered. -/
def W32 (c : Dev nD) : Valuation τ sig (Elt F) :=
  Function.update (W31 m c) main_v120 ((dat13 (fun c b => W31 m c b) c).arrAt 4 cfg13.N)
/-- After item 32, region 14: main_v121 at what the pipeline leaves there, the rest as entered. -/
def W33 (c : Dev nD) : Valuation τ sig (Elt F) :=
  Function.update (W32 m c) main_v121 ((dat14 (fun c b => W32 m c b) c).arrAt 2 cfg14.N)
/-- After item 33, the host stretch hostOps15. -/
def W34 (c : Dev nD) : Valuation τ sig (Elt F) := StableHlo.after hostOps15 (W33 m c)
/-- After item 34, the host stretch hostOps15_1. -/
def W35 (c : Dev nD) : Valuation τ sig (Elt F) := StableHlo.after hostOps15_1 (W34 m c)
/-- After item 35, region 15: main_v127 at what the pipeline leaves there, the rest as entered. -/
def W36 (c : Dev nD) : Valuation τ sig (Elt F) :=
  Function.update (W35 m c) main_v127 ((dat15 (fun c b => W35 m c b) c).arrAt 4 cfg15.N)
/-- After item 36, the host stretch hostOps16. -/
def W37 (c : Dev nD) : Valuation τ sig (Elt F) := StableHlo.after hostOps16 (W36 m c)

/-- The region outputs the generated valuations are written over, read off the fold. -/
def outsW : Outs (F := F) := fun J r c => match J with
  | 2 => W2 m c r
  | 5 => W5 m c r
  | 6 => W6 m c r
  | 9 => W9 m c r
  | 11 => W11 m c r
  | 14 => W14 m c r
  | 15 => W15 m c r
  | 18 => W18 m c r
  | 20 => W20 m c r
  | 23 => W23 m c r
  | 24 => W24 m c r
  | 27 => W27 m c r
  | 29 => W29 m c r
  | 32 => W32 m c r
  | 33 => W33 m c r
  | 36 => W36 m c r
  | _ => W0 m c r

/-! ## The generated valuations at those outputs are the fold -/

theorem V0_eq (c : Dev nD) : V0 m c = W0 m c := rfl
theorem V1_eq (c : Dev nD) : V1 m c = W1 m c := by
  show StableHlo.after hostOps0 (V0 m c) = W1 m c
  rw [V0_eq]; rfl
theorem V2_eq (c : Dev nD) : V2 m (outsW m) c = W2 m c := by
  show Function.update (V1 m c) main_v18 (W2 m c main_v18) = W2 m c
  rw [V1_eq]; unfold W2; rw [Function.update_self]
theorem V3_eq (c : Dev nD) : V3 m (outsW m) c = W3 m c := by
  show StableHlo.after hostOps1 (V2 m (outsW m) c) = W3 m c
  rw [V2_eq]; rfl
theorem V4_eq (c : Dev nD) : V4 m (outsW m) c = W4 m c := by
  show StableHlo.after hostOps1_1 (V3 m (outsW m) c) = W4 m c
  rw [V3_eq]; rfl
theorem V5_eq (c : Dev nD) : V5 m (outsW m) c = W5 m c := by
  show Function.update (V4 m (outsW m) c) main_v24 (W5 m c main_v24) = W5 m c
  rw [V4_eq]; unfold W5; rw [Function.update_self]
theorem V6_eq (c : Dev nD) : V6 m (outsW m) c = W6 m c := by
  show Function.update (V5 m (outsW m) c) main_v25 (W6 m c main_v25) = W6 m c
  rw [V5_eq]; unfold W6; rw [Function.update_self]
theorem V7_eq (c : Dev nD) : V7 m (outsW m) c = W7 m c := by
  show StableHlo.after hostOps3 (V6 m (outsW m) c) = W7 m c
  rw [V6_eq]; rfl
theorem V8_eq (c : Dev nD) : V8 m (outsW m) c = W8 m c := by
  show StableHlo.after hostOps3_1 (V7 m (outsW m) c) = W8 m c
  rw [V7_eq]; rfl
theorem V9_eq (c : Dev nD) : V9 m (outsW m) c = W9 m c := by
  show Function.update (V8 m (outsW m) c) main_v31 (W9 m c main_v31) = W9 m c
  rw [V8_eq]; unfold W9; rw [Function.update_self]
theorem V10_eq (c : Dev nD) : V10 m (outsW m) c = W10 m c := by
  show StableHlo.after hostOps4 (V9 m (outsW m) c) = W10 m c
  rw [V9_eq]; rfl
theorem V11_eq (c : Dev nD) : V11 m (outsW m) c = W11 m c := by
  show Function.update (V10 m (outsW m) c) main_v50 (W11 m c main_v50) = W11 m c
  rw [V10_eq]; unfold W11; rw [Function.update_self]
theorem V12_eq (c : Dev nD) : V12 m (outsW m) c = W12 m c := by
  show StableHlo.after hostOps5 (V11 m (outsW m) c) = W12 m c
  rw [V11_eq]; rfl
theorem V13_eq (c : Dev nD) : V13 m (outsW m) c = W13 m c := by
  show StableHlo.after hostOps5_1 (V12 m (outsW m) c) = W13 m c
  rw [V12_eq]; rfl
theorem V14_eq (c : Dev nD) : V14 m (outsW m) c = W14 m c := by
  show Function.update (V13 m (outsW m) c) main_v56 (W14 m c main_v56) = W14 m c
  rw [V13_eq]; unfold W14; rw [Function.update_self]
theorem V15_eq (c : Dev nD) : V15 m (outsW m) c = W15 m c := by
  show Function.update (V14 m (outsW m) c) main_v57 (W15 m c main_v57) = W15 m c
  rw [V14_eq]; unfold W15; rw [Function.update_self]
theorem V16_eq (c : Dev nD) : V16 m (outsW m) c = W16 m c := by
  show StableHlo.after hostOps7 (V15 m (outsW m) c) = W16 m c
  rw [V15_eq]; rfl
theorem V17_eq (c : Dev nD) : V17 m (outsW m) c = W17 m c := by
  show StableHlo.after hostOps7_1 (V16 m (outsW m) c) = W17 m c
  rw [V16_eq]; rfl
theorem V18_eq (c : Dev nD) : V18 m (outsW m) c = W18 m c := by
  show Function.update (V17 m (outsW m) c) main_v63 (W18 m c main_v63) = W18 m c
  rw [V17_eq]; unfold W18; rw [Function.update_self]
theorem V19_eq (c : Dev nD) : V19 m (outsW m) c = W19 m c := by
  show StableHlo.after hostOps8 (V18 m (outsW m) c) = W19 m c
  rw [V18_eq]; rfl
theorem V20_eq (c : Dev nD) : V20 m (outsW m) c = W20 m c := by
  show Function.update (V19 m (outsW m) c) main_v82 (W20 m c main_v82) = W20 m c
  rw [V19_eq]; unfold W20; rw [Function.update_self]
theorem V21_eq (c : Dev nD) : V21 m (outsW m) c = W21 m c := by
  show StableHlo.after hostOps9 (V20 m (outsW m) c) = W21 m c
  rw [V20_eq]; rfl
theorem V22_eq (c : Dev nD) : V22 m (outsW m) c = W22 m c := by
  show StableHlo.after hostOps9_1 (V21 m (outsW m) c) = W22 m c
  rw [V21_eq]; rfl
theorem V23_eq (c : Dev nD) : V23 m (outsW m) c = W23 m c := by
  show Function.update (V22 m (outsW m) c) main_v88 (W23 m c main_v88) = W23 m c
  rw [V22_eq]; unfold W23; rw [Function.update_self]
theorem V24_eq (c : Dev nD) : V24 m (outsW m) c = W24 m c := by
  show Function.update (V23 m (outsW m) c) main_v89 (W24 m c main_v89) = W24 m c
  rw [V23_eq]; unfold W24; rw [Function.update_self]
theorem V25_eq (c : Dev nD) : V25 m (outsW m) c = W25 m c := by
  show StableHlo.after hostOps11 (V24 m (outsW m) c) = W25 m c
  rw [V24_eq]; rfl
theorem V26_eq (c : Dev nD) : V26 m (outsW m) c = W26 m c := by
  show StableHlo.after hostOps11_1 (V25 m (outsW m) c) = W26 m c
  rw [V25_eq]; rfl
theorem V27_eq (c : Dev nD) : V27 m (outsW m) c = W27 m c := by
  show Function.update (V26 m (outsW m) c) main_v95 (W27 m c main_v95) = W27 m c
  rw [V26_eq]; unfold W27; rw [Function.update_self]
theorem V28_eq (c : Dev nD) : V28 m (outsW m) c = W28 m c := by
  show StableHlo.after hostOps12 (V27 m (outsW m) c) = W28 m c
  rw [V27_eq]; rfl
theorem V29_eq (c : Dev nD) : V29 m (outsW m) c = W29 m c := by
  show Function.update (V28 m (outsW m) c) main_v114 (W29 m c main_v114) = W29 m c
  rw [V28_eq]; unfold W29; rw [Function.update_self]
theorem V30_eq (c : Dev nD) : V30 m (outsW m) c = W30 m c := by
  show StableHlo.after hostOps13 (V29 m (outsW m) c) = W30 m c
  rw [V29_eq]; rfl
theorem V31_eq (c : Dev nD) : V31 m (outsW m) c = W31 m c := by
  show StableHlo.after hostOps13_1 (V30 m (outsW m) c) = W31 m c
  rw [V30_eq]; rfl
theorem V32_eq (c : Dev nD) : V32 m (outsW m) c = W32 m c := by
  show Function.update (V31 m (outsW m) c) main_v120 (W32 m c main_v120) = W32 m c
  rw [V31_eq]; unfold W32; rw [Function.update_self]
theorem V33_eq (c : Dev nD) : V33 m (outsW m) c = W33 m c := by
  show Function.update (V32 m (outsW m) c) main_v121 (W33 m c main_v121) = W33 m c
  rw [V32_eq]; unfold W33; rw [Function.update_self]
theorem V34_eq (c : Dev nD) : V34 m (outsW m) c = W34 m c := by
  show StableHlo.after hostOps15 (V33 m (outsW m) c) = W34 m c
  rw [V33_eq]; rfl
theorem V35_eq (c : Dev nD) : V35 m (outsW m) c = W35 m c := by
  show StableHlo.after hostOps15_1 (V34 m (outsW m) c) = W35 m c
  rw [V34_eq]; rfl
theorem V36_eq (c : Dev nD) : V36 m (outsW m) c = W36 m c := by
  show Function.update (V35 m (outsW m) c) main_v127 (W36 m c main_v127) = W36 m c
  rw [V35_eq]; unfold W36; rw [Function.update_self]
theorem V37_eq (c : Dev nD) : V37 m (outsW m) c = W37 m c := by
  show StableHlo.after hostOps16 (V36 m (outsW m) c) = W37 m c
  rw [V36_eq]; rfl

/-! ## Every pipeline's proof data, at its region's entry contents -/

def pdats : (p : Fin 16) → (c : Dev nD) → Dat τ (Elt F) Unit ℕ (UR sig nD τ) ℕ (cfgs p) c
  | ⟨0, _⟩ => fun c => dat0 (fun c b => W1 m c b) c
  | ⟨1, _⟩ => fun c => dat1 (fun c b => W4 m c b) c
  | ⟨2, _⟩ => fun c => dat2 (fun c b => W5 m c b) c
  | ⟨3, _⟩ => fun c => dat3 (fun c b => W8 m c b) c
  | ⟨4, _⟩ => fun c => dat4 (fun c b => W10 m c b) c
  | ⟨5, _⟩ => fun c => dat5 (fun c b => W13 m c b) c
  | ⟨6, _⟩ => fun c => dat6 (fun c b => W14 m c b) c
  | ⟨7, _⟩ => fun c => dat7 (fun c b => W17 m c b) c
  | ⟨8, _⟩ => fun c => dat8 (fun c b => W19 m c b) c
  | ⟨9, _⟩ => fun c => dat9 (fun c b => W22 m c b) c
  | ⟨10, _⟩ => fun c => dat10 (fun c b => W23 m c b) c
  | ⟨11, _⟩ => fun c => dat11 (fun c b => W26 m c b) c
  | ⟨12, _⟩ => fun c => dat12 (fun c b => W28 m c b) c
  | ⟨13, _⟩ => fun c => dat13 (fun c b => W31 m c b) c
  | ⟨14, _⟩ => fun c => dat14 (fun c b => W32 m c b) c
  | ⟨15, _⟩ => fun c => dat15 (fun c b => W35 m c b) c
  | ⟨_ + 16, h⟩ => absurd h (Nat.not_lt.2 (Nat.le_add_left _ _))

/-! ## Per region: its arrays end at the exit contents, and nothing else moves -/

theorem W2_out (c : Dev nD) : W2 m c main_v18 = (dat0 (fun c b => W1 m c b) c).arrAt 2 cfg0.N := by
  unfold W2; rw [Function.update_self]
theorem W2_of_ne (c : Dev nD) (b : Ref sig .tc) (hb : b ≠ main_v18) : W2 m c b = W1 m c b := by
  unfold W2; rw [Function.update_of_ne (StableHlo.devRef_ne_of_ne hb)]
set_option maxHeartbeats 2000000 in
theorem hF0 (c : Dev nD) (w : Fin cfg0.W) : (dat0 (fun c b => W1 m c b) c).arrAt w cfg0.N = W2 m c (Pipeline.arrRef spec0 w) :=
  match w with
    | ⟨0, _⟩ => (((dat0 (fun c b => W1 m c b) c).arrAt_in 0 rfl _).trans (A_eq0 (fun c b => W1 m c b) c 0)).trans (W2_of_ne m c _ (by decide)).symm
    | ⟨1, _⟩ => (((dat0 (fun c b => W1 m c b) c).arrAt_in 1 rfl _).trans (A_eq0 (fun c b => W1 m c b) c 1)).trans (W2_of_ne m c _ (by decide)).symm
    | ⟨2, _⟩ => (W2_out m c).symm
theorem hrest0 (c : Dev nD) : ∀ b, b ∉ Finset.univ.image (Pipeline.arrRef spec0) → W2 m c b = W1 m c b :=
  fun b hb => W2_of_ne m c b fun e => hb (Finset.mem_image.mpr ⟨2, Finset.mem_univ _, e.symm⟩)

theorem W5_out (c : Dev nD) : W5 m c main_v24 = (dat1 (fun c b => W4 m c b) c).arrAt 4 cfg1.N := by
  unfold W5; rw [Function.update_self]
theorem W5_of_ne (c : Dev nD) (b : Ref sig .tc) (hb : b ≠ main_v24) : W5 m c b = W4 m c b := by
  unfold W5; rw [Function.update_of_ne (StableHlo.devRef_ne_of_ne hb)]
set_option maxHeartbeats 2000000 in
theorem hF1 (c : Dev nD) (w : Fin cfg1.W) : (dat1 (fun c b => W4 m c b) c).arrAt w cfg1.N = W5 m c (Pipeline.arrRef spec1 w) :=
  match w with
    | ⟨0, _⟩ => (((dat1 (fun c b => W4 m c b) c).arrAt_in 0 rfl _).trans (A_eq1 (fun c b => W4 m c b) c 0)).trans (W5_of_ne m c _ (by decide)).symm
    | ⟨1, _⟩ => (((dat1 (fun c b => W4 m c b) c).arrAt_in 1 rfl _).trans (A_eq1 (fun c b => W4 m c b) c 1)).trans (W5_of_ne m c _ (by decide)).symm
    | ⟨2, _⟩ => (((dat1 (fun c b => W4 m c b) c).arrAt_in 2 rfl _).trans (A_eq1 (fun c b => W4 m c b) c 2)).trans (W5_of_ne m c _ (by decide)).symm
    | ⟨3, _⟩ => (((dat1 (fun c b => W4 m c b) c).arrAt_in 3 rfl _).trans (A_eq1 (fun c b => W4 m c b) c 3)).trans (W5_of_ne m c _ (by decide)).symm
    | ⟨4, _⟩ => (W5_out m c).symm
theorem hrest1 (c : Dev nD) : ∀ b, b ∉ Finset.univ.image (Pipeline.arrRef spec1) → W5 m c b = W4 m c b :=
  fun b hb => W5_of_ne m c b fun e => hb (Finset.mem_image.mpr ⟨4, Finset.mem_univ _, e.symm⟩)

theorem W6_out (c : Dev nD) : W6 m c main_v25 = (dat2 (fun c b => W5 m c b) c).arrAt 2 cfg2.N := by
  unfold W6; rw [Function.update_self]
theorem W6_of_ne (c : Dev nD) (b : Ref sig .tc) (hb : b ≠ main_v25) : W6 m c b = W5 m c b := by
  unfold W6; rw [Function.update_of_ne (StableHlo.devRef_ne_of_ne hb)]
set_option maxHeartbeats 2000000 in
theorem hF2 (c : Dev nD) (w : Fin cfg2.W) : (dat2 (fun c b => W5 m c b) c).arrAt w cfg2.N = W6 m c (Pipeline.arrRef spec2 w) :=
  match w with
    | ⟨0, _⟩ => (((dat2 (fun c b => W5 m c b) c).arrAt_in 0 rfl _).trans (A_eq2 (fun c b => W5 m c b) c 0)).trans (W6_of_ne m c _ (by decide)).symm
    | ⟨1, _⟩ => (((dat2 (fun c b => W5 m c b) c).arrAt_in 1 rfl _).trans (A_eq2 (fun c b => W5 m c b) c 1)).trans (W6_of_ne m c _ (by decide)).symm
    | ⟨2, _⟩ => (W6_out m c).symm
theorem hrest2 (c : Dev nD) : ∀ b, b ∉ Finset.univ.image (Pipeline.arrRef spec2) → W6 m c b = W5 m c b :=
  fun b hb => W6_of_ne m c b fun e => hb (Finset.mem_image.mpr ⟨2, Finset.mem_univ _, e.symm⟩)

theorem W9_out (c : Dev nD) : W9 m c main_v31 = (dat3 (fun c b => W8 m c b) c).arrAt 4 cfg3.N := by
  unfold W9; rw [Function.update_self]
theorem W9_of_ne (c : Dev nD) (b : Ref sig .tc) (hb : b ≠ main_v31) : W9 m c b = W8 m c b := by
  unfold W9; rw [Function.update_of_ne (StableHlo.devRef_ne_of_ne hb)]
set_option maxHeartbeats 2000000 in
theorem hF3 (c : Dev nD) (w : Fin cfg3.W) : (dat3 (fun c b => W8 m c b) c).arrAt w cfg3.N = W9 m c (Pipeline.arrRef spec3 w) :=
  match w with
    | ⟨0, _⟩ => (((dat3 (fun c b => W8 m c b) c).arrAt_in 0 rfl _).trans (A_eq3 (fun c b => W8 m c b) c 0)).trans (W9_of_ne m c _ (by decide)).symm
    | ⟨1, _⟩ => (((dat3 (fun c b => W8 m c b) c).arrAt_in 1 rfl _).trans (A_eq3 (fun c b => W8 m c b) c 1)).trans (W9_of_ne m c _ (by decide)).symm
    | ⟨2, _⟩ => (((dat3 (fun c b => W8 m c b) c).arrAt_in 2 rfl _).trans (A_eq3 (fun c b => W8 m c b) c 2)).trans (W9_of_ne m c _ (by decide)).symm
    | ⟨3, _⟩ => (((dat3 (fun c b => W8 m c b) c).arrAt_in 3 rfl _).trans (A_eq3 (fun c b => W8 m c b) c 3)).trans (W9_of_ne m c _ (by decide)).symm
    | ⟨4, _⟩ => (W9_out m c).symm
theorem hrest3 (c : Dev nD) : ∀ b, b ∉ Finset.univ.image (Pipeline.arrRef spec3) → W9 m c b = W8 m c b :=
  fun b hb => W9_of_ne m c b fun e => hb (Finset.mem_image.mpr ⟨4, Finset.mem_univ _, e.symm⟩)

theorem W11_out (c : Dev nD) : W11 m c main_v50 = (dat4 (fun c b => W10 m c b) c).arrAt 2 cfg4.N := by
  unfold W11; rw [Function.update_self]
theorem W11_of_ne (c : Dev nD) (b : Ref sig .tc) (hb : b ≠ main_v50) : W11 m c b = W10 m c b := by
  unfold W11; rw [Function.update_of_ne (StableHlo.devRef_ne_of_ne hb)]
set_option maxHeartbeats 2000000 in
theorem hF4 (c : Dev nD) (w : Fin cfg4.W) : (dat4 (fun c b => W10 m c b) c).arrAt w cfg4.N = W11 m c (Pipeline.arrRef spec4 w) :=
  match w with
    | ⟨0, _⟩ => (((dat4 (fun c b => W10 m c b) c).arrAt_in 0 rfl _).trans (A_eq4 (fun c b => W10 m c b) c 0)).trans (W11_of_ne m c _ (by decide)).symm
    | ⟨1, _⟩ => (((dat4 (fun c b => W10 m c b) c).arrAt_in 1 rfl _).trans (A_eq4 (fun c b => W10 m c b) c 1)).trans (W11_of_ne m c _ (by decide)).symm
    | ⟨2, _⟩ => (W11_out m c).symm
theorem hrest4 (c : Dev nD) : ∀ b, b ∉ Finset.univ.image (Pipeline.arrRef spec4) → W11 m c b = W10 m c b :=
  fun b hb => W11_of_ne m c b fun e => hb (Finset.mem_image.mpr ⟨2, Finset.mem_univ _, e.symm⟩)

theorem W14_out (c : Dev nD) : W14 m c main_v56 = (dat5 (fun c b => W13 m c b) c).arrAt 4 cfg5.N := by
  unfold W14; rw [Function.update_self]
theorem W14_of_ne (c : Dev nD) (b : Ref sig .tc) (hb : b ≠ main_v56) : W14 m c b = W13 m c b := by
  unfold W14; rw [Function.update_of_ne (StableHlo.devRef_ne_of_ne hb)]
set_option maxHeartbeats 2000000 in
theorem hF5 (c : Dev nD) (w : Fin cfg5.W) : (dat5 (fun c b => W13 m c b) c).arrAt w cfg5.N = W14 m c (Pipeline.arrRef spec5 w) :=
  match w with
    | ⟨0, _⟩ => (((dat5 (fun c b => W13 m c b) c).arrAt_in 0 rfl _).trans (A_eq5 (fun c b => W13 m c b) c 0)).trans (W14_of_ne m c _ (by decide)).symm
    | ⟨1, _⟩ => (((dat5 (fun c b => W13 m c b) c).arrAt_in 1 rfl _).trans (A_eq5 (fun c b => W13 m c b) c 1)).trans (W14_of_ne m c _ (by decide)).symm
    | ⟨2, _⟩ => (((dat5 (fun c b => W13 m c b) c).arrAt_in 2 rfl _).trans (A_eq5 (fun c b => W13 m c b) c 2)).trans (W14_of_ne m c _ (by decide)).symm
    | ⟨3, _⟩ => (((dat5 (fun c b => W13 m c b) c).arrAt_in 3 rfl _).trans (A_eq5 (fun c b => W13 m c b) c 3)).trans (W14_of_ne m c _ (by decide)).symm
    | ⟨4, _⟩ => (W14_out m c).symm
theorem hrest5 (c : Dev nD) : ∀ b, b ∉ Finset.univ.image (Pipeline.arrRef spec5) → W14 m c b = W13 m c b :=
  fun b hb => W14_of_ne m c b fun e => hb (Finset.mem_image.mpr ⟨4, Finset.mem_univ _, e.symm⟩)

theorem W15_out (c : Dev nD) : W15 m c main_v57 = (dat6 (fun c b => W14 m c b) c).arrAt 2 cfg6.N := by
  unfold W15; rw [Function.update_self]
theorem W15_of_ne (c : Dev nD) (b : Ref sig .tc) (hb : b ≠ main_v57) : W15 m c b = W14 m c b := by
  unfold W15; rw [Function.update_of_ne (StableHlo.devRef_ne_of_ne hb)]
set_option maxHeartbeats 2000000 in
theorem hF6 (c : Dev nD) (w : Fin cfg6.W) : (dat6 (fun c b => W14 m c b) c).arrAt w cfg6.N = W15 m c (Pipeline.arrRef spec6 w) :=
  match w with
    | ⟨0, _⟩ => (((dat6 (fun c b => W14 m c b) c).arrAt_in 0 rfl _).trans (A_eq6 (fun c b => W14 m c b) c 0)).trans (W15_of_ne m c _ (by decide)).symm
    | ⟨1, _⟩ => (((dat6 (fun c b => W14 m c b) c).arrAt_in 1 rfl _).trans (A_eq6 (fun c b => W14 m c b) c 1)).trans (W15_of_ne m c _ (by decide)).symm
    | ⟨2, _⟩ => (W15_out m c).symm
theorem hrest6 (c : Dev nD) : ∀ b, b ∉ Finset.univ.image (Pipeline.arrRef spec6) → W15 m c b = W14 m c b :=
  fun b hb => W15_of_ne m c b fun e => hb (Finset.mem_image.mpr ⟨2, Finset.mem_univ _, e.symm⟩)

theorem W18_out (c : Dev nD) : W18 m c main_v63 = (dat7 (fun c b => W17 m c b) c).arrAt 4 cfg7.N := by
  unfold W18; rw [Function.update_self]
theorem W18_of_ne (c : Dev nD) (b : Ref sig .tc) (hb : b ≠ main_v63) : W18 m c b = W17 m c b := by
  unfold W18; rw [Function.update_of_ne (StableHlo.devRef_ne_of_ne hb)]
set_option maxHeartbeats 2000000 in
theorem hF7 (c : Dev nD) (w : Fin cfg7.W) : (dat7 (fun c b => W17 m c b) c).arrAt w cfg7.N = W18 m c (Pipeline.arrRef spec7 w) :=
  match w with
    | ⟨0, _⟩ => (((dat7 (fun c b => W17 m c b) c).arrAt_in 0 rfl _).trans (A_eq7 (fun c b => W17 m c b) c 0)).trans (W18_of_ne m c _ (by decide)).symm
    | ⟨1, _⟩ => (((dat7 (fun c b => W17 m c b) c).arrAt_in 1 rfl _).trans (A_eq7 (fun c b => W17 m c b) c 1)).trans (W18_of_ne m c _ (by decide)).symm
    | ⟨2, _⟩ => (((dat7 (fun c b => W17 m c b) c).arrAt_in 2 rfl _).trans (A_eq7 (fun c b => W17 m c b) c 2)).trans (W18_of_ne m c _ (by decide)).symm
    | ⟨3, _⟩ => (((dat7 (fun c b => W17 m c b) c).arrAt_in 3 rfl _).trans (A_eq7 (fun c b => W17 m c b) c 3)).trans (W18_of_ne m c _ (by decide)).symm
    | ⟨4, _⟩ => (W18_out m c).symm
theorem hrest7 (c : Dev nD) : ∀ b, b ∉ Finset.univ.image (Pipeline.arrRef spec7) → W18 m c b = W17 m c b :=
  fun b hb => W18_of_ne m c b fun e => hb (Finset.mem_image.mpr ⟨4, Finset.mem_univ _, e.symm⟩)

theorem W20_out (c : Dev nD) : W20 m c main_v82 = (dat8 (fun c b => W19 m c b) c).arrAt 2 cfg8.N := by
  unfold W20; rw [Function.update_self]
theorem W20_of_ne (c : Dev nD) (b : Ref sig .tc) (hb : b ≠ main_v82) : W20 m c b = W19 m c b := by
  unfold W20; rw [Function.update_of_ne (StableHlo.devRef_ne_of_ne hb)]
set_option maxHeartbeats 2000000 in
theorem hF8 (c : Dev nD) (w : Fin cfg8.W) : (dat8 (fun c b => W19 m c b) c).arrAt w cfg8.N = W20 m c (Pipeline.arrRef spec8 w) :=
  match w with
    | ⟨0, _⟩ => (((dat8 (fun c b => W19 m c b) c).arrAt_in 0 rfl _).trans (A_eq8 (fun c b => W19 m c b) c 0)).trans (W20_of_ne m c _ (by decide)).symm
    | ⟨1, _⟩ => (((dat8 (fun c b => W19 m c b) c).arrAt_in 1 rfl _).trans (A_eq8 (fun c b => W19 m c b) c 1)).trans (W20_of_ne m c _ (by decide)).symm
    | ⟨2, _⟩ => (W20_out m c).symm
theorem hrest8 (c : Dev nD) : ∀ b, b ∉ Finset.univ.image (Pipeline.arrRef spec8) → W20 m c b = W19 m c b :=
  fun b hb => W20_of_ne m c b fun e => hb (Finset.mem_image.mpr ⟨2, Finset.mem_univ _, e.symm⟩)

theorem W23_out (c : Dev nD) : W23 m c main_v88 = (dat9 (fun c b => W22 m c b) c).arrAt 4 cfg9.N := by
  unfold W23; rw [Function.update_self]
theorem W23_of_ne (c : Dev nD) (b : Ref sig .tc) (hb : b ≠ main_v88) : W23 m c b = W22 m c b := by
  unfold W23; rw [Function.update_of_ne (StableHlo.devRef_ne_of_ne hb)]
set_option maxHeartbeats 2000000 in
theorem hF9 (c : Dev nD) (w : Fin cfg9.W) : (dat9 (fun c b => W22 m c b) c).arrAt w cfg9.N = W23 m c (Pipeline.arrRef spec9 w) :=
  match w with
    | ⟨0, _⟩ => (((dat9 (fun c b => W22 m c b) c).arrAt_in 0 rfl _).trans (A_eq9 (fun c b => W22 m c b) c 0)).trans (W23_of_ne m c _ (by decide)).symm
    | ⟨1, _⟩ => (((dat9 (fun c b => W22 m c b) c).arrAt_in 1 rfl _).trans (A_eq9 (fun c b => W22 m c b) c 1)).trans (W23_of_ne m c _ (by decide)).symm
    | ⟨2, _⟩ => (((dat9 (fun c b => W22 m c b) c).arrAt_in 2 rfl _).trans (A_eq9 (fun c b => W22 m c b) c 2)).trans (W23_of_ne m c _ (by decide)).symm
    | ⟨3, _⟩ => (((dat9 (fun c b => W22 m c b) c).arrAt_in 3 rfl _).trans (A_eq9 (fun c b => W22 m c b) c 3)).trans (W23_of_ne m c _ (by decide)).symm
    | ⟨4, _⟩ => (W23_out m c).symm
theorem hrest9 (c : Dev nD) : ∀ b, b ∉ Finset.univ.image (Pipeline.arrRef spec9) → W23 m c b = W22 m c b :=
  fun b hb => W23_of_ne m c b fun e => hb (Finset.mem_image.mpr ⟨4, Finset.mem_univ _, e.symm⟩)

theorem W24_out (c : Dev nD) : W24 m c main_v89 = (dat10 (fun c b => W23 m c b) c).arrAt 2 cfg10.N := by
  unfold W24; rw [Function.update_self]
theorem W24_of_ne (c : Dev nD) (b : Ref sig .tc) (hb : b ≠ main_v89) : W24 m c b = W23 m c b := by
  unfold W24; rw [Function.update_of_ne (StableHlo.devRef_ne_of_ne hb)]
set_option maxHeartbeats 2000000 in
theorem hF10 (c : Dev nD) (w : Fin cfg10.W) : (dat10 (fun c b => W23 m c b) c).arrAt w cfg10.N = W24 m c (Pipeline.arrRef spec10 w) :=
  match w with
    | ⟨0, _⟩ => (((dat10 (fun c b => W23 m c b) c).arrAt_in 0 rfl _).trans (A_eq10 (fun c b => W23 m c b) c 0)).trans (W24_of_ne m c _ (by decide)).symm
    | ⟨1, _⟩ => (((dat10 (fun c b => W23 m c b) c).arrAt_in 1 rfl _).trans (A_eq10 (fun c b => W23 m c b) c 1)).trans (W24_of_ne m c _ (by decide)).symm
    | ⟨2, _⟩ => (W24_out m c).symm
theorem hrest10 (c : Dev nD) : ∀ b, b ∉ Finset.univ.image (Pipeline.arrRef spec10) → W24 m c b = W23 m c b :=
  fun b hb => W24_of_ne m c b fun e => hb (Finset.mem_image.mpr ⟨2, Finset.mem_univ _, e.symm⟩)

theorem W27_out (c : Dev nD) : W27 m c main_v95 = (dat11 (fun c b => W26 m c b) c).arrAt 4 cfg11.N := by
  unfold W27; rw [Function.update_self]
theorem W27_of_ne (c : Dev nD) (b : Ref sig .tc) (hb : b ≠ main_v95) : W27 m c b = W26 m c b := by
  unfold W27; rw [Function.update_of_ne (StableHlo.devRef_ne_of_ne hb)]
set_option maxHeartbeats 2000000 in
theorem hF11 (c : Dev nD) (w : Fin cfg11.W) : (dat11 (fun c b => W26 m c b) c).arrAt w cfg11.N = W27 m c (Pipeline.arrRef spec11 w) :=
  match w with
    | ⟨0, _⟩ => (((dat11 (fun c b => W26 m c b) c).arrAt_in 0 rfl _).trans (A_eq11 (fun c b => W26 m c b) c 0)).trans (W27_of_ne m c _ (by decide)).symm
    | ⟨1, _⟩ => (((dat11 (fun c b => W26 m c b) c).arrAt_in 1 rfl _).trans (A_eq11 (fun c b => W26 m c b) c 1)).trans (W27_of_ne m c _ (by decide)).symm
    | ⟨2, _⟩ => (((dat11 (fun c b => W26 m c b) c).arrAt_in 2 rfl _).trans (A_eq11 (fun c b => W26 m c b) c 2)).trans (W27_of_ne m c _ (by decide)).symm
    | ⟨3, _⟩ => (((dat11 (fun c b => W26 m c b) c).arrAt_in 3 rfl _).trans (A_eq11 (fun c b => W26 m c b) c 3)).trans (W27_of_ne m c _ (by decide)).symm
    | ⟨4, _⟩ => (W27_out m c).symm
theorem hrest11 (c : Dev nD) : ∀ b, b ∉ Finset.univ.image (Pipeline.arrRef spec11) → W27 m c b = W26 m c b :=
  fun b hb => W27_of_ne m c b fun e => hb (Finset.mem_image.mpr ⟨4, Finset.mem_univ _, e.symm⟩)

theorem W29_out (c : Dev nD) : W29 m c main_v114 = (dat12 (fun c b => W28 m c b) c).arrAt 2 cfg12.N := by
  unfold W29; rw [Function.update_self]
theorem W29_of_ne (c : Dev nD) (b : Ref sig .tc) (hb : b ≠ main_v114) : W29 m c b = W28 m c b := by
  unfold W29; rw [Function.update_of_ne (StableHlo.devRef_ne_of_ne hb)]
set_option maxHeartbeats 2000000 in
theorem hF12 (c : Dev nD) (w : Fin cfg12.W) : (dat12 (fun c b => W28 m c b) c).arrAt w cfg12.N = W29 m c (Pipeline.arrRef spec12 w) :=
  match w with
    | ⟨0, _⟩ => (((dat12 (fun c b => W28 m c b) c).arrAt_in 0 rfl _).trans (A_eq12 (fun c b => W28 m c b) c 0)).trans (W29_of_ne m c _ (by decide)).symm
    | ⟨1, _⟩ => (((dat12 (fun c b => W28 m c b) c).arrAt_in 1 rfl _).trans (A_eq12 (fun c b => W28 m c b) c 1)).trans (W29_of_ne m c _ (by decide)).symm
    | ⟨2, _⟩ => (W29_out m c).symm
theorem hrest12 (c : Dev nD) : ∀ b, b ∉ Finset.univ.image (Pipeline.arrRef spec12) → W29 m c b = W28 m c b :=
  fun b hb => W29_of_ne m c b fun e => hb (Finset.mem_image.mpr ⟨2, Finset.mem_univ _, e.symm⟩)

theorem W32_out (c : Dev nD) : W32 m c main_v120 = (dat13 (fun c b => W31 m c b) c).arrAt 4 cfg13.N := by
  unfold W32; rw [Function.update_self]
theorem W32_of_ne (c : Dev nD) (b : Ref sig .tc) (hb : b ≠ main_v120) : W32 m c b = W31 m c b := by
  unfold W32; rw [Function.update_of_ne (StableHlo.devRef_ne_of_ne hb)]
set_option maxHeartbeats 2000000 in
theorem hF13 (c : Dev nD) (w : Fin cfg13.W) : (dat13 (fun c b => W31 m c b) c).arrAt w cfg13.N = W32 m c (Pipeline.arrRef spec13 w) :=
  match w with
    | ⟨0, _⟩ => (((dat13 (fun c b => W31 m c b) c).arrAt_in 0 rfl _).trans (A_eq13 (fun c b => W31 m c b) c 0)).trans (W32_of_ne m c _ (by decide)).symm
    | ⟨1, _⟩ => (((dat13 (fun c b => W31 m c b) c).arrAt_in 1 rfl _).trans (A_eq13 (fun c b => W31 m c b) c 1)).trans (W32_of_ne m c _ (by decide)).symm
    | ⟨2, _⟩ => (((dat13 (fun c b => W31 m c b) c).arrAt_in 2 rfl _).trans (A_eq13 (fun c b => W31 m c b) c 2)).trans (W32_of_ne m c _ (by decide)).symm
    | ⟨3, _⟩ => (((dat13 (fun c b => W31 m c b) c).arrAt_in 3 rfl _).trans (A_eq13 (fun c b => W31 m c b) c 3)).trans (W32_of_ne m c _ (by decide)).symm
    | ⟨4, _⟩ => (W32_out m c).symm
theorem hrest13 (c : Dev nD) : ∀ b, b ∉ Finset.univ.image (Pipeline.arrRef spec13) → W32 m c b = W31 m c b :=
  fun b hb => W32_of_ne m c b fun e => hb (Finset.mem_image.mpr ⟨4, Finset.mem_univ _, e.symm⟩)

theorem W33_out (c : Dev nD) : W33 m c main_v121 = (dat14 (fun c b => W32 m c b) c).arrAt 2 cfg14.N := by
  unfold W33; rw [Function.update_self]
theorem W33_of_ne (c : Dev nD) (b : Ref sig .tc) (hb : b ≠ main_v121) : W33 m c b = W32 m c b := by
  unfold W33; rw [Function.update_of_ne (StableHlo.devRef_ne_of_ne hb)]
set_option maxHeartbeats 2000000 in
theorem hF14 (c : Dev nD) (w : Fin cfg14.W) : (dat14 (fun c b => W32 m c b) c).arrAt w cfg14.N = W33 m c (Pipeline.arrRef spec14 w) :=
  match w with
    | ⟨0, _⟩ => (((dat14 (fun c b => W32 m c b) c).arrAt_in 0 rfl _).trans (A_eq14 (fun c b => W32 m c b) c 0)).trans (W33_of_ne m c _ (by decide)).symm
    | ⟨1, _⟩ => (((dat14 (fun c b => W32 m c b) c).arrAt_in 1 rfl _).trans (A_eq14 (fun c b => W32 m c b) c 1)).trans (W33_of_ne m c _ (by decide)).symm
    | ⟨2, _⟩ => (W33_out m c).symm
theorem hrest14 (c : Dev nD) : ∀ b, b ∉ Finset.univ.image (Pipeline.arrRef spec14) → W33 m c b = W32 m c b :=
  fun b hb => W33_of_ne m c b fun e => hb (Finset.mem_image.mpr ⟨2, Finset.mem_univ _, e.symm⟩)

theorem W36_out (c : Dev nD) : W36 m c main_v127 = (dat15 (fun c b => W35 m c b) c).arrAt 4 cfg15.N := by
  unfold W36; rw [Function.update_self]
theorem W36_of_ne (c : Dev nD) (b : Ref sig .tc) (hb : b ≠ main_v127) : W36 m c b = W35 m c b := by
  unfold W36; rw [Function.update_of_ne (StableHlo.devRef_ne_of_ne hb)]
set_option maxHeartbeats 2000000 in
theorem hF15 (c : Dev nD) (w : Fin cfg15.W) : (dat15 (fun c b => W35 m c b) c).arrAt w cfg15.N = W36 m c (Pipeline.arrRef spec15 w) :=
  match w with
    | ⟨0, _⟩ => (((dat15 (fun c b => W35 m c b) c).arrAt_in 0 rfl _).trans (A_eq15 (fun c b => W35 m c b) c 0)).trans (W36_of_ne m c _ (by decide)).symm
    | ⟨1, _⟩ => (((dat15 (fun c b => W35 m c b) c).arrAt_in 1 rfl _).trans (A_eq15 (fun c b => W35 m c b) c 1)).trans (W36_of_ne m c _ (by decide)).symm
    | ⟨2, _⟩ => (((dat15 (fun c b => W35 m c b) c).arrAt_in 2 rfl _).trans (A_eq15 (fun c b => W35 m c b) c 2)).trans (W36_of_ne m c _ (by decide)).symm
    | ⟨3, _⟩ => (((dat15 (fun c b => W35 m c b) c).arrAt_in 3 rfl _).trans (A_eq15 (fun c b => W35 m c b) c 3)).trans (W36_of_ne m c _ (by decide)).symm
    | ⟨4, _⟩ => (W36_out m c).symm
theorem hrest15 (c : Dev nD) : ∀ b, b ∉ Finset.univ.image (Pipeline.arrRef spec15) → W36 m c b = W35 m c b :=
  fun b hb => W36_of_ne m c b fun e => hb (Finset.mem_image.mpr ⟨4, Finset.mem_univ _, e.symm⟩)

end Cert.Kernel.Hand

end
-- ==== Proof.KSegs.lean ====
import proofs.«413962_j523986010479_1_alg».proof.Proof.KFold

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- A kernel region as a segment of the run: entered with every unscoped buffer whole at Wa, left with them at Wb.
set_option backward.isDefEq.respectTransparency.types false in
def mkReg (p : Fin 16) (lf : Pipeline.LaunchFacts (nD := nD) (τ := τ) cfgs p) (Wa Wb : Dev nD → Valuation τ sig (Elt F))
    (hb : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hΦ : ∀ c j, (pdats m p c).Φ j = Pipeline.ΦA (pcfgs (F := F) p).spec c)
    (hA : ∀ c w, (pdats m p c).A w = Wa c (Pipeline.arrRef (pcfgs (F := F) p).spec w))
    (hF : ∀ c w, (pdats m p c).arrAt w (cfgs p).N = Wb c (Pipeline.arrRef (pcfgs (F := F) p).spec w))
    (hrest : ∀ c b, b ∉ Finset.univ.image (Pipeline.arrRef (pcfgs (F := F) p).spec) → Wb c b = Wa c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wa c b)
  hentry c := by
    rw [Pipeline.ownSems0_none]
    have hsplit := Pipeline.arrays_of_unscopedBufs (p := p) (pcfgs (F := F)) adm (pdats m) lf.win lf.arr_whole c
      ((pdats m p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl ((hrec c 0).symm ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wa c b) (fun b => Wb c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
def reg0 : Pipeline.RegionSeg (pcfgs (F := F)) adm (pdats m) () defs₀ 𝒱₀ L lv 0 :=
  mkReg m 0 launch0 (W1 m) (W2 m) (fun c => body_obligation0 (fun c b => W1 m c b) c) (fun _ _ => rfl) (fun _ _ => rfl) (fun _ _ => rfl) (fun _ _ => rfl) (fun _ _ => rfl) (hF0 m) (hrest0 m)
set_option backward.isDefEq.respectTransparency.types false in
def reg1 : Pipeline.RegionSeg (pcfgs (F := F)) adm (pdats m) () defs₀ 𝒱₀ L lv 1 :=
  mkReg m 1 launch1 (W4 m) (W5 m) (fun c => body_obligation1 (fun c b => W4 m c b) c) (fun _ _ => rfl) (fun _ _ => rfl) (fun _ _ => rfl) (fun _ _ => rfl) (fun _ _ => rfl) (hF1 m) (hrest1 m)
set_option backward.isDefEq.respectTransparency.types false in
def reg2 : Pipeline.RegionSeg (pcfgs (F := F)) adm (pdats m) () defs₀ 𝒱₀ L lv 2 :=
  mkReg m 2 launch2 (W5 m) (W6 m) (fun c => body_obligation2 (fun c b => W5 m c b) c) (fun _ _ => rfl) (fun _ _ => rfl) (fun _ _ => rfl) (fun _ _ => rfl) (fun _ _ => rfl) (hF2 m) (hrest2 m)
set_option backward.isDefEq.respectTransparency.types false in
def reg3 : Pipeline.RegionSeg (pcfgs (F := F)) adm (pdats m) () defs₀ 𝒱₀ L lv 3 :=
  mkReg m 3 launch3 (W8 m) (W9 m) (fun c => body_obligation3 (fun c b => W8 m c b) c) (fun _ _ => rfl) (fun _ _ => rfl) (fun _ _ => rfl) (fun _ _ => rfl) (fun _ _ => rfl) (hF3 m) (hrest3 m)
set_option backward.isDefEq.respectTransparency.types false in
def reg4 : Pipeline.RegionSeg (pcfgs (F := F)) adm (pdats m) () defs₀ 𝒱₀ L lv 4 :=
  mkReg m 4 launch4 (W10 m) (W11 m) (fun c => body_obligation4 (fun c b => W10 m c b) c) (fun _ _ => rfl) (fun _ _ => rfl) (fun _ _ => rfl) (fun _ _ => rfl) (fun _ _ => rfl) (hF4 m) (hrest4 m)
set_option backward.isDefEq.respectTransparency.types false in
def reg5 : Pipeline.RegionSeg (pcfgs (F := F)) adm (pdats m) () defs₀ 𝒱₀ L lv 5 :=
  mkReg m 5 launch5 (W13 m) (W14 m) (fun c => body_obligation5 (fun c b => W13 m c b) c) (fun _ _ => rfl) (fun _ _ => rfl) (fun _ _ => rfl) (fun _ _ => rfl) (fun _ _ => rfl) (hF5 m) (hrest5 m)
set_option backward.isDefEq.respectTransparency.types false in
def reg6 : Pipeline.RegionSeg (pcfgs (F := F)) adm (pdats m) () defs₀ 𝒱₀ L lv 6 :=
  mkReg m 6 launch6 (W14 m) (W15 m) (fun c => body_obligation6 (fun c b => W14 m c b) c) (fun _ _ => rfl) (fun _ _ => rfl) (fun _ _ => rfl) (fun _ _ => rfl) (fun _ _ => rfl) (hF6 m) (hrest6 m)
set_option backward.isDefEq.respectTransparency.types false in
def reg7 : Pipeline.RegionSeg (pcfgs (F := F)) adm (pdats m) () defs₀ 𝒱₀ L lv 7 :=
  mkReg m 7 launch7 (W17 m) (W18 m) (fun c => body_obligation7 (fun c b => W17 m c b) c) (fun _ _ => rfl) (fun _ _ => rfl) (fun _ _ => rfl) (fun _ _ => rfl) (fun _ _ => rfl) (hF7 m) (hrest7 m)
set_option backward.isDefEq.respectTransparency.types false in
def reg8 : Pipeline.RegionSeg (pcfgs (F := F)) adm (pdats m) () defs₀ 𝒱₀ L lv 8 :=
  mkReg m 8 launch8 (W19 m) (W20 m) (fun c => body_obligation8 (fun c b => W19 m c b) c) (fun _ _ => rfl) (fun _ _ => rfl) (fun _ _ => rfl) (fun _ _ => rfl) (fun _ _ => rfl) (hF8 m) (hrest8 m)
set_option backward.isDefEq.respectTransparency.types false in
def reg9 : Pipeline.RegionSeg (pcfgs (F := F)) adm (pdats m) () defs₀ 𝒱₀ L lv 9 :=
  mkReg m 9 launch9 (W22 m) (W23 m) (fun c => body_obligation9 (fun c b => W22 m c b) c) (fun _ _ => rfl) (fun _ _ => rfl) (fun _ _ => rfl) (fun _ _ => rfl) (fun _ _ => rfl) (hF9 m) (hrest9 m)
set_option backward.isDefEq.respectTransparency.types false in
def reg10 : Pipeline.RegionSeg (pcfgs (F := F)) adm (pdats m) () defs₀ 𝒱₀ L lv 10 :=
  mkReg m 10 launch10 (W23 m) (W24 m) (fun c => body_obligation10 (fun c b => W23 m c b) c) (fun _ _ => rfl) (fun _ _ => rfl) (fun _ _ => rfl) (fun _ _ => rfl) (fun _ _ => rfl) (hF10 m) (hrest10 m)
set_option backward.isDefEq.respectTransparency.types false in
def reg11 : Pipeline.RegionSeg (pcfgs (F := F)) adm (pdats m) () defs₀ 𝒱₀ L lv 11 :=
  mkReg m 11 launch11 (W26 m) (W27 m) (fun c => body_obligation11 (fun c b => W26 m c b) c) (fun _ _ => rfl) (fun _ _ => rfl) (fun _ _ => rfl) (fun _ _ => rfl) (fun _ _ => rfl) (hF11 m) (hrest11 m)
set_option backward.isDefEq.respectTransparency.types false in
def reg12 : Pipeline.RegionSeg (pcfgs (F := F)) adm (pdats m) () defs₀ 𝒱₀ L lv 12 :=
  mkReg m 12 launch12 (W28 m) (W29 m) (fun c => body_obligation12 (fun c b => W28 m c b) c) (fun _ _ => rfl) (fun _ _ => rfl) (fun _ _ => rfl) (fun _ _ => rfl) (fun _ _ => rfl) (hF12 m) (hrest12 m)
set_option backward.isDefEq.respectTransparency.types false in
def reg13 : Pipeline.RegionSeg (pcfgs (F := F)) adm (pdats m) () defs₀ 𝒱₀ L lv 13 :=
  mkReg m 13 launch13 (W31 m) (W32 m) (fun c => body_obligation13 (fun c b => W31 m c b) c) (fun _ _ => rfl) (fun _ _ => rfl) (fun _ _ => rfl) (fun _ _ => rfl) (fun _ _ => rfl) (hF13 m) (hrest13 m)
set_option backward.isDefEq.respectTransparency.types false in
def reg14 : Pipeline.RegionSeg (pcfgs (F := F)) adm (pdats m) () defs₀ 𝒱₀ L lv 14 :=
  mkReg m 14 launch14 (W32 m) (W33 m) (fun c => body_obligation14 (fun c b => W32 m c b) c) (fun _ _ => rfl) (fun _ _ => rfl) (fun _ _ => rfl) (fun _ _ => rfl) (fun _ _ => rfl) (hF14 m) (hrest14 m)
set_option backward.isDefEq.respectTransparency.types false in
def reg15 : Pipeline.RegionSeg (pcfgs (F := F)) adm (pdats m) () defs₀ 𝒱₀ L lv 15 :=
  mkReg m 15 launch15 (W35 m) (W36 m) (fun c => body_obligation15 (fun c b => W35 m c b) c) (fun _ _ => rfl) (fun _ _ => rfl) (fun _ _ => rfl) (fun _ _ => rfl) (fun _ _ => rfl) (hF15 m) (hrest15 m)

end Cert.Kernel.Hand

end
-- ==== Proof.KRun.lean ====
import proofs.«413962_j523986010479_1_alg».proof.Proof.KSegs

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rest : Fin 17 → Dev nD → sProp 𝕄 := fun _ c => R c

abbrev segsW (c : Dev nD) : List (Seg (pcfgs (F := F)) adm (pdats m) () defs₀ 𝒱₀ L lv) :=
  segs m (outsW m) 𝒱₀ L lv rest () (pdats m) (reg0 m) (reg1 m) (reg2 m) (reg3 m) (reg4 m) (reg5 m) (reg6 m) (reg7 m) (reg8 m) (reg9 m) (reg10 m) (reg11 m) (reg12 m) (reg13 m) (reg14 m) (reg15 m) c

theorem hpre (c : Dev nD) {V W : Valuation τ sig (Elt F)} (h : V = W) :
    (iprop(StableHlo.held (c : Thread nD τ) (Pipeline.ucRefs τ sig) V ∗ R c) : sProp 𝕄)
      ⊢ iprop(StableHlo.held (c : Thread nD τ) (Pipeline.ucRefs τ sig) W ∗ R c) := by
  subst h; exact .rfl

theorem hpost (c : Dev nD) {V W : Valuation τ sig (Elt F)} (h : V = W) :
    (iprop(StableHlo.held (c : Thread nD τ) (Pipeline.ucRefs τ sig) W ∗ R c) : sProp 𝕄)
      ⊢ iprop(StableHlo.held (c : Thread nD τ) (Pipeline.ucRefs τ sig) V ∗ R c) := by
  subst h; exact .rfl

theorem hlast (c : Dev nD) (V : Valuation τ sig (Elt F)) :
    (iprop(StableHlo.held (c : Thread nD τ) (Pipeline.ucRefs τ sig) V ∗ R c) : sProp 𝕄)
      ⊢ iprop((StableHlo.held (c : Thread nD τ) (Pipeline.ucRefs τ sig) V ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

theorem W37_of_V37 (c : Dev nD) (b : DevRef τ sig) : W37 m c b = V37 m (outsW m) c b := (congrFun (V37_eq m c) b).symm

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

-- Every weakly fair execution of @main ends with every unscoped buffer at the fold's last contents.
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W37 m c b) := by
  refine Pipeline.θ_run_regions_kit_dev (pcfgs (F := F)) adm (pdats m) () cellOf_inj emb₁ defs₀ 𝒱₀ L lv m ρ main
    (segsW m)
    (fun c Q => by
      rewrite [main_chain c, Seg.run_eq_chain,
        show (segsW m c).map Seg.prog = [
          StableHlo.seq hostOps0,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()),
          StableHlo.seq hostOps5,
          StableHlo.seq hostOps5_1,
          Prog.lift (.customCall (Pipeline.entry 5) ()),
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()),
          StableHlo.seq hostOps9,
          StableHlo.seq hostOps9_1,
          Prog.lift (.customCall (Pipeline.entry 9) ()),
          Prog.lift (.customCall (Pipeline.entry 10) ()),
          StableHlo.seq hostOps11,
          StableHlo.seq hostOps11_1,
          Prog.lift (.customCall (Pipeline.entry 11) ()),
          StableHlo.seq hostOps12,
          Prog.lift (.customCall (Pipeline.entry 12) ()),
          StableHlo.seq hostOps13,
          StableHlo.seq hostOps13_1,
          Prog.lift (.customCall (Pipeline.entry 13) ()),
          Prog.lift (.customCall (Pipeline.entry 14) ()),
          StableHlo.seq hostOps15,
          StableHlo.seq hostOps15_1,
          Prog.lift (.customCall (Pipeline.entry 15) ()),
          StableHlo.seq hostOps16 ] from rfl]
      with_reducible exact .rfl)
    (fun c => by simp only [segsW, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => iprop(StableHlo.held (c : Thread nD τ) (Pipeline.ucRefs τ sig) (V37 m (outsW m) c) ∗ ∃ r, prngReg c r))
    (hch := fun c => ⟨.rfl, hpre c (V1_eq m c), hpost c (V2_eq m c), .rfl, hpre c (V4_eq m c), .rfl, hpost c (V6_eq m c), .rfl, hpre c (V8_eq m c), hpost c (V9_eq m c), hpre c (V10_eq m c), hpost c (V11_eq m c), .rfl, hpre c (V13_eq m c), .rfl, hpost c (V15_eq m c), .rfl, hpre c (V17_eq m c), hpost c (V18_eq m c), hpre c (V19_eq m c), hpost c (V20_eq m c), .rfl, hpre c (V22_eq m c), .rfl, hpost c (V24_eq m c), .rfl, hpre c (V26_eq m c), hpost c (V27_eq m c), hpre c (V28_eq m c), hpost c (V29_eq m c), .rfl, hpre c (V31_eq m c), .rfl, hpost c (V33_eq m c), .rfl, hpre c (V35_eq m c), hpost c (V36_eq m c), hlast c _⟩)
    (hinit := ?_)
    (QY := fun c s => ∀ b ∈ Pipeline.ucRefs τ sig, s.mem (((c : Thread nD τ)).1, b) = V37 m (outsW m) c b)
    (hfin := fun c s' => ?_)
    (hQ := fun s h c b hb => (h c b hb).trans (W37_of_V37 m c b).symm)
  ·
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  ·
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  ·
    iintro ⟨⟨Hh, -⟩, HSI⟩
    unfold StableHlo.held
    imodintro
    iapply (pointsTo_read_all (Pipeline.ucRefs τ sig) (fun b => (((c : Thread nD τ)).1, b)) (V37 m (outsW m) c) s')
    isplitl [Hh] <;> iassumption

-- The result buffer holds the fold's last contents of it; no item writes an argument.
theorem run_result (ρ : Dev nD → PrngReg) :
    θ_run defs (onTc (τ := τ) (main (F := F))) ⟨m, fun _ => 0, ρ⟩ (fun r => ∀ c : Dev nD,
      r.2.mem ((c.tc : Thread nD τ).loc main_v133) = W37 m c main_v133
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v133 (by decide)),
      (h c _ (mem_uc main_arg0 (by decide))).trans ((W37_of_V37 m c _).trans (V37_kept m (outsW m) c main_arg0 arg0_kept)),
      (h c _ (mem_uc main_arg1 (by decide))).trans ((W37_of_V37 m c _).trans (V37_kept m (outsW m) c main_arg1 arg1_kept)),
      (h c _ (mem_uc main_arg2 (by decide))).trans ((W37_of_V37 m c _).trans (V37_kept m (outsW m) c main_arg2 arg2_kept)),
      (h c _ (mem_uc main_arg3 (by decide))).trans ((W37_of_V37 m c _).trans (V37_kept m (outsW m) c main_arg3 arg3_kept)),
      (h c _ (mem_uc main_arg4 (by decide))).trans ((W37_of_V37 m c _).trans (V37_kept m (outsW m) c main_arg4 arg4_kept)),
      (h c _ (mem_uc main_arg5 (by decide))).trans ((W37_of_V37 m c _).trans (V37_kept m (outsW m) c main_arg5 arg5_kept)),
      (h c _ (mem_uc main_arg6 (by decide))).trans ((W37_of_V37 m c _).trans (V37_kept m (outsW m) c main_arg6 arg6_kept)),
      (h c _ (mem_uc main_arg7 (by decide))).trans ((W37_of_V37 m c _).trans (V37_kept m (outsW m) c main_arg7 arg7_kept)),
      (h c _ (mem_uc main_arg8 (by decide))).trans ((W37_of_V37 m c _).trans (V37_kept m (outsW m) c main_arg8 arg8_kept)),
      (h c _ (mem_uc main_arg9 (by decide))).trans ((W37_of_V37 m c _).trans (V37_kept m (outsW m) c main_arg9 arg9_kept)),
      (h c _ (mem_uc main_arg10 (by decide))).trans ((W37_of_V37 m c _).trans (V37_kept m (outsW m) c main_arg10 arg10_kept)),
      (h c _ (mem_uc main_arg11 (by decide))).trans ((W37_of_V37 m c _).trans (V37_kept m (outsW m) c main_arg11 arg11_kept)),
      (h c _ (mem_uc main_arg12 (by decide))).trans ((W37_of_V37 m c _).trans (V37_kept m (outsW m) c main_arg12 arg12_kept)),
      (h c _ (mem_uc main_arg13 (by decide))).trans ((W37_of_V37 m c _).trans (V37_kept m (outsW m) c main_arg13 arg13_kept)),
      (h c _ (mem_uc main_arg14 (by decide))).trans ((W37_of_V37 m c _).trans (V37_kept m (outsW m) c main_arg14 arg14_kept)),
      (h c _ (mem_uc main_arg15 (by decide))).trans ((W37_of_V37 m c _).trans (V37_kept m (outsW m) c main_arg15 arg15_kept))⟩)
    (run_all m ρ)

end Cert.Kernel.Hand

end
-- ==== Proof.KIRegions.lean ====
import proofs.«413962_j523986010479_1_alg».proof.Proof.Gen.KernelIdeal.Launch
import Idealize.ShloMosaic.Lib.Pipeline.Frame
import Idealize.ShloMosaic.Lib.Pipeline.Regions

set_option maxRecDepth 2440

noncomputable section

namespace Cert.KernelIdeal.GenP

open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v18 (outs 2 main_v18 c)

abbrev V3 (c : Dev nD) : Valuation τ sig (Elt F) := StableHlo.after hostOps1 (V2 m outs c)

abbrev V4 (c : Dev nD) : Valuation τ sig (Elt F) := StableHlo.after hostOps1_1 (V3 m outs c)

abbrev V5 (c : Dev nD) : Valuation τ sig (Elt F) := Function.update (V4 m outs c) main_v24 (outs 5 main_v24 c)

abbrev V6 (c : Dev nD) : Valuation τ sig (Elt F) := Function.update (V5 m outs c) main_v25 (outs 6 main_v25 c)

abbrev V7 (c : Dev nD) : Valuation τ sig (Elt F) := StableHlo.after hostOps3 (V6 m outs c)

abbrev V8 (c : Dev nD) : Valuation τ sig (Elt F) := StableHlo.after hostOps3_1 (V7 m outs c)

abbrev V9 (c : Dev nD) : Valuation τ sig (Elt F) := Function.update (V8 m outs c) main_v31 (outs 9 main_v31 c)

abbrev V10 (c : Dev nD) : Valuation τ sig (Elt F) := StableHlo.after hostOps4 (V9 m outs c)

abbrev V11 (c : Dev nD) : Valuation τ sig (Elt F) := Function.update (V10 m outs c) main_v50 (outs 11 main_v50 c)

abbrev V12 (c : Dev nD) : Valuation τ sig (Elt F) := StableHlo.after hostOps5 (V11 m outs c)

abbrev V13 (c : Dev nD) : Valuation τ sig (Elt F) := StableHlo.after hostOps5_1 (V12 m outs c)

abbrev V14 (c : Dev nD) : Valuation τ sig (Elt F) := Function.update (V13 m outs c) main_v56 (outs 14 main_v56 c)

abbrev V15 (c : Dev nD) : Valuation τ sig (Elt F) := Function.update (V14 m outs c) main_v57 (outs 15 main_v57 c)

abbrev V16 (c : Dev nD) : Valuation τ sig (Elt F) := StableHlo.after hostOps7 (V15 m outs c)

abbrev V17 (c : Dev nD) : Valuation τ sig (Elt F) := StableHlo.after hostOps7_1 (V16 m outs c)

abbrev V18 (c : Dev nD) : Valuation τ sig (Elt F) := Function.update (V17 m outs c) main_v63 (outs 18 main_v63 c)

abbrev V19 (c : Dev nD) : Valuation τ sig (Elt F) := StableHlo.after hostOps8 (V18 m outs c)

abbrev V20 (c : Dev nD) : Valuation τ sig (Elt F) := Function.update (V19 m outs c) main_v82 (outs 20 main_v82 c)

abbrev V21 (c : Dev nD) : Valuation τ sig (Elt F) := StableHlo.after hostOps9 (V20 m outs c)

abbrev V22 (c : Dev nD) : Valuation τ sig (Elt F) := StableHlo.after hostOps9_1 (V21 m outs c)

abbrev V23 (c : Dev nD) : Valuation τ sig (Elt F) := Function.update (V22 m outs c) main_v88 (outs 23 main_v88 c)

abbrev V24 (c : Dev nD) : Valuation τ sig (Elt F) := Function.update (V23 m outs c) main_v89 (outs 24 main_v89 c)

abbrev V25 (c : Dev nD) : Valuation τ sig (Elt F) := StableHlo.after hostOps11 (V24 m outs c)

abbrev V26 (c : Dev nD) : Valuation τ sig (Elt F) := StableHlo.after hostOps11_1 (V25 m outs c)

abbrev V27 (c : Dev nD) : Valuation τ sig (Elt F) := Function.update (V26 m outs c) main_v95 (outs 27 main_v95 c)

abbrev V28 (c : Dev nD) : Valuation τ sig (Elt F) := StableHlo.after hostOps12 (V27 m outs c)

abbrev V29 (c : Dev nD) : Valuation τ sig (Elt F) := Function.update (V28 m outs c) main_v114 (outs 29 main_v114 c)

abbrev V30 (c : Dev nD) : Valuation τ sig (Elt F) := StableHlo.after hostOps13 (V29 m outs c)

abbrev V31 (c : Dev nD) : Valuation τ sig (Elt F) := StableHlo.after hostOps13_1 (V30 m outs c)

abbrev V32 (c : Dev nD) : Valuation τ sig (Elt F) := Function.update (V31 m outs c) main_v120 (outs 32 main_v120 c)

abbrev V33 (c : Dev nD) : Valuation τ sig (Elt F) := Function.update (V32 m outs c) main_v121 (outs 33 main_v121 c)

abbrev V34 (c : Dev nD) : Valuation τ sig (Elt F) := StableHlo.after hostOps15 (V33 m outs c)

abbrev V35 (c : Dev nD) : Valuation τ sig (Elt F) := StableHlo.after hostOps15_1 (V34 m outs c)

abbrev V36 (c : Dev nD) : Valuation τ sig (Elt F) := Function.update (V35 m outs c) main_v127 (outs 36 main_v127 c)

abbrev V37 (c : Dev nD) : Valuation τ sig (Elt F) := StableHlo.after hostOps16 (V36 m outs c)

theorem hostOps0_fresh : (hostOps0 : List (HloOp τ sig (Elt F))).Forall fun op => op.fresh = ∅ := by
  simp only [List.Forall]; repeat' constructor

abbrev hostOps0_W : List (Ref sig .tc) := [main_cst, main_v0, main_cst_0, main_v1, main_v2, main_v3, main_cst_1, main_v4, main_v5, main_cst_2, main_v6, main_v7, main_v8, main_cst_3, main_v9, main_cst_4, main_v10, main_v11, main_v12, main_cst_5, main_v13, main_v14, main_cst_6, main_v15, main_v16, main_v17]
theorem hostOps0_writes : (hostOps0 : List (HloOp τ sig (Elt F))).Forall fun op => op.writes ⊆ (hostOps0_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v19]
theorem hostOps1_writes : (hostOps1 : List (HloOp τ sig (Elt F))).Forall fun op => op.writes ⊆ (hostOps1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor

abbrev hostOps1_1_W : List (Ref sig .tc) := [main_cst_7, main_v20, main_v21, main_v22, main_v23]
theorem hostOps1_1_writes : (hostOps1_1 : List (HloOp τ sig (Elt F))).Forall fun op => op.writes ⊆ (hostOps1_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v26]
theorem hostOps3_writes : (hostOps3 : List (HloOp τ sig (Elt F))).Forall fun op => op.writes ⊆ (hostOps3_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

abbrev hostOps3_1_W : List (Ref sig .tc) := [main_cst_8, main_v27, main_v28, main_v29, main_v30]
theorem hostOps3_1_writes : (hostOps3_1 : List (HloOp τ sig (Elt F))).Forall fun op => op.writes ⊆ (hostOps3_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_cst_9, main_v32, main_cst_10, main_v33, main_v34, main_v35, main_cst_11, main_v36, main_v37, main_cst_12, main_v38, main_v39, main_v40, main_cst_13, main_v41, main_cst_14, main_v42, main_v43, main_v44, main_cst_15, main_v45, main_v46, main_cst_16, main_v47, main_v48, main_v49]
theorem hostOps4_writes : (hostOps4 : List (HloOp τ sig (Elt F))).Forall fun op => op.writes ⊆ (hostOps4_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v51]
theorem hostOps5_writes : (hostOps5 : List (HloOp τ sig (Elt F))).Forall fun op => op.writes ⊆ (hostOps5_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_1_fresh : (hostOps5_1 : List (HloOp τ sig (Elt F))).Forall fun op => op.fresh = ∅ := by
  simp only [List.Forall]; repeat' constructor

abbrev hostOps5_1_W : List (Ref sig .tc) := [main_cst_17, main_v52, main_v53, main_v54, main_v55]
theorem hostOps5_1_writes : (hostOps5_1 : List (HloOp τ sig (Elt F))).Forall fun op => op.writes ⊆ (hostOps5_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor

abbrev hostOps7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v58]
theorem hostOps7_writes : (hostOps7 : List (HloOp τ sig (Elt F))).Forall fun op => op.writes ⊆ (hostOps7_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_1_fresh : (hostOps7_1 : List (HloOp τ sig (Elt F))).Forall fun op => op.fresh = ∅ := by
  simp only [List.Forall]; repeat' constructor

abbrev hostOps7_1_W : List (Ref sig .tc) := [main_cst_18, main_v59, main_v60, main_v61, main_v62]
theorem hostOps7_1_writes : (hostOps7_1 : List (HloOp τ sig (Elt F))).Forall fun op => op.writes ⊆ (hostOps7_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor

abbrev hostOps8_W : List (Ref sig .tc) := [main_cst_19, main_v64, main_cst_20, main_v65, main_v66, main_v67, main_cst_21, main_v68, main_v69, main_cst_22, main_v70, main_v71, main_v72, main_cst_23, main_v73, main_cst_24, main_v74, main_v75, main_v76, main_cst_25, main_v77, main_v78, main_cst_26, main_v79, main_v80, main_v81]
theorem hostOps8_writes : (hostOps8 : List (HloOp τ sig (Elt F))).Forall fun op => op.writes ⊆ (hostOps8_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor

abbrev hostOps9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v83]
theorem hostOps9_writes : (hostOps9 : List (HloOp τ sig (Elt F))).Forall fun op => op.writes ⊆ (hostOps9_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_1_fresh : (hostOps9_1 : List (HloOp τ sig (Elt F))).Forall fun op => op.fresh = ∅ := by
  simp only [List.Forall]; repeat' constructor

abbrev hostOps9_1_W : List (Ref sig .tc) := [main_cst_27, main_v84, main_v85, main_v86, main_v87]
theorem hostOps9_1_writes : (hostOps9_1 : List (HloOp τ sig (Elt F))).Forall fun op => op.writes ⊆ (hostOps9_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor

abbrev hostOps11_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v90]
theorem hostOps11_writes : (hostOps11 : List (HloOp τ sig (Elt F))).Forall fun op => op.writes ⊆ (hostOps11_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_1_fresh : (hostOps11_1 : List (HloOp τ sig (Elt F))).Forall fun op => op.fresh = ∅ := by
  simp only [List.Forall]; repeat' constructor

abbrev hostOps11_1_W : List (Ref sig .tc) := [main_cst_28, main_v91, main_v92, main_v93, main_v94]
theorem hostOps11_1_writes : (hostOps11_1 : List (HloOp τ sig (Elt F))).Forall fun op => op.writes ⊆ (hostOps11_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_fresh : (hostOps12 : List (HloOp τ sig (Elt F))).Forall fun op => op.fresh = ∅ := by
  simp only [List.Forall]; repeat' constructor

abbrev hostOps12_W : List (Ref sig .tc) := [main_cst_29, main_v96, main_cst_30, main_v97, main_v98, main_v99, main_cst_31, main_v100, main_v101, main_cst_32, main_v102, main_v103, main_v104, main_cst_33, main_v105, main_cst_34, main_v106, main_v107, main_v108, main_cst_35, main_v109, main_v110, main_cst_36, main_v111, main_v112, main_v113]
theorem hostOps12_writes : (hostOps12 : List (HloOp τ sig (Elt F))).Forall fun op => op.writes ⊆ (hostOps12_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor

abbrev hostOps13_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v115]
theorem hostOps13_writes : (hostOps13 : List (HloOp τ sig (Elt F))).Forall fun op => op.writes ⊆ (hostOps13_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_1_fresh : (hostOps13_1 : List (HloOp τ sig (Elt F))).Forall fun op => op.fresh = ∅ := by
  simp only [List.Forall]; repeat' constructor

abbrev hostOps13_1_W : List (Ref sig .tc) := [main_cst_37, main_v116, main_v117, main_v118, main_v119]
theorem hostOps13_1_writes : (hostOps13_1 : List (HloOp τ sig (Elt F))).Forall fun op => op.writes ⊆ (hostOps13_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor

abbrev hostOps15_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v122]
theorem hostOps15_writes : (hostOps15 : List (HloOp τ sig (Elt F))).Forall fun op => op.writes ⊆ (hostOps15_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_1_fresh : (hostOps15_1 : List (HloOp τ sig (Elt F))).Forall fun op => op.fresh = ∅ := by
  simp only [List.Forall]; repeat' constructor

abbrev hostOps15_1_W : List (Ref sig .tc) := [main_cst_38, main_v123, main_v124, main_v125, main_v126]
theorem hostOps15_1_writes : (hostOps15_1 : List (HloOp τ sig (Elt F))).Forall fun op => op.writes ⊆ (hostOps15_1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor

abbrev hostOps16_W : List (Ref sig .tc) := [main_v128, main_cst_39, main_v129, main_cst_40, main_v130, main_v131, main_cst_41, main_v132, main_cst_42, main_v133]
theorem hostOps16_writes : (hostOps16 : List (HloOp τ sig (Elt F))).Forall fun op => op.writes ⊆ (hostOps16_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v18] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v18)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ hostOps1_1_W) : V4 m outs c r = V3 m outs c r :=
  StableHlo.after_of_writes_sub hostOps1_1 _ hostOps1_1_writes h
theorem V5_of (c : Dev nD) (r : Ref sig .tc) (h : r ∉ ([main_v24] : List (Ref sig .tc))) : V5 m outs c r = V4 m outs c r := by
  simp only [V5, Function.update_of_ne (StableHlo.devRef_ne_of_ne (List.ne_of_not_mem_cons h) : (Proc.devRef .tc r : DevRef τ sig) ≠ Proc.devRef .tc main_v24)]
theorem V6_of (c : Dev nD) (r : Ref sig .tc) (h : r ∉ ([main_v25] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v25)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ hostOps3_1_W) : V8 m outs c r = V7 m outs c r :=
  StableHlo.after_of_writes_sub hostOps3_1 _ hostOps3_1_writes h
theorem V9_of (c : Dev nD) (r : Ref sig .tc) (h : r ∉ ([main_v31] : List (Ref sig .tc))) : V9 m outs c r = V8 m outs c r := by
  simp only [V9, Function.update_of_ne (StableHlo.devRef_ne_of_ne (List.ne_of_not_mem_cons h) : (Proc.devRef .tc r : DevRef τ sig) ≠ Proc.devRef .tc main_v31)]
theorem V10_of (c : Dev nD) (r : Ref sig .tc) (h : r ∉ hostOps4_W) : V10 m outs c r = V9 m outs c r :=
  StableHlo.after_of_writes_sub hostOps4 _ hostOps4_writes h
theorem V11_of (c : Dev nD) (r : Ref sig .tc) (h : r ∉ ([main_v50] : List (Ref sig .tc))) : V11 m outs c r = V10 m outs c r := by
  simp only [V11, Function.update_of_ne (StableHlo.devRef_ne_of_ne (List.ne_of_not_mem_cons h) : (Proc.devRef .tc r : DevRef τ sig) ≠ Proc.devRef .tc main_v50)]
theorem V12_of (c : Dev nD) (r : Ref sig .tc) (h : r ∉ hostOps5_W) : V12 m outs c r = V11 m outs c r :=
  StableHlo.after_of_writes_sub hostOps5 _ hostOps5_writes h
theorem V13_of (c : Dev nD) (r : Ref sig .tc) (h : r ∉ hostOps5_1_W) : V13 m outs c r = V12 m outs c r :=
  StableHlo.after_of_writes_sub hostOps5_1 _ hostOps5_1_writes h
theorem V14_of (c : Dev nD) (r : Ref sig .tc) (h : r ∉ ([main_v56] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v56)]
theorem V15_of (c : Dev nD) (r : Ref sig .tc) (h : r ∉ ([main_v57] : List (Ref sig .tc))) : V15 m outs c r = V14 m outs c r := by
  simp only [V15, Function.update_of_ne (StableHlo.devRef_ne_of_ne (List.ne_of_not_mem_cons h) : (Proc.devRef .tc r : DevRef τ sig) ≠ Proc.devRef .tc main_v57)]
theorem V16_of (c : Dev nD) (r : Ref sig .tc) (h : r ∉ hostOps7_W) : V16 m outs c r = V15 m outs c r :=
  StableHlo.after_of_writes_sub hostOps7 _ hostOps7_writes h
theorem V17_of (c : Dev nD) (r : Ref sig .tc) (h : r ∉ hostOps7_1_W) : V17 m outs c r = V16 m outs c r :=
  StableHlo.after_of_writes_sub hostOps7_1 _ hostOps7_1_writes h
theorem V18_of (c : Dev nD) (r : Ref sig .tc) (h : r ∉ ([main_v63] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v63)]
theorem V19_of (c : Dev nD) (r : Ref sig .tc) (h : r ∉ hostOps8_W) : V19 m outs c r = V18 m outs c r :=
  StableHlo.after_of_writes_sub hostOps8 _ hostOps8_writes h
theorem V20_of (c : Dev nD) (r : Ref sig .tc) (h : r ∉ ([main_v82] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v82)]
theorem V21_of (c : Dev nD) (r : Ref sig .tc) (h : r ∉ hostOps9_W) : V21 m outs c r = V20 m outs c r :=
  StableHlo.after_of_writes_sub hostOps9 _ hostOps9_writes h
theorem V22_of (c : Dev nD) (r : Ref sig .tc) (h : r ∉ hostOps9_1_W) : V22 m outs c r = V21 m outs c r :=
  StableHlo.after_of_writes_sub hostOps9_1 _ hostOps9_1_writes h
theorem V23_of (c : Dev nD) (r : Ref sig .tc) (h : r ∉ ([main_v88] : List (Ref sig .tc))) : V23 m outs c r = V22 m outs c r := by
  simp only [V23, Function.update_of_ne (StableHlo.devRef_ne_of_ne (List.ne_of_not_mem_cons h) : (Proc.devRef .tc r : DevRef τ sig) ≠ Proc.devRef .tc main_v88)]
theorem V24_of (c : Dev nD) (r : Ref sig .tc) (h : r ∉ ([main_v89] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v89)]
theorem V25_of (c : Dev nD) (r : Ref sig .tc) (h : r ∉ hostOps11_W) : V25 m outs c r = V24 m outs c r :=
  StableHlo.after_of_writes_sub hostOps11 _ hostOps11_writes h
theorem V26_of (c : Dev nD) (r : Ref sig .tc) (h : r ∉ hostOps11_1_W) : V26 m outs c r = V25 m outs c r :=
  StableHlo.after_of_writes_sub hostOps11_1 _ hostOps11_1_writes h
theorem V27_of (c : Dev nD) (r : Ref sig .tc) (h : r ∉ ([main_v95] : List (Ref sig .tc))) : V27 m outs c r = V26 m outs c r := by
  simp only [V27, Function.update_of_ne (StableHlo.devRef_ne_of_ne (List.ne_of_not_mem_cons h) : (Proc.devRef .tc r : DevRef τ sig) ≠ Proc.devRef .tc main_v95)]
theorem V28_of (c : Dev nD) (r : Ref sig .tc) (h : r ∉ hostOps12_W) : V28 m outs c r = V27 m outs c r :=
  StableHlo.after_of_writes_sub hostOps12 _ hostOps12_writes h
theorem V29_of (c : Dev nD) (r : Ref sig .tc) (h : r ∉ ([main_v114] : List (Ref sig .tc))) : V29 m outs c r = V28 m outs c r := by
  simp only [V29, Function.update_of_ne (StableHlo.devRef_ne_of_ne (List.ne_of_not_mem_cons h) : (Proc.devRef .tc r : DevRef τ sig) ≠ Proc.devRef .tc main_v114)]
theorem V30_of (c : Dev nD) (r : Ref sig .tc) (h : r ∉ hostOps13_W) : V30 m outs c r = V29 m outs c r :=
  StableHlo.after_of_writes_sub hostOps13 _ hostOps13_writes h
theorem V31_of (c : Dev nD) (r : Ref sig .tc) (h : r ∉ hostOps13_1_W) : V31 m outs c r = V30 m outs c r :=
  StableHlo.after_of_writes_sub hostOps13_1 _ hostOps13_1_writes h
theorem V32_of (c : Dev nD) (r : Ref sig .tc) (h : r ∉ ([main_v120] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v120)]
theorem V33_of (c : Dev nD) (r : Ref sig .tc) (h : r ∉ ([main_v121] : List (Ref sig .tc))) : V33 m outs c r = V32 m outs c r := by
  simp only [V33, Function.update_of_ne (StableHlo.devRef_ne_of_ne (List.ne_of_not_mem_cons h) : (Proc.devRef .tc r : DevRef τ sig) ≠ Proc.devRef .tc main_v121)]
theorem V34_of (c : Dev nD) (r : Ref sig .tc) (h : r ∉ hostOps15_W) : V34 m outs c r = V33 m outs c r :=
  StableHlo.after_of_writes_sub hostOps15 _ hostOps15_writes h
theorem V35_of (c : Dev nD) (r : Ref sig .tc) (h : r ∉ hostOps15_1_W) : V35 m outs c r = V34 m outs c r :=
  StableHlo.after_of_writes_sub hostOps15_1 _ hostOps15_1_writes h
theorem V36_of (c : Dev nD) (r : Ref sig .tc) (h : r ∉ ([main_v127] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v127)]
theorem V37_of (c : Dev nD) (r : Ref sig .tc) (h : r ∉ hostOps16_W) : V37 m outs c r = V36 m outs c r :=
  StableHlo.after_of_writes_sub hostOps16 _ hostOps16_writes h

-- No item of @main writes r: no host stretch, and no region's output array is r.
structure Kept (r : Ref sig .tc) : Prop where
  w1 : r ∉ hostOps0_W
  w2 : r ∉ ([main_v18] : List (Ref sig .tc))
  w3 : r ∉ hostOps1_W
  w4 : r ∉ hostOps1_1_W
  w5 : r ∉ ([main_v24] : List (Ref sig .tc))
  w6 : r ∉ ([main_v25] : List (Ref sig .tc))
  w7 : r ∉ hostOps3_W
  w8 : r ∉ hostOps3_1_W
  w9 : r ∉ ([main_v31] : List (Ref sig .tc))
  w10 : r ∉ hostOps4_W
  w11 : r ∉ ([main_v50] : List (Ref sig .tc))
  w12 : r ∉ hostOps5_W
  w13 : r ∉ hostOps5_1_W
  w14 : r ∉ ([main_v56] : List (Ref sig .tc))
  w15 : r ∉ ([main_v57] : List (Ref sig .tc))
  w16 : r ∉ hostOps7_W
  w17 : r ∉ hostOps7_1_W
  w18 : r ∉ ([main_v63] : List (Ref sig .tc))
  w19 : r ∉ hostOps8_W
  w20 : r ∉ ([main_v82] : List (Ref sig .tc))
  w21 : r ∉ hostOps9_W
  w22 : r ∉ hostOps9_1_W
  w23 : r ∉ ([main_v88] : List (Ref sig .tc))
  w24 : r ∉ ([main_v89] : List (Ref sig .tc))
  w25 : r ∉ hostOps11_W
  w26 : r ∉ hostOps11_1_W
  w27 : r ∉ ([main_v95] : List (Ref sig .tc))
  w28 : r ∉ hostOps12_W
  w29 : r ∉ ([main_v114] : List (Ref sig .tc))
  w30 : r ∉ hostOps13_W
  w31 : r ∉ hostOps13_1_W
  w32 : r ∉ ([main_v120] : List (Ref sig .tc))
  w33 : r ∉ ([main_v121] : List (Ref sig .tc))
  w34 : r ∉ hostOps15_W
  w35 : r ∉ hostOps15_1_W
  w36 : r ∉ ([main_v127] : List (Ref sig .tc))
  w37 : r ∉ hostOps16_W

theorem V37_kept (c : Dev nD) (r : Ref sig .tc) (h : Kept r) : V37 m outs c r = m ((c : Thread nD τ).loc r) :=
  (V37_of m outs c r h.w37).trans <| (V36_of m outs c r h.w36).trans <| (V35_of m outs c r h.w35).trans <| (V34_of m outs c r h.w34).trans <| (V33_of m outs c r h.w33).trans <| (V32_of m outs c r h.w32).trans <| (V31_of m outs c r h.w31).trans <| (V30_of m outs c r h.w30).trans <| (V29_of m outs c r h.w29).trans <| (V28_of m outs c r h.w28).trans <| (V27_of m outs c r h.w27).trans <| (V26_of m outs c r h.w26).trans <| (V25_of m outs c r h.w25).trans <| (V24_of m outs c r h.w24).trans <| (V23_of m outs c r h.w23).trans <| (V22_of m outs c r h.w22).trans <| (V21_of m outs c r h.w21).trans <| (V20_of m outs c r h.w20).trans <| (V19_of m outs c r h.w19).trans <| (V18_of m outs c r h.w18).trans <| (V17_of m outs c r h.w17).trans <| (V16_of m outs c r h.w16).trans <| (V15_of m outs c r h.w15).trans <| (V14_of m outs c r h.w14).trans <| (V13_of m outs c r h.w13).trans <| (V12_of m outs c r h.w12).trans <| (V11_of m outs c r h.w11).trans <| (V10_of m outs c r h.w10).trans <| (V9_of m outs c r h.w9).trans <| (V8_of m outs c r h.w8).trans <| (V7_of m outs c r h.w7).trans <| (V6_of m outs c r h.w6).trans <| (V5_of m outs c r h.w5).trans <| (V4_of m outs c r h.w4).trans <| (V3_of m outs c r h.w3).trans <| (V2_of m outs c r h.w2).trans <| (V1_of m c r h.w1).trans rfl

-- No item writes an argument.
theorem arg0_kept : Kept main_arg0 := by constructor <;> decide
theorem arg1_kept : Kept main_arg1 := by constructor <;> decide
theorem arg2_kept : Kept main_arg2 := by constructor <;> decide
theorem arg3_kept : Kept main_arg3 := by constructor <;> decide
theorem arg4_kept : Kept main_arg4 := by constructor <;> decide
theorem arg5_kept : Kept main_arg5 := by constructor <;> decide
theorem arg6_kept : Kept main_arg6 := by constructor <;> decide
theorem arg7_kept : Kept main_arg7 := by constructor <;> decide
theorem arg8_kept : Kept main_arg8 := by constructor <;> decide
theorem arg9_kept : Kept main_arg9 := by constructor <;> decide
theorem arg10_kept : Kept main_arg10 := by constructor <;> decide
theorem arg11_kept : Kept main_arg11 := by constructor <;> decide
theorem arg12_kept : Kept main_arg12 := by constructor <;> decide
theorem arg13_kept : Kept main_arg13 := by constructor <;> decide
theorem arg14_kept : Kept main_arg14 := by constructor <;> decide
theorem arg15_kept : Kept main_arg15 := by constructor <;> decide

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 17 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V3 m outs) (E 1)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg7 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V7 m outs) (E 3)

def seg9 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V9 m outs) (E 4)

def seg11 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V11 m outs) (E 5)

def seg12 : HostSeg (Ix := Ix) (Name := ℕ) (U := U) (Lvl := Lvl) (pcfgs (F := F)) defs₀ 𝒱₀ L lv :=
  HostSeg.ofOps _ _ _ _ _ (Pipeline.ucRefs τ sig) hostOps5_1
    (fun op h => Pipeline.sub_ucRefs op ((List.forall_iff_forall_mem.mp hostOps5_1_sub) op h))
    (fun op h => (List.forall_iff_forall_mem.mp hostOps5_1_fresh) op h) (V12 m outs) (E 5)

def seg15 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V15 m outs) (E 7)

def seg16 : HostSeg (Ix := Ix) (Name := ℕ) (U := U) (Lvl := Lvl) (pcfgs (F := F)) defs₀ 𝒱₀ L lv :=
  HostSeg.ofOps _ _ _ _ _ (Pipeline.ucRefs τ sig) hostOps7_1
    (fun op h => Pipeline.sub_ucRefs op ((List.forall_iff_forall_mem.mp hostOps7_1_sub) op h))
    (fun op h => (List.forall_iff_forall_mem.mp hostOps7_1_fresh) op h) (V16 m outs) (E 7)

def seg18 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V18 m outs) (E 8)

def seg20 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V20 m outs) (E 9)

def seg21 : HostSeg (Ix := Ix) (Name := ℕ) (U := U) (Lvl := Lvl) (pcfgs (F := F)) defs₀ 𝒱₀ L lv :=
  HostSeg.ofOps _ _ _ _ _ (Pipeline.ucRefs τ sig) hostOps9_1
    (fun op h => Pipeline.sub_ucRefs op ((List.forall_iff_forall_mem.mp hostOps9_1_sub) op h))
    (fun op h => (List.forall_iff_forall_mem.mp hostOps9_1_fresh) op h) (V21 m outs) (E 9)

def seg24 : HostSeg (Ix := Ix) (Name := ℕ) (U := U) (Lvl := Lvl) (pcfgs (F := F)) defs₀ 𝒱₀ L lv :=
  HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (V24 m outs) (E 11)

def seg25 : HostSeg (Ix := Ix) (Name := ℕ) (U := U) (Lvl := Lvl) (pcfgs (F := F)) defs₀ 𝒱₀ L lv :=
  HostSeg.ofOps _ _ _ _ _ (Pipeline.ucRefs τ sig) hostOps11_1
    (fun op h => Pipeline.sub_ucRefs op ((List.forall_iff_forall_mem.mp hostOps11_1_sub) op h))
    (fun op h => (List.forall_iff_forall_mem.mp hostOps11_1_fresh) op h) (V25 m outs) (E 11)

def seg27 : HostSeg (Ix := Ix) (Name := ℕ) (U := U) (Lvl := Lvl) (pcfgs (F := F)) defs₀ 𝒱₀ L lv :=
  HostSeg.ofOps _ _ _ _ _ (Pipeline.ucRefs τ sig) hostOps12
    (fun op h => Pipeline.sub_ucRefs op ((List.forall_iff_forall_mem.mp hostOps12_sub) op h))
    (fun op h => (List.forall_iff_forall_mem.mp hostOps12_fresh) op h) (V27 m outs) (E 12)

def seg29 : HostSeg (Ix := Ix) (Name := ℕ) (U := U) (Lvl := Lvl) (pcfgs (F := F)) defs₀ 𝒱₀ L lv :=
  HostSeg.ofOps _ _ _ _ _ (Pipeline.ucRefs τ sig) hostOps13
    (fun op h => Pipeline.sub_ucRefs op ((List.forall_iff_forall_mem.mp hostOps13_sub) op h))
    (fun op h => (List.forall_iff_forall_mem.mp hostOps13_fresh) op h) (V29 m outs) (E 13)

def seg30 : HostSeg (Ix := Ix) (Name := ℕ) (U := U) (Lvl := Lvl) (pcfgs (F := F)) defs₀ 𝒱₀ L lv :=
  HostSeg.ofOps _ _ _ _ _ (Pipeline.ucRefs τ sig) hostOps13_1
    (fun op h => Pipeline.sub_ucRefs op ((List.forall_iff_forall_mem.mp hostOps13_1_sub) op h))
    (fun op h => (List.forall_iff_forall_mem.mp hostOps13_1_fresh) op h) (V30 m outs) (E 13)

def seg33 : HostSeg (Ix := Ix) (Name := ℕ) (U := U) (Lvl := Lvl) (pcfgs (F := F)) defs₀ 𝒱₀ L lv :=
  HostSeg.ofOps _ _ _ _ _ (Pipeline.ucRefs τ sig) hostOps15
    (fun op h => Pipeline.sub_ucRefs op ((List.forall_iff_forall_mem.mp hostOps15_sub) op h))
    (fun op h => (List.forall_iff_forall_mem.mp hostOps15_fresh) op h) (V33 m outs) (E 15)

def seg34 : HostSeg (Ix := Ix) (Name := ℕ) (U := U) (Lvl := Lvl) (pcfgs (F := F)) defs₀ 𝒱₀ L lv :=
  HostSeg.ofOps _ _ _ _ _ (Pipeline.ucRefs τ sig) hostOps15_1
    (fun op h => Pipeline.sub_ucRefs op ((List.forall_iff_forall_mem.mp hostOps15_1_sub) op h))
    (fun op h => (List.forall_iff_forall_mem.mp hostOps15_1_fresh) op h) (V34 m outs) (E 15)

def seg36 : HostSeg (Ix := Ix) (Name := ℕ) (U := U) (Lvl := Lvl) (pcfgs (F := F)) defs₀ 𝒱₀ L lv :=
  HostSeg.ofOps _ _ _ _ _ (Pipeline.ucRefs τ sig) hostOps16
    (fun op h => Pipeline.sub_ucRefs op ((List.forall_iff_forall_mem.mp hostOps16_sub) op h))
    (fun op h => (List.forall_iff_forall_mem.mp hostOps16_fresh) op h) (V36 m outs) (E 16)

end Segs

section

variable {Ix : Type} [DecidableEq Ix] {U : Type} [URA U] {Lvl : Type} [Preorder Lvl]

abbrev adm : (p : Fin 16) → (pcfgs (F := F) p).Adm := fun p => (cfgs p).toPCfg_adm

abbrev segs (𝒱₀ : Variants) (L : GSem nD τ sig → Finset Ix) (lv : GSem nD τ sig → Ix → Lvl) (E : Fin 17 → Dev nD → sProp (MT nD τ sig Ix (Elt F) ℕ U Lvl)) (ι : Ix)
    (pdats : (p : Fin 16) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (c : Dev nD) :
    List (Seg (pcfgs (F := F)) adm pdats ι defs₀ 𝒱₀ L lv) :=
  [.host (seg0 m 𝒱₀ L lv E), .region R0, .host (seg2 m outs 𝒱₀ L lv E), .host (seg3 m outs 𝒱₀ L lv E), .region R1, .region R2, .host (seg6 m outs 𝒱₀ L lv E), .host (seg7 m outs 𝒱₀ L lv E), .region R3, .host (seg9 m outs 𝒱₀ L lv E), .region R4, .host (seg11 m outs 𝒱₀ L lv E), .host (seg12 m outs 𝒱₀ L lv E), .region R5, .region R6, .host (seg15 m outs 𝒱₀ L lv E), .host (seg16 m outs 𝒱₀ L lv E), .region R7, .host (seg18 m outs 𝒱₀ L lv E), .region R8, .host (seg20 m outs 𝒱₀ L lv E), .host (seg21 m outs 𝒱₀ L lv E), .region R9, .region R10, .host (seg24 m outs 𝒱₀ L lv E), .host (seg25 m outs 𝒱₀ L lv E), .region R11, .host (seg27 m outs 𝒱₀ L lv E), .region R12, .host (seg29 m outs 𝒱₀ L lv E), .host (seg30 m outs 𝒱₀ L lv E), .region R13, .region R14, .host (seg33 m outs 𝒱₀ L lv E), .host (seg34 m outs 𝒱₀ L lv E), .region R15, .host (seg36 m outs 𝒱₀ L lv E)]

end

end Cert.KernelIdeal.GenP

end
-- ==== Proof.KIReg0.lean ====
/-
  Region 0 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window holds its block at every point: it is fetched at every point and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the column of scales. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 x 128 block and the whole 5000 x 1 block, as rectangles. -/
abbrev rRows0 : Rect S5000x128 := Rect.unit (s := S5000x128) ![0, 0] S5000x128.size inb_S5000x128_S5000x128_0_0
abbrev rCol0 : Rect S5000x1 := Rect.unit (s := S5000x1) ![0, 0] S5000x1.size inb_S5000x1_S5000x1_0_0

/-- What the body leaves in the output window: its one store, the payload of the two loaded blocks, over the whole block. -/
def out0_2 (x0 : Vec F S5000x128 .f32) (x1 : Vec F S5000x1 .f32) : Vec F S5000x128 .f32 :=
  View.canon [⟨rRows0, k0_pay1 (View.ld x0 rRows0) (View.ld x1 rCol0)⟩]

/-- The one store covers the block. -/
theorem cover0_2 (p0 : Vec F S5000x128 .f32) (y : S5000x128.Idx) :
    ∃ pc ∈ ([⟨rRows0, p0⟩] : List (View.Piece (Elt F) S5000x128 .f32)), y ∈ pc.1.set :=
  View.cover_of_tiled [⟨rRows0, p0⟩] S5000x128.size (by rfl) y

set_option maxHeartbeats 1000000 in
/-- The body on whole staging buffers, the inputs at x0 and x1 and the output at anything, ends with the inputs as
    they were and the output at out of them. -/
theorem sound_kernel0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body at point t each input
    window at its block and the output window at out of the two input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input windows hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/-
  Region 1 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window holds its block at every point: fetched at every point, left in place by the body. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the column of scales. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The matrix window holds the whole matrix at every point: fetched at the first point, its block index never moves afterwards, and the body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same for the row that is added. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as rectangles. -/
abbrev rRows1 : Rect S5000x128 := Rect.unit (s := S5000x128) ![0, 0] S5000x128.size inb_S5000x128_S5000x128_0_0
abbrev rCol1 : Rect S5000x1 := Rect.unit (s := S5000x1) ![0, 0] S5000x1.size inb_S5000x1_S5000x1_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-- What the body leaves in the output window: its one store, the payload of the four loaded blocks, over the whole block. -/
def out1_4 (x0 : Vec F S5000x128 .f32) (x1 : Vec F S5000x1 .f32) (x2 : Vec F S128x128 .f32) (x3 : Vec F S1x128 .f32) : Vec F S5000x128 .f32 :=
  View.canon [⟨rRows1, k1_pay1 (View.ld x0 rRows1) (View.ld x1 rCol1) (View.ld x2 rMat1) (View.ld x3 rRow1)⟩]

/-- The one store covers the block. -/
theorem cover1_4 (p0 : Vec F S5000x128 .f32) (y : S5000x128.Idx) :
    ∃ pc ∈ ([⟨rRows1, p0⟩] : List (View.Piece (Elt F) S5000x128 .f32)), y ∈ pc.1.set :=
  View.cover_of_tiled [⟨rRows1, p0⟩] S5000x128.size (by rfl) y

set_option maxHeartbeats 1000000 in
/-- The body on whole staging buffers, the inputs at x0 .. x3 and the output at anything, ends with the inputs as
    they were and the output at out of them. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__lin_relu_kernel i arg1 harg1 arg2 harg2 arg3 harg3 arg4 harg4 arg5 harg5) K := by
  simp only [cc1__lin_relu_kernel_eq_skeleton]; unfold cc1__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core c: the arrays as the region finds them; after the body at point t each input
    window at its block and the output window at out of the four input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input windows hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/-
  Region 2 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window holds its block at every point: it is fetched at every point and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the column of scales. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 5000 x 128 block and the whole 5000 x 1 block, as rectangles. -/
abbrev rRows2 : Rect S5000x128 := Rect.unit (s := S5000x128) ![0, 0] S5000x128.size inb_S5000x128_S5000x128_0_0
abbrev rCol2 : Rect S5000x1 := Rect.unit (s := S5000x1) ![0, 0] S5000x1.size inb_S5000x1_S5000x1_0_0

/-- What the body leaves in the output window: its one store, the payload of the two loaded blocks, over the whole block. -/
def out2_2 (x0 : Vec F S5000x128 .f32) (x1 : Vec F S5000x1 .f32) : Vec F S5000x128 .f32 :=
  View.canon [⟨rRows2, k2_pay1 (View.ld x0 rRows2) (View.ld x1 rCol2)⟩]

/-- The one store covers the block. -/
theorem cover2_2 (p0 : Vec F S5000x128 .f32) (y : S5000x128.Idx) :
    ∃ pc ∈ ([⟨rRows2, p0⟩] : List (View.Piece (Elt F) S5000x128 .f32)), y ∈ pc.1.set :=
  View.cover_of_tiled [⟨rRows2, p0⟩] S5000x128.size (by rfl) y

set_option maxHeartbeats 1000000 in
/-- The body on whole staging buffers, the inputs at x0 and x1 and the output at anything, ends with the inputs as
    they were and the output at out of them. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core c: the arrays as the region finds them; after the body at point t each input
    window at its block and the output window at out of the two input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input windows hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
/-
  Region 3 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows window holds its block at every point: fetched at every point, left in place by the body. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for the column of scales. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The matrix window holds the whole matrix at every point: fetched at the first point, its block index never moves afterwards, and the body leaves it in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same for the row that is added. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole blocks, as rectangles. -/
abbrev rRows3 : Rect S5000x128 := Rect.unit (s := S5000x128) ![0, 0] S5000x128.size inb_S5000x128_S5000x128_0_0
abbrev rCol3 : Rect S5000x1 := Rect.unit (s := S5000x1) ![0, 0] S5000x1.size inb_S5000x1_S5000x1_0_0
abbrev rMat3 : Rect S128x128 := Rect.unit (s := S128x128) ![0, 0] S128x128.size inb_S128x128_S128x128_0_0
abbrev rRow3 : Rect S1x128 := Rect.unit (s := S1x128) ![0, 0] S1x128.size inb_S1x128_S1x128_0_0

/-- What the body leaves in the output window: its one store, the payload of the four loaded blocks, over the whole block. -/
def out3_4 (x0 : Vec F S5000x128 .f32) (x1 : Vec F S5000x1 .f32) (x2 : Vec F S128x128 .f32) (x3 : Vec F S1x128 .f32) : Vec F S5000x128 .f32 :=
  View.canon [⟨rRows3, k3_pay1 (View.ld x0 rRows3) (View.ld x1 rCol3) (View.ld x2 rMat3) (View.ld x3 rRow3)⟩]

/-- The one store covers the block. -/
theorem cover3_4 (p0 : Vec F S5000x128 .f32) (y : S5000x128.Idx) :
    ∃ pc ∈ ([⟨rRows3, p0⟩] : List (View.Piece (Elt F) S5000x128 .f32)), y ∈ pc.1.set :=
  View.cover_of_tiled [⟨rRows3, p0⟩] S5000x128.size (by rfl) y

set_option maxHeartbeats 1000000 in
/-- The body on whole staging buffers, the inputs at x0 .. x3 and the output at anything, ends with the inputs as
    they were and the output at out of them. -/
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__lin_relu_kernel i arg1 harg1 arg2 harg2 arg3 harg3 arg4 harg4 arg5 harg5) K := by
  simp only [cc3__lin_relu_kernel_eq_skeleton]; unfold cc3__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The pipeline's proof data on core c: the arrays as the region finds them; after the body at point t each input
    window at its block and the output window at out of the four input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input windows hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4.lean ====
/-
  Region 4 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows window holds its block at every point: it is fetched at every point and the body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for the column of scales. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole 5000 x 128 block and the whole 5000 x 1 block, as rectangles. -/
abbrev rRows4 : Rect S5000x128 := Rect.unit (s := S5000x128) ![0, 0] S5000x128.size inb_S5000x128_S5000x128_0_0
abbrev rCol4 : Rect S5000x1 := Rect.unit (s := S5000x1) ![0, 0] S5000x1.size inb_S5000x1_S5000x1_0_0

/-- What the body leaves in the output window: its one store, the payload of the two loaded blocks, over the whole block. -/
def out4_2 (x0 : Vec F S5000x128 .f32) (x1 : Vec F S5000x1 .f32) : Vec F S5000x128 .f32 :=
  View.canon [⟨rRows4, k4_pay1 (View.ld x0 rRows4) (View.ld x1 rCol4)⟩]

/-- The one store covers the block. -/
theorem cover4_2 (p0 : Vec F S5000x128 .f32) (y : S5000x128.Idx) :
    ∃ pc ∈ ([⟨rRows4, p0⟩] : List (View.Piece (Elt F) S5000x128 .f32)), y ∈ pc.1.set :=
  View.cover_of_tiled [⟨rRows4, p0⟩] S5000x128.size (by rfl) y

set_option maxHeartbeats 1000000 in
/-- The body on whole staging buffers, the inputs at x0 and x1 and the output at anything, ends with the inputs as
    they were and the output at out of them. -/
theorem sound_kernel4 (c : Dev nD) (E : Set ℕ) (i : grid4.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core c: the arrays as the region finds them; after the body at point t each input
    window at its block and the output window at out of the two input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input windows hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIReg5.lean ====
/-
  Region 5 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows window holds its block at every point: fetched at every point, left in place by the body. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same for the column of scales. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The matrix window holds the whole matrix at every point: fetched at the first point, its block index never moves afterwards, and the body leaves it in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- The same for the row that is added. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole blocks, as rectangles. -/
abbrev rRows5 : Rect S5000x128 := Rect.unit (s := S5000x128) ![0, 0] S5000x128.size inb_S5000x128_S5000x128_0_0
abbrev rCol5 : Rect S5000x1 := Rect.unit (s := S5000x1) ![0, 0] S5000x1.size inb_S5000x1_S5000x1_0_0
abbrev rMat5 : Rect S128x128 := Rect.unit (s := S128x128) ![0, 0] S128x128.size inb_S128x128_S128x128_0_0
abbrev rRow5 : Rect S1x128 := Rect.unit (s := S1x128) ![0, 0] S1x128.size inb_S1x128_S1x128_0_0

/-- What the body leaves in the output window: its one store, the payload of the four loaded blocks, over the whole block. -/
def out5_4 (x0 : Vec F S5000x128 .f32) (x1 : Vec F S5000x1 .f32) (x2 : Vec F S128x128 .f32) (x3 : Vec F S1x128 .f32) : Vec F S5000x128 .f32 :=
  View.canon [⟨rRows5, k5_pay1 (View.ld x0 rRows5) (View.ld x1 rCol5) (View.ld x2 rMat5) (View.ld x3 rRow5)⟩]

/-- The one store covers the block. -/
theorem cover5_4 (p0 : Vec F S5000x128 .f32) (y : S5000x128.Idx) :
    ∃ pc ∈ ([⟨rRows5, p0⟩] : List (View.Piece (Elt F) S5000x128 .f32)), y ∈ pc.1.set :=
  View.cover_of_tiled [⟨rRows5, p0⟩] S5000x128.size (by rfl) y

set_option maxHeartbeats 1000000 in
/-- The body on whole staging buffers, the inputs at x0 .. x3 and the output at anything, ends with the inputs as
    they were and the output at out of them. -/
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__lin_relu_kernel i arg1 harg1 arg2 harg2 arg3 harg3 arg4 harg4 arg5 harg5) K := by
  simp only [cc5__lin_relu_kernel_eq_skeleton]; unfold cc5__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The pipeline's proof data on core c: the arrays as the region finds them; after the body at point t each input
    window at its block and the output window at out of the four input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input windows hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIReg6.lean ====
/-
  Region 6 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows window holds its block at every point: it is fetched at every point and the body leaves it in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for the column of scales. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole 5000 x 128 block and the whole 5000 x 1 block, as rectangles. -/
abbrev rRows6 : Rect S5000x128 := Rect.unit (s := S5000x128) ![0, 0] S5000x128.size inb_S5000x128_S5000x128_0_0
abbrev rCol6 : Rect S5000x1 := Rect.unit (s := S5000x1) ![0, 0] S5000x1.size inb_S5000x1_S5000x1_0_0

/-- What the body leaves in the output window: its one store, the payload of the two loaded blocks, over the whole block. -/
def out6_2 (x0 : Vec F S5000x128 .f32) (x1 : Vec F S5000x1 .f32) : Vec F S5000x128 .f32 :=
  View.canon [⟨rRows6, k6_pay1 (View.ld x0 rRows6) (View.ld x1 rCol6)⟩]

/-- The one store covers the block. -/
theorem cover6_2 (p0 : Vec F S5000x128 .f32) (y : S5000x128.Idx) :
    ∃ pc ∈ ([⟨rRows6, p0⟩] : List (View.Piece (Elt F) S5000x128 .f32)), y ∈ pc.1.set :=
  View.cover_of_tiled [⟨rRows6, p0⟩] S5000x128.size (by rfl) y

set_option maxHeartbeats 1000000 in
/-- The body on whole staging buffers, the inputs at x0 and x1 and the output at anything, ends with the inputs as
    they were and the output at out of them. -/
theorem sound_kernel6 (c : Dev nD) (E : Set ℕ) (i : grid6.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__scale_kernel i arg1 harg1 arg2 harg2 arg3 harg3) K := by
  simp only [cc6__scale_kernel_eq_skeleton]; unfold cc6__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core c: the arrays as the region finds them; after the body at point t each input
    window at its block and the output window at out of the two input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input windows hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIReg7.lean ====
/-
  Region 7 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The rows window holds its block at every point: fetched at every point, left in place by the body. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for the column of scales. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The matrix window holds the whole matrix at every point: fetched at the first point, its block index never moves afterwards, and the body leaves it in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- The same for the row that is added. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole blocks, as rectangles. -/
abbrev rRows7 : Rect S5000x128 := Rect.unit (s := S5000x128) ![0, 0] S5000x128.size inb_S5000x128_S5000x128_0_0
abbrev rCol7 : Rect S5000x1 := Rect.unit (s := S5000x1) ![0, 0] S5000x1.size inb_S5000x1_S5000x1_0_0
abbrev rMat7 : Rect S128x128 := Rect.unit (s := S128x128) ![0, 0] S128x128.size inb_S128x128_S128x128_0_0
abbrev rRow7 : Rect S1x128 := Rect.unit (s := S1x128) ![0, 0] S1x128.size inb_S1x128_S1x128_0_0

/-- What the body leaves in the output window: its one store, the payload of the four loaded blocks, over the whole block. -/
def out7_4 (x0 : Vec F S5000x128 .f32) (x1 : Vec F S5000x1 .f32) (x2 : Vec F S128x128 .f32) (x3 : Vec F S1x128 .f32) : Vec F S5000x128 .f32 :=
  View.canon [⟨rRows7, k7_pay1 (View.ld x0 rRows7) (View.ld x1 rCol7) (View.ld x2 rMat7) (View.ld x3 rRow7)⟩]

/-- The one store covers the block. -/
theorem cover7_4 (p0 : Vec F S5000x128 .f32) (y : S5000x128.Idx) :
    ∃ pc ∈ ([⟨rRows7, p0⟩] : List (View.Piece (Elt F) S5000x128 .f32)), y ∈ pc.1.set :=
  View.cover_of_tiled [⟨rRows7, p0⟩] S5000x128.size (by rfl) y

set_option maxHeartbeats 1000000 in
/-- The body on whole staging buffers, the inputs at x0 .. x3 and the output at anything, ends with the inputs as
    they were and the output at out of them. -/
theorem sound_kernel7 (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__lin_relu_kernel i arg1 harg1 arg2 harg2 arg3 harg3 arg4 harg4 arg5 harg5) K := by
  simp only [cc7__lin_relu_kernel_eq_skeleton]; unfold cc7__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-- The pipeline's proof data on core c: the arrays as the region finds them; after the body at point t each input
    window at its block and the output window at out of the four input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the input windows hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KIReg8.lean ====
/-
  Region 8 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The rows window holds its block at every point: it is fetched at every point and the body leaves it in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same for the column of scales. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole 5000 x 128 block and the whole 5000 x 1 block, as rectangles. -/
abbrev rRows8 : Rect S5000x128 := Rect.unit (s := S5000x128) ![0, 0] S5000x128.size inb_S5000x128_S5000x128_0_0
abbrev rCol8 : Rect S5000x1 := Rect.unit (s := S5000x1) ![0, 0] S5000x1.size inb_S5000x1_S5000x1_0_0

/-- What the body leaves in the output window: its one store, the payload of the two loaded blocks, over the whole block. -/
def out8_2 (x0 : Vec F S5000x128 .f32) (x1 : Vec F S5000x1 .f32) : Vec F S5000x128 .f32 :=
  View.canon [⟨rRows8, k8_pay1 (View.ld x0 rRows8) (View.ld x1 rCol8)⟩]

/-- The one store covers the block. -/
theorem cover8_2 (p0 : Vec F S5000x128 .f32) (y : S5000x128.Idx) :
    ∃ pc ∈ ([⟨rRows8, p0⟩] : List (View.Piece (Elt F) S5000x128 .f32)), y ∈ pc.1.set :=
  View.cover_of_tiled [⟨rRows8, p0⟩] S5000x128.size (by rfl) y

set_option maxHeartbeats 1000000 in
/-- The body on whole staging buffers, the inputs at x0 and x1 and the output at anything, ends with the inputs as
    they were and the output at out of them. -/
theorem sound_kernel8 (c : Dev nD) (E : Set ℕ) (i : grid8.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__scale_kernel i arg1 harg1 arg2 harg2 arg3 harg3) K := by
  simp only [cc8__scale_kernel_eq_skeleton]; unfold cc8__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The pipeline's proof data on core c: the arrays as the region finds them; after the body at point t each input
    window at its block and the output window at out of the two input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the input windows hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KIReg9.lean ====
/-
  Region 9 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rows window holds its block at every point: fetched at every point, left in place by the body. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for the column of scales. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The matrix window holds the whole matrix at every point: fetched at the first point, its block index never moves afterwards, and the body leaves it in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same for the row that is added. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole blocks, as rectangles. -/
abbrev rRows9 : Rect S5000x128 := Rect.unit (s := S5000x128) ![0, 0] S5000x128.size inb_S5000x128_S5000x128_0_0
abbrev rCol9 : Rect S5000x1 := Rect.unit (s := S5000x1) ![0, 0] S5000x1.size inb_S5000x1_S5000x1_0_0
abbrev rMat9 : Rect S128x128 := Rect.unit (s := S128x128) ![0, 0] S128x128.size inb_S128x128_S128x128_0_0
abbrev rRow9 : Rect S1x128 := Rect.unit (s := S1x128) ![0, 0] S1x128.size inb_S1x128_S1x128_0_0

/-- What the body leaves in the output window: its one store, the payload of the four loaded blocks, over the whole block. -/
def out9_4 (x0 : Vec F S5000x128 .f32) (x1 : Vec F S5000x1 .f32) (x2 : Vec F S128x128 .f32) (x3 : Vec F S1x128 .f32) : Vec F S5000x128 .f32 :=
  View.canon [⟨rRows9, k9_pay1 (View.ld x0 rRows9) (View.ld x1 rCol9) (View.ld x2 rMat9) (View.ld x3 rRow9)⟩]

/-- The one store covers the block. -/
theorem cover9_4 (p0 : Vec F S5000x128 .f32) (y : S5000x128.Idx) :
    ∃ pc ∈ ([⟨rRows9, p0⟩] : List (View.Piece (Elt F) S5000x128 .f32)), y ∈ pc.1.set :=
  View.cover_of_tiled [⟨rRows9, p0⟩] S5000x128.size (by rfl) y

set_option maxHeartbeats 1000000 in
/-- The body on whole staging buffers, the inputs at x0 .. x3 and the output at anything, ends with the inputs as
    they were and the output at out of them. -/
theorem sound_kernel9 (c : Dev nD) (E : Set ℕ) (i : grid9.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__lin_relu_kernel i arg1 harg1 arg2 harg2 arg3 harg3 arg4 harg4 arg5 harg5) K := by
  simp only [cc9__lin_relu_kernel_eq_skeleton]; unfold cc9__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The pipeline's proof data on core c: the arrays as the region finds them; after the body at point t each input
    window at its block and the output window at out of the four input blocks; the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point t, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the input windows hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KIReg10.lean ====
/-
  Region 10 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The rows window holds its block at every point: it is fetched at every point and the body leaves it in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same for the column of scales. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The whole 5000 x 128 block and the whole 5000 x 1 block, as rectangles. -/
abbrev rRows10 : Rect S5000x128 := Rect.unit (s := S5000x128) ![0, 0] S5000x128.size inb_S5000x128_S5000x128_0_0
abbrev rCol10 : Rect S5000x1 := Rect.unit (s := S5000x1) ![0, 0] S5000x1.size inb_S5000x1_S5000x1_0_0

/-- What the body leaves in the output window: its one store, the payload of the two loaded blocks, over the whole block. -/
def out10_2 (x0 : Vec F S5000x128 .f32) (x1 : Vec F S5000x1 .f32) : Vec F S5000x128 .f32 :=
  View.canon [⟨rRows10, k10_pay1 (View.ld x0 rRows10) (View.ld x1 rCol10)⟩]

/-- The one store covers the block. -/
theorem cover10_2 (p0 : Vec F S5000x128 .f32) (y : S5000x128.Idx) :
    ∃ pc ∈ ([⟨rRows10, p0⟩] : List (View.Piece (Elt F) S5000x128 .f32)), y ∈ pc.1.set :=
  View.cover_of_tiled [⟨rRows10, p0⟩] S5000x128.size (by rfl) y

set_option maxHeartbeats 1000000 in
/-- The body on whole staging buffers, the inputs at x0 and x1 and the output at anything, ends with the inputs as
    they were and the output at out of them. -/
theorem sound_kernel10 (c : Dev nD) (E : Set ℕ) (i : grid10.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__scale_kernel i arg1 harg1 arg2 harg2 arg3 harg3) K := by
  simp only [cc10__scale_kernel_eq_skeleton]; unfold cc10__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The pipeline's proof data on core c: the arrays as the region finds them; after the body at point t each input
    window at its block and the output window at out of the two input blocks; the scoped rest and the generator
    register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point t, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the input windows hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KIReg11.lean ====
/-
  Region 11 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The rows window holds its block at every point: fetched at every point, left in place by the body. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same for the column of scales. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The matrix window holds the whole matrix at every point: fetched at the first point, its block index never moves afterwards, and the body leaves it in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- The same for the row that is added. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole blocks, as rectangles. -/
abbrev rRows11 : Rect S5000x128 := Rect.unit (s := S5000x128) ![0, 0] S5000x128.size inb_S5000x128_S5000x128_0_0
abbrev rCol11 : Rect S5000x1 := Rect.unit (s := S5000x1) ![0, 0] S5000x1.size inb_S5000x1_S5000x1_0_0
abbrev rMat11 : Rect S128x128 := Rect.unit (s := S128x128) ![0, 0] S128x128.size inb_S128x128_S128x128_0_0
abbrev rRow11 : Rect S1x128 := Rect.unit (s := S1x128) ![0, 0] S1x128.size inb_S1x128_S1x128_0_0

/-- What the body leaves in the output window: its one store, the payload of the four loaded blocks, over the whole block. -/
def out11_4 (x0 : Vec F S5000x128 .f32) (x1 : Vec F S5000x1 .f32) (x2 : Vec F S128x128 .f32) (x3 : Vec F S1x128 .f32) : Vec F S5000x128 .f32 :=
  View.canon [⟨rRows11, k11_pay1 (View.ld x0 rRows11) (View.ld x1 rCol11) (View.ld x2 rMat11) (View.ld x3 rRow11)⟩]

/-- The one store covers the block. -/
theorem cover11_4 (p0 : Vec F S5000x128 .f32) (y : S5000x128.Idx) :
    ∃ pc ∈ ([⟨rRows11, p0⟩] : List (View.Piece (Elt F) S5000x128 .f32)), y ∈ pc.1.set :=
  View.cover_of_tiled [⟨rRows11, p0⟩] S5000x128.size (by rfl) y

set_option maxHeartbeats 1000000 in
/-- The body on whole staging buffers, the inputs at x0 .. x3 and the output at anything, ends with the inputs as
    they were and the output at out of them. -/
theorem sound_kernel11 (c : Dev nD) (E : Set ℕ) (i : grid11.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out11_4 x0 x1 x2 x3)) -∗ K ⟨⟩))
      ⊢ wp frame (wpE (defs₀ (F := F)) Variants.none c none) E (cc11__lin_relu_kernel i arg1 harg1 arg2 harg2 arg3 harg3 arg4 harg4 arg5 harg5) K := by
  simp only [cc11__lin_relu_kernel_eq_skeleton]; unfold cc11__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-- The pipeline's proof data on core c: the arrays as the region finds them; after the body at point t each input
    window at its block and the output window at out of the four input blocks; the scoped rest and the generator
    register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = out11_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point t, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the input windows hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ (grid11.coords t) _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KIReg12.lean ====
/-
  Region 12 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The rows window holds its block at every point: it is fetched at every point and the body leaves it in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same for the column of scales. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The whole 5000 x 128 block and the whole 5000 x 1 block, as rectangles. -/
abbrev rRows12 : Rect S5000x128 := Rect.unit (s := S5000x128) ![0, 0] S5000x128.size inb_S5000x128_S5000x128_0_0
abbrev rCol12 : Rect S5000x1 := Rect.unit (s := S5000x1) ![0, 0] S5000x1.size inb_S5000x1_S5000x1_0_0

/-- What the body leaves in the output window: its one store, the payload of the two loaded blocks, over the whole block. -/
def out12_2 (x0 : Vec F S5000x128 .f32) (x1 : Vec F S5000x1 .f32) : Vec F S5000x128 .f32 :=
  View.canon [⟨rRows12, k12_pay1 (View.ld x0 rRows12) (View.ld x1 rCol12)⟩]

/-- The one store covers the block. -/
theorem cover12_2 (p0 : Vec F S5000x128 .f32) (y : S5000x128.Idx) :
    ∃ pc ∈ ([⟨rRows12, p0⟩] : List (View.Piece (Elt F) S5000x128 .f32)), y ∈ pc.1.set :=
  View.cover_of_tiled [⟨rRows12, p0⟩] S5000x128.size (by rfl) y

set_option maxHeartbeats 1000000 in
/-- The body on whole staging buffers, the inputs at x0 and x1 and the output at anything, ends with the inputs as
    they were and the output at out of them. -/
theorem sound_kernel12 (c : Dev nD) (E : Set ℕ) (i : grid12.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__scale_kernel i arg1 harg1 arg2 harg2 arg3 harg3) K := by
  simp only [cc12__scale_kernel_eq_skeleton]; unfold cc12__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The pipeline's proof data on core c: the arrays as the region finds them; after the body at point t each input
    window at its block and the output window at out of the two input blocks; the scoped rest and the generator
    register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point t, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the input windows hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KIReg13.lean ====
/-
  Region 13 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The rows window holds its block at every point: fetched at every point, left in place by the body. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The same for the column of scales. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- The matrix window holds the whole matrix at every point: fetched at the first point, its block index never moves afterwards, and the body leaves it in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- The same for the row that is added. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- The whole blocks, as rectangles. -/
abbrev rRows13 : Rect S5000x128 := Rect.unit (s := S5000x128) ![0, 0] S5000x128.size inb_S5000x128_S5000x128_0_0
abbrev rCol13 : Rect S5000x1 := Rect.unit (s := S5000x1) ![0, 0] S5000x1.size inb_S5000x1_S5000x1_0_0
abbrev rMat13 : Rect S128x128 := Rect.unit (s := S128x128) ![0, 0] S128x128.size inb_S128x128_S128x128_0_0
abbrev rRow13 : Rect S1x128 := Rect.unit (s := S1x128) ![0, 0] S1x128.size inb_S1x128_S1x128_0_0

/-- What the body leaves in the output window: its one store, the payload of the four loaded blocks, over the whole block. -/
def out13_4 (x0 : Vec F S5000x128 .f32) (x1 : Vec F S5000x1 .f32) (x2 : Vec F S128x128 .f32) (x3 : Vec F S1x128 .f32) : Vec F S5000x128 .f32 :=
  View.canon [⟨rRows13, k13_pay1 (View.ld x0 rRows13) (View.ld x1 rCol13) (View.ld x2 rMat13) (View.ld x3 rRow13)⟩]

/-- The one store covers the block. -/
theorem cover13_4 (p0 : Vec F S5000x128 .f32) (y : S5000x128.Idx) :
    ∃ pc ∈ ([⟨rRows13, p0⟩] : List (View.Piece (Elt F) S5000x128 .f32)), y ∈ pc.1.set :=
  View.cover_of_tiled [⟨rRows13, p0⟩] S5000x128.size (by rfl) y

set_option maxHeartbeats 1000000 in
/-- The body on whole staging buffers, the inputs at x0 .. x3 and the output at anything, ends with the inputs as
    they were and the output at out of them. -/
theorem sound_kernel13 (c : Dev nD) (E : Set ℕ) (i : grid13.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out13_4 x0 x1 x2 x3)) -∗ K ⟨⟩))
      ⊢ wp frame (wpE (defs₀ (F := F)) Variants.none c none) E (cc13__lin_relu_kernel i arg1 harg1 arg2 harg2 arg3 harg3 arg4 harg4 arg5 harg5) K := by
  simp only [cc13__lin_relu_kernel_eq_skeleton]; unfold cc13__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-- The pipeline's proof data on core c: the arrays as the region finds them; after the body at point t each input
    window at its block and the output window at out of the four input blocks; the scoped rest and the generator
    register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 (iblk13 V c 0 t) (iblk13 V c 1 t) (iblk13 V c 2 t) (iblk13 V c 3 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-- What the body is called with at point t, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the input windows hold their blocks, so the body's triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ (grid13.coords t) _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KIReg14.lean ====
/-
  Region 14 of the program: one launch of the row-scaling kernel (each row of a 50000 x 128 array multiplied by that
  row's entry of a 50000 x 1 column), on a grid of ten points, each point working on a block of 5000 rows.
  Everything here is stated at a PARAMETER V, the contents of the core's buffers when the region is entered, and for
  any float instance. At a point t the two input windows hold block t of their arrays; the body loads both whole,
  computes its one payload from them and stores it over the whole output block, so after the body the output window
  holds that payload of the two input blocks (the single store covers the block). This gives the pipeline's proof data
  (inputs left in place, the output at the payload of the input blocks, nothing owed) and the body's obligation at
  every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The rows window holds its block at every point: it is fetched at every point and the body leaves it in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same for the column of scales. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The whole 5000 x 128 block and the whole 5000 x 1 block, as rectangles. -/
abbrev rRows14 : Rect S5000x128 := Rect.unit (s := S5000x128) ![0, 0] S5000x128.size inb_S5000x128_S5000x128_0_0
abbrev rCol14 : Rect S5000x1 := Rect.unit (s := S5000x1) ![0, 0] S5000x1.size inb_S5000x1_S5000x1_0_0

/-- What the body leaves in the output window: its one store, the payload of the two loaded blocks, over the whole block. -/
def out14_2 (x0 : Vec F S5000x128 .f32) (x1 : Vec F S5000x1 .f32) : Vec F S5000x128 .f32 :=
  View.canon [⟨rRows14, k14_pay1 (View.ld x0 rRows14) (View.ld x1 rCol14)⟩]

/-- The one store covers the block. -/
theorem cover14_2 (p0 : Vec F S5000x128 .f32) (y : S5000x128.Idx) :
    ∃ pc ∈ ([⟨rRows14, p0⟩] : List (View.Piece (Elt F) S5000x128 .f32)), y ∈ pc.1.set :=
  View.cover_of_tiled [⟨rRows14, p0⟩] S5000x128.size (by rfl) y

set_option maxHeartbeats 1000000 in
/-- The body on whole staging buffers, the inputs at x0 and x1 and the output at anything, ends with the inputs as
    they were and the output at out of them. -/
theorem sound_kernel14 (c : Dev nD) (E : Set ℕ) (i : grid14.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14_2 x0 x1)) -∗ K ⟨⟩))
      ⊢ wp frame (wpE (defs₀ (F := F)) Variants.none c none) E (cc14__scale_kernel i arg1 harg1 arg2 harg2 arg3 harg3) K := by
  simp only [cc14__scale_kernel_eq_skeleton]; unfold cc14__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The pipeline's proof data on core c: the arrays as the region finds them; after the body at point t each input
    window at its block and the output window at out of the two input blocks; the scoped rest and the generator
    register untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point t, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the input windows hold their blocks, so the body's triple applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ (grid14.coords t) _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KIReg15.lean ====
/-
  Region 15 of the program: one launch of the kernel that scales each row of a 50000 x 128 array by that row's entry
  of a 50000 x 1 column, multiplies the result by a 128 x 128 matrix, adds a 1 x 128 row to every row and takes the
  maximum with zero; a grid of ten points, each on a block of 5000 rows, the matrix and the row resident (their block
  index never moves, so they are fetched once and found in place afterwards).
  Everything here is stated at a PARAMETER V, the contents of the core's buffers when the region is entered, and for
  any float instance. At a point t the four input windows hold their blocks; the body loads them whole, computes its one
  payload from them and stores it over the whole output block, so after the body the output window holds that payload
  of the four input blocks. This gives the pipeline's proof data and the body's obligation at every point.
-/
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The rows window holds its block at every point: fetched at every point, left in place by the body. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The same for the column of scales. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- The matrix window holds the whole matrix at every point: fetched at the first point, its block index never moves afterwards, and the body leaves it in place. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
/-- The same for the row that is added. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-- The whole blocks, as rectangles. -/
abbrev rRows15 : Rect S5000x128 := Rect.unit (s := S5000x128) ![0, 0] S5000x128.size inb_S5000x128_S5000x128_0_0
abbrev rCol15 : Rect S5000x1 := Rect.unit (s := S5000x1) ![0, 0] S5000x1.size inb_S5000x1_S5000x1_0_0
abbrev rMat15 : Rect S128x128 := Rect.unit (s := S128x128) ![0, 0] S128x128.size inb_S128x128_S128x128_0_0
abbrev rRow15 : Rect S1x128 := Rect.unit (s := S1x128) ![0, 0] S1x128.size inb_S1x128_S1x128_0_0

/-- What the body leaves in the output window: its one store, the payload of the four loaded blocks, over the whole block. -/
def out15_4 (x0 : Vec F S5000x128 .f32) (x1 : Vec F S5000x1 .f32) (x2 : Vec F S128x128 .f32) (x3 : Vec F S1x128 .f32) : Vec F S5000x128 .f32 :=
  View.canon [⟨rRows15, k15_pay1 (View.ld x0 rRows15) (View.ld x1 rCol15) (View.ld x2 rMat15) (View.ld x3 rRow15)⟩]

/-- The one store covers the block. -/
theorem cover15_4 (p0 : Vec F S5000x128 .f32) (y : S5000x128.Idx) :
    ∃ pc ∈ ([⟨rRows15, p0⟩] : List (View.Piece (Elt F) S5000x128 .f32)), y ∈ pc.1.set :=
  View.cover_of_tiled [⟨rRows15, p0⟩] S5000x128.size (by rfl) y

set_option maxHeartbeats 1000000 in
/-- The body on whole staging buffers, the inputs at x0 .. x3 and the output at anything, ends with the inputs as
    they were and the output at out of them. -/
theorem sound_kernel15 (c : Dev nD) (E : Set ℕ) (i : grid15.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out15_4 x0 x1 x2 x3)) -∗ K ⟨⟩))
      ⊢ wp frame (wpE (defs₀ (F := F)) Variants.none c none) E (cc15__lin_relu_kernel i arg1 harg1 arg2 harg2 arg3 harg3 arg4 harg4 arg5 harg5) K := by
  simp only [cc15__lin_relu_kernel_eq_skeleton]; unfold cc15__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover15_4 _)

/-- The pipeline's proof data on core c: the arrays as the region finds them; after the body at point t each input
    window at its block and the output window at out of the four input blocks; the scoped rest and the generator
    register untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = out15_4 (iblk15 V c 0 t) (iblk15 V c 1 t) (iblk15 V c 2 t) (iblk15 V c 3 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d

/-- What the body is called with at point t, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

/-- The body at any point: the input windows hold their blocks, so the body's triple applies; the invariant and the
    core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3]
  rw [show (dat15 V c).Φ t.succ = (dat15 V c).Φ t.castSucc from rfl,
    show (dat15 V c).owesAt () t.succ = (dat15 V c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ (grid15.coords t) _ _ _ _ _ _ _ _ _ _ (iblk15 V c 0 t) (iblk15 V c 1 t) (iblk15 V c 2 t) (iblk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KIFold.lean ====
/-
  What a core's buffers hold after each item of @main, as a fold from the launch memory: after a stretch of host
  operations, the stretch applied to what was there; after a kernel region, the one array the region writes at what
  its pipeline leaves there (the write-backs of its ten points, folded) and every other buffer as it was. Then the
  generated valuations, which are written over unknown region outputs, are these at the outputs read off this fold;
  every pipeline's proof data at its region's entry contents; and, per region, that its arrays end at the exit
  contents (the inputs untouched, the output at the fold) while no other buffer moves.
-/
import proofs.«413962_j523986010479_1_alg».proof.Proof.KIRegions
import proofs.«413962_j523986010479_1_alg».proof.Proof.KIReg0
import proofs.«413962_j523986010479_1_alg».proof.Proof.KIReg1
import proofs.«413962_j523986010479_1_alg».proof.Proof.KIReg2
import proofs.«413962_j523986010479_1_alg».proof.Proof.KIReg3
import proofs.«413962_j523986010479_1_alg».proof.Proof.KIReg4
import proofs.«413962_j523986010479_1_alg».proof.Proof.KIReg5
import proofs.«413962_j523986010479_1_alg».proof.Proof.KIReg6
import proofs.«413962_j523986010479_1_alg».proof.Proof.KIReg7
import proofs.«413962_j523986010479_1_alg».proof.Proof.KIReg8
import proofs.«413962_j523986010479_1_alg».proof.Proof.KIReg9
import proofs.«413962_j523986010479_1_alg».proof.Proof.KIReg10
import proofs.«413962_j523986010479_1_alg».proof.Proof.KIReg11
import proofs.«413962_j523986010479_1_alg».proof.Proof.KIReg12
import proofs.«413962_j523986010479_1_alg».proof.Proof.KIReg13
import proofs.«413962_j523986010479_1_alg».proof.Proof.KIReg14
import proofs.«413962_j523986010479_1_alg».proof.Proof.KIReg15

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The launch memory, read on core c. -/
def W0 (c : Dev nD) : Valuation τ sig (Elt F) := fun b => m (c, b)

/-- After item 0, the host stretch hostOps0. -/
def W1 (c : Dev nD) : Valuation τ sig (Elt F) := StableHlo.after hostOps0 (W0 m c)
/-- After item 1, region 0: main_v18 at what the pipeline leaves there, the rest as entered. -/
def W2 (c : Dev nD) : Valuation τ sig (Elt F) :=
  Function.update (W1 m c) main_v18 ((dat0 (fun c b => W1 m c b) c).arrAt 2 cfg0.N)
/-- After item 2, the host stretch hostOps1. -/
def W3 (c : Dev nD) : Valuation τ sig (Elt F) := StableHlo.after hostOps1 (W2 m c)
/-- After item 3, the host stretch hostOps1_1. -/
def W4 (c : Dev nD) : Valuation τ sig (Elt F) := StableHlo.after hostOps1_1 (W3 m c)
/-- After item 4, region 1: main_v24 at what the pipeline leaves there, the rest as entered. -/
def W5 (c : Dev nD) : Valuation τ sig (Elt F) :=
  Function.update (W4 m c) main_v24 ((dat1 (fun c b => W4 m c b) c).arrAt 4 cfg1.N)
/-- After item 5, region 2: main_v25 at what the pipeline leaves there, the rest as entered. -/
def W6 (c : Dev nD) : Valuation τ sig (Elt F) :=
  Function.update (W5 m c) main_v25 ((dat2 (fun c b => W5 m c b) c).arrAt 2 cfg2.N)
/-- After item 6, the host stretch hostOps3. -/
def W7 (c : Dev nD) : Valuation τ sig (Elt F) := StableHlo.after hostOps3 (W6 m c)
/-- After item 7, the host stretch hostOps3_1. -/
def W8 (c : Dev nD) : Valuation τ sig (Elt F) := StableHlo.after hostOps3_1 (W7 m c)
/-- After item 8, region 3: main_v31 at what the pipeline leaves there, the rest as entered. -/
def W9 (c : Dev nD) : Valuation τ sig (Elt F) :=
  Function.update (W8 m c) main_v31 ((dat3 (fun c b => W8 m c b) c).arrAt 4 cfg3.N)
/-- After item 9, the host stretch hostOps4. -/
def W10 (c : Dev nD) : Valuation τ sig (Elt F) := StableHlo.after hostOps4 (W9 m c)
/-- After item 10, region 4: main_v50 at what the pipeline leaves there, the rest as entered. -/
def W11 (c : Dev nD) : Valuation τ sig (Elt F) :=
  Function.update (W10 m c) main_v50 ((dat4 (fun c b => W10 m c b) c).arrAt 2 cfg4.N)
/-- After item 11, the host stretch hostOps5. -/
def W12 (c : Dev nD) : Valuation τ sig (Elt F) := StableHlo.after hostOps5 (W11 m c)
/-- After item 12, the host stretch hostOps5_1. -/
def W13 (c : Dev nD) : Valuation τ sig (Elt F) := StableHlo.after hostOps5_1 (W12 m c)
/-- After item 13, region 5: main_v56 at what the pipeline leaves there, the rest as entered. -/
def W14 (c : Dev nD) : Valuation τ sig (Elt F) :=
  Function.update (W13 m c) main_v56 ((dat5 (fun c b => W13 m c b) c).arrAt 4 cfg5.N)
/-- After item 14, region 6: main_v57 at what the pipeline leaves there, the rest as entered. -/
def W15 (c : Dev nD) : Valuation τ sig (Elt F) :=
  Function.update (W14 m c) main_v57 ((dat6 (fun c b => W14 m c b) c).arrAt 2 cfg6.N)
/-- After item 15, the host stretch hostOps7. -/
def W16 (c : Dev nD) : Valuation τ sig (Elt F) := StableHlo.after hostOps7 (W15 m c)
/-- After item 16, the host stretch hostOps7_1. -/
def W17 (c : Dev nD) : Valuation τ sig (Elt F) := StableHlo.after hostOps7_1 (W16 m c)
/-- After item 17, region 7: main_v63 at what the pipeline leaves there, the rest as entered. -/
def W18 (c : Dev nD) : Valuation τ sig (Elt F) :=
  Function.update (W17 m c) main_v63 ((dat7 (fun c b => W17 m c b) c).arrAt 4 cfg7.N)
/-- After item 18, the host stretch hostOps8. -/
def W19 (c : Dev nD) : Valuation τ sig (Elt F) := StableHlo.after hostOps8 (W18 m c)
/-- After item 19, region 8: main_v82 at what the pipeline leaves there, the rest as entered. -/
def W20 (c : Dev nD) : Valuation τ sig (Elt F) :=
  Function.update (W19 m c) main_v82 ((dat8 (fun c b => W19 m c b) c).arrAt 2 cfg8.N)
/-- After item 20, the host stretch hostOps9. -/
def W21 (c : Dev nD) : Valuation τ sig (Elt F) := StableHlo.after hostOps9 (W20 m c)
/-- After item 21, the host stretch hostOps9_1. -/
def W22 (c : Dev nD) : Valuation τ sig (Elt F) := StableHlo.after hostOps9_1 (W21 m c)
/-- After item 22, region 9: main_v88 at what the pipeline leaves there, the rest as entered. -/
def W23 (c : Dev nD) : Valuation τ sig (Elt F) :=
  Function.update (W22 m c) main_v88 ((dat9 (fun c b => W22 m c b) c).arrAt 4 cfg9.N)
/-- After item 23, region 10: main_v89 at what the pipeline leaves there, the rest as entered. -/
def W24 (c : Dev nD) : Valuation τ sig (Elt F) :=
  Function.update (W23 m c) main_v89 ((dat10 (fun c b => W23 m c b) c).arrAt 2 cfg10.N)
/-- After item 24, the host stretch hostOps11. -/
def W25 (c : Dev nD) : Valuation τ sig (Elt F) := StableHlo.after hostOps11 (W24 m c)
/-- After item 25, the host stretch hostOps11_1. -/
def W26 (c : Dev nD) : Valuation τ sig (Elt F) := StableHlo.after hostOps11_1 (W25 m c)
/-- After item 26, region 11: main_v95 at what the pipeline leaves there, the rest as entered. -/
def W27 (c : Dev nD) : Valuation τ sig (Elt F) :=
  Function.update (W26 m c) main_v95 ((dat11 (fun c b => W26 m c b) c).arrAt 4 cfg11.N)
/-- After item 27, the host stretch hostOps12. -/
def W28 (c : Dev nD) : Valuation τ sig (Elt F) := StableHlo.after hostOps12 (W27 m c)
/-- After item 28, region 12: main_v114 at what the pipeline leaves there, the rest as entered. -/
def W29 (c : Dev nD) : Valuation τ sig (Elt F) :=
  Function.update (W28 m c) main_v114 ((dat12 (fun c b => W28 m c b) c).arrAt 2 cfg12.N)
/-- After item 29, the host stretch hostOps13. -/
def W30 (c : Dev nD) : Valuation τ sig (Elt F) := StableHlo.after hostOps13 (W29 m c)
/-- After item 30, the host stretch hostOps13_1. -/
def W31 (c : Dev nD) : Valuation τ sig (Elt F) := StableHlo.after hostOps13_1 (W30 m c)
/-- After item 31, region 13: main_v120 at what the pipeline leaves there, the rest as entered. -/
def W32 (c : Dev nD) : Valuation τ sig (Elt F) :=
  Function.update (W31 m c) main_v120 ((dat13 (fun c b => W31 m c b) c).arrAt 4 cfg13.N)
/-- After item 32, region 14: main_v121 at what the pipeline leaves there, the rest as entered. -/
def W33 (c : Dev nD) : Valuation τ sig (Elt F) :=
  Function.update (W32 m c) main_v121 ((dat14 (fun c b => W32 m c b) c).arrAt 2 cfg14.N)
/-- After item 33, the host stretch hostOps15. -/
def W34 (c : Dev nD) : Valuation τ sig (Elt F) := StableHlo.after hostOps15 (W33 m c)
/-- After item 34, the host stretch hostOps15_1. -/
def W35 (c : Dev nD) : Valuation τ sig (Elt F) := StableHlo.after hostOps15_1 (W34 m c)
/-- After item 35, region 15: main_v127 at what the pipeline leaves there, the rest as entered. -/
def W36 (c : Dev nD) : Valuation τ sig (Elt F) :=
  Function.update (W35 m c) main_v127 ((dat15 (fun c b => W35 m c b) c).arrAt 4 cfg15.N)
/-- After item 36, the host stretch hostOps16. -/
def W37 (c : Dev nD) : Valuation τ sig (Elt F) := StableHlo.after hostOps16 (W36 m c)

/-- The region outputs the generated valuations are written over, read off the fold. -/
def outsW : Outs (F := F) := fun J r c => match J with
  | 2 => W2 m c r
  | 5 => W5 m c r
  | 6 => W6 m c r
  | 9 => W9 m c r
  | 11 => W11 m c r
  | 14 => W14 m c r
  | 15 => W15 m c r
  | 18 => W18 m c r
  | 20 => W20 m c r
  | 23 => W23 m c r
  | 24 => W24 m c r
  | 27 => W27 m c r
  | 29 => W29 m c r
  | 32 => W32 m c r
  | 33 => W33 m c r
  | 36 => W36 m c r
  | _ => W0 m c r

/-! ## The generated valuations at those outputs are the fold -/

theorem V0_eq (c : Dev nD) : V0 m c = W0 m c := rfl
theorem V1_eq (c : Dev nD) : V1 m c = W1 m c := by
  show StableHlo.after hostOps0 (V0 m c) = W1 m c
  rw [V0_eq]; rfl
theorem V2_eq (c : Dev nD) : V2 m (outsW m) c = W2 m c := by
  show Function.update (V1 m c) main_v18 (W2 m c main_v18) = W2 m c
  rw [V1_eq]; unfold W2; rw [Function.update_self]
theorem V3_eq (c : Dev nD) : V3 m (outsW m) c = W3 m c := by
  show StableHlo.after hostOps1 (V2 m (outsW m) c) = W3 m c
  rw [V2_eq]; rfl
theorem V4_eq (c : Dev nD) : V4 m (outsW m) c = W4 m c := by
  show StableHlo.after hostOps1_1 (V3 m (outsW m) c) = W4 m c
  rw [V3_eq]; rfl
theorem V5_eq (c : Dev nD) : V5 m (outsW m) c = W5 m c := by
  show Function.update (V4 m (outsW m) c) main_v24 (W5 m c main_v24) = W5 m c
  rw [V4_eq]; unfold W5; rw [Function.update_self]
theorem V6_eq (c : Dev nD) : V6 m (outsW m) c = W6 m c := by
  show Function.update (V5 m (outsW m) c) main_v25 (W6 m c main_v25) = W6 m c
  rw [V5_eq]; unfold W6; rw [Function.update_self]
theorem V7_eq (c : Dev nD) : V7 m (outsW m) c = W7 m c := by
  show StableHlo.after hostOps3 (V6 m (outsW m) c) = W7 m c
  rw [V6_eq]; rfl
theorem V8_eq (c : Dev nD) : V8 m (outsW m) c = W8 m c := by
  show StableHlo.after hostOps3_1 (V7 m (outsW m) c) = W8 m c
  rw [V7_eq]; rfl
theorem V9_eq (c : Dev nD) : V9 m (outsW m) c = W9 m c := by
  show Function.update (V8 m (outsW m) c) main_v31 (W9 m c main_v31) = W9 m c
  rw [V8_eq]; unfold W9; rw [Function.update_self]
theorem V10_eq (c : Dev nD) : V10 m (outsW m) c = W10 m c := by
  show StableHlo.after hostOps4 (V9 m (outsW m) c) = W10 m c
  rw [V9_eq]; rfl
theorem V11_eq (c : Dev nD) : V11 m (outsW m) c = W11 m c := by
  show Function.update (V10 m (outsW m) c) main_v50 (W11 m c main_v50) = W11 m c
  rw [V10_eq]; unfold W11; rw [Function.update_self]
theorem V12_eq (c : Dev nD) : V12 m (outsW m) c = W12 m c := by
  show StableHlo.after hostOps5 (V11 m (outsW m) c) = W12 m c
  rw [V11_eq]; rfl
theorem V13_eq (c : Dev nD) : V13 m (outsW m) c = W13 m c := by
  show StableHlo.after hostOps5_1 (V12 m (outsW m) c) = W13 m c
  rw [V12_eq]; rfl
theorem V14_eq (c : Dev nD) : V14 m (outsW m) c = W14 m c := by
  show Function.update (V13 m (outsW m) c) main_v56 (W14 m c main_v56) = W14 m c
  rw [V13_eq]; unfold W14; rw [Function.update_self]
theorem V15_eq (c : Dev nD) : V15 m (outsW m) c = W15 m c := by
  show Function.update (V14 m (outsW m) c) main_v57 (W15 m c main_v57) = W15 m c
  rw [V14_eq]; unfold W15; rw [Function.update_self]
theorem V16_eq (c : Dev nD) : V16 m (outsW m) c = W16 m c := by
  show StableHlo.after hostOps7 (V15 m (outsW m) c) = W16 m c
  rw [V15_eq]; rfl
theorem V17_eq (c : Dev nD) : V17 m (outsW m) c = W17 m c := by
  show StableHlo.after hostOps7_1 (V16 m (outsW m) c) = W17 m c
  rw [V16_eq]; rfl
theorem V18_eq (c : Dev nD) : V18 m (outsW m) c = W18 m c := by
  show Function.update (V17 m (outsW m) c) main_v63 (W18 m c main_v63) = W18 m c
  rw [V17_eq]; unfold W18; rw [Function.update_self]
theorem V19_eq (c : Dev nD) : V19 m (outsW m) c = W19 m c := by
  show StableHlo.after hostOps8 (V18 m (outsW m) c) = W19 m c
  rw [V18_eq]; rfl
theorem V20_eq (c : Dev nD) : V20 m (outsW m) c = W20 m c := by
  show Function.update (V19 m (outsW m) c) main_v82 (W20 m c main_v82) = W20 m c
  rw [V19_eq]; unfold W20; rw [Function.update_self]
theorem V21_eq (c : Dev nD) : V21 m (outsW m) c = W21 m c := by
  show StableHlo.after hostOps9 (V20 m (outsW m) c) = W21 m c
  rw [V20_eq]; rfl
theorem V22_eq (c : Dev nD) : V22 m (outsW m) c = W22 m c := by
  show StableHlo.after hostOps9_1 (V21 m (outsW m) c) = W22 m c
  rw [V21_eq]; rfl
theorem V23_eq (c : Dev nD) : V23 m (outsW m) c = W23 m c := by
  show Function.update (V22 m (outsW m) c) main_v88 (W23 m c main_v88) = W23 m c
  rw [V22_eq]; unfold W23; rw [Function.update_self]
theorem V24_eq (c : Dev nD) : V24 m (outsW m) c = W24 m c := by
  show Function.update (V23 m (outsW m) c) main_v89 (W24 m c main_v89) = W24 m c
  rw [V23_eq]; unfold W24; rw [Function.update_self]
theorem V25_eq (c : Dev nD) : V25 m (outsW m) c = W25 m c := by
  show StableHlo.after hostOps11 (V24 m (outsW m) c) = W25 m c
  rw [V24_eq]; rfl
theorem V26_eq (c : Dev nD) : V26 m (outsW m) c = W26 m c := by
  show StableHlo.after hostOps11_1 (V25 m (outsW m) c) = W26 m c
  rw [V25_eq]; rfl
theorem V27_eq (c : Dev nD) : V27 m (outsW m) c = W27 m c := by
  show Function.update (V26 m (outsW m) c) main_v95 (W27 m c main_v95) = W27 m c
  rw [V26_eq]; unfold W27; rw [Function.update_self]
theorem V28_eq (c : Dev nD) : V28 m (outsW m) c = W28 m c := by
  show StableHlo.after hostOps12 (V27 m (outsW m) c) = W28 m c
  rw [V27_eq]; rfl
theorem V29_eq (c : Dev nD) : V29 m (outsW m) c = W29 m c := by
  show Function.update (V28 m (outsW m) c) main_v114 (W29 m c main_v114) = W29 m c
  rw [V28_eq]; unfold W29; rw [Function.update_self]
theorem V30_eq (c : Dev nD) : V30 m (outsW m) c = W30 m c := by
  show StableHlo.after hostOps13 (V29 m (outsW m) c) = W30 m c
  rw [V29_eq]; rfl
theorem V31_eq (c : Dev nD) : V31 m (outsW m) c = W31 m c := by
  show StableHlo.after hostOps13_1 (V30 m (outsW m) c) = W31 m c
  rw [V30_eq]; rfl
theorem V32_eq (c : Dev nD) : V32 m (outsW m) c = W32 m c := by
  show Function.update (V31 m (outsW m) c) main_v120 (W32 m c main_v120) = W32 m c
  rw [V31_eq]; unfold W32; rw [Function.update_self]
theorem V33_eq (c : Dev nD) : V33 m (outsW m) c = W33 m c := by
  show Function.update (V32 m (outsW m) c) main_v121 (W33 m c main_v121) = W33 m c
  rw [V32_eq]; unfold W33; rw [Function.update_self]
theorem V34_eq (c : Dev nD) : V34 m (outsW m) c = W34 m c := by
  show StableHlo.after hostOps15 (V33 m (outsW m) c) = W34 m c
  rw [V33_eq]; rfl
theorem V35_eq (c : Dev nD) : V35 m (outsW m) c = W35 m c := by
  show StableHlo.after hostOps15_1 (V34 m (outsW m) c) = W35 m c
  rw [V34_eq]; rfl
theorem V36_eq (c : Dev nD) : V36 m (outsW m) c = W36 m c := by
  show Function.update (V35 m (outsW m) c) main_v127 (W36 m c main_v127) = W36 m c
  rw [V35_eq]; unfold W36; rw [Function.update_self]
theorem V37_eq (c : Dev nD) : V37 m (outsW m) c = W37 m c := by
  show StableHlo.after hostOps16 (V36 m (outsW m) c) = W37 m c
  rw [V36_eq]; rfl

/-! ## Every pipeline's proof data, at its region's entry contents -/

def pdats : (p : Fin 16) → (c : Dev nD) → Dat τ (Elt F) Unit ℕ (UR sig nD τ) ℕ (cfgs p) c
  | ⟨0, _⟩ => fun c => dat0 (fun c b => W1 m c b) c
  | ⟨1, _⟩ => fun c => dat1 (fun c b => W4 m c b) c
  | ⟨2, _⟩ => fun c => dat2 (fun c b => W5 m c b) c
  | ⟨3, _⟩ => fun c => dat3 (fun c b => W8 m c b) c
  | ⟨4, _⟩ => fun c => dat4 (fun c b => W10 m c b) c
  | ⟨5, _⟩ => fun c => dat5 (fun c b => W13 m c b) c
  | ⟨6, _⟩ => fun c => dat6 (fun c b => W14 m c b) c
  | ⟨7, _⟩ => fun c => dat7 (fun c b => W17 m c b) c
  | ⟨8, _⟩ => fun c => dat8 (fun c b => W19 m c b) c
  | ⟨9, _⟩ => fun c => dat9 (fun c b => W22 m c b) c
  | ⟨10, _⟩ => fun c => dat10 (fun c b => W23 m c b) c
  | ⟨11, _⟩ => fun c => dat11 (fun c b => W26 m c b) c
  | ⟨12, _⟩ => fun c => dat12 (fun c b => W28 m c b) c
  | ⟨13, _⟩ => fun c => dat13 (fun c b => W31 m c b) c
  | ⟨14, _⟩ => fun c => dat14 (fun c b => W32 m c b) c
  | ⟨15, _⟩ => fun c => dat15 (fun c b => W35 m c b) c
  | ⟨_ + 16, h⟩ => absurd h (Nat.not_lt.2 (Nat.le_add_left _ _))

/-! ## Per region: its arrays end at the exit contents, and nothing else moves -/

theorem W2_out (c : Dev nD) : W2 m c main_v18 = (dat0 (fun c b => W1 m c b) c).arrAt 2 cfg0.N := by
  unfold W2; rw [Function.update_self]
theorem W2_of_ne (c : Dev nD) (b : Ref sig .tc) (hb : b ≠ main_v18) : W2 m c b = W1 m c b := by
  unfold W2; rw [Function.update_of_ne (StableHlo.devRef_ne_of_ne hb)]
set_option maxHeartbeats 2000000 in
theorem hF0 (c : Dev nD) (w : Fin cfg0.W) : (dat0 (fun c b => W1 m c b) c).arrAt w cfg0.N = W2 m c (Pipeline.arrRef spec0 w) :=
  match w with
    | ⟨0, _⟩ => (((dat0 (fun c b => W1 m c b) c).arrAt_in 0 rfl _).trans (A_eq0 (fun c b => W1 m c b) c 0)).trans (W2_of_ne m c _ (by decide)).symm
    | ⟨1, _⟩ => (((dat0 (fun c b => W1 m c b) c).arrAt_in 1 rfl _).trans (A_eq0 (fun c b => W1 m c b) c 1)).trans (W2_of_ne m c _ (by decide)).symm
    | ⟨2, _⟩ => (W2_out m c).symm
theorem hrest0 (c : Dev nD) : ∀ b, b ∉ Finset.univ.image (Pipeline.arrRef spec0) → W2 m c b = W1 m c b :=
  fun b hb => W2_of_ne m c b fun e => hb (Finset.mem_image.mpr ⟨2, Finset.mem_univ _, e.symm⟩)

theorem W5_out (c : Dev nD) : W5 m c main_v24 = (dat1 (fun c b => W4 m c b) c).arrAt 4 cfg1.N := by
  unfold W5; rw [Function.update_self]
theorem W5_of_ne (c : Dev nD) (b : Ref sig .tc) (hb : b ≠ main_v24) : W5 m c b = W4 m c b := by
  unfold W5; rw [Function.update_of_ne (StableHlo.devRef_ne_of_ne hb)]
set_option maxHeartbeats 2000000 in
theorem hF1 (c : Dev nD) (w : Fin cfg1.W) : (dat1 (fun c b => W4 m c b) c).arrAt w cfg1.N = W5 m c (Pipeline.arrRef spec1 w) :=
  match w with
    | ⟨0, _⟩ => (((dat1 (fun c b => W4 m c b) c).arrAt_in 0 rfl _).trans (A_eq1 (fun c b => W4 m c b) c 0)).trans (W5_of_ne m c _ (by decide)).symm
    | ⟨1, _⟩ => (((dat1 (fun c b => W4 m c b) c).arrAt_in 1 rfl _).trans (A_eq1 (fun c b => W4 m c b) c 1)).trans (W5_of_ne m c _ (by decide)).symm
    | ⟨2, _⟩ => (((dat1 (fun c b => W4 m c b) c).arrAt_in 2 rfl _).trans (A_eq1 (fun c b => W4 m c b) c 2)).trans (W5_of_ne m c _ (by decide)).symm
    | ⟨3, _⟩ => (((dat1 (fun c b => W4 m c b) c).arrAt_in 3 rfl _).trans (A_eq1 (fun c b => W4 m c b) c 3)).trans (W5_of_ne m c _ (by decide)).symm
    | ⟨4, _⟩ => (W5_out m c).symm
theorem hrest1 (c : Dev nD) : ∀ b, b ∉ Finset.univ.image (Pipeline.arrRef spec1) → W5 m c b = W4 m c b :=
  fun b hb => W5_of_ne m c b fun e => hb (Finset.mem_image.mpr ⟨4, Finset.mem_univ _, e.symm⟩)

theorem W6_out (c : Dev nD) : W6 m c main_v25 = (dat2 (fun c b => W5 m c b) c).arrAt 2 cfg2.N := by
  unfold W6; rw [Function.update_self]
theorem W6_of_ne (c : Dev nD) (b : Ref sig .tc) (hb : b ≠ main_v25) : W6 m c b = W5 m c b := by
  unfold W6; rw [Function.update_of_ne (StableHlo.devRef_ne_of_ne hb)]
set_option maxHeartbeats 2000000 in
theorem hF2 (c : Dev nD) (w : Fin cfg2.W) : (dat2 (fun c b => W5 m c b) c).arrAt w cfg2.N = W6 m c (Pipeline.arrRef spec2 w) :=
  match w with
    | ⟨0, _⟩ => (((dat2 (fun c b => W5 m c b) c).arrAt_in 0 rfl _).trans (A_eq2 (fun c b => W5 m c b) c 0)).trans (W6_of_ne m c _ (by decide)).symm
    | ⟨1, _⟩ => (((dat2 (fun c b => W5 m c b) c).arrAt_in 1 rfl _).trans (A_eq2 (fun c b => W5 m c b) c 1)).trans (W6_of_ne m c _ (by decide)).symm
    | ⟨2, _⟩ => (W6_out m c).symm
theorem hrest2 (c : Dev nD) : ∀ b, b ∉ Finset.univ.image (Pipeline.arrRef spec2) → W6 m c b = W5 m c b :=
  fun b hb => W6_of_ne m c b fun e => hb (Finset.mem_image.mpr ⟨2, Finset.mem_univ _, e.symm⟩)

theorem W9_out (c : Dev nD) : W9 m c main_v31 = (dat3 (fun c b => W8 m c b) c).arrAt 4 cfg3.N := by
  unfold W9; rw [Function.update_self]
theorem W9_of_ne (c : Dev nD) (b : Ref sig .tc) (hb : b ≠ main_v31) : W9 m c b = W8 m c b := by
  unfold W9; rw [Function.update_of_ne (StableHlo.devRef_ne_of_ne hb)]
set_option maxHeartbeats 2000000 in
theorem hF3 (c : Dev nD) (w : Fin cfg3.W) : (dat3 (fun c b => W8 m c b) c).arrAt w cfg3.N = W9 m c (Pipeline.arrRef spec3 w) :=
  match w with
    | ⟨0, _⟩ => (((dat3 (fun c b => W8 m c b) c).arrAt_in 0 rfl _).trans (A_eq3 (fun c b => W8 m c b) c 0)).trans (W9_of_ne m c _ (by decide)).symm
    | ⟨1, _⟩ => (((dat3 (fun c b => W8 m c b) c).arrAt_in 1 rfl _).trans (A_eq3 (fun c b => W8 m c b) c 1)).trans (W9_of_ne m c _ (by decide)).symm
    | ⟨2, _⟩ => (((dat3 (fun c b => W8 m c b) c).arrAt_in 2 rfl _).trans (A_eq3 (fun c b => W8 m c b) c 2)).trans (W9_of_ne m c _ (by decide)).symm
    | ⟨3, _⟩ => (((dat3 (fun c b => W8 m c b) c).arrAt_in 3 rfl _).trans (A_eq3 (fun c b => W8 m c b) c 3)).trans (W9_of_ne m c _ (by decide)).symm
    | ⟨4, _⟩ => (W9_out m c).symm
theorem hrest3 (c : Dev nD) : ∀ b, b ∉ Finset.univ.image (Pipeline.arrRef spec3) → W9 m c b = W8 m c b :=
  fun b hb => W9_of_ne m c b fun e => hb (Finset.mem_image.mpr ⟨4, Finset.mem_univ _, e.symm⟩)

theorem W11_out (c : Dev nD) : W11 m c main_v50 = (dat4 (fun c b => W10 m c b) c).arrAt 2 cfg4.N := by
  unfold W11; rw [Function.update_self]
theorem W11_of_ne (c : Dev nD) (b : Ref sig .tc) (hb : b ≠ main_v50) : W11 m c b = W10 m c b := by
  unfold W11; rw [Function.update_of_ne (StableHlo.devRef_ne_of_ne hb)]
set_option maxHeartbeats 2000000 in
theorem hF4 (c : Dev nD) (w : Fin cfg4.W) : (dat4 (fun c b => W10 m c b) c).arrAt w cfg4.N = W11 m c (Pipeline.arrRef spec4 w) :=
  match w with
    | ⟨0, _⟩ => (((dat4 (fun c b => W10 m c b) c).arrAt_in 0 rfl _).trans (A_eq4 (fun c b => W10 m c b) c 0)).trans (W11_of_ne m c _ (by decide)).symm
    | ⟨1, _⟩ => (((dat4 (fun c b => W10 m c b) c).arrAt_in 1 rfl _).trans (A_eq4 (fun c b => W10 m c b) c 1)).trans (W11_of_ne m c _ (by decide)).symm
    | ⟨2, _⟩ => (W11_out m c).symm
theorem hrest4 (c : Dev nD) : ∀ b, b ∉ Finset.univ.image (Pipeline.arrRef spec4) → W11 m c b = W10 m c b :=
  fun b hb => W11_of_ne m c b fun e => hb (Finset.mem_image.mpr ⟨2, Finset.mem_univ _, e.symm⟩)

theorem W14_out (c : Dev nD) : W14 m c main_v56 = (dat5 (fun c b => W13 m c b) c).arrAt 4 cfg5.N := by
  unfold W14; rw [Function.update_self]
theorem W14_of_ne (c : Dev nD) (b : Ref sig .tc) (hb : b ≠ main_v56) : W14 m c b = W13 m c b := by
  unfold W14; rw [Function.update_of_ne (StableHlo.devRef_ne_of_ne hb)]
set_option maxHeartbeats 2000000 in
theorem hF5 (c : Dev nD) (w : Fin cfg5.W) : (dat5 (fun c b => W13 m c b) c).arrAt w cfg5.N = W14 m c (Pipeline.arrRef spec5 w) :=
  match w with
    | ⟨0, _⟩ => (((dat5 (fun c b => W13 m c b) c).arrAt_in 0 rfl _).trans (A_eq5 (fun c b => W13 m c b) c 0)).trans (W14_of_ne m c _ (by decide)).symm
    | ⟨1, _⟩ => (((dat5 (fun c b => W13 m c b) c).arrAt_in 1 rfl _).trans (A_eq5 (fun c b => W13 m c b) c 1)).trans (W14_of_ne m c _ (by decide)).symm
    | ⟨2, _⟩ => (((dat5 (fun c b => W13 m c b) c).arrAt_in 2 rfl _).trans (A_eq5 (fun c b => W13 m c b) c 2)).trans (W14_of_ne m c _ (by decide)).symm
    | ⟨3, _⟩ => (((dat5 (fun c b => W13 m c b) c).arrAt_in 3 rfl _).trans (A_eq5 (fun c b => W13 m c b) c 3)).trans (W14_of_ne m c _ (by decide)).symm
    | ⟨4, _⟩ => (W14_out m c).symm
theorem hrest5 (c : Dev nD) : ∀ b, b ∉ Finset.univ.image (Pipeline.arrRef spec5) → W14 m c b = W13 m c b :=
  fun b hb => W14_of_ne m c b fun e => hb (Finset.mem_image.mpr ⟨4, Finset.mem_univ _, e.symm⟩)

theorem W15_out (c : Dev nD) : W15 m c main_v57 = (dat6 (fun c b => W14 m c b) c).arrAt 2 cfg6.N := by
  unfold W15; rw [Function.update_self]
theorem W15_of_ne (c : Dev nD) (b : Ref sig .tc) (hb : b ≠ main_v57) : W15 m c b = W14 m c b := by
  unfold W15; rw [Function.update_of_ne (StableHlo.devRef_ne_of_ne hb)]
set_option maxHeartbeats 2000000 in
theorem hF6 (c : Dev nD) (w : Fin cfg6.W) : (dat6 (fun c b => W14 m c b) c).arrAt w cfg6.N = W15 m c (Pipeline.arrRef spec6 w) :=
  match w with
    | ⟨0, _⟩ => (((dat6 (fun c b => W14 m c b) c).arrAt_in 0 rfl _).trans (A_eq6 (fun c b => W14 m c b) c 0)).trans (W15_of_ne m c _ (by decide)).symm
    | ⟨1, _⟩ => (((dat6 (fun c b => W14 m c b) c).arrAt_in 1 rfl _).trans (A_eq6 (fun c b => W14 m c b) c 1)).trans (W15_of_ne m c _ (by decide)).symm
    | ⟨2, _⟩ => (W15_out m c).symm
theorem hrest6 (c : Dev nD) : ∀ b, b ∉ Finset.univ.image (Pipeline.arrRef spec6) → W15 m c b = W14 m c b :=
  fun b hb => W15_of_ne m c b fun e => hb (Finset.mem_image.mpr ⟨2, Finset.mem_univ _, e.symm⟩)

theorem W18_out (c : Dev nD) : W18 m c main_v63 = (dat7 (fun c b => W17 m c b) c).arrAt 4 cfg7.N := by
  unfold W18; rw [Function.update_self]
theorem W18_of_ne (c : Dev nD) (b : Ref sig .tc) (hb : b ≠ main_v63) : W18 m c b = W17 m c b := by
  unfold W18; rw [Function.update_of_ne (StableHlo.devRef_ne_of_ne hb)]
set_option maxHeartbeats 2000000 in
theorem hF7 (c : Dev nD) (w : Fin cfg7.W) : (dat7 (fun c b => W17 m c b) c).arrAt w cfg7.N = W18 m c (Pipeline.arrRef spec7 w) :=
  match w with
    | ⟨0, _⟩ => (((dat7 (fun c b => W17 m c b) c).arrAt_in 0 rfl _).trans (A_eq7 (fun c b => W17 m c b) c 0)).trans (W18_of_ne m c _ (by decide)).symm
    | ⟨1, _⟩ => (((dat7 (fun c b => W17 m c b) c).arrAt_in 1 rfl _).trans (A_eq7 (fun c b => W17 m c b) c 1)).trans (W18_of_ne m c _ (by decide)).symm
    | ⟨2, _⟩ => (((dat7 (fun c b => W17 m c b) c).arrAt_in 2 rfl _).trans (A_eq7 (fun c b => W17 m c b) c 2)).trans (W18_of_ne m c _ (by decide)).symm
    | ⟨3, _⟩ => (((dat7 (fun c b => W17 m c b) c).arrAt_in 3 rfl _).trans (A_eq7 (fun c b => W17 m c b) c 3)).trans (W18_of_ne m c _ (by decide)).symm
    | ⟨4, _⟩ => (W18_out m c).symm
theorem hrest7 (c : Dev nD) : ∀ b, b ∉ Finset.univ.image (Pipeline.arrRef spec7) → W18 m c b = W17 m c b :=
  fun b hb => W18_of_ne m c b fun e => hb (Finset.mem_image.mpr ⟨4, Finset.mem_univ _, e.symm⟩)

theorem W20_out (c : Dev nD) : W20 m c main_v82 = (dat8 (fun c b => W19 m c b) c).arrAt 2 cfg8.N := by
  unfold W20; rw [Function.update_self]
theorem W20_of_ne (c : Dev nD) (b : Ref sig .tc) (hb : b ≠ main_v82) : W20 m c b = W19 m c b := by
  unfold W20; rw [Function.update_of_ne (StableHlo.devRef_ne_of_ne hb)]
set_option maxHeartbeats 2000000 in
theorem hF8 (c : Dev nD) (w : Fin cfg8.W) : (dat8 (fun c b => W19 m c b) c).arrAt w cfg8.N = W20 m c (Pipeline.arrRef spec8 w) :=
  match w with
    | ⟨0, _⟩ => (((dat8 (fun c b => W19 m c b) c).arrAt_in 0 rfl _).trans (A_eq8 (fun c b => W19 m c b) c 0)).trans (W20_of_ne m c _ (by decide)).symm
    | ⟨1, _⟩ => (((dat8 (fun c b => W19 m c b) c).arrAt_in 1 rfl _).trans (A_eq8 (fun c b => W19 m c b) c 1)).trans (W20_of_ne m c _ (by decide)).symm
    | ⟨2, _⟩ => (W20_out m c).symm
theorem hrest8 (c : Dev nD) : ∀ b, b ∉ Finset.univ.image (Pipeline.arrRef spec8) → W20 m c b = W19 m c b :=
  fun b hb => W20_of_ne m c b fun e => hb (Finset.mem_image.mpr ⟨2, Finset.mem_univ _, e.symm⟩)

theorem W23_out (c : Dev nD) : W23 m c main_v88 = (dat9 (fun c b => W22 m c b) c).arrAt 4 cfg9.N := by
  unfold W23; rw [Function.update_self]
theorem W23_of_ne (c : Dev nD) (b : Ref sig .tc) (hb : b ≠ main_v88) : W23 m c b = W22 m c b := by
  unfold W23; rw [Function.update_of_ne (StableHlo.devRef_ne_of_ne hb)]
set_option maxHeartbeats 2000000 in
theorem hF9 (c : Dev nD) (w : Fin cfg9.W) : (dat9 (fun c b => W22 m c b) c).arrAt w cfg9.N = W23 m c (Pipeline.arrRef spec9 w) :=
  match w with
    | ⟨0, _⟩ => (((dat9 (fun c b => W22 m c b) c).arrAt_in 0 rfl _).trans (A_eq9 (fun c b => W22 m c b) c 0)).trans (W23_of_ne m c _ (by decide)).symm
    | ⟨1, _⟩ => (((dat9 (fun c b => W22 m c b) c).arrAt_in 1 rfl _).trans (A_eq9 (fun c b => W22 m c b) c 1)).trans (W23_of_ne m c _ (by decide)).symm
    | ⟨2, _⟩ => (((dat9 (fun c b => W22 m c b) c).arrAt_in 2 rfl _).trans (A_eq9 (fun c b => W22 m c b) c 2)).trans (W23_of_ne m c _ (by decide)).symm
    | ⟨3, _⟩ => (((dat9 (fun c b => W22 m c b) c).arrAt_in 3 rfl _).trans (A_eq9 (fun c b => W22 m c b) c 3)).trans (W23_of_ne m c _ (by decide)).symm
    | ⟨4, _⟩ => (W23_out m c).symm
theorem hrest9 (c : Dev nD) : ∀ b, b ∉ Finset.univ.image (Pipeline.arrRef spec9) → W23 m c b = W22 m c b :=
  fun b hb => W23_of_ne m c b fun e => hb (Finset.mem_image.mpr ⟨4, Finset.mem_univ _, e.symm⟩)

theorem W24_out (c : Dev nD) : W24 m c main_v89 = (dat10 (fun c b => W23 m c b) c).arrAt 2 cfg10.N := by
  unfold W24; rw [Function.update_self]
theorem W24_of_ne (c : Dev nD) (b : Ref sig .tc) (hb : b ≠ main_v89) : W24 m c b = W23 m c b := by
  unfold W24; rw [Function.update_of_ne (StableHlo.devRef_ne_of_ne hb)]
set_option maxHeartbeats 2000000 in
theorem hF10 (c : Dev nD) (w : Fin cfg10.W) : (dat10 (fun c b => W23 m c b) c).arrAt w cfg10.N = W24 m c (Pipeline.arrRef spec10 w) :=
  match w with
    | ⟨0, _⟩ => (((dat10 (fun c b => W23 m c b) c).arrAt_in 0 rfl _).trans (A_eq10 (fun c b => W23 m c b) c 0)).trans (W24_of_ne m c _ (by decide)).symm
    | ⟨1, _⟩ => (((dat10 (fun c b => W23 m c b) c).arrAt_in 1 rfl _).trans (A_eq10 (fun c b => W23 m c b) c 1)).trans (W24_of_ne m c _ (by decide)).symm
    | ⟨2, _⟩ => (W24_out m c).symm
theorem hrest10 (c : Dev nD) : ∀ b, b ∉ Finset.univ.image (Pipeline.arrRef spec10) → W24 m c b = W23 m c b :=
  fun b hb => W24_of_ne m c b fun e => hb (Finset.mem_image.mpr ⟨2, Finset.mem_univ _, e.symm⟩)

theorem W27_out (c : Dev nD) : W27 m c main_v95 = (dat11 (fun c b => W26 m c b) c).arrAt 4 cfg11.N := by
  unfold W27; rw [Function.update_self]
theorem W27_of_ne (c : Dev nD) (b : Ref sig .tc) (hb : b ≠ main_v95) : W27 m c b = W26 m c b := by
  unfold W27; rw [Function.update_of_ne (StableHlo.devRef_ne_of_ne hb)]
set_option maxHeartbeats 2000000 in
theorem hF11 (c : Dev nD) (w : Fin cfg11.W) : (dat11 (fun c b => W26 m c b) c).arrAt w cfg11.N = W27 m c (Pipeline.arrRef spec11 w) :=
  match w with
    | ⟨0, _⟩ => (((dat11 (fun c b => W26 m c b) c).arrAt_in 0 rfl _).trans (A_eq11 (fun c b => W26 m c b) c 0)).trans (W27_of_ne m c _ (by decide)).symm
    | ⟨1, _⟩ => (((dat11 (fun c b => W26 m c b) c).arrAt_in 1 rfl _).trans (A_eq11 (fun c b => W26 m c b) c 1)).trans (W27_of_ne m c _ (by decide)).symm
    | ⟨2, _⟩ => (((dat11 (fun c b => W26 m c b) c).arrAt_in 2 rfl _).trans (A_eq11 (fun c b => W26 m c b) c 2)).trans (W27_of_ne m c _ (by decide)).symm
    | ⟨3, _⟩ => (((dat11 (fun c b => W26 m c b) c).arrAt_in 3 rfl _).trans (A_eq11 (fun c b => W26 m c b) c 3)).trans (W27_of_ne m c _ (by decide)).symm
    | ⟨4, _⟩ => (W27_out m c).symm
theorem hrest11 (c : Dev nD) : ∀ b, b ∉ Finset.univ.image (Pipeline.arrRef spec11) → W27 m c b = W26 m c b :=
  fun b hb => W27_of_ne m c b fun e => hb (Finset.mem_image.mpr ⟨4, Finset.mem_univ _, e.symm⟩)

theorem W29_out (c : Dev nD) : W29 m c main_v114 = (dat12 (fun c b => W28 m c b) c).arrAt 2 cfg12.N := by
  unfold W29; rw [Function.update_self]
theorem W29_of_ne (c : Dev nD) (b : Ref sig .tc) (hb : b ≠ main_v114) : W29 m c b = W28 m c b := by
  unfold W29; rw [Function.update_of_ne (StableHlo.devRef_ne_of_ne hb)]
set_option maxHeartbeats 2000000 in
theorem hF12 (c : Dev nD) (w : Fin cfg12.W) : (dat12 (fun c b => W28 m c b) c).arrAt w cfg12.N = W29 m c (Pipeline.arrRef spec12 w) :=
  match w with
    | ⟨0, _⟩ => (((dat12 (fun c b => W28 m c b) c).arrAt_in 0 rfl _).trans (A_eq12 (fun c b => W28 m c b) c 0)).trans (W29_of_ne m c _ (by decide)).symm
    | ⟨1, _⟩ => (((dat12 (fun c b => W28 m c b) c).arrAt_in 1 rfl _).trans (A_eq12 (fun c b => W28 m c b) c 1)).trans (W29_of_ne m c _ (by decide)).symm
    | ⟨2, _⟩ => (W29_out m c).symm
theorem hrest12 (c : Dev nD) : ∀ b, b ∉ Finset.univ.image (Pipeline.arrRef spec12) → W29 m c b = W28 m c b :=
  fun b hb => W29_of_ne m c b fun e => hb (Finset.mem_image.mpr ⟨2, Finset.mem_univ _, e.symm⟩)

theorem W32_out (c : Dev nD) : W32 m c main_v120 = (dat13 (fun c b => W31 m c b) c).arrAt 4 cfg13.N := by
  unfold W32; rw [Function.update_self]
theorem W32_of_ne (c : Dev nD) (b : Ref sig .tc) (hb : b ≠ main_v120) : W32 m c b = W31 m c b := by
  unfold W32; rw [Function.update_of_ne (StableHlo.devRef_ne_of_ne hb)]
set_option maxHeartbeats 2000000 in
theorem hF13 (c : Dev nD) (w : Fin cfg13.W) : (dat13 (fun c b => W31 m c b) c).arrAt w cfg13.N = W32 m c (Pipeline.arrRef spec13 w) :=
  match w with
    | ⟨0, _⟩ => (((dat13 (fun c b => W31 m c b) c).arrAt_in 0 rfl _).trans (A_eq13 (fun c b => W31 m c b) c 0)).trans (W32_of_ne m c _ (by decide)).symm
    | ⟨1, _⟩ => (((dat13 (fun c b => W31 m c b) c).arrAt_in 1 rfl _).trans (A_eq13 (fun c b => W31 m c b) c 1)).trans (W32_of_ne m c _ (by decide)).symm
    | ⟨2, _⟩ => (((dat13 (fun c b => W31 m c b) c).arrAt_in 2 rfl _).trans (A_eq13 (fun c b => W31 m c b) c 2)).trans (W32_of_ne m c _ (by decide)).symm
    | ⟨3, _⟩ => (((dat13 (fun c b => W31 m c b) c).arrAt_in 3 rfl _).trans (A_eq13 (fun c b => W31 m c b) c 3)).trans (W32_of_ne m c _ (by decide)).symm
    | ⟨4, _⟩ => (W32_out m c).symm
theorem hrest13 (c : Dev nD) : ∀ b, b ∉ Finset.univ.image (Pipeline.arrRef spec13) → W32 m c b = W31 m c b :=
  fun b hb => W32_of_ne m c b fun e => hb (Finset.mem_image.mpr ⟨4, Finset.mem_univ _, e.symm⟩)

theorem W33_out (c : Dev nD) : W33 m c main_v121 = (dat14 (fun c b => W32 m c b) c).arrAt 2 cfg14.N := by
  unfold W33; rw [Function.update_self]
theorem W33_of_ne (c : Dev nD) (b : Ref sig .tc) (hb : b ≠ main_v121) : W33 m c b = W32 m c b := by
  unfold W33; rw [Function.update_of_ne (StableHlo.devRef_ne_of_ne hb)]
set_option maxHeartbeats 2000000 in
theorem hF14 (c : Dev nD) (w : Fin cfg14.W) : (dat14 (fun c b => W32 m c b) c).arrAt w cfg14.N = W33 m c (Pipeline.arrRef spec14 w) :=
  match w with
    | ⟨0, _⟩ => (((dat14 (fun c b => W32 m c b) c).arrAt_in 0 rfl _).trans (A_eq14 (fun c b => W32 m c b) c 0)).trans (W33_of_ne m c _ (by decide)).symm
    | ⟨1, _⟩ => (((dat14 (fun c b => W32 m c b) c).arrAt_in 1 rfl _).trans (A_eq14 (fun c b => W32 m c b) c 1)).trans (W33_of_ne m c _ (by decide)).symm
    | ⟨2, _⟩ => (W33_out m c).symm
theorem hrest14 (c : Dev nD) : ∀ b, b ∉ Finset.univ.image (Pipeline.arrRef spec14) → W33 m c b = W32 m c b :=
  fun b hb => W33_of_ne m c b fun e => hb (Finset.mem_image.mpr ⟨2, Finset.mem_univ _, e.symm⟩)

theorem W36_out (c : Dev nD) : W36 m c main_v127 = (dat15 (fun c b => W35 m c b) c).arrAt 4 cfg15.N := by
  unfold W36; rw [Function.update_self]
theorem W36_of_ne (c : Dev nD) (b : Ref sig .tc) (hb : b ≠ main_v127) : W36 m c b = W35 m c b := by
  unfold W36; rw [Function.update_of_ne (StableHlo.devRef_ne_of_ne hb)]
set_option maxHeartbeats 2000000 in
theorem hF15 (c : Dev nD) (w : Fin cfg15.W) : (dat15 (fun c b => W35 m c b) c).arrAt w cfg15.N = W36 m c (Pipeline.arrRef spec15 w) :=
  match w with
    | ⟨0, _⟩ => (((dat15 (fun c b => W35 m c b) c).arrAt_in 0 rfl _).trans (A_eq15 (fun c b => W35 m c b) c 0)).trans (W36_of_ne m c _ (by decide)).symm
    | ⟨1, _⟩ => (((dat15 (fun c b => W35 m c b) c).arrAt_in 1 rfl _).trans (A_eq15 (fun c b => W35 m c b) c 1)).trans (W36_of_ne m c _ (by decide)).symm
    | ⟨2, _⟩ => (((dat15 (fun c b => W35 m c b) c).arrAt_in 2 rfl _).trans (A_eq15 (fun c b => W35 m c b) c 2)).trans (W36_of_ne m c _ (by decide)).symm
    | ⟨3, _⟩ => (((dat15 (fun c b => W35 m c b) c).arrAt_in 3 rfl _).trans (A_eq15 (fun c b => W35 m c b) c 3)).trans (W36_of_ne m c _ (by decide)).symm
    | ⟨4, _⟩ => (W36_out m c).symm
theorem hrest15 (c : Dev nD) : ∀ b, b ∉ Finset.univ.image (Pipeline.arrRef spec15) → W36 m c b = W35 m c b :=
  fun b hb => W36_of_ne m c b fun e => hb (Finset.mem_image.mpr ⟨4, Finset.mem_univ _, e.symm⟩)

end Cert.KernelIdeal.Hand

end
-- ==== Proof.KISegs.lean ====
import proofs.«413962_j523986010479_1_alg».proof.Proof.KIFold

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- A kernel region as a segment of the run: entered with every unscoped buffer whole at Wa, left with them at Wb.
set_option backward.isDefEq.respectTransparency.types false in
def mkReg (p : Fin 16) (lf : Pipeline.LaunchFacts (nD := nD) (τ := τ) cfgs p) (Wa Wb : Dev nD → Valuation τ sig (Elt F))
    (hb : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hΦ : ∀ c j, (pdats m p c).Φ j = Pipeline.ΦA (pcfgs (F := F) p).spec c)
    (hA : ∀ c w, (pdats m p c).A w = Wa c (Pipeline.arrRef (pcfgs (F := F) p).spec w))
    (hF : ∀ c w, (pdats m p c).arrAt w (cfgs p).N = Wb c (Pipeline.arrRef (pcfgs (F := F) p).spec w))
    (hrest : ∀ c b, b ∉ Finset.univ.image (Pipeline.arrRef (pcfgs (F := F) p).spec) → Wb c b = Wa c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wa c b)
  hentry c := by
    rw [Pipeline.ownSems0_none]
    have hsplit := Pipeline.arrays_of_unscopedBufs (p := p) (pcfgs (F := F)) adm (pdats m) lf.win lf.arr_whole c
      ((pdats m p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl ((hrec c 0).symm ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wa c b) (fun b => Wb c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
def reg0 : Pipeline.RegionSeg (pcfgs (F := F)) adm (pdats m) () defs₀ 𝒱₀ L lv 0 :=
  mkReg m 0 launch0 (W1 m) (W2 m) (fun c => body_obligation0 (fun c b => W1 m c b) c) (fun _ _ => rfl) (fun _ _ => rfl) (fun _ _ => rfl) (fun _ _ => rfl) (fun _ _ => rfl) (hF0 m) (hrest0 m)
set_option backward.isDefEq.respectTransparency.types false in
def reg1 : Pipeline.RegionSeg (pcfgs (F := F)) adm (pdats m) () defs₀ 𝒱₀ L lv 1 :=
  mkReg m 1 launch1 (W4 m) (W5 m) (fun c => body_obligation1 (fun c b => W4 m c b) c) (fun _ _ => rfl) (fun _ _ => rfl) (fun _ _ => rfl) (fun _ _ => rfl) (fun _ _ => rfl) (hF1 m) (hrest1 m)
set_option backward.isDefEq.respectTransparency.types false in
def reg2 : Pipeline.RegionSeg (pcfgs (F := F)) adm (pdats m) () defs₀ 𝒱₀ L lv 2 :=
  mkReg m 2 launch2 (W5 m) (W6 m) (fun c => body_obligation2 (fun c b => W5 m c b) c) (fun _ _ => rfl) (fun _ _ => rfl) (fun _ _ => rfl) (fun _ _ => rfl) (fun _ _ => rfl) (hF2 m) (hrest2 m)
set_option backward.isDefEq.respectTransparency.types false in
def reg3 : Pipeline.RegionSeg (pcfgs (F := F)) adm (pdats m) () defs₀ 𝒱₀ L lv 3 :=
  mkReg m 3 launch3 (W8 m) (W9 m) (fun c => body_obligation3 (fun c b => W8 m c b) c) (fun _ _ => rfl) (fun _ _ => rfl) (fun _ _ => rfl) (fun _ _ => rfl) (fun _ _ => rfl) (hF3 m) (hrest3 m)
set_option backward.isDefEq.respectTransparency.types false in
def reg4 : Pipeline.RegionSeg (pcfgs (F := F)) adm (pdats m) () defs₀ 𝒱₀ L lv 4 :=
  mkReg m 4 launch4 (W10 m) (W11 m) (fun c => body_obligation4 (fun c b => W10 m c b) c) (fun _ _ => rfl) (fun _ _ => rfl) (fun _ _ => rfl) (fun _ _ => rfl) (fun _ _ => rfl) (hF4 m) (hrest4 m)
set_option backward.isDefEq.respectTransparency.types false in
def reg5 : Pipeline.RegionSeg (pcfgs (F := F)) adm (pdats m) () defs₀ 𝒱₀ L lv 5 :=
  mkReg m 5 launch5 (W13 m) (W14 m) (fun c => body_obligation5 (fun c b => W13 m c b) c) (fun _ _ => rfl) (fun _ _ => rfl) (fun _ _ => rfl) (fun _ _ => rfl) (fun _ _ => rfl) (hF5 m) (hrest5 m)
set_option backward.isDefEq.respectTransparency.types false in
def reg6 : Pipeline.RegionSeg (pcfgs (F := F)) adm (pdats m) () defs₀ 𝒱₀ L lv 6 :=
  mkReg m 6 launch6 (W14 m) (W15 m) (fun c => body_obligation6 (fun c b => W14 m c b) c) (fun _ _ => rfl) (fun _ _ => rfl) (fun _ _ => rfl) (fun _ _ => rfl) (fun _ _ => rfl) (hF6 m) (hrest6 m)
set_option backward.isDefEq.respectTransparency.types false in
def reg7 : Pipeline.RegionSeg (pcfgs (F := F)) adm (pdats m) () defs₀ 𝒱₀ L lv 7 :=
  mkReg m 7 launch7 (W17 m) (W18 m) (fun c => body_obligation7 (fun c b => W17 m c b) c) (fun _ _ => rfl) (fun _ _ => rfl) (fun _ _ => rfl) (fun _ _ => rfl) (fun _ _ => rfl) (hF7 m) (hrest7 m)
set_option backward.isDefEq.respectTransparency.types false in
def reg8 : Pipeline.RegionSeg (pcfgs (F := F)) adm (pdats m) () defs₀ 𝒱₀ L lv 8 :=
  mkReg m 8 launch8 (W19 m) (W20 m) (fun c => body_obligation8 (fun c b => W19 m c b) c) (fun _ _ => rfl) (fun _ _ => rfl) (fun _ _ => rfl) (fun _ _ => rfl) (fun _ _ => rfl) (hF8 m) (hrest8 m)
set_option backward.isDefEq.respectTransparency.types false in
def reg9 : Pipeline.RegionSeg (pcfgs (F := F)) adm (pdats m) () defs₀ 𝒱₀ L lv 9 :=
  mkReg m 9 launch9 (W22 m) (W23 m) (fun c => body_obligation9 (fun c b => W22 m c b) c) (fun _ _ => rfl) (fun _ _ => rfl) (fun _ _ => rfl) (fun _ _ => rfl) (fun _ _ => rfl) (hF9 m) (hrest9 m)
set_option backward.isDefEq.respectTransparency.types false in
def reg10 : Pipeline.RegionSeg (pcfgs (F := F)) adm (pdats m) () defs₀ 𝒱₀ L lv 10 :=
  mkReg m 10 launch10 (W23 m) (W24 m) (fun c => body_obligation10 (fun c b => W23 m c b) c) (fun _ _ => rfl) (fun _ _ => rfl) (fun _ _ => rfl) (fun _ _ => rfl) (fun _ _ => rfl) (hF10 m) (hrest10 m)
set_option backward.isDefEq.respectTransparency.types false in
def reg11 : Pipeline.RegionSeg (pcfgs (F := F)) adm (pdats m) () defs₀ 𝒱₀ L lv 11 :=
  mkReg m 11 launch11 (W26 m) (W27 m) (fun c => body_obligation11 (fun c b => W26 m c b) c) (fun _ _ => rfl) (fun _ _ => rfl) (fun _ _ => rfl) (fun _ _ => rfl) (fun _ _ => rfl) (hF11 m) (hrest11 m)
set_option backward.isDefEq.respectTransparency.types false in
def reg12 : Pipeline.RegionSeg (pcfgs (F := F)) adm (pdats m) () defs₀ 𝒱₀ L lv 12 :=
  mkReg m 12 launch12 (W28 m) (W29 m) (fun c => body_obligation12 (fun c b => W28 m c b) c) (fun _ _ => rfl) (fun _ _ => rfl) (fun _ _ => rfl) (fun _ _ => rfl) (fun _ _ => rfl) (hF12 m) (hrest12 m)
set_option backward.isDefEq.respectTransparency.types false in
def reg13 : Pipeline.RegionSeg (pcfgs (F := F)) adm (pdats m) () defs₀ 𝒱₀ L lv 13 :=
  mkReg m 13 launch13 (W31 m) (W32 m) (fun c => body_obligation13 (fun c b => W31 m c b) c) (fun _ _ => rfl) (fun _ _ => rfl) (fun _ _ => rfl) (fun _ _ => rfl) (fun _ _ => rfl) (hF13 m) (hrest13 m)
set_option backward.isDefEq.respectTransparency.types false in
def reg14 : Pipeline.RegionSeg (pcfgs (F := F)) adm (pdats m) () defs₀ 𝒱₀ L lv 14 :=
  mkReg m 14 launch14 (W32 m) (W33 m) (fun c => body_obligation14 (fun c b => W32 m c b) c) (fun _ _ => rfl) (fun _ _ => rfl) (fun _ _ => rfl) (fun _ _ => rfl) (fun _ _ => rfl) (hF14 m) (hrest14 m)
set_option backward.isDefEq.respectTransparency.types false in
def reg15 : Pipeline.RegionSeg (pcfgs (F := F)) adm (pdats m) () defs₀ 𝒱₀ L lv 15 :=
  mkReg m 15 launch15 (W35 m) (W36 m) (fun c => body_obligation15 (fun c b => W35 m c b) c) (fun _ _ => rfl) (fun _ _ => rfl) (fun _ _ => rfl) (fun _ _ => rfl) (fun _ _ => rfl) (hF15 m) (hrest15 m)

end Cert.KernelIdeal.Hand

end
-- ==== Proof.KIRun.lean ====
import proofs.«413962_j523986010479_1_alg».proof.Proof.KISegs

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rest : Fin 17 → Dev nD → sProp 𝕄 := fun _ c => R c

abbrev segsW (c : Dev nD) : List (Seg (pcfgs (F := F)) adm (pdats m) () defs₀ 𝒱₀ L lv) :=
  segs m (outsW m) 𝒱₀ L lv rest () (pdats m) (reg0 m) (reg1 m) (reg2 m) (reg3 m) (reg4 m) (reg5 m) (reg6 m) (reg7 m) (reg8 m) (reg9 m) (reg10 m) (reg11 m) (reg12 m) (reg13 m) (reg14 m) (reg15 m) c

theorem hpre (c : Dev nD) {V W : Valuation τ sig (Elt F)} (h : V = W) :
    (iprop(StableHlo.held (c : Thread nD τ) (Pipeline.ucRefs τ sig) V ∗ R c) : sProp 𝕄)
      ⊢ iprop(StableHlo.held (c : Thread nD τ) (Pipeline.ucRefs τ sig) W ∗ R c) := by
  subst h; exact .rfl

theorem hpost (c : Dev nD) {V W : Valuation τ sig (Elt F)} (h : V = W) :
    (iprop(StableHlo.held (c : Thread nD τ) (Pipeline.ucRefs τ sig) W ∗ R c) : sProp 𝕄)
      ⊢ iprop(StableHlo.held (c : Thread nD τ) (Pipeline.ucRefs τ sig) V ∗ R c) := by
  subst h; exact .rfl

theorem hlast (c : Dev nD) (V : Valuation τ sig (Elt F)) :
    (iprop(StableHlo.held (c : Thread nD τ) (Pipeline.ucRefs τ sig) V ∗ R c) : sProp 𝕄)
      ⊢ iprop((StableHlo.held (c : Thread nD τ) (Pipeline.ucRefs τ sig) V ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

theorem W37_of_V37 (c : Dev nD) (b : DevRef τ sig) : W37 m c b = V37 m (outsW m) c b := (congrFun (V37_eq m c) b).symm

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

-- Every weakly fair execution of @main ends with every unscoped buffer at the fold's last contents.
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W37 m c b) := by
  refine Pipeline.θ_run_regions_kit_dev (pcfgs (F := F)) adm (pdats m) () cellOf_inj emb₁ defs₀ 𝒱₀ L lv m ρ main
    (segsW m)
    (fun c Q => by
      rewrite [main_chain c, Seg.run_eq_chain,
        show (segsW m c).map Seg.prog = [
          StableHlo.seq hostOps0,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()),
          StableHlo.seq hostOps5,
          StableHlo.seq hostOps5_1,
          Prog.lift (.customCall (Pipeline.entry 5) ()),
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()),
          StableHlo.seq hostOps9,
          StableHlo.seq hostOps9_1,
          Prog.lift (.customCall (Pipeline.entry 9) ()),
          Prog.lift (.customCall (Pipeline.entry 10) ()),
          StableHlo.seq hostOps11,
          StableHlo.seq hostOps11_1,
          Prog.lift (.customCall (Pipeline.entry 11) ()),
          StableHlo.seq hostOps12,
          Prog.lift (.customCall (Pipeline.entry 12) ()),
          StableHlo.seq hostOps13,
          StableHlo.seq hostOps13_1,
          Prog.lift (.customCall (Pipeline.entry 13) ()),
          Prog.lift (.customCall (Pipeline.entry 14) ()),
          StableHlo.seq hostOps15,
          StableHlo.seq hostOps15_1,
          Prog.lift (.customCall (Pipeline.entry 15) ()),
          StableHlo.seq hostOps16 ] from rfl]
      with_reducible exact .rfl)
    (fun c => by simp only [segsW, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => iprop(StableHlo.held (c : Thread nD τ) (Pipeline.ucRefs τ sig) (V37 m (outsW m) c) ∗ ∃ r, prngReg c r))
    (hch := fun c => ⟨.rfl, hpre c (V1_eq m c), hpost c (V2_eq m c), .rfl, hpre c (V4_eq m c), .rfl, hpost c (V6_eq m c), .rfl, hpre c (V8_eq m c), hpost c (V9_eq m c), hpre c (V10_eq m c), hpost c (V11_eq m c), .rfl, hpre c (V13_eq m c), .rfl, hpost c (V15_eq m c), .rfl, hpre c (V17_eq m c), hpost c (V18_eq m c), hpre c (V19_eq m c), hpost c (V20_eq m c), .rfl, hpre c (V22_eq m c), .rfl, hpost c (V24_eq m c), .rfl, hpre c (V26_eq m c), hpost c (V27_eq m c), hpre c (V28_eq m c), hpost c (V29_eq m c), .rfl, hpre c (V31_eq m c), .rfl, hpost c (V33_eq m c), .rfl, hpre c (V35_eq m c), hpost c (V36_eq m c), hlast c _⟩)
    (hinit := ?_)
    (QY := fun c s => ∀ b ∈ Pipeline.ucRefs τ sig, s.mem (((c : Thread nD τ)).1, b) = V37 m (outsW m) c b)
    (hfin := fun c s' => ?_)
    (hQ := fun s h c b hb => (h c b hb).trans (W37_of_V37 m c b).symm)
  ·
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  ·
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  ·
    iintro ⟨⟨Hh, -⟩, HSI⟩
    unfold StableHlo.held
    imodintro
    iapply (pointsTo_read_all (Pipeline.ucRefs τ sig) (fun b => (((c : Thread nD τ)).1, b)) (V37 m (outsW m) c) s')
    isplitl [Hh] <;> iassumption

-- The result buffer holds the fold's last contents of it; no item writes an argument.
theorem run_result (ρ : Dev nD → PrngReg) :
    θ_run defs (onTc (τ := τ) (main (F := F))) ⟨m, fun _ => 0, ρ⟩ (fun r => ∀ c : Dev nD,
      r.2.mem ((c.tc : Thread nD τ).loc main_v133) = W37 m c main_v133
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v133 (by decide)),
      (h c _ (mem_uc main_arg0 (by decide))).trans ((W37_of_V37 m c _).trans (V37_kept m (outsW m) c main_arg0 arg0_kept)),
      (h c _ (mem_uc main_arg1 (by decide))).trans ((W37_of_V37 m c _).trans (V37_kept m (outsW m) c main_arg1 arg1_kept)),
      (h c _ (mem_uc main_arg2 (by decide))).trans ((W37_of_V37 m c _).trans (V37_kept m (outsW m) c main_arg2 arg2_kept)),
      (h c _ (mem_uc main_arg3 (by decide))).trans ((W37_of_V37 m c _).trans (V37_kept m (outsW m) c main_arg3 arg3_kept)),
      (h c _ (mem_uc main_arg4 (by decide))).trans ((W37_of_V37 m c _).trans (V37_kept m (outsW m) c main_arg4 arg4_kept)),
      (h c _ (mem_uc main_arg5 (by decide))).trans ((W37_of_V37 m c _).trans (V37_kept m (outsW m) c main_arg5 arg5_kept)),
      (h c _ (mem_uc main_arg6 (by decide))).trans ((W37_of_V37 m c _).trans (V37_kept m (outsW m) c main_arg6 arg6_kept)),
      (h c _ (mem_uc main_arg7 (by decide))).trans ((W37_of_V37 m c _).trans (V37_kept m (outsW m) c main_arg7 arg7_kept)),
      (h c _ (mem_uc main_arg8 (by decide))).trans ((W37_of_V37 m c _).trans (V37_kept m (outsW m) c main_arg8 arg8_kept)),
      (h c _ (mem_uc main_arg9 (by decide))).trans ((W37_of_V37 m c _).trans (V37_kept m (outsW m) c main_arg9 arg9_kept)),
      (h c _ (mem_uc main_arg10 (by decide))).trans ((W37_of_V37 m c _).trans (V37_kept m (outsW m) c main_arg10 arg10_kept)),
      (h c _ (mem_uc main_arg11 (by decide))).trans ((W37_of_V37 m c _).trans (V37_kept m (outsW m) c main_arg11 arg11_kept)),
      (h c _ (mem_uc main_arg12 (by decide))).trans ((W37_of_V37 m c _).trans (V37_kept m (outsW m) c main_arg12 arg12_kept)),
      (h c _ (mem_uc main_arg13 (by decide))).trans ((W37_of_V37 m c _).trans (V37_kept m (outsW m) c main_arg13 arg13_kept)),
      (h c _ (mem_uc main_arg14 (by decide))).trans ((W37_of_V37 m c _).trans (V37_kept m (outsW m) c main_arg14 arg14_kept)),
      (h c _ (mem_uc main_arg15 (by decide))).trans ((W37_of_V37 m c _).trans (V37_kept m (outsW m) c main_arg15 arg15_kept))⟩)
    (run_all m ρ)

end Cert.KernelIdeal.Hand

end
-- ==== Proof.KIWalk.lean ====
import proofs.«413962_j523986010479_1_alg».proof.Proof.KIFold

noncomputable section

namespace Cert.KernelIdeal.Hand

open Cert.KernelIdeal Cert.KernelIdeal.Gen Cert.KernelIdeal.GenP
open Idealize.ShloMosaic Idealize.ShloMosaic.TcCoe
open Idealize.SL Idealize.SL.Sem

variable {F : FTy → Type} [FloatOps F]

variable (m : (ℓ : Loc nD τ sig) → Buf (Elt F) ℓ)

theorem W1_of (c : Dev nD) (r : Ref sig .tc) (h : r ∉ hostOps0_W) : W1 m c r = W0 m c r := by
  unfold W1; exact StableHlo.after_of_writes_sub hostOps0 _ hostOps0_writes h
theorem W3_of (c : Dev nD) (r : Ref sig .tc) (h : r ∉ hostOps1_W) : W3 m c r = W2 m c r := by
  unfold W3; exact StableHlo.after_of_writes_sub hostOps1 _ hostOps1_writes h
theorem W4_of (c : Dev nD) (r : Ref sig .tc) (h : r ∉ hostOps1_1_W) : W4 m c r = W3 m c r := by
  unfold W4; exact StableHlo.after_of_writes_sub hostOps1_1 _ hostOps1_1_writes h
theorem W7_of (c : Dev nD) (r : Ref sig .tc) (h : r ∉ hostOps3_W) : W7 m c r = W6 m c r := by
  unfold W7; exact StableHlo.after_of_writes_sub hostOps3 _ hostOps3_writes h
theorem W8_of (c : Dev nD) (r : Ref sig .tc) (h : r ∉ hostOps3_1_W) : W8 m c r = W7 m c r := by
  unfold W8; exact StableHlo.after_of_writes_sub hostOps3_1 _ hostOps3_1_writes h
theorem W10_of (c : Dev nD) (r : Ref sig .tc) (h : r ∉ hostOps4_W) : W10 m c r = W9 m c r := by
  unfold W10; exact StableHlo.after_of_writes_sub hostOps4 _ hostOps4_writes h
theorem W12_of (c : Dev nD) (r : Ref sig .tc) (h : r ∉ hostOps5_W) : W12 m c r = W11 m c r := by
  unfold W12; exact StableHlo.after_of_writes_sub hostOps5 _ hostOps5_writes h
theorem W13_of (c : Dev nD) (r : Ref sig .tc) (h : r ∉ hostOps5_1_W) : W13 m c r = W12 m c r := by
  unfold W13; exact StableHlo.after_of_writes_sub hostOps5_1 _ hostOps5_1_writes h
theorem W16_of (c : Dev nD) (r : Ref sig .tc) (h : r ∉ hostOps7_W) : W16 m c r = W15 m c r := by
  unfold W16; exact StableHlo.after_of_writes_sub hostOps7 _ hostOps7_writes h
theorem W17_of (c : Dev nD) (r : Ref sig .tc) (h : r ∉ hostOps7_1_W) : W17 m c r = W16 m c r := by
  unfold W17; exact StableHlo.after_of_writes_sub hostOps7_1 _ hostOps7_1_writes h
theorem W19_of (c : Dev nD) (r : Ref sig .tc) (h : r ∉ hostOps8_W) : W19 m c r = W18 m c r := by
  unfold W19; exact StableHlo.after_of_writes_sub hostOps8 _ hostOps8_writes h
theorem W21_of (c : Dev nD) (r : Ref sig .tc) (h : r ∉ hostOps9_W) : W21 m c r = W20 m c r := by
  unfold W21; exact StableHlo.after_of_writes_sub hostOps9 _ hostOps9_writes h
theorem W22_of (c : Dev nD) (r : Ref sig .tc) (h : r ∉ hostOps9_1_W) : W22 m c r = W21 m c r := by
  unfold W22; exact StableHlo.after_of_writes_sub hostOps9_1 _ hostOps9_1_writes h
theorem W25_of (c : Dev nD) (r : Ref sig .tc) (h : r ∉ hostOps11_W) : W25 m c r = W24 m c r := by
  unfold W25; exact StableHlo.after_of_writes_sub hostOps11 _ hostOps11_writes h
theorem W26_of (c : Dev nD) (r : Ref sig .tc) (h : r ∉ hostOps11_1_W) : W26 m c r = W25 m c r := by
  unfold W26; exact StableHlo.after_of_writes_sub hostOps11_1 _ hostOps11_1_writes h
theorem W28_of (c : Dev nD) (r : Ref sig .tc) (h : r ∉ hostOps12_W) : W28 m c r = W27 m c r := by
  unfold W28; exact StableHlo.after_of_writes_sub hostOps12 _ hostOps12_writes h
theorem W30_of (c : Dev nD) (r : Ref sig .tc) (h : r ∉ hostOps13_W) : W30 m c r = W29 m c r := by
  unfold W30; exact StableHlo.after_of_writes_sub hostOps13 _ hostOps13_writes h
theorem W31_of (c : Dev nD) (r : Ref sig .tc) (h : r ∉ hostOps13_1_W) : W31 m c r = W30 m c r := by
  unfold W31; exact StableHlo.after_of_writes_sub hostOps13_1 _ hostOps13_1_writes h
theorem W34_of (c : Dev nD) (r : Ref sig .tc) (h : r ∉ hostOps15_W) : W34 m c r = W33 m c r := by
  unfold W34; exact StableHlo.after_of_writes_sub hostOps15 _ hostOps15_writes h
theorem W35_of (c : Dev nD) (r : Ref sig .tc) (h : r ∉ hostOps15_1_W) : W35 m c r = W34 m c r := by
  unfold W35; exact StableHlo.after_of_writes_sub hostOps15_1 _ hostOps15_1_writes h
theorem W37_of (c : Dev nD) (r : Ref sig .tc) (h : r ∉ hostOps16_W) : W37 m c r = W36 m c r := by
  unfold W37; exact StableHlo.after_of_writes_sub hostOps16 _ hostOps16_writes h

-- A buffer that no item writes holds its launch contents at every boundary.
theorem W1_kept (c : Dev nD) (r : Ref sig .tc) (h : Kept r) : W1 m c r = m ((c.tc : Thread nD τ).loc r) :=
  (W1_of m c r h.w1).trans rfl
theorem W2_kept (c : Dev nD) (r : Ref sig .tc) (h : Kept r) : W2 m c r = m ((c.tc : Thread nD τ).loc r) :=
  (W2_of_ne m c r (List.ne_of_not_mem_cons h.w2)).trans (W1_kept m c r h)
theorem W3_kept (c : Dev nD) (r : Ref sig .tc) (h : Kept r) : W3 m c r = m ((c.tc : Thread nD τ).loc r) :=
  (W3_of m c r h.w3).trans (W2_kept m c r h)
theorem W4_kept (c : Dev nD) (r : Ref sig .tc) (h : Kept r) : W4 m c r = m ((c.tc : Thread nD τ).loc r) :=
  (W4_of m c r h.w4).trans (W3_kept m c r h)
theorem W5_kept (c : Dev nD) (r : Ref sig .tc) (h : Kept r) : W5 m c r = m ((c.tc : Thread nD τ).loc r) :=
  (W5_of_ne m c r (List.ne_of_not_mem_cons h.w5)).trans (W4_kept m c r h)
theorem W6_kept (c : Dev nD) (r : Ref sig .tc) (h : Kept r) : W6 m c r = m ((c.tc : Thread nD τ).loc r) :=
  (W6_of_ne m c r (List.ne_of_not_mem_cons h.w6)).trans (W5_kept m c r h)
theorem W7_kept (c : Dev nD) (r : Ref sig .tc) (h : Kept r) : W7 m c r = m ((c.tc : Thread nD τ).loc r) :=
  (W7_of m c r h.w7).trans (W6_kept m c r h)
theorem W8_kept (c : Dev nD) (r : Ref sig .tc) (h : Kept r) : W8 m c r = m ((c.tc : Thread nD τ).loc r) :=
  (W8_of m c r h.w8).trans (W7_kept m c r h)
theorem W9_kept (c : Dev nD) (r : Ref sig .tc) (h : Kept r) : W9 m c r = m ((c.tc : Thread nD τ).loc r) :=
  (W9_of_ne m c r (List.ne_of_not_mem_cons h.w9)).trans (W8_kept m c r h)
theorem W10_kept (c : Dev nD) (r : Ref sig .tc) (h : Kept r) : W10 m c r = m ((c.tc : Thread nD τ).loc r) :=
  (W10_of m c r h.w10).trans (W9_kept m c r h)
theorem W11_kept (c : Dev nD) (r : Ref sig .tc) (h : Kept r) : W11 m c r = m ((c.tc : Thread nD τ).loc r) :=
  (W11_of_ne m c r (List.ne_of_not_mem_cons h.w11)).trans (W10_kept m c r h)
theorem W12_kept (c : Dev nD) (r : Ref sig .tc) (h : Kept r) : W12 m c r = m ((c.tc : Thread nD τ).loc r) :=
  (W12_of m c r h.w12).trans (W11_kept m c r h)
theorem W13_kept (c : Dev nD) (r : Ref sig .tc) (h : Kept r) : W13 m c r = m ((c.tc : Thread nD τ).loc r) :=
  (W13_of m c r h.w13).trans (W12_kept m c r h)
theorem W14_kept (c : Dev nD) (r : Ref sig .tc) (h : Kept r) : W14 m c r = m ((c.tc : Thread nD τ).loc r) :=
  (W14_of_ne m c r (List.ne_of_not_mem_cons h.w14)).trans (W13_kept m c r h)
theorem W15_kept (c : Dev nD) (r : Ref sig .tc) (h : Kept r) : W15 m c r = m ((c.tc : Thread nD τ).loc r) :=
  (W15_of_ne m c r (List.ne_of_not_mem_cons h.w15)).trans (W14_kept m c r h)
theorem W16_kept (c : Dev nD) (r : Ref sig .tc) (h : Kept r) : W16 m c r = m ((c.tc : Thread nD τ).loc r) :=
  (W16_of m c r h.w16).trans (W15_kept m c r h)
theorem W17_kept (c : Dev nD) (r : Ref sig .tc) (h : Kept r) : W17 m c r = m ((c.tc : Thread nD τ).loc r) :=
  (W17_of m c r h.w17).trans (W16_kept m c r h)
theorem W18_kept (c : Dev nD) (r : Ref sig .tc) (h : Kept r) : W18 m c r = m ((c.tc : Thread nD τ).loc r) :=
  (W18_of_ne m c r (List.ne_of_not_mem_cons h.w18)).trans (W17_kept m c r h)
theorem W19_kept (c : Dev nD) (r : Ref sig .tc) (h : Kept r) : W19 m c r = m ((c.tc : Thread nD τ).loc r) :=
  (W19_of m c r h.w19).trans (W18_kept m c r h)
theorem W20_kept (c : Dev nD) (r : Ref sig .tc) (h : Kept r) : W20 m c r = m ((c.tc : Thread nD τ).loc r) :=
  (W20_of_ne m c r (List.ne_of_not_mem_cons h.w20)).trans (W19_kept m c r h)
theorem W21_kept (c : Dev nD) (r : Ref sig .tc) (h : Kept r) : W21 m c r = m ((c.tc : Thread nD τ).loc r) :=
  (W21_of m c r h.w21).trans (W20_kept m c r h)
theorem W22_kept (c : Dev nD) (r : Ref sig .tc) (h : Kept r) : W22 m c r = m ((c.tc : Thread nD τ).loc r) :=
  (W22_of m c r h.w22).trans (W21_kept m c r h)
theorem W23_kept (c : Dev nD) (r : Ref sig .tc) (h : Kept r) : W23 m c r = m ((c.tc : Thread nD τ).loc r) :=
  (W23_of_ne m c r (List.ne_of_not_mem_cons h.w23)).trans (W22_kept m c r h)
theorem W24_kept (c : Dev nD) (r : Ref sig .tc) (h : Kept r) : W24 m c r = m ((c.tc : Thread nD τ).loc r) :=
  (W24_of_ne m c r (List.ne_of_not_mem_cons h.w24)).trans (W23_kept m c r h)
theorem W25_kept (c : Dev nD) (r : Ref sig .tc) (h : Kept r) : W25 m c r = m ((c.tc : Thread nD τ).loc r) :=
  (W25_of m c r h.w25).trans (W24_kept m c r h)
theorem W26_kept (c : Dev nD) (r : Ref sig .tc) (h : Kept r) : W26 m c r = m ((c.tc : Thread nD τ).loc r) :=
  (W26_of m c r h.w26).trans (W25_kept m c r h)
theorem W27_kept (c : Dev nD) (r : Ref sig .tc) (h : Kept r) : W27 m c r = m ((c.tc : Thread nD τ).loc r) :=
  (W27_of_ne m c r (List.ne_of_not_mem_cons h.w27)).trans (W26_kept m c r h)
theorem W28_kept (c : Dev nD) (r : Ref sig .tc) (h : Kept r) : W28 m c r = m ((c.tc : Thread nD τ).loc r) :=
  (W28_of m c r h.w28).trans (W27_kept m c r h)
theorem W29_kept (c : Dev nD) (r : Ref sig .tc) (h : Kept r) : W29 m c r = m ((c.tc : Thread nD τ).loc r) :=
  (W29_of_ne m c r (List.ne_of_not_mem_cons h.w29)).trans (W28_kept m c r h)
theorem W30_kept (c : Dev nD) (r : Ref sig .tc) (h : Kept r) : W30 m c r = m ((c.tc : Thread nD τ).loc r) :=
  (W30_of m c r h.w30).trans (W29_kept m c r h)
theorem W31_kept (c : Dev nD) (r : Ref sig .tc) (h : Kept r) : W31 m c r = m ((c.tc : Thread nD τ).loc r) :=
  (W31_of m c r h.w31).trans (W30_kept m c r h)
theorem W32_kept (c : Dev nD) (r : Ref sig .tc) (h : Kept r) : W32 m c r = m ((c.tc : Thread nD τ).loc r) :=
  (W32_of_ne m c r (List.ne_of_not_mem_cons h.w32)).trans (W31_kept m c r h)
theorem W33_kept (c : Dev nD) (r : Ref sig .tc) (h : Kept r) : W33 m c r = m ((c.tc : Thread nD τ).loc r) :=
  (W33_of_ne m c r (List.ne_of_not_mem_cons h.w33)).trans (W32_kept m c r h)
theorem W34_kept (c : Dev nD) (r : Ref sig .tc) (h : Kept r) : W34 m c r = m ((c.tc : Thread nD τ).loc r) :=
  (W34_of m c r h.w34).trans (W33_kept m c r h)
theorem W35_kept (c : Dev nD) (r : Ref sig .tc) (h : Kept r) : W35 m c r = m ((c.tc : Thread nD τ).loc r) :=
  (W35_of m c r h.w35).trans (W34_kept m c r h)
theorem W36_kept (c : Dev nD) (r : Ref sig .tc) (h : Kept r) : W36 m c r = m ((c.tc : Thread nD τ).loc r) :=
  (W36_of_ne m c r (List.ne_of_not_mem_cons h.w36)).trans (W35_kept m c r h)
theorem W37_kept (c : Dev nD) (r : Ref sig .tc) (h : Kept r) : W37 m c r = m ((c.tc : Thread nD τ).loc r) :=
  (W37_of m c r h.w37).trans (W36_kept m c r h)

end Cert.KernelIdeal.Hand

end
-- ==== Proof.RefSpec.lean ====
import proofs.«413962_j523986010479_1_alg».proof.Proof.Gen.ReferenceIdeal

noncomputable section

namespace Cert.RefSpec

open Idealize.ShloMosaic Cert.ReferenceIdeal Cert.ReferenceIdeal.Gen

variable {F : FTy → Type} [FloatOps F]

def deg (idx : (⟨S600000, .i32⟩ : BufTy).Contents (Elt F)) : (⟨S50000, .f32⟩ : BufTy).Contents (Elt F) :=
  Host.powf (maximumf (Host.scatterAdd scatter_S50000_S600000x1_S600000_n_0_0_1 (broadcastInDim S50000 ![] bcast_S_S50000 (constant S_ .f32 0x00000000#32)) (broadcastInDim S600000x1 ![0] bcast_S600000_S600000x1_0 idx) (broadcastInDim S600000 ![] bcast_S_S600000 (constant S_ .f32 0x3F800000#32))) (broadcastInDim S50000 ![] bcast_S_S50000 (constant S_ .f32 0x3F800000#32))) (broadcastInDim S50000 ![] bcast_S_S50000 (constant S_ .f32 0xBF000000#32))

def wrap (idx : (⟨S600000, .i32⟩ : BufTy).Contents (Elt F)) : (⟨S600000, .i32⟩ : BufTy).Contents (Elt F) :=
  select (cmpi .slt idx (broadcastInDim S600000 ![] bcast_S_S600000 (constantI S_ 32 0#32))) (addi idx (broadcastInDim S600000 ![] bcast_S_S600000 (constantI S_ 32 50000#32))) idx

def colOf (d : (⟨S50000, .f32⟩ : BufTy).Contents (Elt F)) : (⟨S50000x1, .f32⟩ : BufTy).Contents (Elt F) :=
  broadcastInDim S50000x1 ![0] bcast_S50000_S50000x1_0 d
def rowOf (b : (⟨S128, .f32⟩ : BufTy).Contents (Elt F)) : (⟨S1x128, .f32⟩ : BufTy).Contents (Elt F) :=
  broadcastInDim S1x128 ![1] bcast_S128_S1x128_1 b

def scaleBy (x : (⟨S50000x128, .f32⟩ : BufTy).Contents (Elt F)) (s : (⟨S50000x1, .f32⟩ : BufTy).Contents (Elt F)) : (⟨S50000x128, .f32⟩ : BufTy).Contents (Elt F) :=
  mulf x (broadcastInDim S50000x128 ![0, 1] bcast_S50000x1_S50000x128_0_1 s)

def take (h : (⟨S50000x128, .f32⟩ : BufTy).Contents (Elt F)) (src : (⟨S600000, .i32⟩ : BufTy).Contents (Elt F)) : (⟨S600000x128, .f32⟩ : BufTy).Contents (Elt F) :=
  Host.gather gather_S50000x128_S600000x1_S600000x128_1_0_n_n_0_1_1128 h (broadcastInDim S600000x1 ![0] bcast_S600000_S600000x1_0 (wrap src))

def segsum (dst : (⟨S600000, .i32⟩ : BufTy).Contents (Elt F)) (g : (⟨S600000x128, .f32⟩ : BufTy).Contents (Elt F)) : (⟨S50000x128, .f32⟩ : BufTy).Contents (Elt F) :=
  Host.scatterAdd scatter_S50000x128_S600000x1_S600000x128_1_0_0_1 (broadcastInDim S50000x128 ![] bcast_S_S50000x128 (constant S_ .f32 0x00000000#32)) (broadcastInDim S600000x1 ![0] bcast_S600000_S600000x1_0 dst) g

def denseBy (a : (⟨S50000x128, .f32⟩ : BufTy).Contents (Elt F)) (s : (⟨S50000x1, .f32⟩ : BufTy).Contents (Elt F))
    (w : (⟨S128x128, .f32⟩ : BufTy).Contents (Elt F)) (r : (⟨S1x128, .f32⟩ : BufTy).Contents (Elt F)) : (⟨S50000x128, .f32⟩ : BufTy).Contents (Elt F) :=
  maximumf (addf (Host.dotGeneral dot_S50000x128_S128x128_S50000x128_1_0_0_1_n_n none (mulf a (broadcastInDim S50000x128 ![0, 1] bcast_S50000x1_S50000x128_0_1 s)) w) (broadcastInDim S50000x128 ![0, 1] bcast_S1x128_S50000x128_0_1 r)) (broadcastInDim S50000x128 ![] bcast_S_S50000x128 (constant S_ .f32 0x00000000#32))

def layer (x : (⟨S50000x128, .f32⟩ : BufTy).Contents (Elt F)) (src dst : (⟨S600000, .i32⟩ : BufTy).Contents (Elt F))
    (w : (⟨S128x128, .f32⟩ : BufTy).Contents (Elt F)) (b : (⟨S128, .f32⟩ : BufTy).Contents (Elt F)) : (⟨S50000x128, .f32⟩ : BufTy).Contents (Elt F) :=
  denseBy (segsum dst (take (scaleBy x (colOf (deg src))) src)) (colOf (deg dst)) w (rowOf b)

def tail (h1 h2 h3 h4 : (⟨S50000x128, .f32⟩ : BufTy).Contents (Elt F)) : (⟨S_, .f32⟩ : BufTy).Contents (Elt F) :=
  Host.divf (Host.reduceAdd (Host.divf (Host.reduceAdd (concatenate S200000x128 0 [⟨S50000x128, h1⟩, ⟨S50000x128, h2⟩, ⟨S50000x128, h3⟩, ⟨S50000x128, h4⟩] concatenates_S50000x128_S50000x128_S50000x128_S50000x128_S200000x128_d0) (constant S_ .f32 0x00000000#32) reducesTo_S200000x128_S128_d0 h_S_) (broadcastInDim S128 ![] bcast_S_S128 (constant S_ .f32 0x48435000#32))) (constant S_ .f32 0x00000000#32) reducesTo_S128_S_d0 h_S_) (constant S_ .f32 0x43000000#32)

def twoLayer (x : (⟨S50000x128, .f32⟩ : BufTy).Contents (Elt F)) (src dst : (⟨S600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S50000x128, .f32⟩ : BufTy).Contents (Elt F) :=
  layer (layer x src dst w1 b1) src dst w2 b2

end Cert.RefSpec

end
-- ==== Proof.KIValLib.lean ====
import proofs.«413962_j523986010479_1_alg».proof.Proof.Gen.KernelIdeal.Launch
import proofs.«413962_j523986010479_1_alg».proof.Proof.Gen.KernelIdeal.Skeleton
import proofs.«413962_j523986010479_1_alg».proof.Proof.Gen.KernelIdeal.Points
import proofs.«413962_j523986010479_1_alg».proof.Proof.RefSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

-- Each row of x multiplied by that row's entry of the column s.
def rowScaled (x : FVec Ideal S50000x128 .f32) (s : FVec Ideal S50000x1 .f32) : FVec Ideal S50000x128 .f32 :=
  fun i => x i * s (ix2 (i 0) 0)

theorem rowScaled_eq (x : FVec Ideal S50000x128 .f32) (s : FVec Ideal S50000x1 .f32) :
    rowScaled x s = Cert.RefSpec.scaleBy (F := Ideal) x s := by
  funext i
  unfold Cert.RefSpec.scaleBy rowScaled
  rw [mulf_apply]
  congr 1
  refine (broadcastInDim_apply _ _ _ i (ix2 (i 0) 0) fun a => ?_).symm
  match a with
  | ⟨0, _⟩ => rfl
  | ⟨1, _⟩ => rfl

theorem blkLhs_0 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl

theorem blkLhs_1 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl

theorem blkRhs_0 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl

theorem blkRhs_1 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

theorem arrLhs_0 (j : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.lhsIdx j k 0 : ℕ) = j 0 := by
  simp [DotDims.lhsIdx, Cert.ReferenceIdeal.dot_S50000x128_S128x128_S50000x128_1_0_0_1_n_n]; rfl

theorem arrLhs_1 (j : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.lhsIdx j k 1 : ℕ) = k ⟨0, by decide⟩ := by
  simp [DotDims.lhsIdx, Cert.ReferenceIdeal.dot_S50000x128_S128x128_S50000x128_1_0_0_1_n_n]; rfl

theorem arrRhs_0 (j : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.rhsIdx j k 0 : ℕ) = k ⟨0, by decide⟩ := by
  simp [DotDims.rhsIdx, Cert.ReferenceIdeal.dot_S50000x128_S128x128_S50000x128_1_0_0_1_n_n]; rfl

theorem arrRhs_1 (j : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.rhsIdx j k 1 : ℕ) = j 1 := by
  simp [DotDims.rhsIdx, Cert.ReferenceIdeal.dot_S50000x128_S128x128_S50000x128_1_0_0_1_n_n]; rfl

-- A block's matrix product into a zero accumulator, and the whole arrays' dot_general, are the same sum over the contracted axis.
theorem blkProd_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul dot_S5000x128_S128x128_S5000x128_1_0_0_1_n_n none A B (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact blkLhs_0 _ _
    | ⟨1, _⟩ => exact (blkLhs_1 _ _).trans hk
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (blkRhs_0 _ _).trans hk
    | ⟨1, _⟩ => exact blkRhs_1 _ _
  rw [hl, hr]

theorem arrProd_apply (A : FVec Ideal Cert.ReferenceIdeal.S50000x128 .f32) (B : FVec Ideal Cert.ReferenceIdeal.S128x128 .f32) (r : Fin 50000) (q : Fin 128) :
    Host.dotGeneral (F := Ideal) Cert.ReferenceIdeal.dot_S50000x128_S128x128_S50000x128_1_0_0_1_n_n none A B (ix2 r q)
      = ∑ k : Fin 128, A (ix2 r k) * B (ix2 k q) := by
  show FloatOps.dotGeneral Cert.ReferenceIdeal.dot_S50000x128_S128x128_S50000x128_1_0_0_1_n_n none _ A B (ix2 r q) = _
  rw [Ideal.dotGeneral_apply,
    ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have hl : Cert.ReferenceIdeal.dot_S50000x128_S128x128_S50000x128_1_0_0_1_n_n.lhsIdx (ix2 r q)
      ((contrEquiv1 Cert.ReferenceIdeal.dot_S50000x128_S128x128_S50000x128_1_0_0_1_n_n 128 rfl rfl).symm k) = ix2 r k := by
    funext a; apply Fin.ext
    match a with
    | ⟨0, _⟩ => exact arrLhs_0 _ _
    | ⟨1, _⟩ => exact (arrLhs_1 _ _).trans hk
  have hr : Cert.ReferenceIdeal.dot_S50000x128_S128x128_S50000x128_1_0_0_1_n_n.rhsIdx (ix2 r q)
      ((contrEquiv1 Cert.ReferenceIdeal.dot_S50000x128_S128x128_S50000x128_1_0_0_1_n_n 128 rfl rfl).symm k) = ix2 k q := by
    funext a; apply Fin.ext
    match a with
    | ⟨0, _⟩ => exact (arrRhs_0 _ _).trans hk
    | ⟨1, _⟩ => exact arrRhs_1 _ _
  rw [hl, hr]

theorem colBlk_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun a => ?_
  match a with
  | ⟨0, _⟩ => rfl
  | ⟨1, _⟩ => rfl

theorem colArr_apply (h : Cert.ReferenceIdeal.S50000x1.BroadcastsInDim Cert.ReferenceIdeal.S50000x128 ![0, 1])
    (v : FVec Ideal Cert.ReferenceIdeal.S50000x1 .f32) (r : Fin 50000) (q : Fin 128) :
    broadcastInDim Cert.ReferenceIdeal.S50000x128 ![0, 1] h v (ix2 r q)
      = v (ix2 r (0 : Fin 1)) := by
  refine broadcastInDim_apply _ _ v (ix2 r q) (ix2 r (0 : Fin 1)) fun a => ?_
  match a with
  | ⟨0, _⟩ => rfl
  | ⟨1, _⟩ => rfl

theorem rowArr_apply (h : Cert.ReferenceIdeal.S1x128.BroadcastsInDim Cert.ReferenceIdeal.S50000x128 ![0, 1])
    (v : FVec Ideal Cert.ReferenceIdeal.S1x128 .f32) (r : Fin 50000) (q : Fin 128) :
    broadcastInDim Cert.ReferenceIdeal.S50000x128 ![0, 1] h v (ix2 r q)
      = v (ix2 (0 : Fin 1) q) := by
  refine broadcastInDim_apply _ _ v (ix2 r q) (ix2 (0 : Fin 1) q) fun a => ?_
  match a with
  | ⟨0, _⟩ => rfl
  | ⟨1, _⟩ => rfl

-- The reference's dense layer read at an entry: max(sum over k of (a[r,k] * s[r,0]) * w[k,q] + b[q], 0).
theorem dense_apply (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32) (r : Fin 50000) (q : Fin 128) :
    Cert.RefSpec.denseBy (F := Ideal) a s w b (ix2 r q)
      = max ((∑ k : Fin 128, (a (ix2 r k) * s (ix2 r (0 : Fin 1))) * w (ix2 k q)) + b (ix2 (0 : Fin 1) q)) 0 := by
  unfold Cert.RefSpec.denseBy
  rw [maximumf_apply, addf_apply, arrProd_apply, rowArr_apply, broadcastInDim_scalar_apply, constant_apply]
  refine congrArg₂ max (congrArg (· + b (ix2 (0 : Fin 1) q)) (Finset.sum_congr rfl fun k _ => ?_)) Ideal.ofBits_zero_f32
  rw [mulf_apply, colArr_apply]

theorem zeroOff : (![0, 0] : Fin 2 → Nat) = fun _ => 0 := funext fun a => by fin_cases a <;> rfl

end Cert.KernelIdeal.Hand

end
-- ==== Proof.KIVal0.lean ====
import proofs.«413962_j523986010479_1_alg».proof.Proof.KIReg0
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay0_at (x0 : Vec Ideal S5000x128 .f32) (x1 : Vec Ideal S5000x1 .f32) (y : S5000x128.Idx) (y' : S5000x1.Idx)
    (h : (y' 0).val = (y 0).val) : k0_pay1 x0 x1 y = x0 y * x1 y' := by
  unfold k0_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled0_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k0_pay1 x0 x1 y = rowScaled X S i := by
  rw [pay0_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem rows0_at (c : Dev nD) (t : Fin cfg0.N) (y : S5000x128.Idx) (k : S50000x128.Idx)
    (hk0 : (k 0).val = t.val * 5000 + (y 0).val) (hk1 : (k 1).val = (y 1).val) :
    (iblk0 V c 0 t : Vec Ideal S5000x128 .f32) y = (V c (Pipeline.arrRef spec0 0) : FVec Ideal S50000x128 .f32) k := by
  obtain ⟨e0, e1, -⟩ := idx0 t
  show (V c (Pipeline.arrRef spec0 0) : FVec Ideal S50000x128 .f32) (((cfg0.win 0).blk t).view.emb y) = _
  congr 1
  funext a; apply Fin.ext
  match a with
  | ⟨0, _⟩ => show win0_0.index t (0 : Fin 2) * 5000 + 1 * (y 0).val = (k 0).val; omega
  | ⟨1, _⟩ => show win0_0.index t (1 : Fin 2) * 128 + 1 * (y 1).val = (k 1).val; omega

theorem scales0_at (c : Dev nD) (t : Fin cfg0.N) (y : S5000x1.Idx) (k : S50000x1.Idx)
    (hk0 : (k 0).val = t.val * 5000 + (y 0).val) :
    (iblk0 V c 1 t : Vec Ideal S5000x1 .f32) y = (V c (Pipeline.arrRef spec0 1) : FVec Ideal S50000x1 .f32) k := by
  obtain ⟨-, -, e0, e1, -⟩ := idx0 t
  have hy : (y 1).val < 1 := (y 1).isLt
  have hk : (k 1).val < 1 := (k 1).isLt
  show (V c (Pipeline.arrRef spec0 1) : FVec Ideal S50000x1 .f32) (((cfg0.win 1).blk t).view.emb y) = _
  congr 1
  funext a; apply Fin.ext
  match a with
  | ⟨0, _⟩ => show win0_1.index t (0 : Fin 2) * 5000 + 1 * (y 0).val = (k 0).val; omega
  | ⟨1, _⟩ => show win0_1.index t (1 : Fin 2) * 1 + 1 * (y 1).val = (k 1).val; omega

theorem flushed0_2 (c : Dev nD) (t : Fin cfg0.N) :
    (dat0 (F := Ideal) V c).flushed 2 t
      = ((cfg0.win 2).blk t).view.read (Elt Ideal) (rowScaled (V c (Pipeline.arrRef spec0 0)) (V c (Pipeline.arrRef spec0 1))) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S5000x1) zeroOff]
  obtain ⟨-, -, -, -, e0, e1⟩ := idx0 t
  funext j
  refine scaled0_at (V c (Pipeline.arrRef spec0 0)) (V c (Pipeline.arrRef spec0 1)) (iblk0 V c 0 t) (iblk0 V c 1 t) t.val
    (rows0_at V c t) (scales0_at V c t) j (((cfg0.win 2).blk t).view.emb j) ?_ ?_
  · show win0_2.index t (0 : Fin 2) * 5000 + 1 * (j 0).val = t.val * 5000 + (j 0).val; omega
  · show win0_2.index t (1 : Fin 2) * 128 + 1 * (j 1).val = (j 1).val; omega

theorem mem_blk0_2 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

theorem rowsCovered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e0, e1⟩ := idx0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem scale_val0 (c : Dev nD) :
    (dat0 (F := Ideal) V c).arrAt 2 cfg0.N = Cert.RefSpec.scaleBy (F := Ideal) (V c (Pipeline.arrRef spec0 0)) (V c (Pipeline.arrRef spec0 1)) :=
  ((dat0 (F := Ideal) V c).arrAt_eq_of_cover 2 (rowScaled (V c (Pipeline.arrRef spec0 0)) (V c (Pipeline.arrRef spec0 1)))
    (fun t _ => flushed0_2 V c t) rowsCovered0).trans (rowScaled_eq _ _)

end Cert.KernelIdeal.Hand

end
-- ==== Proof.KIVal1.lean ====
import proofs.«413962_j523986010479_1_alg».proof.Proof.KIReg1
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay1_apply (x0 : Vec Ideal S5000x128 .f32) (x1 : Vec Ideal S5000x1 .f32) (x2 : Vec Ideal S128x128 .f32)
    (x3 : Vec Ideal S1x128 .f32) (p : Fin 5000) (q : Fin 128) :
    k1_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k1_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay1_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k1_pay1 (F := Ideal) x0 x1 x2 x3 (ix2 p q) = Cert.RefSpec.denseBy (F := Ideal) a s w b (ix2 r q) := by
  rw [pay1_apply, dense_apply, h1, h3]
  refine congrArg₂ max (congrArg (· + b (ix2 (0 : Fin 1) q)) (Finset.sum_congr rfl fun k _ => ?_)) rfl
  rw [h0 k, h2 k]

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

variable (V : (c : Dev nD) → (b : Ref sig .tc) → Buf (Elt Ideal) ((c : Thread nD τ).loc b))

abbrev arrA1 (c : Dev nD) : FVec Ideal Cert.ReferenceIdeal.S50000x128 .f32 := V c (Pipeline.arrRef spec1 0)
abbrev arrS1 (c : Dev nD) : FVec Ideal Cert.ReferenceIdeal.S50000x1 .f32 := V c (Pipeline.arrRef spec1 1)
abbrev arrW1 (c : Dev nD) : FVec Ideal Cert.ReferenceIdeal.S128x128 .f32 := V c (Pipeline.arrRef spec1 2)
abbrev arrB1 (c : Dev nD) : FVec Ideal Cert.ReferenceIdeal.S1x128 .f32 := V c (Pipeline.arrRef spec1 3)
abbrev blkA1 (c : Dev nD) (t : Fin cfg1.N) : Vec Ideal S5000x128 .f32 := iblk1 V c 0 t
abbrev blkS1 (c : Dev nD) (t : Fin cfg1.N) : Vec Ideal S5000x1 .f32 := iblk1 V c 1 t
abbrev blkW1 (c : Dev nD) (t : Fin cfg1.N) : Vec Ideal S128x128 .f32 := iblk1 V c 2 t
abbrev blkB1 (c : Dev nD) (t : Fin cfg1.N) : Vec Ideal S1x128 .f32 := iblk1 V c 3 t

theorem rowsAt1 (c : Dev nD) (t : Fin cfg1.N) (p : Fin 5000) (k : Fin 128) (r : Fin 50000) (hr : r.val = t.val * 5000 + p.val) :
    blkA1 V c t (ix2 p k) = arrA1 V c (ix2 r k) := by
  obtain ⟨e0, e1, -⟩ := idx1 t
  show (iblk1 V c 0 t : Vec Ideal S5000x128 .f32) (ix2 p k) = (V c (Pipeline.arrRef spec1 0) : FVec Ideal S50000x128 .f32) (ix2 r k)
  unfold iblk1
  rw [View.read_apply]
  show (V c (Pipeline.arrRef spec1 0) : FVec Ideal S50000x128 .f32) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

theorem colAt1 (c : Dev nD) (t : Fin cfg1.N) (p : Fin 5000) (r : Fin 50000) (hr : r.val = t.val * 5000 + p.val) :
    blkS1 V c t (ix2 p (0 : Fin 1)) = arrS1 V c (ix2 r (0 : Fin 1)) := by
  obtain ⟨-, -, e0, e1, -⟩ := idx1 t
  show (iblk1 V c 1 t : Vec Ideal S5000x1 .f32) (ix2 p (0 : Fin 1)) = (V c (Pipeline.arrRef spec1 1) : FVec Ideal S50000x1 .f32) (ix2 r (0 : Fin 1))
  unfold iblk1
  rw [View.read_apply]
  show (V c (Pipeline.arrRef spec1 1) : FVec Ideal S50000x1 .f32) _ = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

theorem matAt1 (c : Dev nD) (t : Fin cfg1.N) (k q : Fin 128) :
    blkW1 V c t (ix2 k q) = arrW1 V c (ix2 k q) := by
  obtain ⟨-, -, -, -, e0, e1, -⟩ := idx1 t
  show (iblk1 V c 2 t : Vec Ideal S128x128 .f32) (ix2 k q) = (V c (Pipeline.arrRef spec1 2) : FVec Ideal S128x128 .f32) (ix2 k q)
  unfold iblk1
  rw [View.read_apply]
  show (V c (Pipeline.arrRef spec1 2) : FVec Ideal S128x128 .f32) _ = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem biasAt1 (c : Dev nD) (t : Fin cfg1.N) (q : Fin 128) :
    blkB1 V c t (ix2 (0 : Fin 1) q) = arrB1 V c (ix2 (0 : Fin 1) q) := by
  obtain ⟨-, -, -, -, -, -, e0, e1, -⟩ := idx1 t
  show (iblk1 V c 3 t : Vec Ideal S1x128 .f32) (ix2 (0 : Fin 1) q) = (V c (Pipeline.arrRef spec1 3) : FVec Ideal S1x128 .f32) (ix2 (0 : Fin 1) q)
  unfold iblk1
  rw [View.read_apply]
  show (V c (Pipeline.arrRef spec1 3) : FVec Ideal S1x128 .f32) _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

theorem flushed1_eq (c : Dev nD) (t : Fin cfg1.N) :
    (dat1 (F := Ideal) V c).flushed 4 t = ((cfg1.win 4).blk t).view.read (Elt Ideal)
      (Cert.RefSpec.denseBy (F := Ideal) (V c (Pipeline.arrRef spec1 0)) (V c (Pipeline.arrRef spec1 1))
        (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx1 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg1.win 4).blk t).view.emb (ix2 p q) = ix2 (⟨t.val * 5000 + p.val, hr⟩ : Fin 50000) q := by
    funext a; apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  rw [View.read_apply]
  show k1_pay1 (F := Ideal) (blkA1 V c t) (blkS1 V c t) (blkW1 V c t) (blkB1 V c t) (ix2 p q)
    = Cert.RefSpec.denseBy (F := Ideal) (arrA1 V c) (arrS1 V c) (arrW1 V c) (arrB1 V c) (((cfg1.win 4).blk t).view.emb (ix2 p q))
  rw [hemb]
  exact pay1_eq_dense (arrA1 V c) (arrS1 V c) (arrW1 V c) (arrB1 V c) (blkA1 V c t) (blkS1 V c t) (blkW1 V c t) (blkB1 V c t)
    p q ⟨t.val * 5000 + p.val, hr⟩
    (fun k => rowsAt1 V c t p k ⟨t.val * 5000 + p.val, hr⟩ rfl) (colAt1 V c t p ⟨t.val * 5000 + p.val, hr⟩ rfl)
    (fun k => matAt1 V c t k q) (biasAt1 V c t q)

theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

theorem cover1 (i : S50000x128.Idx) :
    ∃ t : Fin cfg1.N, (cfg1.win 4).flush t = true ∧ i ∈ ((cfg1.win 4).blk t).view.set := by
  have h0 : (i 0).val < 50000 := (i 0).isLt
  have h1 : (i 1).val < 128 := (i 1).isLt
  have hN : cfg1.N = 10 := N_1
  have ht : (i 0).val / 5000 < cfg1.N := by rw [hN]; omega
  obtain ⟨-, -, -, -, -, -, -, -, e0, e1, -⟩ := idx1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

theorem lin_val1 (c : Dev nD) :
    (dat1 (F := Ideal) V c).arrAt 4 cfg1.N = Cert.RefSpec.denseBy (F := Ideal) (V c (Pipeline.arrRef spec1 0))
      (V c (Pipeline.arrRef spec1 1)) (V c (Pipeline.arrRef spec1 2)) (V c (Pipeline.arrRef spec1 3)) :=
  (dat1 (F := Ideal) V c).arrAt_eq_of_cover 4 _ (fun t _ => flushed1_eq V c t) (cover1)

end Cert.KernelIdeal.Hand

end
-- ==== Proof.KIVal2.lean ====
import proofs.«413962_j523986010479_1_alg».proof.Proof.KIReg2
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay2_at (x0 : Vec Ideal S5000x128 .f32) (x1 : Vec Ideal S5000x1 .f32) (y : S5000x128.Idx) (y' : S5000x1.Idx)
    (h : (y' 0).val = (y 0).val) : k2_pay1 x0 x1 y = x0 y * x1 y' := by
  unfold k2_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled2_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k2_pay1 x0 x1 y = rowScaled X S i := by
  rw [pay2_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem rows2_at (c : Dev nD) (t : Fin cfg2.N) (y : S5000x128.Idx) (k : S50000x128.Idx)
    (hk0 : (k 0).val = t.val * 5000 + (y 0).val) (hk1 : (k 1).val = (y 1).val) :
    (iblk2 V c 0 t : Vec Ideal S5000x128 .f32) y = (V c (Pipeline.arrRef spec2 0) : FVec Ideal S50000x128 .f32) k := by
  obtain ⟨e0, e1, -⟩ := idx2 t
  show (V c (Pipeline.arrRef spec2 0) : FVec Ideal S50000x128 .f32) (((cfg2.win 0).blk t).view.emb y) = _
  congr 1
  funext a; apply Fin.ext
  match a with
  | ⟨0, _⟩ => show win2_0.index t (0 : Fin 2) * 5000 + 1 * (y 0).val = (k 0).val; omega
  | ⟨1, _⟩ => show win2_0.index t (1 : Fin 2) * 128 + 1 * (y 1).val = (k 1).val; omega

theorem scales2_at (c : Dev nD) (t : Fin cfg2.N) (y : S5000x1.Idx) (k : S50000x1.Idx)
    (hk0 : (k 0).val = t.val * 5000 + (y 0).val) :
    (iblk2 V c 1 t : Vec Ideal S5000x1 .f32) y = (V c (Pipeline.arrRef spec2 1) : FVec Ideal S50000x1 .f32) k := by
  obtain ⟨-, -, e0, e1, -⟩ := idx2 t
  have hy : (y 1).val < 1 := (y 1).isLt
  have hk : (k 1).val < 1 := (k 1).isLt
  show (V c (Pipeline.arrRef spec2 1) : FVec Ideal S50000x1 .f32) (((cfg2.win 1).blk t).view.emb y) = _
  congr 1
  funext a; apply Fin.ext
  match a with
  | ⟨0, _⟩ => show win2_1.index t (0 : Fin 2) * 5000 + 1 * (y 0).val = (k 0).val; omega
  | ⟨1, _⟩ => show win2_1.index t (1 : Fin 2) * 1 + 1 * (y 1).val = (k 1).val; omega

theorem flushed2_2 (c : Dev nD) (t : Fin cfg2.N) :
    (dat2 (F := Ideal) V c).flushed 2 t
      = ((cfg2.win 2).blk t).view.read (Elt Ideal) (rowScaled (V c (Pipeline.arrRef spec2 0)) (V c (Pipeline.arrRef spec2 1))) := by
  show (cfg2.win 2).cut (grid2.coords t) ((dat2 V c).after 2 t) = _
  rw [after2_2]
  unfold out2_2
  rw [View.canon_unit_zero zeroOff]
  simp only [View.ld_unit_zero (S := S5000x128) zeroOff, View.ld_unit_zero (S := S5000x1) zeroOff]
  obtain ⟨-, -, -, -, e0, e1⟩ := idx2 t
  funext j
  refine scaled2_at (V c (Pipeline.arrRef spec2 0)) (V c (Pipeline.arrRef spec2 1)) (iblk2 V c 0 t) (iblk2 V c 1 t) t.val
    (rows2_at V c t) (scales2_at V c t) j (((cfg2.win 2).blk t).view.emb j) ?_ ?_
  · show win2_2.index t (0 : Fin 2) * 5000 + 1 * (j 0).val = t.val * 5000 + (j 0).val; omega
  · show win2_2.index t (1 : Fin 2) * 128 + 1 * (j 1).val = (j 1).val; omega

theorem mem_blk2_2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

theorem rowsCovered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e0, e1⟩ := idx2 t
  refine ⟨t, flush2_2 t, ?_⟩
  rw [mem_blk2_2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem scale_val2 (c : Dev nD) :
    (dat2 (F := Ideal) V c).arrAt 2 cfg2.N = Cert.RefSpec.scaleBy (F := Ideal) (V c (Pipeline.arrRef spec2 0)) (V c (Pipeline.arrRef spec2 1)) :=
  ((dat2 (F := Ideal) V c).arrAt_eq_of_cover 2 (rowScaled (V c (Pipeline.arrRef spec2 0)) (V c (Pipeline.arrRef spec2 1)))
    (fun t _ => flushed2_2 V c t) rowsCovered2).trans (rowScaled_eq _ _)

end Cert.KernelIdeal.Hand

end
-- ==== Proof.KIVal3.lean ====
import proofs.«413962_j523986010479_1_alg».proof.Proof.KIReg3
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay3_apply (x0 : Vec Ideal S5000x128 .f32) (x1 : Vec Ideal S5000x1 .f32) (x2 : Vec Ideal S128x128 .f32)
    (x3 : Vec Ideal S1x128 .f32) (p : Fin 5000) (q : Fin 128) :
    k3_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k3_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay3_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k3_pay1 (F := Ideal) x0 x1 x2 x3 (ix2 p q) = Cert.RefSpec.denseBy (F := Ideal) a s w b (ix2 r q) := by
  rw [pay3_apply, dense_apply, h1, h3]
  refine congrArg₂ max (congrArg (· + b (ix2 (0 : Fin 1) q)) (Finset.sum_congr rfl fun k _ => ?_)) rfl
  rw [h0 k, h2 k]

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 10 :=
  (by decide +kernel : ∀ t : Fin grid3.N, _)

variable (V : (c : Dev nD) → (b : Ref sig .tc) → Buf (Elt Ideal) ((c : Thread nD τ).loc b))

abbrev arrA3 (c : Dev nD) : FVec Ideal Cert.ReferenceIdeal.S50000x128 .f32 := V c (Pipeline.arrRef spec3 0)
abbrev arrS3 (c : Dev nD) : FVec Ideal Cert.ReferenceIdeal.S50000x1 .f32 := V c (Pipeline.arrRef spec3 1)
abbrev arrW3 (c : Dev nD) : FVec Ideal Cert.ReferenceIdeal.S128x128 .f32 := V c (Pipeline.arrRef spec3 2)
abbrev arrB3 (c : Dev nD) : FVec Ideal Cert.ReferenceIdeal.S1x128 .f32 := V c (Pipeline.arrRef spec3 3)
abbrev blkA3 (c : Dev nD) (t : Fin cfg3.N) : Vec Ideal S5000x128 .f32 := iblk3 V c 0 t
abbrev blkS3 (c : Dev nD) (t : Fin cfg3.N) : Vec Ideal S5000x1 .f32 := iblk3 V c 1 t
abbrev blkW3 (c : Dev nD) (t : Fin cfg3.N) : Vec Ideal S128x128 .f32 := iblk3 V c 2 t
abbrev blkB3 (c : Dev nD) (t : Fin cfg3.N) : Vec Ideal S1x128 .f32 := iblk3 V c 3 t

theorem rowsAt3 (c : Dev nD) (t : Fin cfg3.N) (p : Fin 5000) (k : Fin 128) (r : Fin 50000) (hr : r.val = t.val * 5000 + p.val) :
    blkA3 V c t (ix2 p k) = arrA3 V c (ix2 r k) := by
  obtain ⟨e0, e1, -⟩ := idx3 t
  show (iblk3 V c 0 t : Vec Ideal S5000x128 .f32) (ix2 p k) = (V c (Pipeline.arrRef spec3 0) : FVec Ideal S50000x128 .f32) (ix2 r k)
  unfold iblk3
  rw [View.read_apply]
  show (V c (Pipeline.arrRef spec3 0) : FVec Ideal S50000x128 .f32) _ = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

theorem colAt3 (c : Dev nD) (t : Fin cfg3.N) (p : Fin 5000) (r : Fin 50000) (hr : r.val = t.val * 5000 + p.val) :
    blkS3 V c t (ix2 p (0 : Fin 1)) = arrS3 V c (ix2 r (0 : Fin 1)) := by
  obtain ⟨-, -, e0, e1, -⟩ := idx3 t
  show (iblk3 V c 1 t : Vec Ideal S5000x1 .f32) (ix2 p (0 : Fin 1)) = (V c (Pipeline.arrRef spec3 1) : FVec Ideal S50000x1 .f32) (ix2 r (0 : Fin 1))
  unfold iblk3
  rw [View.read_apply]
  show (V c (Pipeline.arrRef spec3 1) : FVec Ideal S50000x1 .f32) _ = _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 1 + 1 * 0 = 0; rw [e1]

theorem matAt3 (c : Dev nD) (t : Fin cfg3.N) (k q : Fin 128) :
    blkW3 V c t (ix2 k q) = arrW3 V c (ix2 k q) := by
  obtain ⟨-, -, -, -, e0, e1, -⟩ := idx3 t
  show (iblk3 V c 2 t : Vec Ideal S128x128 .f32) (ix2 k q) = (V c (Pipeline.arrRef spec3 2) : FVec Ideal S128x128 .f32) (ix2 k q)
  unfold iblk3
  rw [View.read_apply]
  show (V c (Pipeline.arrRef spec3 2) : FVec Ideal S128x128 .f32) _ = _
  refine congrArg _ (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

theorem biasAt3 (c : Dev nD) (t : Fin cfg3.N) (q : Fin 128) :
    blkB3 V c t (ix2 (0 : Fin 1) q) = arrB3 V c (ix2 (0 : Fin 1) q) := by
  obtain ⟨-, -, -, -, -, -, e0, e1, -⟩ := idx3 t
  show (iblk3 V c 3 t : Vec Ideal S1x128 .f32) (ix2 (0 : Fin 1) q) = (V c (Pipeline.arrRef spec3 3) : FVec Ideal S1x128 .f32) (ix2 (0 : Fin 1) q)
  unfold iblk3
  rw [View.read_apply]
  show (V c (Pipeline.arrRef spec3 3) : FVec Ideal S1x128 .f32) _ = _
  refine congrArg _ (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

theorem flushed3_eq (c : Dev nD) (t : Fin cfg3.N) :
    (dat3 (F := Ideal) V c).flushed 4 t = ((cfg3.win 4).blk t).view.read (Elt Ideal)
      (Cert.RefSpec.denseBy (F := Ideal) (V c (Pipeline.arrRef spec3 0)) (V c (Pipeline.arrRef spec3 1))
        (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx3 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg3.win 4).blk t).view.emb (ix2 p q) = ix2 (⟨t.val * 5000 + p.val, hr⟩ : Fin 50000) q := by
    funext a; apply Fin.ext
    match a with
    | ⟨0, _⟩ => show win3_4.index t (0 : Fin 2) * 5000 + 1 * p.val = t.val * 5000 + p.val; rw [e0]; omega
    | ⟨1, _⟩ => show win3_4.index t (1 : Fin 2) * 128 + 1 * q.val = q.val; rw [e1]; omega
  rw [View.read_apply]
  show k3_pay1 (F := Ideal) (blkA3 V c t) (blkS3 V c t) (blkW3 V c t) (blkB3 V c t) (ix2 p q)
    = Cert.RefSpec.denseBy (F := Ideal) (arrA3 V c) (arrS3 V c) (arrW3 V c) (arrB3 V c) (((cfg3.win 4).blk t).view.emb (ix2 p q))
  rw [hemb]
  exact pay3_eq_dense (arrA3 V c) (arrS3 V c) (arrW3 V c) (arrB3 V c) (blkA3 V c t) (blkS3 V c t) (blkW3 V c t) (blkB3 V c t)
    p q ⟨t.val * 5000 + p.val, hr⟩
    (fun k => rowsAt3 V c t p k ⟨t.val * 5000 + p.val, hr⟩ rfl) (colAt3 V c t p ⟨t.val * 5000 + p.val, hr⟩ rfl)
    (fun k => matAt3 V c t k q) (biasAt3 V c t q)

theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

theorem cover3 (i : S50000x128.Idx) :
    ∃ t : Fin cfg3.N, (cfg3.win 4).flush t = true ∧ i ∈ ((cfg3.win 4).blk t).view.set := by
  have h0 : (i 0).val < 50000 := (i 0).isLt
  have h1 : (i 1).val < 128 := (i 1).isLt
  have hN : cfg3.N = 10 := N_3
  have ht : (i 0).val / 5000 < cfg3.N := by rw [hN]; omega
  obtain ⟨-, -, -, -, -, -, -, -, e0, e1, -⟩ := idx3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    rw [e1]; omega

theorem lin_val3 (c : Dev nD) :
    (dat3 (F := Ideal) V c).arrAt 4 cfg3.N = Cert.RefSpec.denseBy (F := Ideal) (V c (Pipeline.arrRef spec3 0))
      (V c (Pipeline.arrRef spec3 1)) (V c (Pipeline.arrRef spec3 2)) (V c (Pipeline.arrRef spec3 3)) :=
  (dat3 (F := Ideal) V c).arrAt_eq_of_cover 4 _ (fun t _ => flushed3_eq V c t) (cover3)

end Cert.KernelIdeal.Hand

end
-- ==== Proof.KIPre.lean ====
import proofs.«413962_j523986010479_1_alg».proof.Defs
import proofs.«413962_j523986010479_1_alg».proof.Proof.Gen.KernelIdeal
import proofs.«413962_j523986010479_1_alg».proof.Proof.Gen.KernelIdeal.Launch
import proofs.«413962_j523986010479_1_alg».proof.Proof.Gen.Pre_finite_inputs
import proofs.«413962_j523986010479_1_alg».proof.Proof.RefSpec
import Idealize.ShloMosaic.Lib.StableHlo.Predicate
import Idealize.ShloMosaic.Lib.StableHlo.Run
import Idealize.ShloMosaic.Lib.ReduceAll
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem

namespace Pre

instance scalar_idx_subsingleton : Subsingleton Cert.Pre_finite_inputs.S_.Idx := ⟨fun a b => funext fun d => d.elim0⟩

theorem inb_of_all (x : IVec Cert.Pre_finite_inputs.S600000 32)
    (hall : Host.reduce IntOp.andi
        (andi (cmpi .sge x (broadcastInDim Cert.Pre_finite_inputs.S600000 ![] Cert.Pre_finite_inputs.Facts.bcast_S_S600000 (constantI Cert.Pre_finite_inputs.S_ 32 0#32)))
              (cmpi .slt x (broadcastInDim Cert.Pre_finite_inputs.S600000 ![] Cert.Pre_finite_inputs.Facts.bcast_S_S600000 (constantI Cert.Pre_finite_inputs.S_ 32 50000#32))))
        (constantI Cert.Pre_finite_inputs.S_ 1 1#1) Cert.Pre_finite_inputs.Facts.reducesTo_S600000_S_d0 Cert.Pre_finite_inputs.Facts.h_S_ ValueIdx.ix0 = 1#1)
    (e : Cert.Pre_finite_inputs.S600000.Idx) :
    (0#32).sle (x e) = true ∧ (x e).slt (50000#32) = true := by
  have h1 := Host.reduce_andi_all _ _ _ _ _ hall e
  obtain ⟨h0, h5⟩ := IntOp.andi_eq_one.1 h1
  exact ⟨(StableHlo.Predicate.ofBool_eq_one_iff _).1 h0, (StableHlo.Predicate.ofBool_eq_one_iff _).1 h5⟩

theorem pre_idx (m : (ℓ : Loc nD τ sig) → Buf (Elt Ideal) ℓ) (h : Cert.Pre_KernelIdeal m) (c : Dev nD) (e : S600000.Idx) :
    ((0#32).sle (m ((c.tc : Thread nD τ).loc main_arg1) e) = true ∧ (m ((c.tc : Thread nD τ).loc main_arg1) e).slt (50000#32) = true) ∧
    ((0#32).sle (m ((c.tc : Thread nD τ).loc main_arg4) e) = true ∧ (m ((c.tc : Thread nD τ).loc main_arg4) e).slt (50000#32) = true) ∧
    ((0#32).sle (m ((c.tc : Thread nD τ).loc main_arg7) e) = true ∧ (m ((c.tc : Thread nD τ).loc main_arg7) e).slt (50000#32) = true) ∧
    ((0#32).sle (m ((c.tc : Thread nD τ).loc main_arg10) e) = true ∧ (m ((c.tc : Thread nD τ).loc main_arg10) e).slt (50000#32) = true) := by
  have p := congrFun (h c) ValueIdx.ix0
  dsimp only [Cert.Pre_finite_inputs.fn, Cert.Pre_finite_inputs.fn_part1, Cert.Pre_finite_inputs.fn_part2, Cert.Pre_finite_inputs.fn_part3] at p
  obtain ⟨p, p10⟩ := IntOp.andi_eq_one.1 p
  obtain ⟨p, p7⟩ := IntOp.andi_eq_one.1 p
  obtain ⟨p, p4⟩ := IntOp.andi_eq_one.1 p
  obtain ⟨-, p1⟩ := IntOp.andi_eq_one.1 p
  exact ⟨inb_of_all _ p1 e, inb_of_all _ p4 e, inb_of_all _ p7 e, inb_of_all _ p10 e⟩

end Pre

theorem src1_inb (m : (ℓ : Loc nD τ sig) → Buf (Elt Ideal) ℓ) (h : Cert.Pre_KernelIdeal m) (c : Dev nD) (e : S600000.Idx) :
    (0#32).sle (m ((c.tc : Thread nD τ).loc main_arg1) e) = true ∧ (m ((c.tc : Thread nD τ).loc main_arg1) e).slt (50000#32) = true :=
  (Pre.pre_idx m h c e).1
theorem src4_inb (m : (ℓ : Loc nD τ sig) → Buf (Elt Ideal) ℓ) (h : Cert.Pre_KernelIdeal m) (c : Dev nD) (e : S600000.Idx) :
    (0#32).sle (m ((c.tc : Thread nD τ).loc main_arg4) e) = true ∧ (m ((c.tc : Thread nD τ).loc main_arg4) e).slt (50000#32) = true :=
  (Pre.pre_idx m h c e).2.1
theorem src7_inb (m : (ℓ : Loc nD τ sig) → Buf (Elt Ideal) ℓ) (h : Cert.Pre_KernelIdeal m) (c : Dev nD) (e : S600000.Idx) :
    (0#32).sle (m ((c.tc : Thread nD τ).loc main_arg7) e) = true ∧ (m ((c.tc : Thread nD τ).loc main_arg7) e).slt (50000#32) = true :=
  (Pre.pre_idx m h c e).2.2.1
theorem src10_inb (m : (ℓ : Loc nD τ sig) → Buf (Elt Ideal) ℓ) (h : Cert.Pre_KernelIdeal m) (c : Dev nD) (e : S600000.Idx) :
    (0#32).sle (m ((c.tc : Thread nD τ).loc main_arg10) e) = true ∧ (m ((c.tc : Thread nD τ).loc main_arg10) e).slt (50000#32) = true :=
  (Pre.pre_idx m h c e).2.2.2

def wrapK (src : (⟨S600000, .i32⟩ : BufTy).Contents (Elt Ideal)) : (⟨S600000, .i32⟩ : BufTy).Contents (Elt Ideal) :=
  select (cmpi .slt src (broadcastInDim S600000 ![] bcast_S_S600000 (constantI S_ 32 0#32)))
    (addi src (broadcastInDim S600000 ![] bcast_S_S600000 (constantI S_ 32 50000#32))) src

def idxK (src : (⟨S600000, .i32⟩ : BufTy).Contents (Elt Ideal)) : (⟨S600000x1, .i32⟩ : BufTy).Contents (Elt Ideal) :=
  broadcastInDim S600000x1 ![0] bcast_S600000_S600000x1_0 (wrapK src)

def maskK (src : (⟨S600000, .i32⟩ : BufTy).Contents (Elt Ideal)) : (⟨S600000, .i1⟩ : BufTy).Contents (Elt Ideal) :=
  Host.reduce IntOp.andi
    (andi (cmpi .sge (idxK src) (broadcastInDim S600000x1 ![] bcast_S_S600000x1 (constantI S_ 32 0#32)))
      (cmpi .sle (idxK src) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

def takeK (h : (⟨S50000x128, .f32⟩ : BufTy).Contents (Elt Ideal)) (src : (⟨S600000, .i32⟩ : BufTy).Contents (Elt Ideal)) :
    (⟨S600000x128, .f32⟩ : BufTy).Contents (Elt Ideal) :=
  select (broadcastInDim S600000x128 ![0] bcast_S600000_S600000x128_0 (maskK src))
    (Host.gather gather_S50000x128_S600000x1_S600000x128_1_0_n_n_0_1_1128 h (idxK src))
    (broadcastInDim S600000x128 ![] bcast_S_S600000x128 (constant (F := Ideal) S_ .f32 0x7FC00000#32))

theorem takeK_after1 (U : Valuation τ sig (Elt Ideal)) :
    (StableHlo.after (hostOps1 (F := Ideal)) U main_v19 : (⟨S600000x128, .f32⟩ : BufTy).Contents (Elt Ideal))
      = takeK (U main_v18) (U main_arg1) := by
  after_results_simp <;> (try simp only [StableHlo.TRef.ofBuf, StableHlo.TRef.toBuf, cast_eq]) <;> rfl

namespace Pre

theorem fold_andi_ones {ι : Type} (S : Finset ι) (x : ι → BitVec 1) (hx : ∀ i, x i = 1#1) :
    S.fold IntOp.andi 1#1 x = 1#1 := by
  induction S using Finset.cons_induction with
  | empty => rfl
  | cons a S ha ih => rw [Finset.fold_cons, ih, hx]; rfl

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_fold, hi]
  exact fold_andi_ones _ _ hx

theorem not_slt_zero {w : BitVec 32} (h0 : (0#32).sle w = true) : w.slt 0#32 = false := by
  simp only [BitVec.sle, BitVec.slt, decide_eq_true_eq, decide_eq_false_iff_not, not_lt] at h0 ⊢
  exact h0

theorem sle_of_slt {w : BitVec 32} (h5 : w.slt 50000#32 = true) : w.sle 49999#32 = true := by
  simp only [BitVec.sle, BitVec.slt, decide_eq_true_eq] at h5 ⊢
  have a : (50000#32 : BitVec 32).toInt = 50000 := by decide
  have b : (49999#32 : BitVec 32).toInt = 49999 := by decide
  omega

theorem select_bcast_ones {s t : Shape} {α : Type} (dims : Fin s.rank → Fin t.rank) (hb : s.BroadcastsInDim t dims)
    (x : IVec s 1) (a b : t.Idx → α) (hx : ∀ e, x e = 1#1) : select (broadcastInDim t dims hb x) a b = a := by
  funext j
  have hj : broadcastInDim t dims hb x j = 1#1 := by unfold broadcastInDim; exact hx _
  rw [ValueIdx.select_apply, hj, ValueIdx.select_one]

end Pre

open Pre

theorem wrapK_eq (src : (⟨S600000, .i32⟩ : BufTy).Contents (Elt Ideal))
    (hs : ∀ e : S600000.Idx, (0#32).sle (src e) = true ∧ (src e).slt (50000#32) = true) : wrapK src = src := by
  funext e
  show Scalar.select (BitVec.ofBool ((src e).slt 0#32)) (IntOp.addi (src e) 50000#32) (src e) = src e
  rw [not_slt_zero (hs e).1]
  exact ValueIdx.select_zero _ _

theorem maskK_one (src : (⟨S600000, .i32⟩ : BufTy).Contents (Elt Ideal))
    (hs : ∀ e : S600000.Idx, (0#32).sle (src e) = true ∧ (src e).slt (50000#32) = true) (e : S600000.Idx) :
    maskK src e = 1#1 := by
  unfold maskK
  refine reduce_andi_ones _ _ _ _ (fun i => ?_) (fun _ => rfl) e
  obtain ⟨e', he'⟩ : ∃ e' : S600000.Idx, idxK src i = src e' := ⟨_, congrFun (wrapK_eq src hs) _⟩
  show IntOp.andi (BitVec.ofBool ((0#32).sle (idxK src i))) (BitVec.ofBool ((idxK src i).sle 49999#32)) = 1#1
  rw [he', (hs e').1, sle_of_slt (hs e').2]
  rfl

theorem takeK_eq (h : (⟨S50000x128, .f32⟩ : BufTy).Contents (Elt Ideal)) (src : (⟨S600000, .i32⟩ : BufTy).Contents (Elt Ideal))
    (hs : ∀ e : S600000.Idx, (0#32).sle (src e) = true ∧ (src e).slt (50000#32) = true) :
    takeK h src = Cert.RefSpec.take (F := Ideal) h src := by
  unfold takeK
  rw [select_bcast_ones _ _ _ _ _ (maskK_one src hs)]
  rfl

end Cert.KernelIdeal.Hand

end
-- ==== Proof.KIAdapt.lean ====
import proofs.«413962_j523986010479_1_alg».proof.Proof.Gen.KernelIdeal
import proofs.«413962_j523986010479_1_alg».proof.Proof.RefSpec
import Idealize.ShloMosaic.Lib.Pipeline.Value
import Idealize.ShloMosaic.Lib.ValueIdx

noncomputable section

namespace Cert.KernelIdeal.Hand

open Cert.KernelIdeal Cert.KernelIdeal.Gen Idealize.ShloMosaic

variable {F : FTy → Type} [FloatOps F]

theorem colOf_eq (d : (⟨S50000, .f32⟩ : BufTy).Contents (Elt F)) :
    shapeCast S50000x1 d shapeCasts_S50000_S50000x1 = Cert.RefSpec.colOf d := by
  funext j
  unfold Cert.RefSpec.colOf
  have hj1 : (j 1).val < 1 := (j 1).isLt
  rw [shapeCast_apply d _ j (ValueIdx.ix1 (j 0)) (by
    rw [Shape.rowMajor_val_one, Shape.rowMajor_val_two]
    show (j 0).val = (j 0).val * 1 + (j 1).val
    omega)]
  exact (broadcastInDim_apply _ _ d j (ValueIdx.ix1 (j 0)) fun a => by match a with | ⟨0, _⟩ => rfl).symm

theorem rowOf_eq (b : (⟨S128, .f32⟩ : BufTy).Contents (Elt F)) :
    shapeCast S1x128 b shapeCasts_S128_S1x128 = Cert.RefSpec.rowOf b := by
  funext j
  unfold Cert.RefSpec.rowOf
  have hj0 : (j 0).val < 1 := (j 0).isLt
  rw [shapeCast_apply b _ j (ValueIdx.ix1 (j 1)) (by
    rw [Shape.rowMajor_val_one, Shape.rowMajor_val_two]
    show (j 1).val = (j 0).val * 128 + (j 1).val
    omega)]
  exact (broadcastInDim_apply _ _ b j (ValueIdx.ix1 (j 1)) fun a => by match a with | ⟨0, _⟩ => rfl).symm

theorem deg_eq (idx : (⟨S600000, .i32⟩ : BufTy).Contents (Elt F)) :
    Host.powf (maximumf (Host.scatterAdd scatter_S50000_S600000x1_S600000_n_0_0_1 (broadcastInDim S50000 ![] bcast_S_S50000 (constant S_ .f32 0x00000000#32)) (broadcastInDim S600000x1 ![0] bcast_S600000_S600000x1_0 idx) (broadcastInDim S600000 ![] bcast_S_S600000 (constant S_ .f32 0x3F800000#32))) (broadcastInDim S50000 ![] bcast_S_S50000 (constant S_ .f32 0x3F800000#32))) (broadcastInDim S50000 ![] bcast_S_S50000 (constant S_ .f32 0xBF000000#32))
      = Cert.RefSpec.deg idx := rfl

theorem segsum_eq (dst : (⟨S600000, .i32⟩ : BufTy).Contents (Elt F)) (g : (⟨S600000x128, .f32⟩ : BufTy).Contents (Elt F)) :
    Host.scatterAdd scatter_S50000x128_S600000x1_S600000x128_1_0_0_1 (broadcastInDim S50000x128 ![] bcast_S_S50000x128 (constant S_ .f32 0x00000000#32)) (broadcastInDim S600000x1 ![0] bcast_S600000_S600000x1_0 dst) g
      = Cert.RefSpec.segsum dst g := rfl

theorem tail_eq (h1 h2 h3 h4 : (⟨S50000x128, .f32⟩ : BufTy).Contents (Elt F)) :
    Host.divf (Host.reduceAdd (Host.divf (Host.reduceAdd (concatenate S200000x128 0 [⟨S50000x128, h1⟩, ⟨S50000x128, h2⟩, ⟨S50000x128, h3⟩, ⟨S50000x128, h4⟩] concatenates_S50000x128_S50000x128_S50000x128_S50000x128_S200000x128_d0) (constant S_ .f32 0x00000000#32) reducesTo_S200000x128_S128_d0 h_S_) (broadcastInDim S128 ![] bcast_S_S128 (constant S_ .f32 0x48435000#32))) (constant S_ .f32 0x00000000#32) reducesTo_S128_S_d0 h_S_) (constant S_ .f32 0x43000000#32)
      = Cert.RefSpec.tail h1 h2 h3 h4 := rfl

end Cert.KernelIdeal.Hand

end
-- ==== Proof.KIChain1.lean ====
import proofs.«413962_j523986010479_1_alg».proof.Proof.KIWalk
import proofs.«413962_j523986010479_1_alg».proof.Proof.KIVal0
import proofs.«413962_j523986010479_1_alg».proof.Proof.KIVal1
import proofs.«413962_j523986010479_1_alg».proof.Proof.KIVal2
import proofs.«413962_j523986010479_1_alg».proof.Proof.KIVal3
import proofs.«413962_j523986010479_1_alg».proof.Proof.KIPre
import proofs.«413962_j523986010479_1_alg».proof.Proof.KIAdapt
import proofs.«413962_j523986010479_1_alg».proof.Proof.RefSpec
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL Idealize.SL.Sem
open Cert.RefSpec (colOf rowOf deg scaleBy denseBy take segsum layer twoLayer tail)

section Stretch

variable {F : FTy → Type} [FloatOps F]

set_option maxHeartbeats 2000000 in
theorem g1_colO_of (U : Valuation τ sig (Elt F)) :
    StableHlo.after hostOps0 U (Proc.devRef .tc main_v8) = colOf (deg (U main_arg1)) := by
  after_results
  exact (colOf_eq _).trans (congrArg colOf (deg_eq _))
set_option maxHeartbeats 2000000 in
theorem g1_colI_of (U : Valuation τ sig (Elt F)) :
    StableHlo.after hostOps0 U (Proc.devRef .tc main_v17) = colOf (deg (U main_arg2)) := by
  after_results
  exact (colOf_eq _).trans (congrArg colOf (deg_eq _))
set_option maxHeartbeats 2000000 in
theorem g1_sA_of (U : Valuation τ sig (Elt F)) :
    StableHlo.after hostOps1_1 U (Proc.devRef .tc main_v22) = segsum (U main_arg2) (U main_v19) := by
  after_results
  exact segsum_eq _ _
set_option maxHeartbeats 2000000 in
theorem g1_rbA_of (U : Valuation τ sig (Elt F)) :
    StableHlo.after hostOps1_1 U (Proc.devRef .tc main_v23) = rowOf (U main_arg13) := by
  after_results
  exact rowOf_eq _
set_option maxHeartbeats 2000000 in
theorem g1_sC_of (U : Valuation τ sig (Elt F)) :
    StableHlo.after hostOps3_1 U (Proc.devRef .tc main_v29) = segsum (U main_arg2) (U main_v26) := by
  after_results
  exact segsum_eq _ _
set_option maxHeartbeats 2000000 in
theorem g1_rbC_of (U : Valuation τ sig (Elt F)) :
    StableHlo.after hostOps3_1 U (Proc.devRef .tc main_v30) = rowOf (U main_arg15) := by
  after_results
  exact rowOf_eq _

end Stretch

set_option maxHeartbeats 4000000 in
theorem g1_tA_of (U : Valuation τ sig (Elt Ideal)) :
    (StableHlo.after (hostOps1 (F := Ideal)) U main_v19 : (⟨S600000x128, .f32⟩ : BufTy).Contents (Elt Ideal)) = takeK (U main_v18) (U main_arg1) := by
  after_results_simp <;> (try simp only [StableHlo.TRef.ofBuf, StableHlo.TRef.toBuf, cast_eq]) <;> rfl
set_option maxHeartbeats 4000000 in
theorem g1_tC_of (U : Valuation τ sig (Elt Ideal)) :
    (StableHlo.after (hostOps3 (F := Ideal)) U main_v26 : (⟨S600000x128, .f32⟩ : BufTy).Contents (Elt Ideal)) = takeK (U main_v25) (U main_arg1) := by
  after_results_simp <;> (try simp only [StableHlo.TRef.ofBuf, StableHlo.TRef.toBuf, cast_eq]) <;> rfl

variable (m : (ℓ : Loc nD τ sig) → Buf (Elt Ideal) ℓ)

theorem g1_W0_at (c : Dev nD) (r : Ref sig .tc) : W0 m c r = m ((c.tc : Thread nD τ).loc r) := rfl

theorem g1_colO (c : Dev nD) : W1 m c main_v8 = colOf (deg (m ((c.tc : Thread nD τ).loc main_arg1))) := by
  unfold W1
  rw [g1_colO_of]
  exact congrArg (fun z => colOf (deg z)) (g1_W0_at m c main_arg1)
theorem g1_colI (c : Dev nD) : W1 m c main_v17 = colOf (deg (m ((c.tc : Thread nD τ).loc main_arg2))) := by
  unfold W1
  rw [g1_colI_of]
  exact congrArg (fun z => colOf (deg z)) (g1_W0_at m c main_arg2)
theorem g1_oA (c : Dev nD) : W2 m c main_v18 = scaleBy (m ((c.tc : Thread nD τ).loc main_arg0)) (colOf (deg (m ((c.tc : Thread nD τ).loc main_arg1)))) := by
  rw [W2_out, scale_val0]
  show scaleBy (W1 m c main_arg0) (W1 m c main_v8) = _
  rw [g1_colO, ((W1_of m c main_arg0 (by decide)).trans (g1_W0_at m c main_arg0))]
theorem g1_tA (h : Cert.Pre_KernelIdeal m) (c : Dev nD) : W3 m c main_v19 = take (scaleBy (m ((c.tc : Thread nD τ).loc main_arg0)) (colOf (deg (m ((c.tc : Thread nD τ).loc main_arg1))))) (m ((c.tc : Thread nD τ).loc main_arg1)) := by
  unfold W3
  rw [g1_tA_of, g1_oA, (W2_kept m c main_arg1 arg1_kept)]
  exact takeK_eq _ _ (src1_inb m h c)
theorem g1_sA (h : Cert.Pre_KernelIdeal m) (c : Dev nD) : W4 m c main_v22 = segsum (m ((c.tc : Thread nD τ).loc main_arg2)) (take (scaleBy (m ((c.tc : Thread nD τ).loc main_arg0)) (colOf (deg (m ((c.tc : Thread nD τ).loc main_arg1))))) (m ((c.tc : Thread nD τ).loc main_arg1))) := by
  unfold W4
  rw [g1_sA_of, g1_tA m h, (W3_kept m c main_arg2 arg2_kept)]
theorem g1_rbA (c : Dev nD) : W4 m c main_v23 = rowOf (m ((c.tc : Thread nD τ).loc main_arg13)) := by
  unfold W4
  rw [g1_rbA_of, (W3_kept m c main_arg13 arg13_kept)]
theorem g1_oB (h : Cert.Pre_KernelIdeal m) (c : Dev nD) : W5 m c main_v24 = layer (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13)) := by
  rw [W5_out, lin_val1]
  show denseBy (W4 m c main_v22) (W4 m c main_v17) (W4 m c main_arg12) (W4 m c main_v23) = _
  rw [g1_sA m h, (((W4_of m c main_v17 (by decide)).trans ((W3_of m c main_v17 (by decide)).trans (W2_of_ne m c main_v17 (by decide))))).trans (g1_colI m c), (W4_kept m c main_arg12 arg12_kept), g1_rbA]
  rfl
theorem g1_oC (h : Cert.Pre_KernelIdeal m) (c : Dev nD) : W6 m c main_v25 = scaleBy (layer (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13))) (colOf (deg (m ((c.tc : Thread nD τ).loc main_arg1)))) := by
  rw [W6_out, scale_val2]
  show scaleBy (W5 m c main_v24) (W5 m c main_v8) = _
  rw [g1_oB m h, (((W5_of_ne m c main_v8 (by decide)).trans ((W4_of m c main_v8 (by decide)).trans ((W3_of m c main_v8 (by decide)).trans (W2_of_ne m c main_v8 (by decide)))))).trans (g1_colO m c)]
theorem g1_tC (h : Cert.Pre_KernelIdeal m) (c : Dev nD) : W7 m c main_v26 = take (scaleBy (layer (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13))) (colOf (deg (m ((c.tc : Thread nD τ).loc main_arg1))))) (m ((c.tc : Thread nD τ).loc main_arg1)) := by
  unfold W7
  rw [g1_tC_of, g1_oC m h, (W6_kept m c main_arg1 arg1_kept)]
  exact takeK_eq _ _ (src1_inb m h c)
theorem g1_sC (h : Cert.Pre_KernelIdeal m) (c : Dev nD) : W8 m c main_v29 = segsum (m ((c.tc : Thread nD τ).loc main_arg2)) (take (scaleBy (layer (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13))) (colOf (deg (m ((c.tc : Thread nD τ).loc main_arg1))))) (m ((c.tc : Thread nD τ).loc main_arg1))) := by
  unfold W8
  rw [g1_sC_of, g1_tC m h, (W7_kept m c main_arg2 arg2_kept)]
theorem g1_rbC (c : Dev nD) : W8 m c main_v30 = rowOf (m ((c.tc : Thread nD τ).loc main_arg15)) := by
  unfold W8
  rw [g1_rbC_of, (W7_kept m c main_arg15 arg15_kept)]

theorem g1_oD (h : Cert.Pre_KernelIdeal m) (c : Dev nD) : W9 m c main_v31 = twoLayer (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13)) (m ((c.tc : Thread nD τ).loc main_arg14)) (m ((c.tc : Thread nD τ).loc main_arg15)) := by
  rw [W9_out, lin_val3]
  show denseBy (W8 m c main_v29) (W8 m c main_v17) (W8 m c main_arg14) (W8 m c main_v30) = _
  rw [g1_sC m h, (((W8_of m c main_v17 (by decide)).trans ((W7_of m c main_v17 (by decide)).trans ((W6_of_ne m c main_v17 (by decide)).trans ((W5_of_ne m c main_v17 (by decide)).trans ((W4_of m c main_v17 (by decide)).trans ((W3_of m c main_v17 (by decide)).trans (W2_of_ne m c main_v17 (by decide))))))))).trans (g1_colI m c), (W8_kept m c main_arg14 arg14_kept), g1_rbC]
  rfl

end Cert.KernelIdeal.Hand

end
-- ==== Proof.KIVal4.lean ====
import proofs.«413962_j523986010479_1_alg».proof.Proof.KIReg4
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay4_at (x0 : Vec Ideal S5000x128 .f32) (x1 : Vec Ideal S5000x1 .f32) (y : S5000x128.Idx) (y' : S5000x1.Idx)
    (h : (y' 0).val = (y 0).val) : k4_pay1 x0 x1 y = x0 y * x1 y' := by
  unfold k4_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled4_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k4_pay1 x0 x1 y = rowScaled X S i := by
  rw [pay4_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem rows4_at (c : Dev nD) (t : Fin cfg4.N) (y : S5000x128.Idx) (k : S50000x128.Idx)
    (hk0 : (k 0).val = t.val * 5000 + (y 0).val) (hk1 : (k 1).val = (y 1).val) :
    (iblk4 V c 0 t : Vec Ideal S5000x128 .f32) y = (V c (Pipeline.arrRef spec4 0) : FVec Ideal S50000x128 .f32) k := by
  obtain ⟨e0, e1, -⟩ := idx4 t
  show (V c (Pipeline.arrRef spec4 0) : FVec Ideal S50000x128 .f32) (((cfg4.win 0).blk t).view.emb y) = _
  congr 1
  funext a; apply Fin.ext
  match a with
  | ⟨0, _⟩ => show win4_0.index t (0 : Fin 2) * 5000 + 1 * (y 0).val = (k 0).val; omega
  | ⟨1, _⟩ => show win4_0.index t (1 : Fin 2) * 128 + 1 * (y 1).val = (k 1).val; omega

theorem scales4_at (c : Dev nD) (t : Fin cfg4.N) (y : S5000x1.Idx) (k : S50000x1.Idx)
    (hk0 : (k 0).val = t.val * 5000 + (y 0).val) :
    (iblk4 V c 1 t : Vec Ideal S5000x1 .f32) y = (V c (Pipeline.arrRef spec4 1) : FVec Ideal S50000x1 .f32) k := by
  obtain ⟨-, -, e0, e1, -⟩ := idx4 t
  have hy : (y 1).val < 1 := (y 1).isLt
  have hk : (k 1).val < 1 := (k 1).isLt
  show (V c (Pipeline.arrRef spec4 1) : FVec Ideal S50000x1 .f32) (((cfg4.win 1).blk t).view.emb y) = _
  congr 1
  funext a; apply Fin.ext
  match a with
  | ⟨0, _⟩ => show win4_1.index t (0 : Fin 2) * 5000 + 1 * (y 0).val = (k 0).val; omega
  | ⟨1, _⟩ => show win4_1.index t (1 : Fin 2) * 1 + 1 * (y 1).val = (k 1).val; omega

theorem flushed4_2 (c : Dev nD) (t : Fin cfg4.N) :
    (dat4 (F := Ideal) V c).flushed 2 t
      = ((cfg4.win 2).blk t).view.read (Elt Ideal) (rowScaled (V c (Pipeline.arrRef spec4 0)) (V c (Pipeline.arrRef spec4 1))) := by
  show (cfg4.win 2).cut (grid4.coords t) ((dat4 V c).after 2 t) = _
  rw [after4_2]
  unfold out4_2
  rw [View.canon_unit_zero zeroOff]
  simp only [View.ld_unit_zero (S := S5000x128) zeroOff, View.ld_unit_zero (S := S5000x1) zeroOff]
  obtain ⟨-, -, -, -, e0, e1⟩ := idx4 t
  funext j
  refine scaled4_at (V c (Pipeline.arrRef spec4 0)) (V c (Pipeline.arrRef spec4 1)) (iblk4 V c 0 t) (iblk4 V c 1 t) t.val
    (rows4_at V c t) (scales4_at V c t) j (((cfg4.win 2).blk t).view.emb j) ?_ ?_
  · show win4_2.index t (0 : Fin 2) * 5000 + 1 * (j 0).val = t.val * 5000 + (j 0).val; omega
  · show win4_2.index t (1 : Fin 2) * 128 + 1 * (j 1).val = (j 1).val; omega

theorem mem_blk4_2 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

theorem rowsCovered4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, e0, e1⟩ := idx4 t
  refine ⟨t, flush4_2 t, ?_⟩
  rw [mem_blk4_2]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

theorem scale_val4 (c : Dev nD) :
    (dat4 (F := Ideal) V c).arrAt 2 cfg4.N = Cert.RefSpec.scaleBy (F := Ideal) (V c (Pipeline.arrRef spec4 0)) (V c (Pipeline.arrRef spec4 1)) :=
  ((dat4 (F := Ideal) V c).arrAt_eq_of_cover 2 (rowScaled (V c (Pipeline.arrRef spec4 0)) (V c (Pipeline.arrRef spec4 1)))
    (fun t _ => flushed4_2 V c t) rowsCovered4).trans (rowScaled_eq _ _)

end Cert.KernelIdeal.Hand

end
-- ==== Proof.KIVal5.lean ====
import proofs.«413962_j523986010479_1_alg».proof.Proof.KIReg5
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay5_apply (x0 : Vec Ideal S5000x128 .f32) (x1 : Vec Ideal S5000x1 .f32) (x2 : Vec Ideal S128x128 .f32)
    (x3 : Vec Ideal S1x128 .f32) (p : Fin 5000) (q : Fin 128) :
    k5_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k5_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay5_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k5_pay1 (F := Ideal) x0 x1 x2 x3 (ix2 p q) = Cert.RefSpec.denseBy (F := Ideal) a s w b (ix2 r q) := by
  rw [pay5_apply, dense_apply, h1, h3]
  refine congrArg₂ max (congrArg (· + b (ix2 (0 : Fin 1) q)) (Finset.sum_congr rfl fun k _ => ?_)) rfl
  rw [h0 k, h2 k]

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 10 :=
  (by decide +kernel : ∀ t : Fin grid5.N, _)

variable (V : (c : Dev nD) → (b : Ref sig .tc) → Buf (Elt Ideal) ((c : Thread nD τ).loc b))

abbrev arrA5 (c : Dev nD) : FVec Ideal Cert.ReferenceIdeal.S50000x128 .f32 := V c (Pipeline.arrRef spec5 0)
abbrev arrS5 (c : Dev nD) : FVec Ideal Cert.ReferenceIdeal.S50000x1 .f32 := V c (Pipeline.arrRef spec5 1)
abbrev arrW5 (c : Dev nD) : FVec Ideal Cert.ReferenceIdeal.S128x128 .f32 := V c (Pipeline.arrRef spec5 2)
abbrev arrB5 (c : Dev nD) : FVec Ideal Cert.ReferenceIdeal.S1x128 .f32 := V c (Pipeline.arrRef spec5 3)
abbrev blkA5 (c : Dev nD) (t : Fin cfg5.N) : Vec Ideal S5000x128 .f32 := iblk5 V c 0 t
abbrev blkS5 (c : Dev nD) (t : Fin cfg5.N) : Vec Ideal S5000x1 .f32 := iblk5 V c 1 t
abbrev blkW5 (c : Dev nD) (t : Fin cfg5.N) : Vec Ideal S128x128 .f32 := iblk5 V c 2 t
abbrev blkB5 (c : Dev nD) (t : Fin cfg5.N) : Vec Ideal S1x128 .f32 := iblk5 V c 3 t

theorem rowsAt5 (c : Dev nD) (t : Fin cfg5.N) (p : Fin 5000) (k : Fin 128) (r : Fin 50000) (hr : r.val = t.val * 5000 + p.val) :
    blkA5 V c t (ix2 p k) = arrA5 V c (ix2 r k) := by
  obtain ⟨e0, e1, -⟩ := idx5 t
  show (iblk5 V c 0 t : Vec Ideal S5000x128 .f32) (ix2 p k) = (V c (Pipeline.arrRef spec5 0) : FVec Ideal S50000x128 .f32) (ix2 r k)
  unfold iblk5
  rw [View.read_apply]
  show (V c (Pipeline.arrRef spec5 0) : FVec Ideal S50000x128 .f32) _ = _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

theorem colAt5 (c : Dev nD) (t : Fin cfg5.N) (p : Fin 5000) (r : Fin 50000) (hr : r.val = t.val * 5000 + p.val) :
    blkS5 V c t (ix2 p (0 : Fin 1)) = arrS5 V c (ix2 r (0 : Fin 1)) := by
  obtain ⟨-, -, e0, e1, -⟩ := idx5 t
  show (iblk5 V c 1 t : Vec Ideal S5000x1 .f32) (ix2 p (0 : Fin 1)) = (V c (Pipeline.arrRef spec5 1) : FVec Ideal S50000x1 .f32) (ix2 r (0 : Fin 1))
  unfold iblk5
  rw [View.read_apply]
  show (V c (Pipeline.arrRef spec5 1) : FVec Ideal S50000x1 .f32) _ = _
  refine congrArg _ (funext fun a => Fin.ext ?_)
  match a with
  | ⟨0, _⟩ => show win5_1.index t (0 : Fin 2) * 5000 + 1 * p.val = r.val; rw [e0, hr]; omega
  | ⟨1, _⟩ => show win5_1.index t (1 : Fin 2) * 1 + 1 * 0 = 0; rw [e1]

theorem matAt5 (c : Dev nD) (t : Fin cfg5.N) (k q : Fin 128) :
    blkW5 V c t (ix2 k q) = arrW5 V c (ix2 k q) := by
  obtain ⟨-, -, -, -, e0, e1, -⟩ := idx5 t
  show (iblk5 V c 2 t : Vec Ideal S128x128 .f32) (ix2 k q) = (V c (Pipeline.arrRef spec5 2) : FVec Ideal S128x128 .f32) (ix2 k q)
  unfold iblk5
  rw [View.read_apply]
  show (V c (Pipeline.arrRef spec5 2) : FVec Ideal S128x128 .f32) _ = _
  refine congrArg _ (funext fun a => Fin.ext ?_)
  match a with
  | ⟨0, _⟩ => show win5_2.index t (0 : Fin 2) * 128 + 1 * k.val = k.val; rw [e0]; omega
  | ⟨1, _⟩ => show win5_2.index t (1 : Fin 2) * 128 + 1 * q.val = q.val; rw [e1]; omega

theorem biasAt5 (c : Dev nD) (t : Fin cfg5.N) (q : Fin 128) :
    blkB5 V c t (ix2 (0 : Fin 1) q) = arrB5 V c (ix2 (0 : Fin 1) q) := by
  obtain ⟨-, -, -, -, -, -, e0, e1, -⟩ := idx5 t
  show (iblk5 V c 3 t : Vec Ideal S1x128 .f32) (ix2 (0 : Fin 1) q) = (V c (Pipeline.arrRef spec5 3) : FVec Ideal S1x128 .f32) (ix2 (0 : Fin 1) q)
  unfold iblk5
  rw [View.read_apply]
  show (V c (Pipeline.arrRef spec5 3) : FVec Ideal S1x128 .f32) _ = _
  refine congrArg _ (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

theorem flushed5_eq (c : Dev nD) (t : Fin cfg5.N) :
    (dat5 (F := Ideal) V c).flushed 4 t = ((cfg5.win 4).blk t).view.read (Elt Ideal)
      (Cert.RefSpec.denseBy (F := Ideal) (V c (Pipeline.arrRef spec5 0)) (V c (Pipeline.arrRef spec5 1))
        (V c (Pipeline.arrRef spec5 2)) (V c (Pipeline.arrRef spec5 3))) := by
  show (cfg5.win 4).cut (grid5.coords t) ((dat5 (F := Ideal) V c).after 4 t) = _
  rw [after5_4]
  unfold out5_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx5 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg5.win 4).blk t).view.emb (ix2 p q) = ix2 (⟨t.val * 5000 + p.val, hr⟩ : Fin 50000) q := by
    funext a; apply Fin.ext
    match a with
    | ⟨0, _⟩ => show win5_4.index t (0 : Fin 2) * 5000 + 1 * p.val = t.val * 5000 + p.val; rw [e0]; omega
    | ⟨1, _⟩ => show win5_4.index t (1 : Fin 2) * 128 + 1 * q.val = q.val; rw [e1]; omega
  rw [View.read_apply]
  show k5_pay1 (F := Ideal) (blkA5 V c t) (blkS5 V c t) (blkW5 V c t) (blkB5 V c t) (ix2 p q)
    = Cert.RefSpec.denseBy (F := Ideal) (arrA5 V c) (arrS5 V c) (arrW5 V c) (arrB5 V c) (((cfg5.win 4).blk t).view.emb (ix2 p q))
  rw [hemb]
  exact pay5_eq_dense (arrA5 V c) (arrS5 V c) (arrW5 V c) (arrB5 V c) (blkA5 V c t) (blkS5 V c t) (blkW5 V c t) (blkB5 V c t)
    p q ⟨t.val * 5000 + p.val, hr⟩
    (fun k => rowsAt5 V c t p k ⟨t.val * 5000 + p.val, hr⟩ rfl) (colAt5 V c t p ⟨t.val * 5000 + p.val, hr⟩ rfl)
    (fun k => matAt5 V c t k q) (biasAt5 V c t q)

theorem mem_blk5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole (Pipeline.arrRef spec5 4)).slice (win5_4.rect t)).set ↔ _
  rw [View.set_slice_whole, Rect.mem_set_unit]
  exact Iff.rfl

theorem cover5 (i : S50000x128.Idx) :
    ∃ t : Fin cfg5.N, (cfg5.win 4).flush t = true ∧ i ∈ ((cfg5.win 4).blk t).view.set := by
  have h0 : (i 0).val < 50000 := (i 0).isLt
  have h1 : (i 1).val < 128 := (i 1).isLt
  have hN : cfg5.N = 10 := N_5
  have ht : (i 0).val / 5000 < cfg5.N := by rw [hN]; omega
  obtain ⟨-, -, -, -, -, -, -, -, e0, e1, -⟩ := idx5 ⟨(i 0).val / 5000, ht⟩
  refine ⟨⟨(i 0).val / 5000, ht⟩, flush5_4 _, ?_⟩
  rw [mem_blk5]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val ∧ (i 1).val < win5_4.index ⟨(i 0).val / 5000, ht⟩ (1 : Fin 2) * 128 + 128
    rw [e1]; omega

theorem lin_val5 (c : Dev nD) :
    (dat5 (F := Ideal) V c).arrAt 4 cfg5.N = Cert.RefSpec.denseBy (F := Ideal) (V c (Pipeline.arrRef spec5 0))
      (V c (Pipeline.arrRef spec5 1)) (V c (Pipeline.arrRef spec5 2)) (V c (Pipeline.arrRef spec5 3)) :=
  (dat5 (F := Ideal) V c).arrAt_eq_of_cover 4 _ (fun t _ => flushed5_eq V c t) (cover5)

end Cert.KernelIdeal.Hand

end
-- ==== Proof.KIVal6.lean ====
import proofs.«413962_j523986010479_1_alg».proof.Proof.KIReg6
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay6_at (x0 : Vec Ideal S5000x128 .f32) (x1 : Vec Ideal S5000x1 .f32) (y : S5000x128.Idx) (y' : S5000x1.Idx)
    (h : (y' 0).val = (y 0).val) : k6_pay1 x0 x1 y = x0 y * x1 y' := by
  unfold k6_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled6_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k6_pay1 x0 x1 y = rowScaled X S i := by
  rw [pay6_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

theorem rows6_at (c : Dev nD) (t : Fin cfg6.N) (y : S5000x128.Idx) (k : S50000x128.Idx)
    (hk0 : (k 0).val = t.val * 5000 + (y 0).val) (hk1 : (k 1).val = (y 1).val) :
    (iblk6 V c 0 t : Vec Ideal S5000x128 .f32) y = (V c (Pipeline.arrRef spec6 0) : FVec Ideal S50000x128 .f32) k := by
  obtain ⟨e0, e1, -⟩ := idx6 t
  show (V c (Pipeline.arrRef spec6 0) : FVec Ideal S50000x128 .f32) (((cfg6.win 0).blk t).view.emb y) = _
  congr 1
  funext a; apply Fin.ext
  match a with
  | ⟨0, _⟩ => show win6_0.index t (0 : Fin 2) * 5000 + 1 * (y 0).val = (k 0).val; omega
  | ⟨1, _⟩ => show win6_0.index t (1 : Fin 2) * 128 + 1 * (y 1).val = (k 1).val; omega

theorem scales6_at (c : Dev nD) (t : Fin cfg6.N) (y : S5000x1.Idx) (k : S50000x1.Idx)
    (hk0 : (k 0).val = t.val * 5000 + (y 0).val) :
    (iblk6 V c 1 t : Vec Ideal S5000x1 .f32) y = (V c (Pipeline.arrRef spec6 1) : FVec Ideal S50000x1 .f32) k := by
  obtain ⟨-, -, e0, e1, -⟩ := idx6 t
  have hy : (y 1).val < 1 := (y 1).isLt
  have hk : (k 1).val < 1 := (k 1).isLt
  show (V c (Pipeline.arrRef spec6 1) : FVec Ideal S50000x1 .f32) (((cfg6.win 1).blk t).view.emb y) = _
  congr 1
  funext a; apply Fin.ext
  match a with
  | ⟨0, _⟩ => show win6_1.index t (0 : Fin 2) * 5000 + 1 * (y 0).val = (k 0).val; omega
  | ⟨1, _⟩ => show win6_1.index t (1 : Fin 2) * 1 + 1 * (y 1).val = (k 1).val; omega

theorem flushed6_2 (c : Dev nD) (t : Fin cfg6.N) :
    (dat6 (F := Ideal) V c).flushed 2 t
      = ((cfg6.win 2).blk t).view.read (Elt Ideal) (rowScaled (V c (Pipeline.arrRef spec6 0)) (V c (Pipeline.arrRef spec6 1))) := by
  show (cfg6.win 2).cut (grid6.coords t) ((dat6 V c).after 2 t) = _
  rw [after6_2]
  unfold out6_2
  rw [View.canon_unit_zero zeroOff]
  simp only [View.ld_unit_zero (S := S5000x128) zeroOff, View.ld_unit_zero (S := S5000x1) zeroOff]
  obtain ⟨-, -, -, -, e0, e1⟩ := idx6 t
  funext j
  refine scaled6_at (V c (Pipeline.arrRef spec6 0)) (V c (Pipeline.arrRef spec6 1)) (iblk6 V c 0 t) (iblk6 V c 1 t) t.val
    (rows6_at V c t) (scales6_at V c t) j (((cfg6.win 2).blk t).view.emb j) ?_ ?_
  · show win6_2.index t (0 : Fin 2) * 5000 + 1 * (j 0).val = t.val * 5000 + (j 0).val; omega
  · show win6_2.index t (1 : Fin 2) * 128 + 1 * (j 1).val = (j 1).val; omega

theorem mem_blk6_2 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole (Pipeline.arrRef spec6 2)).slice (win6_2.rect t)).set ↔ _
  rw [View.set_slice_whole, Rect.mem_set_unit]
  exact Iff.rfl

theorem rowsCovered6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, e0, e1⟩ := idx6 t
  refine ⟨t, flush6_2 t, ?_⟩
  rw [mem_blk6_2]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

theorem scale_val6 (c : Dev nD) :
    (dat6 (F := Ideal) V c).arrAt 2 cfg6.N = Cert.RefSpec.scaleBy (F := Ideal) (V c (Pipeline.arrRef spec6 0)) (V c (Pipeline.arrRef spec6 1)) :=
  ((dat6 (F := Ideal) V c).arrAt_eq_of_cover 2 (rowScaled (V c (Pipeline.arrRef spec6 0)) (V c (Pipeline.arrRef spec6 1)))
    (fun t _ => flushed6_2 V c t) rowsCovered6).trans (rowScaled_eq _ _)

end Cert.KernelIdeal.Hand

end
-- ==== Proof.KIVal7.lean ====
import proofs.«413962_j523986010479_1_alg».proof.Proof.KIReg7
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay7_apply (x0 : Vec Ideal S5000x128 .f32) (x1 : Vec Ideal S5000x1 .f32) (x2 : Vec Ideal S128x128 .f32)
    (x3 : Vec Ideal S1x128 .f32) (p : Fin 5000) (q : Fin 128) :
    k7_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k7_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay7_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k7_pay1 (F := Ideal) x0 x1 x2 x3 (ix2 p q) = Cert.RefSpec.denseBy (F := Ideal) a s w b (ix2 r q) := by
  rw [pay7_apply, dense_apply, h1, h3]
  refine congrArg₂ max (congrArg (· + b (ix2 (0 : Fin 1) q)) (Finset.sum_congr rfl fun k _ => ?_)) rfl
  rw [h0 k, h2 k]

theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 ∧ t.val < 10 :=
  (by decide +kernel : ∀ t : Fin grid7.N, _)

variable (V : (c : Dev nD) → (b : Ref sig .tc) → Buf (Elt Ideal) ((c : Thread nD τ).loc b))

abbrev arrA7 (c : Dev nD) : FVec Ideal Cert.ReferenceIdeal.S50000x128 .f32 := V c (Pipeline.arrRef spec7 0)
abbrev arrS7 (c : Dev nD) : FVec Ideal Cert.ReferenceIdeal.S50000x1 .f32 := V c (Pipeline.arrRef spec7 1)
abbrev arrW7 (c : Dev nD) : FVec Ideal Cert.ReferenceIdeal.S128x128 .f32 := V c (Pipeline.arrRef spec7 2)
abbrev arrB7 (c : Dev nD) : FVec Ideal Cert.ReferenceIdeal.S1x128 .f32 := V c (Pipeline.arrRef spec7 3)
abbrev blkA7 (c : Dev nD) (t : Fin cfg7.N) : Vec Ideal S5000x128 .f32 := iblk7 V c 0 t
abbrev blkS7 (c : Dev nD) (t : Fin cfg7.N) : Vec Ideal S5000x1 .f32 := iblk7 V c 1 t
abbrev blkW7 (c : Dev nD) (t : Fin cfg7.N) : Vec Ideal S128x128 .f32 := iblk7 V c 2 t
abbrev blkB7 (c : Dev nD) (t : Fin cfg7.N) : Vec Ideal S1x128 .f32 := iblk7 V c 3 t

theorem rowsAt7 (c : Dev nD) (t : Fin cfg7.N) (p : Fin 5000) (k : Fin 128) (r : Fin 50000) (hr : r.val = t.val * 5000 + p.val) :
    blkA7 V c t (ix2 p k) = arrA7 V c (ix2 r k) := by
  obtain ⟨e0, e1, -⟩ := idx7 t
  show (iblk7 V c 0 t : Vec Ideal S5000x128 .f32) (ix2 p k) = (V c (Pipeline.arrRef spec7 0) : FVec Ideal S50000x128 .f32) (ix2 r k)
  unfold iblk7
  rw [View.read_apply]
  show (V c (Pipeline.arrRef spec7 0) : FVec Ideal S50000x128 .f32) _ = _
  refine congrArg _ (funext fun a => Fin.ext ?_)
  match a with
  | ⟨0, _⟩ => show win7_0.index t (0 : Fin 2) * 5000 + 1 * p.val = r.val; rw [e0, hr]; omega
  | ⟨1, _⟩ => show win7_0.index t (1 : Fin 2) * 128 + 1 * k.val = k.val; rw [e1]; omega

theorem colAt7 (c : Dev nD) (t : Fin cfg7.N) (p : Fin 5000) (r : Fin 50000) (hr : r.val = t.val * 5000 + p.val) :
    blkS7 V c t (ix2 p (0 : Fin 1)) = arrS7 V c (ix2 r (0 : Fin 1)) := by
  obtain ⟨-, -, e0, e1, -⟩ := idx7 t
  show (iblk7 V c 1 t : Vec Ideal S5000x1 .f32) (ix2 p (0 : Fin 1)) = (V c (Pipeline.arrRef spec7 1) : FVec Ideal S50000x1 .f32) (ix2 r (0 : Fin 1))
  unfold iblk7
  rw [View.read_apply]
  show (V c (Pipeline.arrRef spec7 1) : FVec Ideal S50000x1 .f32) _ = _
  refine congrArg _ (funext fun a => Fin.ext ?_)
  match a with
  | ⟨0, _⟩ => show win7_1.index t (0 : Fin 2) * 5000 + 1 * p.val = r.val; rw [e0, hr]; omega
  | ⟨1, _⟩ => show win7_1.index t (1 : Fin 2) * 1 + 1 * 0 = 0; rw [e1]

theorem matAt7 (c : Dev nD) (t : Fin cfg7.N) (k q : Fin 128) :
    blkW7 V c t (ix2 k q) = arrW7 V c (ix2 k q) := by
  obtain ⟨-, -, -, -, e0, e1, -⟩ := idx7 t
  show (iblk7 V c 2 t : Vec Ideal S128x128 .f32) (ix2 k q) = (V c (Pipeline.arrRef spec7 2) : FVec Ideal S128x128 .f32) (ix2 k q)
  unfold iblk7
  rw [View.read_apply]
  show (V c (Pipeline.arrRef spec7 2) : FVec Ideal S128x128 .f32) _ = _
  refine congrArg _ (funext fun a => Fin.ext ?_)
  match a with
  | ⟨0, _⟩ => show win7_2.index t (0 : Fin 2) * 128 + 1 * k.val = k.val; rw [e0]; omega
  | ⟨1, _⟩ => show win7_2.index t (1 : Fin 2) * 128 + 1 * q.val = q.val; rw [e1]; omega

theorem biasAt7 (c : Dev nD) (t : Fin cfg7.N) (q : Fin 128) :
    blkB7 V c t (ix2 (0 : Fin 1) q) = arrB7 V c (ix2 (0 : Fin 1) q) := by
  obtain ⟨-, -, -, -, -, -, e0, e1, -⟩ := idx7 t
  show (iblk7 V c 3 t : Vec Ideal S1x128 .f32) (ix2 (0 : Fin 1) q) = (V c (Pipeline.arrRef spec7 3) : FVec Ideal S1x128 .f32) (ix2 (0 : Fin 1) q)
  unfold iblk7
  rw [View.read_apply]
  show (V c (Pipeline.arrRef spec7 3) : FVec Ideal S1x128 .f32) _ = _
  refine congrArg _ (funext fun a => Fin.ext ?_)
  match a with
  | ⟨0, _⟩ => show win7_3.index t (0 : Fin 2) * 1 + 1 * 0 = 0; rw [e0]
  | ⟨1, _⟩ => show win7_3.index t (1 : Fin 2) * 128 + 1 * q.val = q.val; rw [e1]; omega

theorem flushed7_eq (c : Dev nD) (t : Fin cfg7.N) :
    (dat7 (F := Ideal) V c).flushed 4 t = ((cfg7.win 4).blk t).view.read (Elt Ideal)
      (Cert.RefSpec.denseBy (F := Ideal) (V c (Pipeline.arrRef spec7 0)) (V c (Pipeline.arrRef spec7 1))
        (V c (Pipeline.arrRef spec7 2)) (V c (Pipeline.arrRef spec7 3))) := by
  show (cfg7.win 4).cut (grid7.coords t) ((dat7 (F := Ideal) V c).after 4 t) = _
  rw [after7_4]
  unfold out7_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx7 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg7.win 4).blk t).view.emb (ix2 p q) = ix2 (⟨t.val * 5000 + p.val, hr⟩ : Fin 50000) q := by
    funext a; apply Fin.ext
    match a with
    | ⟨0, _⟩ => show win7_4.index t (0 : Fin 2) * 5000 + 1 * p.val = t.val * 5000 + p.val; rw [e0]; omega
    | ⟨1, _⟩ => show win7_4.index t (1 : Fin 2) * 128 + 1 * q.val = q.val; rw [e1]; omega
  rw [View.read_apply]
  show k7_pay1 (F := Ideal) (blkA7 V c t) (blkS7 V c t) (blkW7 V c t) (blkB7 V c t) (ix2 p q)
    = Cert.RefSpec.denseBy (F := Ideal) (arrA7 V c) (arrS7 V c) (arrW7 V c) (arrB7 V c) (((cfg7.win 4).blk t).view.emb (ix2 p q))
  rw [hemb]
  exact pay7_eq_dense (arrA7 V c) (arrS7 V c) (arrW7 V c) (arrB7 V c) (blkA7 V c t) (blkS7 V c t) (blkW7 V c t) (blkB7 V c t)
    p q ⟨t.val * 5000 + p.val, hr⟩
    (fun k => rowsAt7 V c t p k ⟨t.val * 5000 + p.val, hr⟩ rfl) (colAt7 V c t p ⟨t.val * 5000 + p.val, hr⟩ rfl)
    (fun k => matAt7 V c t k q) (biasAt7 V c t q)

theorem mem_blk7 (t : Fin cfg7.N) (i : S50000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole (Pipeline.arrRef spec7 4)).slice (win7_4.rect t)).set ↔ _
  rw [View.set_slice_whole, Rect.mem_set_unit]
  exact Iff.rfl

theorem cover7 (i : S50000x128.Idx) :
    ∃ t : Fin cfg7.N, (cfg7.win 4).flush t = true ∧ i ∈ ((cfg7.win 4).blk t).view.set := by
  have h0 : (i 0).val < 50000 := (i 0).isLt
  have h1 : (i 1).val < 128 := (i 1).isLt
  have hN : cfg7.N = 10 := N_7
  have ht : (i 0).val / 5000 < cfg7.N := by rw [hN]; omega
  obtain ⟨-, -, -, -, -, -, -, -, e0, e1, -⟩ := idx7 ⟨(i 0).val / 5000, ht⟩
  refine ⟨⟨(i 0).val / 5000, ht⟩, flush7_4 _, ?_⟩
  rw [mem_blk7]
  intro a
  match a with
  | ⟨0, _⟩ =>
    show win7_4.index ⟨(i 0).val / 5000, ht⟩ (0 : Fin 2) * 5000 ≤ (i 0).val ∧ (i 0).val < win7_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win7_4.index ⟨(i 0).val / 5000, ht⟩ (1 : Fin 2) * 128 ≤ (i 1).val ∧ (i 1).val < win7_4.index ⟨(i 0).val / 5000, ht⟩ (1 : Fin 2) * 128 + 128
    rw [e1]; omega

theorem lin_val7 (c : Dev nD) :
    (dat7 (F := Ideal) V c).arrAt 4 cfg7.N = Cert.RefSpec.denseBy (F := Ideal) (V c (Pipeline.arrRef spec7 0))
      (V c (Pipeline.arrRef spec7 1)) (V c (Pipeline.arrRef spec7 2)) (V c (Pipeline.arrRef spec7 3)) :=
  (dat7 (F := Ideal) V c).arrAt_eq_of_cover 4 _ (fun t _ => flushed7_eq V c t) (cover7)

end Cert.KernelIdeal.Hand

end
-- ==== Proof.KIChain2.lean ====
import proofs.«413962_j523986010479_1_alg».proof.Proof.KIWalk
import proofs.«413962_j523986010479_1_alg».proof.Proof.KIVal4
import proofs.«413962_j523986010479_1_alg».proof.Proof.KIVal5
import proofs.«413962_j523986010479_1_alg».proof.Proof.KIVal6
import proofs.«413962_j523986010479_1_alg».proof.Proof.KIVal7
import proofs.«413962_j523986010479_1_alg».proof.Proof.KIPre
import proofs.«413962_j523986010479_1_alg».proof.Proof.KIAdapt
import proofs.«413962_j523986010479_1_alg».proof.Proof.RefSpec
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL Idealize.SL.Sem
open Cert.RefSpec (colOf rowOf deg scaleBy denseBy take segsum layer twoLayer tail)

section Stretch

variable {F : FTy → Type} [FloatOps F]

set_option maxHeartbeats 2000000 in
theorem g2_colO_of (U : Valuation τ sig (Elt F)) :
    StableHlo.after hostOps4 U (Proc.devRef .tc main_v40) = colOf (deg (U main_arg4)) := by
  after_results
  exact (colOf_eq _).trans (congrArg colOf (deg_eq _))
set_option maxHeartbeats 2000000 in
theorem g2_colI_of (U : Valuation τ sig (Elt F)) :
    StableHlo.after hostOps4 U (Proc.devRef .tc main_v49) = colOf (deg (U main_arg5)) := by
  after_results
  exact (colOf_eq _).trans (congrArg colOf (deg_eq _))
set_option maxHeartbeats 2000000 in
theorem g2_sA_of (U : Valuation τ sig (Elt F)) :
    StableHlo.after hostOps5_1 U (Proc.devRef .tc main_v54) = segsum (U main_arg5) (U main_v51) := by
  after_results
  exact segsum_eq _ _
set_option maxHeartbeats 2000000 in
theorem g2_rbA_of (U : Valuation τ sig (Elt F)) :
    StableHlo.after hostOps5_1 U (Proc.devRef .tc main_v55) = rowOf (U main_arg13) := by
  after_results
  exact rowOf_eq _
set_option maxHeartbeats 2000000 in
theorem g2_sC_of (U : Valuation τ sig (Elt F)) :
    StableHlo.after hostOps7_1 U (Proc.devRef .tc main_v61) = segsum (U main_arg5) (U main_v58) := by
  after_results
  exact segsum_eq _ _
set_option maxHeartbeats 2000000 in
theorem g2_rbC_of (U : Valuation τ sig (Elt F)) :
    StableHlo.after hostOps7_1 U (Proc.devRef .tc main_v62) = rowOf (U main_arg15) := by
  after_results
  exact rowOf_eq _

end Stretch

set_option maxHeartbeats 4000000 in
theorem g2_tA_of (U : Valuation τ sig (Elt Ideal)) :
    (StableHlo.after (hostOps5 (F := Ideal)) U main_v51 : (⟨S600000x128, .f32⟩ : BufTy).Contents (Elt Ideal)) = takeK (U main_v50) (U main_arg4) := by
  after_results_simp <;> (try simp only [StableHlo.TRef.ofBuf, StableHlo.TRef.toBuf, cast_eq]) <;> rfl
set_option maxHeartbeats 4000000 in
theorem g2_tC_of (U : Valuation τ sig (Elt Ideal)) :
    (StableHlo.after (hostOps7 (F := Ideal)) U main_v58 : (⟨S600000x128, .f32⟩ : BufTy).Contents (Elt Ideal)) = takeK (U main_v57) (U main_arg4) := by
  after_results_simp <;> (try simp only [StableHlo.TRef.ofBuf, StableHlo.TRef.toBuf, cast_eq]) <;> rfl

variable (m : (ℓ : Loc nD τ sig) → Buf (Elt Ideal) ℓ)

theorem g2_W0_at (c : Dev nD) (r : Ref sig .tc) : W0 m c r = m ((c.tc : Thread nD τ).loc r) := rfl

theorem g2_colO (c : Dev nD) : W10 m c main_v40 = colOf (deg (m ((c.tc : Thread nD τ).loc main_arg4))) := by
  unfold W10
  rw [g2_colO_of]
  exact congrArg (fun z => colOf (deg z)) (W9_kept m c main_arg4 arg4_kept)
theorem g2_colI (c : Dev nD) : W10 m c main_v49 = colOf (deg (m ((c.tc : Thread nD τ).loc main_arg5))) := by
  unfold W10
  rw [g2_colI_of]
  exact congrArg (fun z => colOf (deg z)) (W9_kept m c main_arg5 arg5_kept)
theorem g2_oA (c : Dev nD) : W11 m c main_v50 = scaleBy (m ((c.tc : Thread nD τ).loc main_arg3)) (colOf (deg (m ((c.tc : Thread nD τ).loc main_arg4)))) := by
  rw [W11_out, scale_val4]
  show scaleBy (W10 m c main_arg3) (W10 m c main_v40) = _
  rw [g2_colO, (W10_kept m c main_arg3 arg3_kept)]
theorem g2_tA (h : Cert.Pre_KernelIdeal m) (c : Dev nD) : W12 m c main_v51 = take (scaleBy (m ((c.tc : Thread nD τ).loc main_arg3)) (colOf (deg (m ((c.tc : Thread nD τ).loc main_arg4))))) (m ((c.tc : Thread nD τ).loc main_arg4)) := by
  unfold W12
  rw [g2_tA_of, g2_oA, (W11_kept m c main_arg4 arg4_kept)]
  exact takeK_eq _ _ (src4_inb m h c)
theorem g2_sA (h : Cert.Pre_KernelIdeal m) (c : Dev nD) : W13 m c main_v54 = segsum (m ((c.tc : Thread nD τ).loc main_arg5)) (take (scaleBy (m ((c.tc : Thread nD τ).loc main_arg3)) (colOf (deg (m ((c.tc : Thread nD τ).loc main_arg4))))) (m ((c.tc : Thread nD τ).loc main_arg4))) := by
  unfold W13
  rw [g2_sA_of, g2_tA m h, (W12_kept m c main_arg5 arg5_kept)]
theorem g2_rbA (c : Dev nD) : W13 m c main_v55 = rowOf (m ((c.tc : Thread nD τ).loc main_arg13)) := by
  unfold W13
  rw [g2_rbA_of, (W12_kept m c main_arg13 arg13_kept)]
theorem g2_oB (h : Cert.Pre_KernelIdeal m) (c : Dev nD) : W14 m c main_v56 = layer (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) := by
  rw [W14_out, lin_val5]
  show denseBy (W13 m c main_v54) (W13 m c main_v49) (W13 m c main_arg12) (W13 m c main_v55) = _
  rw [g2_sA m h, (((W13_of m c main_v49 (by decide)).trans ((W12_of m c main_v49 (by decide)).trans (W11_of_ne m c main_v49 (by decide))))).trans (g2_colI m c), (W13_kept m c main_arg12 arg12_kept), g2_rbA]
  rfl
theorem g2_oC (h : Cert.Pre_KernelIdeal m) (c : Dev nD) : W15 m c main_v57 = scaleBy (layer (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13))) (colOf (deg (m ((c.tc : Thread nD τ).loc main_arg4)))) := by
  rw [W15_out, scale_val6]
  show scaleBy (W14 m c main_v56) (W14 m c main_v40) = _
  rw [g2_oB m h, (((W14_of_ne m c main_v40 (by decide)).trans ((W13_of m c main_v40 (by decide)).trans ((W12_of m c main_v40 (by decide)).trans (W11_of_ne m c main_v40 (by decide)))))).trans (g2_colO m c)]
theorem g2_tC (h : Cert.Pre_KernelIdeal m) (c : Dev nD) : W16 m c main_v58 = take (scaleBy (layer (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13))) (colOf (deg (m ((c.tc : Thread nD τ).loc main_arg4))))) (m ((c.tc : Thread nD τ).loc main_arg4)) := by
  unfold W16
  rw [g2_tC_of, g2_oC m h, (W15_kept m c main_arg4 arg4_kept)]
  exact takeK_eq _ _ (src4_inb m h c)
theorem g2_sC (h : Cert.Pre_KernelIdeal m) (c : Dev nD) : W17 m c main_v61 = segsum (m ((c.tc : Thread nD τ).loc main_arg5)) (take (scaleBy (layer (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13))) (colOf (deg (m ((c.tc : Thread nD τ).loc main_arg4))))) (m ((c.tc : Thread nD τ).loc main_arg4))) := by
  unfold W17
  rw [g2_sC_of, g2_tC m h, (W16_kept m c main_arg5 arg5_kept)]
theorem g2_rbC (c : Dev nD) : W17 m c main_v62 = rowOf (m ((c.tc : Thread nD τ).loc main_arg15)) := by
  unfold W17
  rw [g2_rbC_of, (W16_kept m c main_arg15 arg15_kept)]

theorem g2_oD (h : Cert.Pre_KernelIdeal m) (c : Dev nD) : W18 m c main_v63 = twoLayer (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15)) := by
  rw [W18_out, lin_val7]
  show denseBy (W17 m c main_v61) (W17 m c main_v49) (W17 m c main_arg14) (W17 m c main_v62) = _
  rw [g2_sC m h, (((W17_of m c main_v49 (by decide)).trans ((W16_of m c main_v49 (by decide)).trans ((W15_of_ne m c main_v49 (by decide)).trans ((W14_of_ne m c main_v49 (by decide)).trans ((W13_of m c main_v49 (by decide)).trans ((W12_of m c main_v49 (by decide)).trans (W11_of_ne m c main_v49 (by decide))))))))).trans (g2_colI m c), (W17_kept m c main_arg14 arg14_kept), g2_rbC]
  rfl

end Cert.KernelIdeal.Hand

end
-- ==== Proof.KIVal8.lean ====
import proofs.«413962_j523986010479_1_alg».proof.Proof.KIReg8
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay8_at (x0 : Vec Ideal S5000x128 .f32) (x1 : Vec Ideal S5000x1 .f32) (y : S5000x128.Idx) (y' : S5000x1.Idx)
    (h : (y' 0).val = (y 0).val) : k8_pay1 x0 x1 y = x0 y * x1 y' := by
  unfold k8_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled8_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k8_pay1 x0 x1 y = rowScaled X S i := by
  rw [pay8_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

theorem rows8_at (c : Dev nD) (t : Fin cfg8.N) (y : S5000x128.Idx) (k : S50000x128.Idx)
    (hk0 : (k 0).val = t.val * 5000 + (y 0).val) (hk1 : (k 1).val = (y 1).val) :
    (iblk8 V c 0 t : Vec Ideal S5000x128 .f32) y = (V c (Pipeline.arrRef spec8 0) : FVec Ideal S50000x128 .f32) k := by
  obtain ⟨e0, e1, -⟩ := idx8 t
  show (V c (Pipeline.arrRef spec8 0) : FVec Ideal S50000x128 .f32) (((cfg8.win 0).blk t).view.emb y) = _
  congr 1
  funext a; apply Fin.ext
  match a with
  | ⟨0, _⟩ => show win8_0.index t (0 : Fin 2) * 5000 + 1 * (y 0).val = (k 0).val; omega
  | ⟨1, _⟩ => show win8_0.index t (1 : Fin 2) * 128 + 1 * (y 1).val = (k 1).val; omega

theorem scales8_at (c : Dev nD) (t : Fin cfg8.N) (y : S5000x1.Idx) (k : S50000x1.Idx)
    (hk0 : (k 0).val = t.val * 5000 + (y 0).val) :
    (iblk8 V c 1 t : Vec Ideal S5000x1 .f32) y = (V c (Pipeline.arrRef spec8 1) : FVec Ideal S50000x1 .f32) k := by
  obtain ⟨-, -, e0, e1, -⟩ := idx8 t
  have hy : (y 1).val < 1 := (y 1).isLt
  have hk : (k 1).val < 1 := (k 1).isLt
  show (V c (Pipeline.arrRef spec8 1) : FVec Ideal S50000x1 .f32) (((cfg8.win 1).blk t).view.emb y) = _
  congr 1
  funext a; apply Fin.ext
  match a with
  | ⟨0, _⟩ => show win8_1.index t (0 : Fin 2) * 5000 + 1 * (y 0).val = (k 0).val; omega
  | ⟨1, _⟩ => show win8_1.index t (1 : Fin 2) * 1 + 1 * (y 1).val = (k 1).val; omega

theorem flushed8_2 (c : Dev nD) (t : Fin cfg8.N) :
    (dat8 (F := Ideal) V c).flushed 2 t
      = ((cfg8.win 2).blk t).view.read (Elt Ideal) (rowScaled (V c (Pipeline.arrRef spec8 0)) (V c (Pipeline.arrRef spec8 1))) := by
  show (cfg8.win 2).cut (grid8.coords t) ((dat8 V c).after 2 t) = _
  rw [after8_2]
  unfold out8_2
  rw [View.canon_unit_zero zeroOff]
  simp only [View.ld_unit_zero (S := S5000x128) zeroOff, View.ld_unit_zero (S := S5000x1) zeroOff]
  obtain ⟨-, -, -, -, e0, e1⟩ := idx8 t
  funext j
  refine scaled8_at (V c (Pipeline.arrRef spec8 0)) (V c (Pipeline.arrRef spec8 1)) (iblk8 V c 0 t) (iblk8 V c 1 t) t.val
    (rows8_at V c t) (scales8_at V c t) j (((cfg8.win 2).blk t).view.emb j) ?_ ?_
  · show win8_2.index t (0 : Fin 2) * 5000 + 1 * (j 0).val = t.val * 5000 + (j 0).val; omega
  · show win8_2.index t (1 : Fin 2) * 128 + 1 * (j 1).val = (j 1).val; omega

theorem mem_blk8_2 (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole (Pipeline.arrRef spec8 2)).slice (win8_2.rect t)).set ↔ _
  rw [View.set_slice_whole, Rect.mem_set_unit]
  exact Iff.rfl

theorem rowsCovered8 (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, e0, e1⟩ := idx8 t
  refine ⟨t, flush8_2 t, ?_⟩
  rw [mem_blk8_2]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

theorem scale_val8 (c : Dev nD) :
    (dat8 (F := Ideal) V c).arrAt 2 cfg8.N = Cert.RefSpec.scaleBy (F := Ideal) (V c (Pipeline.arrRef spec8 0)) (V c (Pipeline.arrRef spec8 1)) :=
  ((dat8 (F := Ideal) V c).arrAt_eq_of_cover 2 (rowScaled (V c (Pipeline.arrRef spec8 0)) (V c (Pipeline.arrRef spec8 1)))
    (fun t _ => flushed8_2 V c t) rowsCovered8).trans (rowScaled_eq _ _)

end Cert.KernelIdeal.Hand

end
-- ==== Proof.KIVal9.lean ====
import proofs.«413962_j523986010479_1_alg».proof.Proof.KIReg9
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay9_apply (x0 : Vec Ideal S5000x128 .f32) (x1 : Vec Ideal S5000x1 .f32) (x2 : Vec Ideal S128x128 .f32)
    (x3 : Vec Ideal S1x128 .f32) (p : Fin 5000) (q : Fin 128) :
    k9_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k9_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay9_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k9_pay1 (F := Ideal) x0 x1 x2 x3 (ix2 p q) = Cert.RefSpec.denseBy (F := Ideal) a s w b (ix2 r q) := by
  rw [pay9_apply, dense_apply, h1, h3]
  refine congrArg₂ max (congrArg (· + b (ix2 (0 : Fin 1) q)) (Finset.sum_congr rfl fun k _ => ?_)) rfl
  rw [h0 k, h2 k]

theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 ∧ t.val < 10 :=
  (by decide +kernel : ∀ t : Fin grid9.N, _)

variable (V : (c : Dev nD) → (b : Ref sig .tc) → Buf (Elt Ideal) ((c : Thread nD τ).loc b))

abbrev arrA9 (c : Dev nD) : FVec Ideal Cert.ReferenceIdeal.S50000x128 .f32 := V c (Pipeline.arrRef spec9 0)
abbrev arrS9 (c : Dev nD) : FVec Ideal Cert.ReferenceIdeal.S50000x1 .f32 := V c (Pipeline.arrRef spec9 1)
abbrev arrW9 (c : Dev nD) : FVec Ideal Cert.ReferenceIdeal.S128x128 .f32 := V c (Pipeline.arrRef spec9 2)
abbrev arrB9 (c : Dev nD) : FVec Ideal Cert.ReferenceIdeal.S1x128 .f32 := V c (Pipeline.arrRef spec9 3)
abbrev blkA9 (c : Dev nD) (t : Fin cfg9.N) : Vec Ideal S5000x128 .f32 := iblk9 V c 0 t
abbrev blkS9 (c : Dev nD) (t : Fin cfg9.N) : Vec Ideal S5000x1 .f32 := iblk9 V c 1 t
abbrev blkW9 (c : Dev nD) (t : Fin cfg9.N) : Vec Ideal S128x128 .f32 := iblk9 V c 2 t
abbrev blkB9 (c : Dev nD) (t : Fin cfg9.N) : Vec Ideal S1x128 .f32 := iblk9 V c 3 t

theorem rowsAt9 (c : Dev nD) (t : Fin cfg9.N) (p : Fin 5000) (k : Fin 128) (r : Fin 50000) (hr : r.val = t.val * 5000 + p.val) :
    blkA9 V c t (ix2 p k) = arrA9 V c (ix2 r k) := by
  obtain ⟨e0, e1, -⟩ := idx9 t
  show (iblk9 V c 0 t : Vec Ideal S5000x128 .f32) (ix2 p k) = (V c (Pipeline.arrRef spec9 0) : FVec Ideal S50000x128 .f32) (ix2 r k)
  unfold iblk9
  rw [View.read_apply]
  show (V c (Pipeline.arrRef spec9 0) : FVec Ideal S50000x128 .f32) _ = _
  refine congrArg _ (funext fun a => Fin.ext ?_)
  match a with
  | ⟨0, _⟩ => show win9_0.index t (0 : Fin 2) * 5000 + 1 * p.val = r.val; rw [e0, hr]; omega
  | ⟨1, _⟩ => show win9_0.index t (1 : Fin 2) * 128 + 1 * k.val = k.val; rw [e1]; omega

theorem colAt9 (c : Dev nD) (t : Fin cfg9.N) (p : Fin 5000) (r : Fin 50000) (hr : r.val = t.val * 5000 + p.val) :
    blkS9 V c t (ix2 p (0 : Fin 1)) = arrS9 V c (ix2 r (0 : Fin 1)) := by
  obtain ⟨-, -, e0, e1, -⟩ := idx9 t
  show (iblk9 V c 1 t : Vec Ideal S5000x1 .f32) (ix2 p (0 : Fin 1)) = (V c (Pipeline.arrRef spec9 1) : FVec Ideal S50000x1 .f32) (ix2 r (0 : Fin 1))
  unfold iblk9
  rw [View.read_apply]
  show (V c (Pipeline.arrRef spec9 1) : FVec Ideal S50000x1 .f32) _ = _
  refine congrArg _ (funext fun a => Fin.ext ?_)
  match a with
  | ⟨0, _⟩ => show win9_1.index t (0 : Fin 2) * 5000 + 1 * p.val = r.val; rw [e0, hr]; omega
  | ⟨1, _⟩ => show win9_1.index t (1 : Fin 2) * 1 + 1 * 0 = 0; rw [e1]

theorem matAt9 (c : Dev nD) (t : Fin cfg9.N) (k q : Fin 128) :
    blkW9 V c t (ix2 k q) = arrW9 V c (ix2 k q) := by
  obtain ⟨-, -, -, -, e0, e1, -⟩ := idx9 t
  show (iblk9 V c 2 t : Vec Ideal S128x128 .f32) (ix2 k q) = (V c (Pipeline.arrRef spec9 2) : FVec Ideal S128x128 .f32) (ix2 k q)
  unfold iblk9
  rw [View.read_apply]
  show (V c (Pipeline.arrRef spec9 2) : FVec Ideal S128x128 .f32) _ = _
  refine congrArg _ (funext fun a => Fin.ext ?_)
  match a with
  | ⟨0, _⟩ => show win9_2.index t (0 : Fin 2) * 128 + 1 * k.val = k.val; rw [e0]; omega
  | ⟨1, _⟩ => show win9_2.index t (1 : Fin 2) * 128 + 1 * q.val = q.val; rw [e1]; omega

theorem biasAt9 (c : Dev nD) (t : Fin cfg9.N) (q : Fin 128) :
    blkB9 V c t (ix2 (0 : Fin 1) q) = arrB9 V c (ix2 (0 : Fin 1) q) := by
  obtain ⟨-, -, -, -, -, -, e0, e1, -⟩ := idx9 t
  show (iblk9 V c 3 t : Vec Ideal S1x128 .f32) (ix2 (0 : Fin 1) q) = (V c (Pipeline.arrRef spec9 3) : FVec Ideal S1x128 .f32) (ix2 (0 : Fin 1) q)
  unfold iblk9
  rw [View.read_apply]
  show (V c (Pipeline.arrRef spec9 3) : FVec Ideal S1x128 .f32) _ = _
  refine congrArg _ (funext fun a => Fin.ext ?_)
  match a with
  | ⟨0, _⟩ => show win9_3.index t (0 : Fin 2) * 1 + 1 * 0 = 0; rw [e0]
  | ⟨1, _⟩ => show win9_3.index t (1 : Fin 2) * 128 + 1 * q.val = q.val; rw [e1]; omega

theorem flushed9_eq (c : Dev nD) (t : Fin cfg9.N) :
    (dat9 (F := Ideal) V c).flushed 4 t = ((cfg9.win 4).blk t).view.read (Elt Ideal)
      (Cert.RefSpec.denseBy (F := Ideal) (V c (Pipeline.arrRef spec9 0)) (V c (Pipeline.arrRef spec9 1))
        (V c (Pipeline.arrRef spec9 2)) (V c (Pipeline.arrRef spec9 3))) := by
  show (cfg9.win 4).cut (grid9.coords t) ((dat9 (F := Ideal) V c).after 4 t) = _
  rw [after9_4]
  unfold out9_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx9 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg9.win 4).blk t).view.emb (ix2 p q) = ix2 (⟨t.val * 5000 + p.val, hr⟩ : Fin 50000) q := by
    funext a; apply Fin.ext
    match a with
    | ⟨0, _⟩ => show win9_4.index t (0 : Fin 2) * 5000 + 1 * p.val = t.val * 5000 + p.val; rw [e0]; omega
    | ⟨1, _⟩ => show win9_4.index t (1 : Fin 2) * 128 + 1 * q.val = q.val; rw [e1]; omega
  rw [View.read_apply]
  show k9_pay1 (F := Ideal) (blkA9 V c t) (blkS9 V c t) (blkW9 V c t) (blkB9 V c t) (ix2 p q)
    = Cert.RefSpec.denseBy (F := Ideal) (arrA9 V c) (arrS9 V c) (arrW9 V c) (arrB9 V c) (((cfg9.win 4).blk t).view.emb (ix2 p q))
  rw [hemb]
  exact pay9_eq_dense (arrA9 V c) (arrS9 V c) (arrW9 V c) (arrB9 V c) (blkA9 V c t) (blkS9 V c t) (blkW9 V c t) (blkB9 V c t)
    p q ⟨t.val * 5000 + p.val, hr⟩
    (fun k => rowsAt9 V c t p k ⟨t.val * 5000 + p.val, hr⟩ rfl) (colAt9 V c t p ⟨t.val * 5000 + p.val, hr⟩ rfl)
    (fun k => matAt9 V c t k q) (biasAt9 V c t q)

theorem mem_blk9 (t : Fin cfg9.N) (i : S50000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole (Pipeline.arrRef spec9 4)).slice (win9_4.rect t)).set ↔ _
  rw [View.set_slice_whole, Rect.mem_set_unit]
  exact Iff.rfl

theorem cover9 (i : S50000x128.Idx) :
    ∃ t : Fin cfg9.N, (cfg9.win 4).flush t = true ∧ i ∈ ((cfg9.win 4).blk t).view.set := by
  have h0 : (i 0).val < 50000 := (i 0).isLt
  have h1 : (i 1).val < 128 := (i 1).isLt
  have hN : cfg9.N = 10 := N_9
  have ht : (i 0).val / 5000 < cfg9.N := by rw [hN]; omega
  obtain ⟨-, -, -, -, -, -, -, -, e0, e1, -⟩ := idx9 ⟨(i 0).val / 5000, ht⟩
  refine ⟨⟨(i 0).val / 5000, ht⟩, flush9_4 _, ?_⟩
  rw [mem_blk9]
  intro a
  match a with
  | ⟨0, _⟩ =>
    show win9_4.index ⟨(i 0).val / 5000, ht⟩ (0 : Fin 2) * 5000 ≤ (i 0).val ∧ (i 0).val < win9_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win9_4.index ⟨(i 0).val / 5000, ht⟩ (1 : Fin 2) * 128 ≤ (i 1).val ∧ (i 1).val < win9_4.index ⟨(i 0).val / 5000, ht⟩ (1 : Fin 2) * 128 + 128
    rw [e1]; omega

theorem lin_val9 (c : Dev nD) :
    (dat9 (F := Ideal) V c).arrAt 4 cfg9.N = Cert.RefSpec.denseBy (F := Ideal) (V c (Pipeline.arrRef spec9 0))
      (V c (Pipeline.arrRef spec9 1)) (V c (Pipeline.arrRef spec9 2)) (V c (Pipeline.arrRef spec9 3)) :=
  (dat9 (F := Ideal) V c).arrAt_eq_of_cover 4 _ (fun t _ => flushed9_eq V c t) (cover9)

end Cert.KernelIdeal.Hand

end
-- ==== Proof.KIVal10.lean ====
import proofs.«413962_j523986010479_1_alg».proof.Proof.KIReg10
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay10_at (x0 : Vec Ideal S5000x128 .f32) (x1 : Vec Ideal S5000x1 .f32) (y : S5000x128.Idx) (y' : S5000x1.Idx)
    (h : (y' 0).val = (y 0).val) : k10_pay1 x0 x1 y = x0 y * x1 y' := by
  unfold k10_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled10_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k10_pay1 x0 x1 y = rowScaled X S i := by
  rw [pay10_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

theorem rows10_at (c : Dev nD) (t : Fin cfg10.N) (y : S5000x128.Idx) (k : S50000x128.Idx)
    (hk0 : (k 0).val = t.val * 5000 + (y 0).val) (hk1 : (k 1).val = (y 1).val) :
    (iblk10 V c 0 t : Vec Ideal S5000x128 .f32) y = (V c (Pipeline.arrRef spec10 0) : FVec Ideal S50000x128 .f32) k := by
  obtain ⟨e0, e1, -⟩ := idx10 t
  show (V c (Pipeline.arrRef spec10 0) : FVec Ideal S50000x128 .f32) (((cfg10.win 0).blk t).view.emb y) = _
  congr 1
  funext a; apply Fin.ext
  match a with
  | ⟨0, _⟩ => show win10_0.index t (0 : Fin 2) * 5000 + 1 * (y 0).val = (k 0).val; omega
  | ⟨1, _⟩ => show win10_0.index t (1 : Fin 2) * 128 + 1 * (y 1).val = (k 1).val; omega

theorem scales10_at (c : Dev nD) (t : Fin cfg10.N) (y : S5000x1.Idx) (k : S50000x1.Idx)
    (hk0 : (k 0).val = t.val * 5000 + (y 0).val) :
    (iblk10 V c 1 t : Vec Ideal S5000x1 .f32) y = (V c (Pipeline.arrRef spec10 1) : FVec Ideal S50000x1 .f32) k := by
  obtain ⟨-, -, e0, e1, -⟩ := idx10 t
  have hy : (y 1).val < 1 := (y 1).isLt
  have hk : (k 1).val < 1 := (k 1).isLt
  show (V c (Pipeline.arrRef spec10 1) : FVec Ideal S50000x1 .f32) (((cfg10.win 1).blk t).view.emb y) = _
  congr 1
  funext a; apply Fin.ext
  match a with
  | ⟨0, _⟩ => show win10_1.index t (0 : Fin 2) * 5000 + 1 * (y 0).val = (k 0).val; omega
  | ⟨1, _⟩ => show win10_1.index t (1 : Fin 2) * 1 + 1 * (y 1).val = (k 1).val; omega

theorem flushed10_2 (c : Dev nD) (t : Fin cfg10.N) :
    (dat10 (F := Ideal) V c).flushed 2 t
      = ((cfg10.win 2).blk t).view.read (Elt Ideal) (rowScaled (V c (Pipeline.arrRef spec10 0)) (V c (Pipeline.arrRef spec10 1))) := by
  show (cfg10.win 2).cut (grid10.coords t) ((dat10 V c).after 2 t) = _
  rw [after10_2]
  unfold out10_2
  rw [View.canon_unit_zero zeroOff]
  simp only [View.ld_unit_zero (S := S5000x128) zeroOff, View.ld_unit_zero (S := S5000x1) zeroOff]
  obtain ⟨-, -, -, -, e0, e1⟩ := idx10 t
  funext j
  refine scaled10_at (V c (Pipeline.arrRef spec10 0)) (V c (Pipeline.arrRef spec10 1)) (iblk10 V c 0 t) (iblk10 V c 1 t) t.val
    (rows10_at V c t) (scales10_at V c t) j (((cfg10.win 2).blk t).view.emb j) ?_ ?_
  · show win10_2.index t (0 : Fin 2) * 5000 + 1 * (j 0).val = t.val * 5000 + (j 0).val; omega
  · show win10_2.index t (1 : Fin 2) * 128 + 1 * (j 1).val = (j 1).val; omega

theorem mem_blk10_2 (t : Fin cfg10.N) (i : S50000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole (Pipeline.arrRef spec10 2)).slice (win10_2.rect t)).set ↔ _
  rw [View.set_slice_whole, Rect.mem_set_unit]
  exact Iff.rfl

theorem rowsCovered10 (i : S50000x128.Idx) :
    ∃ t : Fin cfg10.N, (cfg10.win 2).flush t = true ∧ i ∈ ((cfg10.win 2).blk t).view.set := by
  have hi0 : (i 0).val < 50000 := (i 0).isLt
  have hi1 : (i 1).val < 128 := (i 1).isLt
  have hN : cfg10.N = 10 := N_10
  obtain ⟨t, ht⟩ : ∃ t : Fin cfg10.N, t.val = (i 0).val / 5000 := ⟨⟨(i 0).val / 5000, by rw [hN]; omega⟩, rfl⟩
  obtain ⟨-, -, -, -, e0, e1⟩ := idx10 t
  refine ⟨t, flush10_2 t, ?_⟩
  rw [mem_blk10_2]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 128 ≤ (i 1).val ∧ (i 1).val < win10_2.index t (1 : Fin 2) * 128 + 128; omega

theorem scale_val10 (c : Dev nD) :
    (dat10 (F := Ideal) V c).arrAt 2 cfg10.N = Cert.RefSpec.scaleBy (F := Ideal) (V c (Pipeline.arrRef spec10 0)) (V c (Pipeline.arrRef spec10 1)) :=
  ((dat10 (F := Ideal) V c).arrAt_eq_of_cover 2 (rowScaled (V c (Pipeline.arrRef spec10 0)) (V c (Pipeline.arrRef spec10 1)))
    (fun t _ => flushed10_2 V c t) rowsCovered10).trans (rowScaled_eq _ _)

end Cert.KernelIdeal.Hand

end
-- ==== Proof.KIVal11.lean ====
import proofs.«413962_j523986010479_1_alg».proof.Proof.KIReg11
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay11_apply (x0 : Vec Ideal S5000x128 .f32) (x1 : Vec Ideal S5000x1 .f32) (x2 : Vec Ideal S128x128 .f32)
    (x3 : Vec Ideal S1x128 .f32) (p : Fin 5000) (q : Fin 128) :
    k11_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k11_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay11_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k11_pay1 (F := Ideal) x0 x1 x2 x3 (ix2 p q) = Cert.RefSpec.denseBy (F := Ideal) a s w b (ix2 r q) := by
  rw [pay11_apply, dense_apply, h1, h3]
  refine congrArg₂ max (congrArg (· + b (ix2 (0 : Fin 1) q)) (Finset.sum_congr rfl fun k _ => ?_)) rfl
  rw [h0 k, h2 k]

theorem idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 ∧ t.val < 10 :=
  (by decide +kernel : ∀ t : Fin grid11.N, _)

variable (V : (c : Dev nD) → (b : Ref sig .tc) → Buf (Elt Ideal) ((c : Thread nD τ).loc b))

abbrev arrA11 (c : Dev nD) : FVec Ideal Cert.ReferenceIdeal.S50000x128 .f32 := V c (Pipeline.arrRef spec11 0)
abbrev arrS11 (c : Dev nD) : FVec Ideal Cert.ReferenceIdeal.S50000x1 .f32 := V c (Pipeline.arrRef spec11 1)
abbrev arrW11 (c : Dev nD) : FVec Ideal Cert.ReferenceIdeal.S128x128 .f32 := V c (Pipeline.arrRef spec11 2)
abbrev arrB11 (c : Dev nD) : FVec Ideal Cert.ReferenceIdeal.S1x128 .f32 := V c (Pipeline.arrRef spec11 3)
abbrev blkA11 (c : Dev nD) (t : Fin cfg11.N) : Vec Ideal S5000x128 .f32 := iblk11 V c 0 t
abbrev blkS11 (c : Dev nD) (t : Fin cfg11.N) : Vec Ideal S5000x1 .f32 := iblk11 V c 1 t
abbrev blkW11 (c : Dev nD) (t : Fin cfg11.N) : Vec Ideal S128x128 .f32 := iblk11 V c 2 t
abbrev blkB11 (c : Dev nD) (t : Fin cfg11.N) : Vec Ideal S1x128 .f32 := iblk11 V c 3 t

theorem rowsAt11 (c : Dev nD) (t : Fin cfg11.N) (p : Fin 5000) (k : Fin 128) (r : Fin 50000) (hr : r.val = t.val * 5000 + p.val) :
    blkA11 V c t (ix2 p k) = arrA11 V c (ix2 r k) := by
  obtain ⟨e0, e1, -⟩ := idx11 t
  show (iblk11 V c 0 t : Vec Ideal S5000x128 .f32) (ix2 p k) = (V c (Pipeline.arrRef spec11 0) : FVec Ideal S50000x128 .f32) (ix2 r k)
  unfold iblk11
  rw [View.read_apply]
  show (V c (Pipeline.arrRef spec11 0) : FVec Ideal S50000x128 .f32) _ = _
  refine congrArg _ (funext fun a => Fin.ext ?_)
  match a with
  | ⟨0, _⟩ => show win11_0.index t (0 : Fin 2) * 5000 + 1 * p.val = r.val; rw [e0, hr]; omega
  | ⟨1, _⟩ => show win11_0.index t (1 : Fin 2) * 128 + 1 * k.val = k.val; rw [e1]; omega

theorem colAt11 (c : Dev nD) (t : Fin cfg11.N) (p : Fin 5000) (r : Fin 50000) (hr : r.val = t.val * 5000 + p.val) :
    blkS11 V c t (ix2 p (0 : Fin 1)) = arrS11 V c (ix2 r (0 : Fin 1)) := by
  obtain ⟨-, -, e0, e1, -⟩ := idx11 t
  show (iblk11 V c 1 t : Vec Ideal S5000x1 .f32) (ix2 p (0 : Fin 1)) = (V c (Pipeline.arrRef spec11 1) : FVec Ideal S50000x1 .f32) (ix2 r (0 : Fin 1))
  unfold iblk11
  rw [View.read_apply]
  show (V c (Pipeline.arrRef spec11 1) : FVec Ideal S50000x1 .f32) _ = _
  refine congrArg _ (funext fun a => Fin.ext ?_)
  match a with
  | ⟨0, _⟩ => show win11_1.index t (0 : Fin 2) * 5000 + 1 * p.val = r.val; rw [e0, hr]; omega
  | ⟨1, _⟩ => show win11_1.index t (1 : Fin 2) * 1 + 1 * 0 = 0; rw [e1]

theorem matAt11 (c : Dev nD) (t : Fin cfg11.N) (k q : Fin 128) :
    blkW11 V c t (ix2 k q) = arrW11 V c (ix2 k q) := by
  obtain ⟨-, -, -, -, e0, e1, -⟩ := idx11 t
  show (iblk11 V c 2 t : Vec Ideal S128x128 .f32) (ix2 k q) = (V c (Pipeline.arrRef spec11 2) : FVec Ideal S128x128 .f32) (ix2 k q)
  unfold iblk11
  rw [View.read_apply]
  show (V c (Pipeline.arrRef spec11 2) : FVec Ideal S128x128 .f32) _ = _
  refine congrArg _ (funext fun a => Fin.ext ?_)
  match a with
  | ⟨0, _⟩ => show win11_2.index t (0 : Fin 2) * 128 + 1 * k.val = k.val; rw [e0]; omega
  | ⟨1, _⟩ => show win11_2.index t (1 : Fin 2) * 128 + 1 * q.val = q.val; rw [e1]; omega

theorem biasAt11 (c : Dev nD) (t : Fin cfg11.N) (q : Fin 128) :
    blkB11 V c t (ix2 (0 : Fin 1) q) = arrB11 V c (ix2 (0 : Fin 1) q) := by
  obtain ⟨-, -, -, -, -, -, e0, e1, -⟩ := idx11 t
  show (iblk11 V c 3 t : Vec Ideal S1x128 .f32) (ix2 (0 : Fin 1) q) = (V c (Pipeline.arrRef spec11 3) : FVec Ideal S1x128 .f32) (ix2 (0 : Fin 1) q)
  unfold iblk11
  rw [View.read_apply]
  show (V c (Pipeline.arrRef spec11 3) : FVec Ideal S1x128 .f32) _ = _
  refine congrArg _ (funext fun a => Fin.ext ?_)
  match a with
  | ⟨0, _⟩ => show win11_3.index t (0 : Fin 2) * 1 + 1 * 0 = 0; rw [e0]
  | ⟨1, _⟩ => show win11_3.index t (1 : Fin 2) * 128 + 1 * q.val = q.val; rw [e1]; omega

theorem flushed11_eq (c : Dev nD) (t : Fin cfg11.N) :
    (dat11 (F := Ideal) V c).flushed 4 t = ((cfg11.win 4).blk t).view.read (Elt Ideal)
      (Cert.RefSpec.denseBy (F := Ideal) (V c (Pipeline.arrRef spec11 0)) (V c (Pipeline.arrRef spec11 1))
        (V c (Pipeline.arrRef spec11 2)) (V c (Pipeline.arrRef spec11 3))) := by
  show (cfg11.win 4).cut (grid11.coords t) ((dat11 (F := Ideal) V c).after 4 t) = _
  rw [after11_4]
  unfold out11_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx11 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg11.win 4).blk t).view.emb (ix2 p q) = ix2 (⟨t.val * 5000 + p.val, hr⟩ : Fin 50000) q := by
    funext a; apply Fin.ext
    match a with
    | ⟨0, _⟩ => show win11_4.index t (0 : Fin 2) * 5000 + 1 * p.val = t.val * 5000 + p.val; rw [e0]; omega
    | ⟨1, _⟩ => show win11_4.index t (1 : Fin 2) * 128 + 1 * q.val = q.val; rw [e1]; omega
  rw [View.read_apply]
  show k11_pay1 (F := Ideal) (blkA11 V c t) (blkS11 V c t) (blkW11 V c t) (blkB11 V c t) (ix2 p q)
    = Cert.RefSpec.denseBy (F := Ideal) (arrA11 V c) (arrS11 V c) (arrW11 V c) (arrB11 V c) (((cfg11.win 4).blk t).view.emb (ix2 p q))
  rw [hemb]
  exact pay11_eq_dense (arrA11 V c) (arrS11 V c) (arrW11 V c) (arrB11 V c) (blkA11 V c t) (blkS11 V c t) (blkW11 V c t) (blkB11 V c t)
    p q ⟨t.val * 5000 + p.val, hr⟩
    (fun k => rowsAt11 V c t p k ⟨t.val * 5000 + p.val, hr⟩ rfl) (colAt11 V c t p ⟨t.val * 5000 + p.val, hr⟩ rfl)
    (fun k => matAt11 V c t k q) (biasAt11 V c t q)

theorem mem_blk11 (t : Fin cfg11.N) (i : S50000x128.Idx) :
    i ∈ ((cfg11.win 4).blk t).view.set ↔ ∀ a : Fin 2, win11_4.index t a * S5000x128.size a ≤ (i a).val ∧ (i a).val < win11_4.index t a * S5000x128.size a + S5000x128.size a := by
  show i ∈ ((View.whole (Pipeline.arrRef spec11 4)).slice (win11_4.rect t)).set ↔ _
  rw [View.set_slice_whole, Rect.mem_set_unit]
  exact Iff.rfl

theorem cover11 (i : S50000x128.Idx) :
    ∃ t : Fin cfg11.N, (cfg11.win 4).flush t = true ∧ i ∈ ((cfg11.win 4).blk t).view.set := by
  have h0 : (i 0).val < 50000 := (i 0).isLt
  have h1 : (i 1).val < 128 := (i 1).isLt
  have hN : cfg11.N = 10 := N_11
  have ht : (i 0).val / 5000 < cfg11.N := by rw [hN]; omega
  obtain ⟨-, -, -, -, -, -, -, -, e0, e1, -⟩ := idx11 ⟨(i 0).val / 5000, ht⟩
  refine ⟨⟨(i 0).val / 5000, ht⟩, flush11_4 _, ?_⟩
  rw [mem_blk11]
  intro a
  match a with
  | ⟨0, _⟩ =>
    show win11_4.index ⟨(i 0).val / 5000, ht⟩ (0 : Fin 2) * 5000 ≤ (i 0).val ∧ (i 0).val < win11_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win11_4.index ⟨(i 0).val / 5000, ht⟩ (1 : Fin 2) * 128 ≤ (i 1).val ∧ (i 1).val < win11_4.index ⟨(i 0).val / 5000, ht⟩ (1 : Fin 2) * 128 + 128
    rw [e1]; omega

theorem lin_val11 (c : Dev nD) :
    (dat11 (F := Ideal) V c).arrAt 4 cfg11.N = Cert.RefSpec.denseBy (F := Ideal) (V c (Pipeline.arrRef spec11 0))
      (V c (Pipeline.arrRef spec11 1)) (V c (Pipeline.arrRef spec11 2)) (V c (Pipeline.arrRef spec11 3)) :=
  (dat11 (F := Ideal) V c).arrAt_eq_of_cover 4 _ (fun t _ => flushed11_eq V c t) (cover11)

end Cert.KernelIdeal.Hand

end
-- ==== Proof.KIChain3.lean ====
import proofs.«413962_j523986010479_1_alg».proof.Proof.KIWalk
import proofs.«413962_j523986010479_1_alg».proof.Proof.KIVal8
import proofs.«413962_j523986010479_1_alg».proof.Proof.KIVal9
import proofs.«413962_j523986010479_1_alg».proof.Proof.KIVal10
import proofs.«413962_j523986010479_1_alg».proof.Proof.KIVal11
import proofs.«413962_j523986010479_1_alg».proof.Proof.KIPre
import proofs.«413962_j523986010479_1_alg».proof.Proof.KIAdapt
import proofs.«413962_j523986010479_1_alg».proof.Proof.RefSpec
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL Idealize.SL.Sem
open Cert.RefSpec (colOf rowOf deg scaleBy denseBy take segsum layer twoLayer tail)

section Stretch

variable {F : FTy → Type} [FloatOps F]

set_option maxHeartbeats 2000000 in
theorem g3_colO_of (U : Valuation τ sig (Elt F)) :
    StableHlo.after hostOps8 U (Proc.devRef .tc main_v72) = colOf (deg (U main_arg7)) := by
  after_results
  exact (colOf_eq _).trans (congrArg colOf (deg_eq _))
set_option maxHeartbeats 2000000 in
theorem g3_colI_of (U : Valuation τ sig (Elt F)) :
    StableHlo.after hostOps8 U (Proc.devRef .tc main_v81) = colOf (deg (U main_arg8)) := by
  after_results
  exact (colOf_eq _).trans (congrArg colOf (deg_eq _))
set_option maxHeartbeats 2000000 in
theorem g3_sA_of (U : Valuation τ sig (Elt F)) :
    StableHlo.after hostOps9_1 U (Proc.devRef .tc main_v86) = segsum (U main_arg8) (U main_v83) := by
  after_results
  exact segsum_eq _ _
set_option maxHeartbeats 2000000 in
theorem g3_rbA_of (U : Valuation τ sig (Elt F)) :
    StableHlo.after hostOps9_1 U (Proc.devRef .tc main_v87) = rowOf (U main_arg13) := by
  after_results
  exact rowOf_eq _
set_option maxHeartbeats 2000000 in
theorem g3_sC_of (U : Valuation τ sig (Elt F)) :
    StableHlo.after hostOps11_1 U (Proc.devRef .tc main_v93) = segsum (U main_arg8) (U main_v90) := by
  after_results
  exact segsum_eq _ _
set_option maxHeartbeats 2000000 in
theorem g3_rbC_of (U : Valuation τ sig (Elt F)) :
    StableHlo.after hostOps11_1 U (Proc.devRef .tc main_v94) = rowOf (U main_arg15) := by
  after_results
  exact rowOf_eq _

end Stretch

set_option maxHeartbeats 4000000 in
theorem g3_tA_of (U : Valuation τ sig (Elt Ideal)) :
    (StableHlo.after (hostOps9 (F := Ideal)) U main_v83 : (⟨S600000x128, .f32⟩ : BufTy).Contents (Elt Ideal)) = takeK (U main_v82) (U main_arg7) := by
  after_results_simp <;> (try simp only [StableHlo.TRef.ofBuf, StableHlo.TRef.toBuf, cast_eq]) <;> rfl
set_option maxHeartbeats 4000000 in
theorem g3_tC_of (U : Valuation τ sig (Elt Ideal)) :
    (StableHlo.after (hostOps11 (F := Ideal)) U main_v90 : (⟨S600000x128, .f32⟩ : BufTy).Contents (Elt Ideal)) = takeK (U main_v89) (U main_arg7) := by
  after_results_simp <;> (try simp only [StableHlo.TRef.ofBuf, StableHlo.TRef.toBuf, cast_eq]) <;> rfl

variable (m : (ℓ : Loc nD τ sig) → Buf (Elt Ideal) ℓ)

theorem g3_W0_at (c : Dev nD) (r : Ref sig .tc) : W0 m c r = m ((c.tc : Thread nD τ).loc r) := rfl

theorem g3_colO (c : Dev nD) : W19 m c main_v72 = colOf (deg (m ((c.tc : Thread nD τ).loc main_arg7))) := by
  unfold W19
  rw [g3_colO_of]
  exact congrArg (fun z => colOf (deg z)) (W18_kept m c main_arg7 arg7_kept)
theorem g3_colI (c : Dev nD) : W19 m c main_v81 = colOf (deg (m ((c.tc : Thread nD τ).loc main_arg8))) := by
  unfold W19
  rw [g3_colI_of]
  exact congrArg (fun z => colOf (deg z)) (W18_kept m c main_arg8 arg8_kept)
theorem g3_oA (c : Dev nD) : W20 m c main_v82 = scaleBy (m ((c.tc : Thread nD τ).loc main_arg6)) (colOf (deg (m ((c.tc : Thread nD τ).loc main_arg7)))) := by
  rw [W20_out, scale_val8]
  show scaleBy (W19 m c main_arg6) (W19 m c main_v72) = _
  rw [g3_colO, (W19_kept m c main_arg6 arg6_kept)]
theorem g3_tA (h : Cert.Pre_KernelIdeal m) (c : Dev nD) : W21 m c main_v83 = take (scaleBy (m ((c.tc : Thread nD τ).loc main_arg6)) (colOf (deg (m ((c.tc : Thread nD τ).loc main_arg7))))) (m ((c.tc : Thread nD τ).loc main_arg7)) := by
  unfold W21
  rw [g3_tA_of, g3_oA, (W20_kept m c main_arg7 arg7_kept)]
  exact takeK_eq _ _ (src7_inb m h c)
theorem g3_sA (h : Cert.Pre_KernelIdeal m) (c : Dev nD) : W22 m c main_v86 = segsum (m ((c.tc : Thread nD τ).loc main_arg8)) (take (scaleBy (m ((c.tc : Thread nD τ).loc main_arg6)) (colOf (deg (m ((c.tc : Thread nD τ).loc main_arg7))))) (m ((c.tc : Thread nD τ).loc main_arg7))) := by
  unfold W22
  rw [g3_sA_of, g3_tA m h, (W21_kept m c main_arg8 arg8_kept)]
theorem g3_rbA (c : Dev nD) : W22 m c main_v87 = rowOf (m ((c.tc : Thread nD τ).loc main_arg13)) := by
  unfold W22
  rw [g3_rbA_of, (W21_kept m c main_arg13 arg13_kept)]
theorem g3_oB (h : Cert.Pre_KernelIdeal m) (c : Dev nD) : W23 m c main_v88 = layer (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) := by
  rw [W23_out, lin_val9]
  show denseBy (W22 m c main_v86) (W22 m c main_v81) (W22 m c main_arg12) (W22 m c main_v87) = _
  rw [g3_sA m h, (((W22_of m c main_v81 (by decide)).trans ((W21_of m c main_v81 (by decide)).trans (W20_of_ne m c main_v81 (by decide))))).trans (g3_colI m c), (W22_kept m c main_arg12 arg12_kept), g3_rbA]
  rfl
theorem g3_oC (h : Cert.Pre_KernelIdeal m) (c : Dev nD) : W24 m c main_v89 = scaleBy (layer (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13))) (colOf (deg (m ((c.tc : Thread nD τ).loc main_arg7)))) := by
  rw [W24_out, scale_val10]
  show scaleBy (W23 m c main_v88) (W23 m c main_v72) = _
  rw [g3_oB m h, (((W23_of_ne m c main_v72 (by decide)).trans ((W22_of m c main_v72 (by decide)).trans ((W21_of m c main_v72 (by decide)).trans (W20_of_ne m c main_v72 (by decide)))))).trans (g3_colO m c)]
theorem g3_tC (h : Cert.Pre_KernelIdeal m) (c : Dev nD) : W25 m c main_v90 = take (scaleBy (layer (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13))) (colOf (deg (m ((c.tc : Thread nD τ).loc main_arg7))))) (m ((c.tc : Thread nD τ).loc main_arg7)) := by
  unfold W25
  rw [g3_tC_of, g3_oC m h, (W24_kept m c main_arg7 arg7_kept)]
  exact takeK_eq _ _ (src7_inb m h c)
theorem g3_sC (h : Cert.Pre_KernelIdeal m) (c : Dev nD) : W26 m c main_v93 = segsum (m ((c.tc : Thread nD τ).loc main_arg8)) (take (scaleBy (layer (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13))) (colOf (deg (m ((c.tc : Thread nD τ).loc main_arg7))))) (m ((c.tc : Thread nD τ).loc main_arg7))) := by
  unfold W26
  rw [g3_sC_of, g3_tC m h, (W25_kept m c main_arg8 arg8_kept)]
theorem g3_rbC (c : Dev nD) : W26 m c main_v94 = rowOf (m ((c.tc : Thread nD τ).loc main_arg15)) := by
  unfold W26
  rw [g3_rbC_of, (W25_kept m c main_arg15 arg15_kept)]

theorem g3_oD (h : Cert.Pre_KernelIdeal m) (c : Dev nD) : W27 m c main_v95 = twoLayer (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) (m ((c.tc : Thread nD τ).loc main_arg15)) := by
  rw [W27_out, lin_val11]
  show denseBy (W26 m c main_v93) (W26 m c main_v81) (W26 m c main_arg14) (W26 m c main_v94) = _
  rw [g3_sC m h, (((W26_of m c main_v81 (by decide)).trans ((W25_of m c main_v81 (by decide)).trans ((W24_of_ne m c main_v81 (by decide)).trans ((W23_of_ne m c main_v81 (by decide)).trans ((W22_of m c main_v81 (by decide)).trans ((W21_of m c main_v81 (by decide)).trans (W20_of_ne m c main_v81 (by decide))))))))).trans (g3_colI m c), (W26_kept m c main_arg14 arg14_kept), g3_rbC]
  rfl

end Cert.KernelIdeal.Hand

end
-- ==== Proof.KIVal12.lean ====
import proofs.«413962_j523986010479_1_alg».proof.Proof.KIReg12
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay12_at (x0 : Vec Ideal S5000x128 .f32) (x1 : Vec Ideal S5000x1 .f32) (y : S5000x128.Idx) (y' : S5000x1.Idx)
    (h : (y' 0).val = (y 0).val) : k12_pay1 x0 x1 y = x0 y * x1 y' := by
  unfold k12_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled12_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k12_pay1 x0 x1 y = rowScaled X S i := by
  rw [pay12_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

theorem rows12_at (c : Dev nD) (t : Fin cfg12.N) (y : S5000x128.Idx) (k : S50000x128.Idx)
    (hk0 : (k 0).val = t.val * 5000 + (y 0).val) (hk1 : (k 1).val = (y 1).val) :
    (iblk12 V c 0 t : Vec Ideal S5000x128 .f32) y = (V c (Pipeline.arrRef spec12 0) : FVec Ideal S50000x128 .f32) k := by
  obtain ⟨e0, e1, -⟩ := idx12 t
  show (V c (Pipeline.arrRef spec12 0) : FVec Ideal S50000x128 .f32) (((cfg12.win 0).blk t).view.emb y) = _
  congr 1
  funext a; apply Fin.ext
  match a with
  | ⟨0, _⟩ => show win12_0.index t (0 : Fin 2) * 5000 + 1 * (y 0).val = (k 0).val; omega
  | ⟨1, _⟩ => show win12_0.index t (1 : Fin 2) * 128 + 1 * (y 1).val = (k 1).val; omega

theorem scales12_at (c : Dev nD) (t : Fin cfg12.N) (y : S5000x1.Idx) (k : S50000x1.Idx)
    (hk0 : (k 0).val = t.val * 5000 + (y 0).val) :
    (iblk12 V c 1 t : Vec Ideal S5000x1 .f32) y = (V c (Pipeline.arrRef spec12 1) : FVec Ideal S50000x1 .f32) k := by
  obtain ⟨-, -, e0, e1, -⟩ := idx12 t
  have hy : (y 1).val < 1 := (y 1).isLt
  have hk : (k 1).val < 1 := (k 1).isLt
  show (V c (Pipeline.arrRef spec12 1) : FVec Ideal S50000x1 .f32) (((cfg12.win 1).blk t).view.emb y) = _
  congr 1
  funext a; apply Fin.ext
  match a with
  | ⟨0, _⟩ => show win12_1.index t (0 : Fin 2) * 5000 + 1 * (y 0).val = (k 0).val; omega
  | ⟨1, _⟩ => show win12_1.index t (1 : Fin 2) * 1 + 1 * (y 1).val = (k 1).val; omega

theorem flushed12_2 (c : Dev nD) (t : Fin cfg12.N) :
    (dat12 (F := Ideal) V c).flushed 2 t
      = ((cfg12.win 2).blk t).view.read (Elt Ideal) (rowScaled (V c (Pipeline.arrRef spec12 0)) (V c (Pipeline.arrRef spec12 1))) := by
  show (cfg12.win 2).cut (grid12.coords t) ((dat12 V c).after 2 t) = _
  rw [after12_2]
  unfold out12_2
  rw [View.canon_unit_zero zeroOff]
  simp only [View.ld_unit_zero (S := S5000x128) zeroOff, View.ld_unit_zero (S := S5000x1) zeroOff]
  obtain ⟨-, -, -, -, e0, e1⟩ := idx12 t
  funext j
  refine scaled12_at (V c (Pipeline.arrRef spec12 0)) (V c (Pipeline.arrRef spec12 1)) (iblk12 V c 0 t) (iblk12 V c 1 t) t.val
    (rows12_at V c t) (scales12_at V c t) j (((cfg12.win 2).blk t).view.emb j) ?_ ?_
  · show win12_2.index t (0 : Fin 2) * 5000 + 1 * (j 0).val = t.val * 5000 + (j 0).val; omega
  · show win12_2.index t (1 : Fin 2) * 128 + 1 * (j 1).val = (j 1).val; omega

theorem mem_blk12_2 (t : Fin cfg12.N) (i : S50000x128.Idx) :
    i ∈ ((cfg12.win 2).blk t).view.set ↔ ∀ a : Fin 2, win12_2.index t a * S5000x128.size a ≤ (i a).val ∧ (i a).val < win12_2.index t a * S5000x128.size a + S5000x128.size a := by
  show i ∈ ((View.whole (Pipeline.arrRef spec12 2)).slice (win12_2.rect t)).set ↔ _
  rw [View.set_slice_whole, Rect.mem_set_unit]
  exact Iff.rfl

theorem rowsCovered12 (i : S50000x128.Idx) :
    ∃ t : Fin cfg12.N, (cfg12.win 2).flush t = true ∧ i ∈ ((cfg12.win 2).blk t).view.set := by
  have hi0 : (i 0).val < 50000 := (i 0).isLt
  have hi1 : (i 1).val < 128 := (i 1).isLt
  have hN : cfg12.N = 10 := N_12
  obtain ⟨t, ht⟩ : ∃ t : Fin cfg12.N, t.val = (i 0).val / 5000 := ⟨⟨(i 0).val / 5000, by rw [hN]; omega⟩, rfl⟩
  obtain ⟨-, -, -, -, e0, e1⟩ := idx12 t
  refine ⟨t, flush12_2 t, ?_⟩
  rw [mem_blk12_2]
  intro a
  match a with
  | ⟨0, _⟩ => show win12_2.index t (0 : Fin 2) * 5000 ≤ (i 0).val ∧ (i 0).val < win12_2.index t (0 : Fin 2) * 5000 + 5000; omega
  | ⟨1, _⟩ => show win12_2.index t (1 : Fin 2) * 128 ≤ (i 1).val ∧ (i 1).val < win12_2.index t (1 : Fin 2) * 128 + 128; omega

theorem scale_val12 (c : Dev nD) :
    (dat12 (F := Ideal) V c).arrAt 2 cfg12.N = Cert.RefSpec.scaleBy (F := Ideal) (V c (Pipeline.arrRef spec12 0)) (V c (Pipeline.arrRef spec12 1)) :=
  ((dat12 (F := Ideal) V c).arrAt_eq_of_cover 2 (rowScaled (V c (Pipeline.arrRef spec12 0)) (V c (Pipeline.arrRef spec12 1)))
    (fun t _ => flushed12_2 V c t) rowsCovered12).trans (rowScaled_eq _ _)

end Cert.KernelIdeal.Hand

end
-- ==== Proof.KIVal13.lean ====
import proofs.«413962_j523986010479_1_alg».proof.Proof.KIReg13
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay13_apply (x0 : Vec Ideal S5000x128 .f32) (x1 : Vec Ideal S5000x1 .f32) (x2 : Vec Ideal S128x128 .f32)
    (x3 : Vec Ideal S1x128 .f32) (p : Fin 5000) (q : Fin 128) :
    k13_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k13_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay13_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k13_pay1 (F := Ideal) x0 x1 x2 x3 (ix2 p q) = Cert.RefSpec.denseBy (F := Ideal) a s w b (ix2 r q) := by
  rw [pay13_apply, dense_apply, h1, h3]
  refine congrArg₂ max (congrArg (· + b (ix2 (0 : Fin 1) q)) (Finset.sum_congr rfl fun k _ => ?_)) rfl
  rw [h0 k, h2 k]

theorem idx13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 ∧ t.val < 10 :=
  (by decide +kernel : ∀ t : Fin grid13.N, _)

variable (V : (c : Dev nD) → (b : Ref sig .tc) → Buf (Elt Ideal) ((c : Thread nD τ).loc b))

abbrev arrA13 (c : Dev nD) : FVec Ideal Cert.ReferenceIdeal.S50000x128 .f32 := V c (Pipeline.arrRef spec13 0)
abbrev arrS13 (c : Dev nD) : FVec Ideal Cert.ReferenceIdeal.S50000x1 .f32 := V c (Pipeline.arrRef spec13 1)
abbrev arrW13 (c : Dev nD) : FVec Ideal Cert.ReferenceIdeal.S128x128 .f32 := V c (Pipeline.arrRef spec13 2)
abbrev arrB13 (c : Dev nD) : FVec Ideal Cert.ReferenceIdeal.S1x128 .f32 := V c (Pipeline.arrRef spec13 3)
abbrev blkA13 (c : Dev nD) (t : Fin cfg13.N) : Vec Ideal S5000x128 .f32 := iblk13 V c 0 t
abbrev blkS13 (c : Dev nD) (t : Fin cfg13.N) : Vec Ideal S5000x1 .f32 := iblk13 V c 1 t
abbrev blkW13 (c : Dev nD) (t : Fin cfg13.N) : Vec Ideal S128x128 .f32 := iblk13 V c 2 t
abbrev blkB13 (c : Dev nD) (t : Fin cfg13.N) : Vec Ideal S1x128 .f32 := iblk13 V c 3 t

theorem rowsAt13 (c : Dev nD) (t : Fin cfg13.N) (p : Fin 5000) (k : Fin 128) (r : Fin 50000) (hr : r.val = t.val * 5000 + p.val) :
    blkA13 V c t (ix2 p k) = arrA13 V c (ix2 r k) := by
  obtain ⟨e0, e1, -⟩ := idx13 t
  show (iblk13 V c 0 t : Vec Ideal S5000x128 .f32) (ix2 p k) = (V c (Pipeline.arrRef spec13 0) : FVec Ideal S50000x128 .f32) (ix2 r k)
  unfold iblk13
  rw [View.read_apply]
  show (V c (Pipeline.arrRef spec13 0) : FVec Ideal S50000x128 .f32) _ = _
  refine congrArg _ (funext fun a => Fin.ext ?_)
  match a with
  | ⟨0, _⟩ => show win13_0.index t (0 : Fin 2) * 5000 + 1 * p.val = r.val; rw [e0, hr]; omega
  | ⟨1, _⟩ => show win13_0.index t (1 : Fin 2) * 128 + 1 * k.val = k.val; rw [e1]; omega

theorem colAt13 (c : Dev nD) (t : Fin cfg13.N) (p : Fin 5000) (r : Fin 50000) (hr : r.val = t.val * 5000 + p.val) :
    blkS13 V c t (ix2 p (0 : Fin 1)) = arrS13 V c (ix2 r (0 : Fin 1)) := by
  obtain ⟨-, -, e0, e1, -⟩ := idx13 t
  show (iblk13 V c 1 t : Vec Ideal S5000x1 .f32) (ix2 p (0 : Fin 1)) = (V c (Pipeline.arrRef spec13 1) : FVec Ideal S50000x1 .f32) (ix2 r (0 : Fin 1))
  unfold iblk13
  rw [View.read_apply]
  show (V c (Pipeline.arrRef spec13 1) : FVec Ideal S50000x1 .f32) _ = _
  refine congrArg _ (funext fun a => Fin.ext ?_)
  match a with
  | ⟨0, _⟩ => show win13_1.index t (0 : Fin 2) * 5000 + 1 * p.val = r.val; rw [e0, hr]; omega
  | ⟨1, _⟩ => show win13_1.index t (1 : Fin 2) * 1 + 1 * 0 = 0; rw [e1]

theorem matAt13 (c : Dev nD) (t : Fin cfg13.N) (k q : Fin 128) :
    blkW13 V c t (ix2 k q) = arrW13 V c (ix2 k q) := by
  obtain ⟨-, -, -, -, e0, e1, -⟩ := idx13 t
  show (iblk13 V c 2 t : Vec Ideal S128x128 .f32) (ix2 k q) = (V c (Pipeline.arrRef spec13 2) : FVec Ideal S128x128 .f32) (ix2 k q)
  unfold iblk13
  rw [View.read_apply]
  show (V c (Pipeline.arrRef spec13 2) : FVec Ideal S128x128 .f32) _ = _
  refine congrArg _ (funext fun a => Fin.ext ?_)
  match a with
  | ⟨0, _⟩ => show win13_2.index t (0 : Fin 2) * 128 + 1 * k.val = k.val; rw [e0]; omega
  | ⟨1, _⟩ => show win13_2.index t (1 : Fin 2) * 128 + 1 * q.val = q.val; rw [e1]; omega

theorem biasAt13 (c : Dev nD) (t : Fin cfg13.N) (q : Fin 128) :
    blkB13 V c t (ix2 (0 : Fin 1) q) = arrB13 V c (ix2 (0 : Fin 1) q) := by
  obtain ⟨-, -, -, -, -, -, e0, e1, -⟩ := idx13 t
  show (iblk13 V c 3 t : Vec Ideal S1x128 .f32) (ix2 (0 : Fin 1) q) = (V c (Pipeline.arrRef spec13 3) : FVec Ideal S1x128 .f32) (ix2 (0 : Fin 1) q)
  unfold iblk13
  rw [View.read_apply]
  show (V c (Pipeline.arrRef spec13 3) : FVec Ideal S1x128 .f32) _ = _
  refine congrArg _ (funext fun a => Fin.ext ?_)
  match a with
  | ⟨0, _⟩ => show win13_3.index t (0 : Fin 2) * 1 + 1 * 0 = 0; rw [e0]
  | ⟨1, _⟩ => show win13_3.index t (1 : Fin 2) * 128 + 1 * q.val = q.val; rw [e1]; omega

theorem flushed13_eq (c : Dev nD) (t : Fin cfg13.N) :
    (dat13 (F := Ideal) V c).flushed 4 t = ((cfg13.win 4).blk t).view.read (Elt Ideal)
      (Cert.RefSpec.denseBy (F := Ideal) (V c (Pipeline.arrRef spec13 0)) (V c (Pipeline.arrRef spec13 1))
        (V c (Pipeline.arrRef spec13 2)) (V c (Pipeline.arrRef spec13 3))) := by
  show (cfg13.win 4).cut (grid13.coords t) ((dat13 (F := Ideal) V c).after 4 t) = _
  rw [after13_4]
  unfold out13_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx13 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg13.win 4).blk t).view.emb (ix2 p q) = ix2 (⟨t.val * 5000 + p.val, hr⟩ : Fin 50000) q := by
    funext a; apply Fin.ext
    match a with
    | ⟨0, _⟩ => show win13_4.index t (0 : Fin 2) * 5000 + 1 * p.val = t.val * 5000 + p.val; rw [e0]; omega
    | ⟨1, _⟩ => show win13_4.index t (1 : Fin 2) * 128 + 1 * q.val = q.val; rw [e1]; omega
  rw [View.read_apply]
  show k13_pay1 (F := Ideal) (blkA13 V c t) (blkS13 V c t) (blkW13 V c t) (blkB13 V c t) (ix2 p q)
    = Cert.RefSpec.denseBy (F := Ideal) (arrA13 V c) (arrS13 V c) (arrW13 V c) (arrB13 V c) (((cfg13.win 4).blk t).view.emb (ix2 p q))
  rw [hemb]
  exact pay13_eq_dense (arrA13 V c) (arrS13 V c) (arrW13 V c) (arrB13 V c) (blkA13 V c t) (blkS13 V c t) (blkW13 V c t) (blkB13 V c t)
    p q ⟨t.val * 5000 + p.val, hr⟩
    (fun k => rowsAt13 V c t p k ⟨t.val * 5000 + p.val, hr⟩ rfl) (colAt13 V c t p ⟨t.val * 5000 + p.val, hr⟩ rfl)
    (fun k => matAt13 V c t k q) (biasAt13 V c t q)

theorem mem_blk13 (t : Fin cfg13.N) (i : S50000x128.Idx) :
    i ∈ ((cfg13.win 4).blk t).view.set ↔ ∀ a : Fin 2, win13_4.index t a * S5000x128.size a ≤ (i a).val ∧ (i a).val < win13_4.index t a * S5000x128.size a + S5000x128.size a := by
  show i ∈ ((View.whole (Pipeline.arrRef spec13 4)).slice (win13_4.rect t)).set ↔ _
  rw [View.set_slice_whole, Rect.mem_set_unit]
  exact Iff.rfl

theorem cover13 (i : S50000x128.Idx) :
    ∃ t : Fin cfg13.N, (cfg13.win 4).flush t = true ∧ i ∈ ((cfg13.win 4).blk t).view.set := by
  have h0 : (i 0).val < 50000 := (i 0).isLt
  have h1 : (i 1).val < 128 := (i 1).isLt
  have hN : cfg13.N = 10 := N_13
  have ht : (i 0).val / 5000 < cfg13.N := by rw [hN]; omega
  obtain ⟨-, -, -, -, -, -, -, -, e0, e1, -⟩ := idx13 ⟨(i 0).val / 5000, ht⟩
  refine ⟨⟨(i 0).val / 5000, ht⟩, flush13_4 _, ?_⟩
  rw [mem_blk13]
  intro a
  match a with
  | ⟨0, _⟩ =>
    show win13_4.index ⟨(i 0).val / 5000, ht⟩ (0 : Fin 2) * 5000 ≤ (i 0).val ∧ (i 0).val < win13_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win13_4.index ⟨(i 0).val / 5000, ht⟩ (1 : Fin 2) * 128 ≤ (i 1).val ∧ (i 1).val < win13_4.index ⟨(i 0).val / 5000, ht⟩ (1 : Fin 2) * 128 + 128
    rw [e1]; omega

theorem lin_val13 (c : Dev nD) :
    (dat13 (F := Ideal) V c).arrAt 4 cfg13.N = Cert.RefSpec.denseBy (F := Ideal) (V c (Pipeline.arrRef spec13 0))
      (V c (Pipeline.arrRef spec13 1)) (V c (Pipeline.arrRef spec13 2)) (V c (Pipeline.arrRef spec13 3)) :=
  (dat13 (F := Ideal) V c).arrAt_eq_of_cover 4 _ (fun t _ => flushed13_eq V c t) (cover13)

end Cert.KernelIdeal.Hand

end
-- ==== Proof.KIVal14.lean ====
import proofs.«413962_j523986010479_1_alg».proof.Proof.KIReg14
import proofs.«413962_j523986010479_1_alg».proof.Proof.KIValLib
import proofs.«413962_j523986010479_1_alg».proof.Proof.RefSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

theorem pay14_at (x0 : Vec Ideal S5000x128 .f32) (x1 : Vec Ideal S5000x1 .f32) (y : S5000x128.Idx) (y' : S5000x1.Idx)
    (h : (y' 0).val = (y 0).val) : k14_pay1 x0 x1 y = x0 y * x1 y' := by
  unfold k14_pay1
  simp only [shapeCast_self]
  rw [mulf_apply]
  congr 1
  refine broadcastTo_apply _ _ _ _ fun a => ?_
  match a with
  | ⟨0, _⟩ => exact h
  | ⟨1, _⟩ => exact Nat.lt_one_iff.mp (y' 1).isLt

theorem scaled14_at (X : FVec Ideal S50000x128 .f32) (S : FVec Ideal S50000x1 .f32)
    (x0 : Vec Ideal S5000x128 .f32) (x1 : Vec Ideal S5000x1 .f32) (n : Nat)
    (hx0 : ∀ (y : S5000x128.Idx) (k : S50000x128.Idx), (k 0).val = n * 5000 + (y 0).val → (k 1).val = (y 1).val → x0 y = X k)
    (hx1 : ∀ (y : S5000x1.Idx) (k : S50000x1.Idx), (k 0).val = n * 5000 + (y 0).val → x1 y = S k)
    (y : S5000x128.Idx) (i : S50000x128.Idx) (hi0 : (i 0).val = n * 5000 + (y 0).val) (hi1 : (i 1).val = (y 1).val) :
    k14_pay1 x0 x1 y = rowScaled X S i := by
  rw [pay14_at x0 x1 y (ix2 (y 0) 0) rfl, hx0 y i hi0 hi1, hx1 (ix2 (y 0) 0) (ix2 (i 0) 0) hi0]
  rfl

variable (V : (c : Dev nD) → (b : Ref sig .tc) → Buf (Elt Ideal) ((c : Thread nD τ).loc b))

theorem idx14 : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0 :=
  (by decide +kernel : ∀ t : Fin grid14.N, _)

theorem rows14_at (c : Dev nD) (t : Fin cfg14.N) (y : S5000x128.Idx) (k : S50000x128.Idx)
    (hk0 : (k 0).val = t.val * 5000 + (y 0).val) (hk1 : (k 1).val = (y 1).val) :
    (iblk14 V c 0 t : Vec Ideal S5000x128 .f32) y = (V c (Pipeline.arrRef spec14 0) : FVec Ideal S50000x128 .f32) k := by
  obtain ⟨e0, e1, -⟩ := idx14 t
  show (V c (Pipeline.arrRef spec14 0) : FVec Ideal S50000x128 .f32) (((cfg14.win 0).blk t).view.emb y) = _
  congr 1
  funext a; apply Fin.ext
  match a with
  | ⟨0, _⟩ => show win14_0.index t (0 : Fin 2) * 5000 + 1 * (y 0).val = (k 0).val; omega
  | ⟨1, _⟩ => show win14_0.index t (1 : Fin 2) * 128 + 1 * (y 1).val = (k 1).val; omega

theorem scales14_at (c : Dev nD) (t : Fin cfg14.N) (y : S5000x1.Idx) (k : S50000x1.Idx)
    (hk0 : (k 0).val = t.val * 5000 + (y 0).val) :
    (iblk14 V c 1 t : Vec Ideal S5000x1 .f32) y = (V c (Pipeline.arrRef spec14 1) : FVec Ideal S50000x1 .f32) k := by
  obtain ⟨-, -, e0, e1, -⟩ := idx14 t
  have hy : (y 1).val < 1 := (y 1).isLt
  have hk : (k 1).val < 1 := (k 1).isLt
  show (V c (Pipeline.arrRef spec14 1) : FVec Ideal S50000x1 .f32) (((cfg14.win 1).blk t).view.emb y) = _
  congr 1
  funext a; apply Fin.ext
  match a with
  | ⟨0, _⟩ => show win14_1.index t (0 : Fin 2) * 5000 + 1 * (y 0).val = (k 0).val; omega
  | ⟨1, _⟩ => show win14_1.index t (1 : Fin 2) * 1 + 1 * (y 1).val = (k 1).val; omega

theorem flushed14_2 (c : Dev nD) (t : Fin cfg14.N) :
    (dat14 (F := Ideal) V c).flushed 2 t
      = ((cfg14.win 2).blk t).view.read (Elt Ideal) (rowScaled (V c (Pipeline.arrRef spec14 0)) (V c (Pipeline.arrRef spec14 1))) := by
  show (cfg14.win 2).cut (grid14.coords t) ((dat14 V c).after 2 t) = _
  rw [after14_2]
  unfold out14_2
  rw [View.canon_unit_zero zeroOff]
  simp only [View.ld_unit_zero (S := S5000x128) zeroOff, View.ld_unit_zero (S := S5000x1) zeroOff]
  obtain ⟨-, -, -, -, e0, e1⟩ := idx14 t
  funext j
  refine scaled14_at (V c (Pipeline.arrRef spec14 0)) (V c (Pipeline.arrRef spec14 1)) (iblk14 V c 0 t) (iblk14 V c 1 t) t.val
    (rows14_at V c t) (scales14_at V c t) j (((cfg14.win 2).blk t).view.emb j) ?_ ?_
  · show win14_2.index t (0 : Fin 2) * 5000 + 1 * (j 0).val = t.val * 5000 + (j 0).val; omega
  · show win14_2.index t (1 : Fin 2) * 128 + 1 * (j 1).val = (j 1).val; omega

theorem mem_blk14_2 (t : Fin cfg14.N) (i : S50000x128.Idx) :
    i ∈ ((cfg14.win 2).blk t).view.set ↔ ∀ a : Fin 2, win14_2.index t a * S5000x128.size a ≤ (i a).val ∧ (i a).val < win14_2.index t a * S5000x128.size a + S5000x128.size a := by
  show i ∈ ((View.whole (Pipeline.arrRef spec14 2)).slice (win14_2.rect t)).set ↔ _
  rw [View.set_slice_whole, Rect.mem_set_unit]
  exact Iff.rfl

theorem rowsCovered14 (i : S50000x128.Idx) :
    ∃ t : Fin cfg14.N, (cfg14.win 2).flush t = true ∧ i ∈ ((cfg14.win 2).blk t).view.set := by
  have hi0 : (i 0).val < 50000 := (i 0).isLt
  have hi1 : (i 1).val < 128 := (i 1).isLt
  have hN : cfg14.N = 10 := N_14
  obtain ⟨t, ht⟩ : ∃ t : Fin cfg14.N, t.val = (i 0).val / 5000 := ⟨⟨(i 0).val / 5000, by rw [hN]; omega⟩, rfl⟩
  obtain ⟨-, -, -, -, e0, e1⟩ := idx14 t
  refine ⟨t, flush14_2 t, ?_⟩
  rw [mem_blk14_2]
  intro a
  match a with
  | ⟨0, _⟩ => show win14_2.index t (0 : Fin 2) * 5000 ≤ (i 0).val ∧ (i 0).val < win14_2.index t (0 : Fin 2) * 5000 + 5000; omega
  | ⟨1, _⟩ => show win14_2.index t (1 : Fin 2) * 128 ≤ (i 1).val ∧ (i 1).val < win14_2.index t (1 : Fin 2) * 128 + 128; omega

theorem scale_val14 (c : Dev nD) :
    (dat14 (F := Ideal) V c).arrAt 2 cfg14.N = Cert.RefSpec.scaleBy (F := Ideal) (V c (Pipeline.arrRef spec14 0)) (V c (Pipeline.arrRef spec14 1)) :=
  ((dat14 (F := Ideal) V c).arrAt_eq_of_cover 2 (rowScaled (V c (Pipeline.arrRef spec14 0)) (V c (Pipeline.arrRef spec14 1)))
    (fun t _ => flushed14_2 V c t) rowsCovered14).trans (rowScaled_eq _ _)

end Cert.KernelIdeal.Hand

end
-- ==== Proof.KIVal15.lean ====
import proofs.«413962_j523986010479_1_alg».proof.Proof.KIReg15
import proofs.«413962_j523986010479_1_alg».proof.Proof.KIValLib
import proofs.«413962_j523986010479_1_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem pay15_apply (x0 : Vec Ideal S5000x128 .f32) (x1 : Vec Ideal S5000x1 .f32) (x2 : Vec Ideal S128x128 .f32)
    (x3 : Vec Ideal S1x128 .f32) (p : Fin 5000) (q : Fin 128) :
    k15_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k15_pay1
  rw [maximumf_apply, addf_apply, blkProd_apply, broadcast_apply, shapeCast_self, shapeCast_self, shapeCast_self,
    broadcastTo_1b_ab_apply]
  refine congrArg₂ max (congrArg (· + x3 (ix2 (0 : Fin 1) q)) (Finset.sum_congr rfl fun k _ => ?_)) Ideal.ofBits_zero_f32
  rw [truncf_apply, truncf_apply, mulf_apply, colBlk_apply]

theorem pay15_eq_dense (a : FVec Ideal Cert.ReferenceIdeal.S50000x128 .f32) (s : FVec Ideal Cert.ReferenceIdeal.S50000x1 .f32)
    (w : FVec Ideal Cert.ReferenceIdeal.S128x128 .f32) (b : FVec Ideal Cert.ReferenceIdeal.S1x128 .f32)
    (x0 : Vec Ideal S5000x128 .f32) (x1 : Vec Ideal S5000x1 .f32) (x2 : Vec Ideal S128x128 .f32) (x3 : Vec Ideal S1x128 .f32)
    (p : Fin 5000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k15_pay1 (F := Ideal) x0 x1 x2 x3 (ix2 p q) = Cert.RefSpec.denseBy (F := Ideal) a s w b (ix2 r q) := by
  rw [pay15_apply, dense_apply, h1, h3]
  refine congrArg₂ max (congrArg (· + b (ix2 (0 : Fin 1) q)) (Finset.sum_congr rfl fun k _ => ?_)) rfl
  rw [h0 k, h2 k]

theorem idx15 : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0 ∧ t.val < 10 :=
  (by decide +kernel : ∀ t : Fin grid15.N, _)

variable (V : (c : Dev nD) → (b : Ref sig .tc) → Buf (Elt Ideal) ((c : Thread nD τ).loc b))

abbrev arrA15 (c : Dev nD) : FVec Ideal Cert.ReferenceIdeal.S50000x128 .f32 := V c (Pipeline.arrRef spec15 0)
abbrev arrS15 (c : Dev nD) : FVec Ideal Cert.ReferenceIdeal.S50000x1 .f32 := V c (Pipeline.arrRef spec15 1)
abbrev arrW15 (c : Dev nD) : FVec Ideal Cert.ReferenceIdeal.S128x128 .f32 := V c (Pipeline.arrRef spec15 2)
abbrev arrB15 (c : Dev nD) : FVec Ideal Cert.ReferenceIdeal.S1x128 .f32 := V c (Pipeline.arrRef spec15 3)
abbrev blkA15 (c : Dev nD) (t : Fin cfg15.N) : Vec Ideal S5000x128 .f32 := iblk15 V c 0 t
abbrev blkS15 (c : Dev nD) (t : Fin cfg15.N) : Vec Ideal S5000x1 .f32 := iblk15 V c 1 t
abbrev blkW15 (c : Dev nD) (t : Fin cfg15.N) : Vec Ideal S128x128 .f32 := iblk15 V c 2 t
abbrev blkB15 (c : Dev nD) (t : Fin cfg15.N) : Vec Ideal S1x128 .f32 := iblk15 V c 3 t

theorem rowsAt15 (c : Dev nD) (t : Fin cfg15.N) (p : Fin 5000) (k : Fin 128) (r : Fin 50000) (hr : r.val = t.val * 5000 + p.val) :
    blkA15 V c t (ix2 p k) = arrA15 V c (ix2 r k) := by
  obtain ⟨e0, e1, -⟩ := idx15 t
  show (iblk15 V c 0 t : Vec Ideal S5000x128 .f32) (ix2 p k) = (V c (Pipeline.arrRef spec15 0) : FVec Ideal S50000x128 .f32) (ix2 r k)
  unfold iblk15
  rw [View.read_apply]
  show (V c (Pipeline.arrRef spec15 0) : FVec Ideal S50000x128 .f32) _ = _
  refine congrArg _ (funext fun a => Fin.ext ?_)
  match a with
  | ⟨0, _⟩ => show win15_0.index t (0 : Fin 2) * 5000 + 1 * p.val = r.val; rw [e0, hr]; omega
  | ⟨1, _⟩ => show win15_0.index t (1 : Fin 2) * 128 + 1 * k.val = k.val; rw [e1]; omega

theorem colAt15 (c : Dev nD) (t : Fin cfg15.N) (p : Fin 5000) (r : Fin 50000) (hr : r.val = t.val * 5000 + p.val) :
    blkS15 V c t (ix2 p (0 : Fin 1)) = arrS15 V c (ix2 r (0 : Fin 1)) := by
  obtain ⟨-, -, e0, e1, -⟩ := idx15 t
  show (iblk15 V c 1 t : Vec Ideal S5000x1 .f32) (ix2 p (0 : Fin 1)) = (V c (Pipeline.arrRef spec15 1) : FVec Ideal S50000x1 .f32) (ix2 r (0 : Fin 1))
  unfold iblk15
  rw [View.read_apply]
  show (V c (Pipeline.arrRef spec15 1) : FVec Ideal S50000x1 .f32) _ = _
  refine congrArg _ (funext fun a => Fin.ext ?_)
  match a with
  | ⟨0, _⟩ => show win15_1.index t (0 : Fin 2) * 5000 + 1 * p.val = r.val; rw [e0, hr]; omega
  | ⟨1, _⟩ => show win15_1.index t (1 : Fin 2) * 1 + 1 * 0 = 0; rw [e1]

theorem matAt15 (c : Dev nD) (t : Fin cfg15.N) (k q : Fin 128) :
    blkW15 V c t (ix2 k q) = arrW15 V c (ix2 k q) := by
  obtain ⟨-, -, -, -, e0, e1, -⟩ := idx15 t
  show (iblk15 V c 2 t : Vec Ideal S128x128 .f32) (ix2 k q) = (V c (Pipeline.arrRef spec15 2) : FVec Ideal S128x128 .f32) (ix2 k q)
  unfold iblk15
  rw [View.read_apply]
  show (V c (Pipeline.arrRef spec15 2) : FVec Ideal S128x128 .f32) _ = _
  refine congrArg _ (funext fun a => Fin.ext ?_)
  match a with
  | ⟨0, _⟩ => show win15_2.index t (0 : Fin 2) * 128 + 1 * k.val = k.val; rw [e0]; omega
  | ⟨1, _⟩ => show win15_2.index t (1 : Fin 2) * 128 + 1 * q.val = q.val; rw [e1]; omega

theorem biasAt15 (c : Dev nD) (t : Fin cfg15.N) (q : Fin 128) :
    blkB15 V c t (ix2 (0 : Fin 1) q) = arrB15 V c (ix2 (0 : Fin 1) q) := by
  obtain ⟨-, -, -, -, -, -, e0, e1, -⟩ := idx15 t
  show (iblk15 V c 3 t : Vec Ideal S1x128 .f32) (ix2 (0 : Fin 1) q) = (V c (Pipeline.arrRef spec15 3) : FVec Ideal S1x128 .f32) (ix2 (0 : Fin 1) q)
  unfold iblk15
  rw [View.read_apply]
  show (V c (Pipeline.arrRef spec15 3) : FVec Ideal S1x128 .f32) _ = _
  refine congrArg _ (funext fun a => Fin.ext ?_)
  match a with
  | ⟨0, _⟩ => show win15_3.index t (0 : Fin 2) * 1 + 1 * 0 = 0; rw [e0]
  | ⟨1, _⟩ => show win15_3.index t (1 : Fin 2) * 128 + 1 * q.val = q.val; rw [e1]; omega

theorem flushed15_eq (c : Dev nD) (t : Fin cfg15.N) :
    (dat15 (F := Ideal) V c).flushed 4 t = ((cfg15.win 4).blk t).view.read (Elt Ideal)
      (Cert.RefSpec.denseBy (F := Ideal) (V c (Pipeline.arrRef spec15 0)) (V c (Pipeline.arrRef spec15 1))
        (V c (Pipeline.arrRef spec15 2)) (V c (Pipeline.arrRef spec15 3))) := by
  show (cfg15.win 4).cut (grid15.coords t) ((dat15 (F := Ideal) V c).after 4 t) = _
  rw [after15_4]
  unfold out15_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1, ht⟩ := idx15 t
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg15.win 4).blk t).view.emb (ix2 p q) = ix2 (⟨t.val * 5000 + p.val, hr⟩ : Fin 50000) q := by
    funext a; apply Fin.ext
    match a with
    | ⟨0, _⟩ => show win15_4.index t (0 : Fin 2) * 5000 + 1 * p.val = t.val * 5000 + p.val; rw [e0]; omega
    | ⟨1, _⟩ => show win15_4.index t (1 : Fin 2) * 128 + 1 * q.val = q.val; rw [e1]; omega
  rw [View.read_apply]
  show k15_pay1 (F := Ideal) (blkA15 V c t) (blkS15 V c t) (blkW15 V c t) (blkB15 V c t) (ix2 p q)
    = Cert.RefSpec.denseBy (F := Ideal) (arrA15 V c) (arrS15 V c) (arrW15 V c) (arrB15 V c) (((cfg15.win 4).blk t).view.emb (ix2 p q))
  rw [hemb]
  exact pay15_eq_dense (arrA15 V c) (arrS15 V c) (arrW15 V c) (arrB15 V c) (blkA15 V c t) (blkS15 V c t) (blkW15 V c t) (blkB15 V c t)
    p q ⟨t.val * 5000 + p.val, hr⟩
    (fun k => rowsAt15 V c t p k ⟨t.val * 5000 + p.val, hr⟩ rfl) (colAt15 V c t p ⟨t.val * 5000 + p.val, hr⟩ rfl)
    (fun k => matAt15 V c t k q) (biasAt15 V c t q)

theorem mem_blk15 (t : Fin cfg15.N) (i : S50000x128.Idx) :
    i ∈ ((cfg15.win 4).blk t).view.set ↔ ∀ a : Fin 2, win15_4.index t a * S5000x128.size a ≤ (i a).val ∧ (i a).val < win15_4.index t a * S5000x128.size a + S5000x128.size a := by
  show i ∈ ((View.whole (Pipeline.arrRef spec15 4)).slice (win15_4.rect t)).set ↔ _
  rw [View.set_slice_whole, Rect.mem_set_unit]
  exact Iff.rfl

theorem cover15 (i : S50000x128.Idx) :
    ∃ t : Fin cfg15.N, (cfg15.win 4).flush t = true ∧ i ∈ ((cfg15.win 4).blk t).view.set := by
  have h0 : (i 0).val < 50000 := (i 0).isLt
  have h1 : (i 1).val < 128 := (i 1).isLt
  have hN : cfg15.N = 10 := N_15
  have ht : (i 0).val / 5000 < cfg15.N := by rw [hN]; omega
  obtain ⟨-, -, -, -, -, -, -, -, e0, e1, -⟩ := idx15 ⟨(i 0).val / 5000, ht⟩
  refine ⟨⟨(i 0).val / 5000, ht⟩, flush15_4 _, ?_⟩
  rw [mem_blk15]
  intro a
  match a with
  | ⟨0, _⟩ =>
    show win15_4.index ⟨(i 0).val / 5000, ht⟩ (0 : Fin 2) * 5000 ≤ (i 0).val ∧ (i 0).val < win15_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win15_4.index ⟨(i 0).val / 5000, ht⟩ (1 : Fin 2) * 128 ≤ (i 1).val ∧ (i 1).val < win15_4.index ⟨(i 0).val / 5000, ht⟩ (1 : Fin 2) * 128 + 128
    rw [e1]; omega

theorem lin_val15 (c : Dev nD) :
    (dat15 (F := Ideal) V c).arrAt 4 cfg15.N = Cert.RefSpec.denseBy (F := Ideal) (V c (Pipeline.arrRef spec15 0))
      (V c (Pipeline.arrRef spec15 1)) (V c (Pipeline.arrRef spec15 2)) (V c (Pipeline.arrRef spec15 3)) :=
  (dat15 (F := Ideal) V c).arrAt_eq_of_cover 4 _ (fun t _ => flushed15_eq V c t) (cover15)

end Cert.KernelIdeal.Hand

end
-- ==== Proof.KIChain4.lean ====
import proofs.«413962_j523986010479_1_alg».proof.Proof.KIWalk
import proofs.«413962_j523986010479_1_alg».proof.Proof.KIVal12
import proofs.«413962_j523986010479_1_alg».proof.Proof.KIVal13
import proofs.«413962_j523986010479_1_alg».proof.Proof.KIVal14
import proofs.«413962_j523986010479_1_alg».proof.Proof.KIVal15
import proofs.«413962_j523986010479_1_alg».proof.Proof.KIPre
import proofs.«413962_j523986010479_1_alg».proof.Proof.KIAdapt
import proofs.«413962_j523986010479_1_alg».proof.Proof.RefSpec
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL Idealize.SL.Sem
open Cert.RefSpec (colOf rowOf deg scaleBy denseBy take segsum layer twoLayer tail)

section Stretch

variable {F : FTy → Type} [FloatOps F]

set_option maxHeartbeats 2000000 in
theorem g4_colO_of (U : Valuation τ sig (Elt F)) :
    StableHlo.after hostOps12 U (Proc.devRef .tc main_v104) = colOf (deg (U main_arg10)) := by
  after_results
  exact (colOf_eq _).trans (congrArg colOf (deg_eq _))
set_option maxHeartbeats 2000000 in
theorem g4_colI_of (U : Valuation τ sig (Elt F)) :
    StableHlo.after hostOps12 U (Proc.devRef .tc main_v113) = colOf (deg (U main_arg11)) := by
  after_results
  exact (colOf_eq _).trans (congrArg colOf (deg_eq _))
set_option maxHeartbeats 2000000 in
theorem g4_sA_of (U : Valuation τ sig (Elt F)) :
    StableHlo.after hostOps13_1 U (Proc.devRef .tc main_v118) = segsum (U main_arg11) (U main_v115) := by
  after_results
  exact segsum_eq _ _
set_option maxHeartbeats 2000000 in
theorem g4_rbA_of (U : Valuation τ sig (Elt F)) :
    StableHlo.after hostOps13_1 U (Proc.devRef .tc main_v119) = rowOf (U main_arg13) := by
  after_results
  exact rowOf_eq _
set_option maxHeartbeats 2000000 in
theorem g4_sC_of (U : Valuation τ sig (Elt F)) :
    StableHlo.after hostOps15_1 U (Proc.devRef .tc main_v125) = segsum (U main_arg11) (U main_v122) := by
  after_results
  exact segsum_eq _ _
set_option maxHeartbeats 2000000 in
theorem g4_rbC_of (U : Valuation τ sig (Elt F)) :
    StableHlo.after hostOps15_1 U (Proc.devRef .tc main_v126) = rowOf (U main_arg15) := by
  after_results
  exact rowOf_eq _

end Stretch

set_option maxHeartbeats 4000000 in
theorem g4_tA_of (U : Valuation τ sig (Elt Ideal)) :
    (StableHlo.after (hostOps13 (F := Ideal)) U main_v115 : (⟨S600000x128, .f32⟩ : BufTy).Contents (Elt Ideal)) = takeK (U main_v114) (U main_arg10) := by
  after_results_simp <;> (try simp only [StableHlo.TRef.ofBuf, StableHlo.TRef.toBuf, cast_eq]) <;> rfl
set_option maxHeartbeats 4000000 in
theorem g4_tC_of (U : Valuation τ sig (Elt Ideal)) :
    (StableHlo.after (hostOps15 (F := Ideal)) U main_v122 : (⟨S600000x128, .f32⟩ : BufTy).Contents (Elt Ideal)) = takeK (U main_v121) (U main_arg10) := by
  after_results_simp <;> (try simp only [StableHlo.TRef.ofBuf, StableHlo.TRef.toBuf, cast_eq]) <;> rfl

variable (m : (ℓ : Loc nD τ sig) → Buf (Elt Ideal) ℓ)

theorem g4_W0_at (c : Dev nD) (r : Ref sig .tc) : W0 m c r = m ((c.tc : Thread nD τ).loc r) := rfl

theorem g4_colO (c : Dev nD) : W28 m c main_v104 = colOf (deg (m ((c.tc : Thread nD τ).loc main_arg10))) := by
  unfold W28
  rw [g4_colO_of]
  exact congrArg (fun z => colOf (deg z)) (W27_kept m c main_arg10 arg10_kept)
theorem g4_colI (c : Dev nD) : W28 m c main_v113 = colOf (deg (m ((c.tc : Thread nD τ).loc main_arg11))) := by
  unfold W28
  rw [g4_colI_of]
  exact congrArg (fun z => colOf (deg z)) (W27_kept m c main_arg11 arg11_kept)
theorem g4_oA (c : Dev nD) : W29 m c main_v114 = scaleBy (m ((c.tc : Thread nD τ).loc main_arg9)) (colOf (deg (m ((c.tc : Thread nD τ).loc main_arg10)))) := by
  rw [W29_out, scale_val12]
  show scaleBy (W28 m c main_arg9) (W28 m c main_v104) = _
  rw [g4_colO, (W28_kept m c main_arg9 arg9_kept)]
theorem g4_tA (h : Cert.Pre_KernelIdeal m) (c : Dev nD) : W30 m c main_v115 = take (scaleBy (m ((c.tc : Thread nD τ).loc main_arg9)) (colOf (deg (m ((c.tc : Thread nD τ).loc main_arg10))))) (m ((c.tc : Thread nD τ).loc main_arg10)) := by
  unfold W30
  rw [g4_tA_of, g4_oA, (W29_kept m c main_arg10 arg10_kept)]
  exact takeK_eq _ _ (src10_inb m h c)
theorem g4_sA (h : Cert.Pre_KernelIdeal m) (c : Dev nD) : W31 m c main_v118 = segsum (m ((c.tc : Thread nD τ).loc main_arg11)) (take (scaleBy (m ((c.tc : Thread nD τ).loc main_arg9)) (colOf (deg (m ((c.tc : Thread nD τ).loc main_arg10))))) (m ((c.tc : Thread nD τ).loc main_arg10))) := by
  unfold W31
  rw [g4_sA_of, g4_tA m h, (W30_kept m c main_arg11 arg11_kept)]
theorem g4_rbA (c : Dev nD) : W31 m c main_v119 = rowOf (m ((c.tc : Thread nD τ).loc main_arg13)) := by
  unfold W31
  rw [g4_rbA_of, (W30_kept m c main_arg13 arg13_kept)]
theorem g4_oB (h : Cert.Pre_KernelIdeal m) (c : Dev nD) : W32 m c main_v120 = layer (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [W32_out, lin_val13]
  show denseBy (W31 m c main_v118) (W31 m c main_v113) (W31 m c main_arg12) (W31 m c main_v119) = _
  rw [g4_sA m h, (((W31_of m c main_v113 (by decide)).trans ((W30_of m c main_v113 (by decide)).trans (W29_of_ne m c main_v113 (by decide))))).trans (g4_colI m c), (W31_kept m c main_arg12 arg12_kept), g4_rbA]
  rfl
theorem g4_oC (h : Cert.Pre_KernelIdeal m) (c : Dev nD) : W33 m c main_v121 = scaleBy (layer (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (colOf (deg (m ((c.tc : Thread nD τ).loc main_arg10)))) := by
  rw [W33_out, scale_val14]
  show scaleBy (W32 m c main_v120) (W32 m c main_v104) = _
  rw [g4_oB m h, (((W32_of_ne m c main_v104 (by decide)).trans ((W31_of m c main_v104 (by decide)).trans ((W30_of m c main_v104 (by decide)).trans (W29_of_ne m c main_v104 (by decide)))))).trans (g4_colO m c)]
theorem g4_tC (h : Cert.Pre_KernelIdeal m) (c : Dev nD) : W34 m c main_v122 = take (scaleBy (layer (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (colOf (deg (m ((c.tc : Thread nD τ).loc main_arg10))))) (m ((c.tc : Thread nD τ).loc main_arg10)) := by
  unfold W34
  rw [g4_tC_of, g4_oC m h, (W33_kept m c main_arg10 arg10_kept)]
  exact takeK_eq _ _ (src10_inb m h c)
theorem g4_sC (h : Cert.Pre_KernelIdeal m) (c : Dev nD) : W35 m c main_v125 = segsum (m ((c.tc : Thread nD τ).loc main_arg11)) (take (scaleBy (layer (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (colOf (deg (m ((c.tc : Thread nD τ).loc main_arg10))))) (m ((c.tc : Thread nD τ).loc main_arg10))) := by
  unfold W35
  rw [g4_sC_of, g4_tC m h, (W34_kept m c main_arg11 arg11_kept)]
theorem g4_rbC (c : Dev nD) : W35 m c main_v126 = rowOf (m ((c.tc : Thread nD τ).loc main_arg15)) := by
  unfold W35
  rw [g4_rbC_of, (W34_kept m c main_arg15 arg15_kept)]

theorem g4_oD (h : Cert.Pre_KernelIdeal m) (c : Dev nD) : W36 m c main_v127 = twoLayer (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [W36_out, lin_val15]
  show denseBy (W35 m c main_v125) (W35 m c main_v113) (W35 m c main_arg14) (W35 m c main_v126) = _
  rw [g4_sC m h, (((W35_of m c main_v113 (by decide)).trans ((W34_of m c main_v113 (by decide)).trans ((W33_of_ne m c main_v113 (by decide)).trans ((W32_of_ne m c main_v113 (by decide)).trans ((W31_of m c main_v113 (by decide)).trans ((W30_of m c main_v113 (by decide)).trans (W29_of_ne m c main_v113 (by decide))))))))).trans (g4_colI m c), (W35_kept m c main_arg14 arg14_kept), g4_rbC]
  rfl

end Cert.KernelIdeal.Hand

end
-- ==== Proof.KIChainT.lean ====
import proofs.«413962_j523986010479_1_alg».proof.Proof.KIWalk
import proofs.«413962_j523986010479_1_alg».proof.Proof.KIChain1
import proofs.«413962_j523986010479_1_alg».proof.Proof.KIChain2
import proofs.«413962_j523986010479_1_alg».proof.Proof.KIChain3
import proofs.«413962_j523986010479_1_alg».proof.Proof.KIChain4
import proofs.«413962_j523986010479_1_alg».proof.Proof.KIPre
import proofs.«413962_j523986010479_1_alg».proof.Proof.KIAdapt
import proofs.«413962_j523986010479_1_alg».proof.Proof.RefSpec
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL Idealize.SL.Sem
open Cert.RefSpec (colOf rowOf deg scaleBy denseBy take segsum layer twoLayer tail)

section Stretch

variable {F : FTy → Type} [FloatOps F]

set_option maxHeartbeats 2000000 in
theorem tail_of (U : Valuation τ sig (Elt F)) :
    StableHlo.after hostOps16 U (Proc.devRef .tc main_v133) = tail (U main_v31) (U main_v63) (U main_v95) (U main_v127) := by
  after_results
  exact tail_eq _ _ _ _

end Stretch

variable (m : (ℓ : Loc nD τ sig) → Buf (Elt Ideal) ℓ)

theorem kernel_result (h : Cert.Pre_KernelIdeal m) (c : Dev nD) :
    W37 m c main_v133 = tail (twoLayer (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13)) (m ((c.tc : Thread nD τ).loc main_arg14)) (m ((c.tc : Thread nD τ).loc main_arg15))) (twoLayer (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15))) (twoLayer (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) (m ((c.tc : Thread nD τ).loc main_arg15))) (twoLayer (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  unfold W37
  rw [tail_of]
  rw [(((W36_of_ne m c main_v31 (by decide)).trans ((W35_of m c main_v31 (by decide)).trans ((W34_of m c main_v31 (by decide)).trans ((W33_of_ne m c main_v31 (by decide)).trans ((W32_of_ne m c main_v31 (by decide)).trans ((W31_of m c main_v31 (by decide)).trans ((W30_of m c main_v31 (by decide)).trans ((W29_of_ne m c main_v31 (by decide)).trans ((W28_of m c main_v31 (by decide)).trans ((W27_of_ne m c main_v31 (by decide)).trans ((W26_of m c main_v31 (by decide)).trans ((W25_of m c main_v31 (by decide)).trans ((W24_of_ne m c main_v31 (by decide)).trans ((W23_of_ne m c main_v31 (by decide)).trans ((W22_of m c main_v31 (by decide)).trans ((W21_of m c main_v31 (by decide)).trans ((W20_of_ne m c main_v31 (by decide)).trans ((W19_of m c main_v31 (by decide)).trans ((W18_of_ne m c main_v31 (by decide)).trans ((W17_of m c main_v31 (by decide)).trans ((W16_of m c main_v31 (by decide)).trans ((W15_of_ne m c main_v31 (by decide)).trans ((W14_of_ne m c main_v31 (by decide)).trans ((W13_of m c main_v31 (by decide)).trans ((W12_of m c main_v31 (by decide)).trans ((W11_of_ne m c main_v31 (by decide)).trans (W10_of m c main_v31 (by decide))))))))))))))))))))))))))))).trans (g1_oD m h c), (((W36_of_ne m c main_v63 (by decide)).trans ((W35_of m c main_v63 (by decide)).trans ((W34_of m c main_v63 (by decide)).trans ((W33_of_ne m c main_v63 (by decide)).trans ((W32_of_ne m c main_v63 (by decide)).trans ((W31_of m c main_v63 (by decide)).trans ((W30_of m c main_v63 (by decide)).trans ((W29_of_ne m c main_v63 (by decide)).trans ((W28_of m c main_v63 (by decide)).trans ((W27_of_ne m c main_v63 (by decide)).trans ((W26_of m c main_v63 (by decide)).trans ((W25_of m c main_v63 (by decide)).trans ((W24_of_ne m c main_v63 (by decide)).trans ((W23_of_ne m c main_v63 (by decide)).trans ((W22_of m c main_v63 (by decide)).trans ((W21_of m c main_v63 (by decide)).trans ((W20_of_ne m c main_v63 (by decide)).trans (W19_of m c main_v63 (by decide)))))))))))))))))))).trans (g2_oD m h c), (((W36_of_ne m c main_v95 (by decide)).trans ((W35_of m c main_v95 (by decide)).trans ((W34_of m c main_v95 (by decide)).trans ((W33_of_ne m c main_v95 (by decide)).trans ((W32_of_ne m c main_v95 (by decide)).trans ((W31_of m c main_v95 (by decide)).trans ((W30_of m c main_v95 (by decide)).trans ((W29_of_ne m c main_v95 (by decide)).trans (W28_of m c main_v95 (by decide))))))))))).trans (g3_oD m h c), (rfl).trans (g4_oD m h c)]

end Cert.KernelIdeal.Hand

end
-- ==== Proof.RefRun.lean ====
import proofs.«413962_j523986010479_1_alg».proof.Proof.RefRun1
import proofs.«413962_j523986010479_1_alg».proof.Proof.RefSpec
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

theorem opsL1_fresh : (opsL1 : List (HloOp τ sig (Elt F))).Forall fun op => op.fresh = ∅ := by
  unfold opsL1; simp only [List.Forall]; repeat' constructor

abbrev opsL1_W : List (Ref sig .tc) := [main_cst, main_v0, main_cst_0, main_v1, main_v2, main_v3, main_cst_1, main_v4, main_v5, main_cst_2, main_v6, main_v7, main_v8, main_cst_3, main_v9, main_v10, main_cst_4, main_v11, main_v12, main_v13, main_v14, main_v15, main_c, main_v16, main_v17, main_c_5, main_v18, main_v19, main_v20, main_v21, main_v22, main_cst_6, main_v23, main_v24, main_v25, main_cst_7, main_v26, main_v27, main_v28, main_v29, main_v30, main_v31, main_v32, main_v33, main_v34, main_call0_cst, main_call0_v0, main_v35]

theorem opsL1_writes : (opsL1 : List (HloOp τ sig (Elt F))).Forall fun op => op.writes ⊆ (opsL1_W.map (Proc.devRef (τ := τ) .tc)).toFinset := by
  unfold opsL1; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL1_keep (W : Valuation τ sig (Elt F)) {r : Ref sig .tc} (h : r ∉ opsL1_W) :
    after (opsL1 (F := F)) W (Proc.devRef .tc r) = W (Proc.devRef .tc r) :=
  after_of_writes_sub _ W opsL1_writes h

theorem opsL1_keep' (W : Valuation τ sig (Elt F)) {r : Ref sig .tc} (h : r ∉ opsL1_W) :
    after (opsL1 (F := F)) W (no_index (Proc.devRef .tc r)) = W (Proc.devRef .tc r) :=
  opsL1_keep W h

theorem opsL1_out (W : Valuation τ sig (Elt F)) :
    after (opsL1 (F := F)) W (Proc.devRef .tc main_v35)
      = Cert.RefSpec.layer (W (Proc.devRef .tc main_arg0)) (W (Proc.devRef .tc main_arg1)) (W (Proc.devRef .tc main_arg2)) (W (Proc.devRef .tc main_arg12)) (W (Proc.devRef .tc main_arg13)) := by
  unfold opsL1
  after_results_simp <;> (try simp only [TRef.ofBuf, TRef.toBuf, cast_eq]) <;> rfl

theorem opsL1_out' (W : Valuation τ sig (Elt F)) :
    after (opsL1 (F := F)) W (no_index (Proc.devRef .tc main_v35))
      = Cert.RefSpec.layer (W (Proc.devRef .tc main_arg0)) (W (Proc.devRef .tc main_arg1)) (W (Proc.devRef .tc main_arg2)) (W (Proc.devRef .tc main_arg12)) (W (Proc.devRef .tc main_arg13)) :=
  opsL1_out W

theorem opsL2_fresh : (opsL2 : List (HloOp τ sig (Elt F))).Forall fun op => op.fresh = ∅ := by
  unfold opsL2; simp only [List.Forall]; repeat' constructor

abbrev opsL2_W : List (Ref sig .tc) := [main_cst_8, main_v36, main_cst_9, main_v37, main_v38, main_v39, main_cst_10, main_v40, main_v41, main_cst_11, main_v42, main_v43, main_v44, main_cst_12, main_v45, main_v46, main_cst_13, main_v47, main_v48, main_v49, main_v50, main_v51, main_c_14, main_v52, main_v53, main_c_15, main_v54, main_v55, main_v56, main_v57, main_v58, main_cst_16, main_v59, main_v60, main_v61, main_cst_17, main_v62, main_v63, main_v64, main_v65, main_v66, main_v67, main_v68, main_v69, main_v70, main_call1_cst, main_call1_v0, main_v71]

theorem opsL2_writes : (opsL2 : List (HloOp τ sig (Elt F))).Forall fun op => op.writes ⊆ (opsL2_W.map (Proc.devRef (τ := τ) .tc)).toFinset := by
  unfold opsL2; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL2_keep (W : Valuation τ sig (Elt F)) {r : Ref sig .tc} (h : r ∉ opsL2_W) :
    after (opsL2 (F := F)) W (Proc.devRef .tc r) = W (Proc.devRef .tc r) :=
  after_of_writes_sub _ W opsL2_writes h

theorem opsL2_keep' (W : Valuation τ sig (Elt F)) {r : Ref sig .tc} (h : r ∉ opsL2_W) :
    after (opsL2 (F := F)) W (no_index (Proc.devRef .tc r)) = W (Proc.devRef .tc r) :=
  opsL2_keep W h

theorem opsL2_out (W : Valuation τ sig (Elt F)) :
    after (opsL2 (F := F)) W (Proc.devRef .tc main_v71)
      = Cert.RefSpec.layer (W (Proc.devRef .tc main_v35)) (W (Proc.devRef .tc main_arg1)) (W (Proc.devRef .tc main_arg2)) (W (Proc.devRef .tc main_arg14)) (W (Proc.devRef .tc main_arg15)) := by
  unfold opsL2
  after_results_simp <;> (try simp only [TRef.ofBuf, TRef.toBuf, cast_eq]) <;> rfl

theorem opsL2_out' (W : Valuation τ sig (Elt F)) :
    after (opsL2 (F := F)) W (no_index (Proc.devRef .tc main_v71))
      = Cert.RefSpec.layer (W (Proc.devRef .tc main_v35)) (W (Proc.devRef .tc main_arg1)) (W (Proc.devRef .tc main_arg2)) (W (Proc.devRef .tc main_arg14)) (W (Proc.devRef .tc main_arg15)) :=
  opsL2_out W

theorem opsL3_fresh : (opsL3 : List (HloOp τ sig (Elt F))).Forall fun op => op.fresh = ∅ := by
  unfold opsL3; simp only [List.Forall]; repeat' constructor

abbrev opsL3_W : List (Ref sig .tc) := [main_cst_18, main_v72, main_cst_19, main_v73, main_v74, main_v75, main_cst_20, main_v76, main_v77, main_cst_21, main_v78, main_v79, main_v80, main_cst_22, main_v81, main_v82, main_cst_23, main_v83, main_v84, main_v85, main_v86, main_v87, main_c_24, main_v88, main_v89, main_c_25, main_v90, main_v91, main_v92, main_v93, main_v94, main_cst_26, main_v95, main_v96, main_v97, main_cst_27, main_v98, main_v99, main_v100, main_v101, main_v102, main_v103, main_v104, main_v105, main_v106, main_call2_cst, main_call2_v0, main_v107]

theorem opsL3_writes : (opsL3 : List (HloOp τ sig (Elt F))).Forall fun op => op.writes ⊆ (opsL3_W.map (Proc.devRef (τ := τ) .tc)).toFinset := by
  unfold opsL3; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL3_keep (W : Valuation τ sig (Elt F)) {r : Ref sig .tc} (h : r ∉ opsL3_W) :
    after (opsL3 (F := F)) W (Proc.devRef .tc r) = W (Proc.devRef .tc r) :=
  after_of_writes_sub _ W opsL3_writes h

theorem opsL3_keep' (W : Valuation τ sig (Elt F)) {r : Ref sig .tc} (h : r ∉ opsL3_W) :
    after (opsL3 (F := F)) W (no_index (Proc.devRef .tc r)) = W (Proc.devRef .tc r) :=
  opsL3_keep W h

theorem opsL3_out (W : Valuation τ sig (Elt F)) :
    after (opsL3 (F := F)) W (Proc.devRef .tc main_v107)
      = Cert.RefSpec.layer (W (Proc.devRef .tc main_arg3)) (W (Proc.devRef .tc main_arg4)) (W (Proc.devRef .tc main_arg5)) (W (Proc.devRef .tc main_arg12)) (W (Proc.devRef .tc main_arg13)) := by
  unfold opsL3
  after_results_simp <;> (try simp only [TRef.ofBuf, TRef.toBuf, cast_eq]) <;> rfl

theorem opsL3_out' (W : Valuation τ sig (Elt F)) :
    after (opsL3 (F := F)) W (no_index (Proc.devRef .tc main_v107))
      = Cert.RefSpec.layer (W (Proc.devRef .tc main_arg3)) (W (Proc.devRef .tc main_arg4)) (W (Proc.devRef .tc main_arg5)) (W (Proc.devRef .tc main_arg12)) (W (Proc.devRef .tc main_arg13)) :=
  opsL3_out W

theorem opsL4_fresh : (opsL4 : List (HloOp τ sig (Elt F))).Forall fun op => op.fresh = ∅ := by
  unfold opsL4; simp only [List.Forall]; repeat' constructor

abbrev opsL4_W : List (Ref sig .tc) := [main_cst_28, main_v108, main_cst_29, main_v109, main_v110, main_v111, main_cst_30, main_v112, main_v113, main_cst_31, main_v114, main_v115, main_v116, main_cst_32, main_v117, main_v118, main_cst_33, main_v119, main_v120, main_v121, main_v122, main_v123, main_c_34, main_v124, main_v125, main_c_35, main_v126, main_v127, main_v128, main_v129, main_v130, main_cst_36, main_v131, main_v132, main_v133, main_cst_37, main_v134, main_v135, main_v136, main_v137, main_v138, main_v139, main_v140, main_v141, main_v142, main_call3_cst, main_call3_v0, main_v143]

theorem opsL4_writes : (opsL4 : List (HloOp τ sig (Elt F))).Forall fun op => op.writes ⊆ (opsL4_W.map (Proc.devRef (τ := τ) .tc)).toFinset := by
  unfold opsL4; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL4_keep (W : Valuation τ sig (Elt F)) {r : Ref sig .tc} (h : r ∉ opsL4_W) :
    after (opsL4 (F := F)) W (Proc.devRef .tc r) = W (Proc.devRef .tc r) :=
  after_of_writes_sub _ W opsL4_writes h

theorem opsL4_keep' (W : Valuation τ sig (Elt F)) {r : Ref sig .tc} (h : r ∉ opsL4_W) :
    after (opsL4 (F := F)) W (no_index (Proc.devRef .tc r)) = W (Proc.devRef .tc r) :=
  opsL4_keep W h

theorem opsL4_out (W : Valuation τ sig (Elt F)) :
    after (opsL4 (F := F)) W (Proc.devRef .tc main_v143)
      = Cert.RefSpec.layer (W (Proc.devRef .tc main_v107)) (W (Proc.devRef .tc main_arg4)) (W (Proc.devRef .tc main_arg5)) (W (Proc.devRef .tc main_arg14)) (W (Proc.devRef .tc main_arg15)) := by
  unfold opsL4
  after_results_simp <;> (try simp only [TRef.ofBuf, TRef.toBuf, cast_eq]) <;> rfl

theorem opsL4_out' (W : Valuation τ sig (Elt F)) :
    after (opsL4 (F := F)) W (no_index (Proc.devRef .tc main_v143))
      = Cert.RefSpec.layer (W (Proc.devRef .tc main_v107)) (W (Proc.devRef .tc main_arg4)) (W (Proc.devRef .tc main_arg5)) (W (Proc.devRef .tc main_arg14)) (W (Proc.devRef .tc main_arg15)) :=
  opsL4_out W

theorem opsL5_fresh : (opsL5 : List (HloOp τ sig (Elt F))).Forall fun op => op.fresh = ∅ := by
  unfold opsL5; simp only [List.Forall]; repeat' constructor

abbrev opsL5_W : List (Ref sig .tc) := [main_cst_38, main_v144, main_cst_39, main_v145, main_v146, main_v147, main_cst_40, main_v148, main_v149, main_cst_41, main_v150, main_v151, main_v152, main_cst_42, main_v153, main_v154, main_cst_43, main_v155, main_v156, main_v157, main_v158, main_v159, main_c_44, main_v160, main_v161, main_c_45, main_v162, main_v163, main_v164, main_v165, main_v166, main_cst_46, main_v167, main_v168, main_v169, main_cst_47, main_v170, main_v171, main_v172, main_v173, main_v174, main_v175, main_v176, main_v177, main_v178, main_call4_cst, main_call4_v0, main_v179]

theorem opsL5_writes : (opsL5 : List (HloOp τ sig (Elt F))).Forall fun op => op.writes ⊆ (opsL5_W.map (Proc.devRef (τ := τ) .tc)).toFinset := by
  unfold opsL5; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL5_keep (W : Valuation τ sig (Elt F)) {r : Ref sig .tc} (h : r ∉ opsL5_W) :
    after (opsL5 (F := F)) W (Proc.devRef .tc r) = W (Proc.devRef .tc r) :=
  after_of_writes_sub _ W opsL5_writes h

theorem opsL5_keep' (W : Valuation τ sig (Elt F)) {r : Ref sig .tc} (h : r ∉ opsL5_W) :
    after (opsL5 (F := F)) W (no_index (Proc.devRef .tc r)) = W (Proc.devRef .tc r) :=
  opsL5_keep W h

theorem opsL5_out (W : Valuation τ sig (Elt F)) :
    after (opsL5 (F := F)) W (Proc.devRef .tc main_v179)
      = Cert.RefSpec.layer (W (Proc.devRef .tc main_arg6)) (W (Proc.devRef .tc main_arg7)) (W (Proc.devRef .tc main_arg8)) (W (Proc.devRef .tc main_arg12)) (W (Proc.devRef .tc main_arg13)) := by
  unfold opsL5
  after_results_simp <;> (try simp only [TRef.ofBuf, TRef.toBuf, cast_eq]) <;> rfl

theorem opsL5_out' (W : Valuation τ sig (Elt F)) :
    after (opsL5 (F := F)) W (no_index (Proc.devRef .tc main_v179))
      = Cert.RefSpec.layer (W (Proc.devRef .tc main_arg6)) (W (Proc.devRef .tc main_arg7)) (W (Proc.devRef .tc main_arg8)) (W (Proc.devRef .tc main_arg12)) (W (Proc.devRef .tc main_arg13)) :=
  opsL5_out W

theorem opsL6_fresh : (opsL6 : List (HloOp τ sig (Elt F))).Forall fun op => op.fresh = ∅ := by
  unfold opsL6; simp only [List.Forall]; repeat' constructor

abbrev opsL6_W : List (Ref sig .tc) := [main_cst_48, main_v180, main_cst_49, main_v181, main_v182, main_v183, main_cst_50, main_v184, main_v185, main_cst_51, main_v186, main_v187, main_v188, main_cst_52, main_v189, main_v190, main_cst_53, main_v191, main_v192, main_v193, main_v194, main_v195, main_c_54, main_v196, main_v197, main_c_55, main_v198, main_v199, main_v200, main_v201, main_v202, main_cst_56, main_v203, main_v204, main_v205, main_cst_57, main_v206, main_v207, main_v208, main_v209, main_v210, main_v211, main_v212, main_v213, main_v214, main_call5_cst, main_call5_v0, main_v215]

theorem opsL6_writes : (opsL6 : List (HloOp τ sig (Elt F))).Forall fun op => op.writes ⊆ (opsL6_W.map (Proc.devRef (τ := τ) .tc)).toFinset := by
  unfold opsL6; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL6_keep (W : Valuation τ sig (Elt F)) {r : Ref sig .tc} (h : r ∉ opsL6_W) :
    after (opsL6 (F := F)) W (Proc.devRef .tc r) = W (Proc.devRef .tc r) :=
  after_of_writes_sub _ W opsL6_writes h

theorem opsL6_keep' (W : Valuation τ sig (Elt F)) {r : Ref sig .tc} (h : r ∉ opsL6_W) :
    after (opsL6 (F := F)) W (no_index (Proc.devRef .tc r)) = W (Proc.devRef .tc r) :=
  opsL6_keep W h

theorem opsL6_out (W : Valuation τ sig (Elt F)) :
    after (opsL6 (F := F)) W (Proc.devRef .tc main_v215)
      = Cert.RefSpec.layer (W (Proc.devRef .tc main_v179)) (W (Proc.devRef .tc main_arg7)) (W (Proc.devRef .tc main_arg8)) (W (Proc.devRef .tc main_arg14)) (W (Proc.devRef .tc main_arg15)) := by
  unfold opsL6
  after_results_simp <;> (try simp only [TRef.ofBuf, TRef.toBuf, cast_eq]) <;> rfl

theorem opsL6_out' (W : Valuation τ sig (Elt F)) :
    after (opsL6 (F := F)) W (no_index (Proc.devRef .tc main_v215))
      = Cert.RefSpec.layer (W (Proc.devRef .tc main_v179)) (W (Proc.devRef .tc main_arg7)) (W (Proc.devRef .tc main_arg8)) (W (Proc.devRef .tc main_arg14)) (W (Proc.devRef .tc main_arg15)) :=
  opsL6_out W

theorem opsL7_fresh : (opsL7 : List (HloOp τ sig (Elt F))).Forall fun op => op.fresh = ∅ := by
  unfold opsL7; simp only [List.Forall]; repeat' constructor

abbrev opsL7_W : List (Ref sig .tc) := [main_cst_58, main_v216, main_cst_59, main_v217, main_v218, main_v219, main_cst_60, main_v220, main_v221, main_cst_61, main_v222, main_v223, main_v224, main_cst_62, main_v225, main_v226, main_cst_63, main_v227, main_v228, main_v229, main_v230, main_v231, main_c_64, main_v232, main_v233, main_c_65, main_v234, main_v235, main_v236, main_v237, main_v238, main_cst_66, main_v239, main_v240, main_v241, main_cst_67, main_v242, main_v243, main_v244, main_v245, main_v246, main_v247, main_v248, main_v249, main_v250, main_call6_cst, main_call6_v0, main_v251]

theorem opsL7_writes : (opsL7 : List (HloOp τ sig (Elt F))).Forall fun op => op.writes ⊆ (opsL7_W.map (Proc.devRef (τ := τ) .tc)).toFinset := by
  unfold opsL7; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL7_keep (W : Valuation τ sig (Elt F)) {r : Ref sig .tc} (h : r ∉ opsL7_W) :
    after (opsL7 (F := F)) W (Proc.devRef .tc r) = W (Proc.devRef .tc r) :=
  after_of_writes_sub _ W opsL7_writes h

theorem opsL7_keep' (W : Valuation τ sig (Elt F)) {r : Ref sig .tc} (h : r ∉ opsL7_W) :
    after (opsL7 (F := F)) W (no_index (Proc.devRef .tc r)) = W (Proc.devRef .tc r) :=
  opsL7_keep W h

theorem opsL7_out (W : Valuation τ sig (Elt F)) :
    after (opsL7 (F := F)) W (Proc.devRef .tc main_v251)
      = Cert.RefSpec.layer (W (Proc.devRef .tc main_arg9)) (W (Proc.devRef .tc main_arg10)) (W (Proc.devRef .tc main_arg11)) (W (Proc.devRef .tc main_arg12)) (W (Proc.devRef .tc main_arg13)) := by
  unfold opsL7
  after_results_simp <;> (try simp only [TRef.ofBuf, TRef.toBuf, cast_eq]) <;> rfl

theorem opsL7_out' (W : Valuation τ sig (Elt F)) :
    after (opsL7 (F := F)) W (no_index (Proc.devRef .tc main_v251))
      = Cert.RefSpec.layer (W (Proc.devRef .tc main_arg9)) (W (Proc.devRef .tc main_arg10)) (W (Proc.devRef .tc main_arg11)) (W (Proc.devRef .tc main_arg12)) (W (Proc.devRef .tc main_arg13)) :=
  opsL7_out W

theorem opsL8_fresh : (opsL8 : List (HloOp τ sig (Elt F))).Forall fun op => op.fresh = ∅ := by
  unfold opsL8; simp only [List.Forall]; repeat' constructor

abbrev opsL8_W : List (Ref sig .tc) := [main_cst_68, main_v252, main_cst_69, main_v253, main_v254, main_v255, main_cst_70, main_v256, main_v257, main_cst_71, main_v258, main_v259, main_v260, main_cst_72, main_v261, main_v262, main_cst_73, main_v263, main_v264, main_v265, main_v266, main_v267, main_c_74, main_v268, main_v269, main_c_75, main_v270, main_v271, main_v272, main_v273, main_v274, main_cst_76, main_v275, main_v276, main_v277, main_cst_77, main_v278, main_v279, main_v280, main_v281, main_v282, main_v283, main_v284, main_v285, main_v286, main_call7_cst, main_call7_v0, main_v287]

theorem opsL8_writes : (opsL8 : List (HloOp τ sig (Elt F))).Forall fun op => op.writes ⊆ (opsL8_W.map (Proc.devRef (τ := τ) .tc)).toFinset := by
  unfold opsL8; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsL8_keep (W : Valuation τ sig (Elt F)) {r : Ref sig .tc} (h : r ∉ opsL8_W) :
    after (opsL8 (F := F)) W (Proc.devRef .tc r) = W (Proc.devRef .tc r) :=
  after_of_writes_sub _ W opsL8_writes h

theorem opsL8_keep' (W : Valuation τ sig (Elt F)) {r : Ref sig .tc} (h : r ∉ opsL8_W) :
    after (opsL8 (F := F)) W (no_index (Proc.devRef .tc r)) = W (Proc.devRef .tc r) :=
  opsL8_keep W h

theorem opsL8_out (W : Valuation τ sig (Elt F)) :
    after (opsL8 (F := F)) W (Proc.devRef .tc main_v287)
      = Cert.RefSpec.layer (W (Proc.devRef .tc main_v251)) (W (Proc.devRef .tc main_arg10)) (W (Proc.devRef .tc main_arg11)) (W (Proc.devRef .tc main_arg14)) (W (Proc.devRef .tc main_arg15)) := by
  unfold opsL8
  after_results_simp <;> (try simp only [TRef.ofBuf, TRef.toBuf, cast_eq]) <;> rfl

theorem opsL8_out' (W : Valuation τ sig (Elt F)) :
    after (opsL8 (F := F)) W (no_index (Proc.devRef .tc main_v287))
      = Cert.RefSpec.layer (W (Proc.devRef .tc main_v251)) (W (Proc.devRef .tc main_arg10)) (W (Proc.devRef .tc main_arg11)) (W (Proc.devRef .tc main_arg14)) (W (Proc.devRef .tc main_arg15)) :=
  opsL8_out W

theorem opsT_fresh : (opsT : List (HloOp τ sig (Elt F))).Forall fun op => op.fresh = ∅ := by
  unfold opsT; simp only [List.Forall]; repeat' constructor

abbrev opsT_W : List (Ref sig .tc) := [main_v288, main_cst_78, main_v289, main_cst_79, main_v290, main_v291, main_cst_80, main_v292, main_cst_81, main_v293]

theorem opsT_writes : (opsT : List (HloOp τ sig (Elt F))).Forall fun op => op.writes ⊆ (opsT_W.map (Proc.devRef (τ := τ) .tc)).toFinset := by
  unfold opsT; simp only [List.Forall]; repeat' constructor
  all_goals (simp only [StableHlo.nullary_writes, StableHlo.unary_writes, StableHlo.binary_writes, StableHlo.ternary_writes, StableHlo.nary_writes, Finset.singleton_subset_iff, List.mem_toFinset]; exact List.mem_map_of_mem (by decide))

theorem opsT_keep (W : Valuation τ sig (Elt F)) {r : Ref sig .tc} (h : r ∉ opsT_W) :
    after (opsT (F := F)) W (Proc.devRef .tc r) = W (Proc.devRef .tc r) :=
  after_of_writes_sub _ W opsT_writes h

theorem opsT_keep' (W : Valuation τ sig (Elt F)) {r : Ref sig .tc} (h : r ∉ opsT_W) :
    after (opsT (F := F)) W (no_index (Proc.devRef .tc r)) = W (Proc.devRef .tc r) :=
  opsT_keep W h

theorem opsT_out (W : Valuation τ sig (Elt F)) :
    after (opsT (F := F)) W (Proc.devRef .tc main_v293)
      = Cert.RefSpec.tail (W (Proc.devRef .tc main_v71)) (W (Proc.devRef .tc main_v143)) (W (Proc.devRef .tc main_v215)) (W (Proc.devRef .tc main_v287)) := by
  unfold opsT
  after_results_simp <;> rfl

theorem opsT_out' (W : Valuation τ sig (Elt F)) :
    after (opsT (F := F)) W (no_index (Proc.devRef .tc main_v293))
      = Cert.RefSpec.tail (W (Proc.devRef .tc main_v71)) (W (Proc.devRef .tc main_v143)) (W (Proc.devRef .tc main_v215)) (W (Proc.devRef .tc main_v287)) :=
  opsT_out W

def ops : List (HloOp τ sig (Elt F)) :=
  opsL1 ++ (opsL2 ++ (opsL3 ++ (opsL4 ++ (opsL5 ++ (opsL6 ++ (opsL7 ++ (opsL8 ++ (opsT))))))))

set_option maxRecDepth 8192 in
set_option maxHeartbeats 4000000 in
theorem main_eq (c : Dev nD) : main (F := F) c = seq ops := by
  chain_rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  exact List.forall_append.2 ⟨opsL1_sub, List.forall_append.2 ⟨opsL2_sub, List.forall_append.2 ⟨opsL3_sub, List.forall_append.2 ⟨opsL4_sub, List.forall_append.2 ⟨opsL5_sub, List.forall_append.2 ⟨opsL6_sub, List.forall_append.2 ⟨opsL7_sub, List.forall_append.2 ⟨opsL8_sub, opsT_sub⟩⟩⟩⟩⟩⟩⟩⟩

theorem ops_fresh : (ops : List (HloOp τ sig (Elt F))).Forall fun op => op.fresh = ∅ := by
  unfold ops
  exact List.forall_append.2 ⟨opsL1_fresh, List.forall_append.2 ⟨opsL2_fresh, List.forall_append.2 ⟨opsL3_fresh, List.forall_append.2 ⟨opsL4_fresh, List.forall_append.2 ⟨opsL5_fresh, List.forall_append.2 ⟨opsL6_fresh, List.forall_append.2 ⟨opsL7_fresh, List.forall_append.2 ⟨opsL8_fresh, opsT_fresh⟩⟩⟩⟩⟩⟩⟩⟩

theorem after_ops (V : Valuation τ sig (Elt F)) :
    after (ops (F := F)) V = after opsT (after opsL8 (after opsL7 (after opsL6 (after opsL5 (after opsL4 (after opsL3 (after opsL2 (after opsL1 (V))))))))) := by
  unfold ops
  simp only [StableHlo.after_append]

theorem ops_keep (V : Valuation τ sig (Elt F)) {r : Ref sig .tc}
    (h0 : r ∉ opsL1_W) (h1 : r ∉ opsL2_W) (h2 : r ∉ opsL3_W) (h3 : r ∉ opsL4_W) (h4 : r ∉ opsL5_W) (h5 : r ∉ opsL6_W) (h6 : r ∉ opsL7_W) (h7 : r ∉ opsL8_W) (h8 : r ∉ opsT_W) :
    after (ops (F := F)) V (Proc.devRef .tc r) = V (Proc.devRef .tc r) := by
  rw [after_ops, opsT_keep _ h8, opsL8_keep _ h7, opsL7_keep _ h6, opsL6_keep _ h5, opsL5_keep _ h4, opsL4_keep _ h3, opsL3_keep _ h2, opsL2_keep _ h1, opsL1_keep _ h0]

theorem ops_out (V : Valuation τ sig (Elt F)) :
    after (ops (F := F)) V (Proc.devRef .tc main_v293)
      = Cert.RefSpec.tail (Cert.RefSpec.twoLayer (V (Proc.devRef .tc main_arg0)) (V (Proc.devRef .tc main_arg1)) (V (Proc.devRef .tc main_arg2)) (V (Proc.devRef .tc main_arg12)) (V (Proc.devRef .tc main_arg13)) (V (Proc.devRef .tc main_arg14)) (V (Proc.devRef .tc main_arg15)))
          (Cert.RefSpec.twoLayer (V (Proc.devRef .tc main_arg3)) (V (Proc.devRef .tc main_arg4)) (V (Proc.devRef .tc main_arg5)) (V (Proc.devRef .tc main_arg12)) (V (Proc.devRef .tc main_arg13)) (V (Proc.devRef .tc main_arg14)) (V (Proc.devRef .tc main_arg15)))
          (Cert.RefSpec.twoLayer (V (Proc.devRef .tc main_arg6)) (V (Proc.devRef .tc main_arg7)) (V (Proc.devRef .tc main_arg8)) (V (Proc.devRef .tc main_arg12)) (V (Proc.devRef .tc main_arg13)) (V (Proc.devRef .tc main_arg14)) (V (Proc.devRef .tc main_arg15)))
          (Cert.RefSpec.twoLayer (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) := by
  rw [after_ops]
  simp (disch := decide) only [opsL1_out', opsL2_out', opsL3_out', opsL4_out', opsL5_out', opsL6_out', opsL7_out', opsL8_out', opsT_out', opsL1_keep', opsL2_keep', opsL3_keep', opsL4_keep', opsL5_keep', opsL6_keep', opsL7_keep', opsL8_keep', opsT_keep']
  rfl

def res_main_v293 (m : (ℓ : Loc nD τ sig) → Buf (Elt F) ℓ) (c : Dev nD) : Buf (Elt F) ((c.tc : Thread nD τ).loc main_v293) :=
  Cert.RefSpec.tail (Cert.RefSpec.twoLayer (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13)) (m ((c.tc : Thread nD τ).loc main_arg14)) (m ((c.tc : Thread nD τ).loc main_arg15)))
    (Cert.RefSpec.twoLayer (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15)))
    (Cert.RefSpec.twoLayer (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) (m ((c.tc : Thread nD τ).loc main_arg15)))
    (Cert.RefSpec.twoLayer (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v293) = res_main_v293 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v293).trans ((ops_out _).trans rfl),
      (h c main_arg0).trans ((ops_keep _ (by decide) (by decide) (by decide) (by decide) (by decide) (by decide) (by decide) (by decide) (by decide)).trans rfl),
      (h c main_arg1).trans ((ops_keep _ (by decide) (by decide) (by decide) (by decide) (by decide) (by decide) (by decide) (by decide) (by decide)).trans rfl),
      (h c main_arg2).trans ((ops_keep _ (by decide) (by decide) (by decide) (by decide) (by decide) (by decide) (by decide) (by decide) (by decide)).trans rfl),
      (h c main_arg3).trans ((ops_keep _ (by decide) (by decide) (by decide) (by decide) (by decide) (by decide) (by decide) (by decide) (by decide)).trans rfl),
      (h c main_arg4).trans ((ops_keep _ (by decide) (by decide) (by decide) (by decide) (by decide) (by decide) (by decide) (by decide) (by decide)).trans rfl),
      (h c main_arg5).trans ((ops_keep _ (by decide) (by decide) (by decide) (by decide) (by decide) (by decide) (by decide) (by decide) (by decide)).trans rfl),
      (h c main_arg6).trans ((ops_keep _ (by decide) (by decide) (by decide) (by decide) (by decide) (by decide) (by decide) (by decide) (by decide)).trans rfl),
      (h c main_arg7).trans ((ops_keep _ (by decide) (by decide) (by decide) (by decide) (by decide) (by decide) (by decide) (by decide) (by decide)).trans rfl),
      (h c main_arg8).trans ((ops_keep _ (by decide) (by decide) (by decide) (by decide) (by decide) (by decide) (by decide) (by decide) (by decide)).trans rfl),
      (h c main_arg9).trans ((ops_keep _ (by decide) (by decide) (by decide) (by decide) (by decide) (by decide) (by decide) (by decide) (by decide)).trans rfl),
      (h c main_arg10).trans ((ops_keep _ (by decide) (by decide) (by decide) (by decide) (by decide) (by decide) (by decide) (by decide) (by decide)).trans rfl),
      (h c main_arg11).trans ((ops_keep _ (by decide) (by decide) (by decide) (by decide) (by decide) (by decide) (by decide) (by decide) (by decide)).trans rfl),
      (h c main_arg12).trans ((ops_keep _ (by decide) (by decide) (by decide) (by decide) (by decide) (by decide) (by decide) (by decide) (by decide)).trans rfl),
      (h c main_arg13).trans ((ops_keep _ (by decide) (by decide) (by decide) (by decide) (by decide) (by decide) (by decide) (by decide) (by decide)).trans rfl),
      (h c main_arg14).trans ((ops_keep _ (by decide) (by decide) (by decide) (by decide) (by decide) (by decide) (by decide) (by decide) (by decide)).trans rfl),
      (h c main_arg15).trans ((ops_keep _ (by decide) (by decide) (by decide) (by decide) (by decide) (by decide) (by decide) (by decide) (by decide)).trans rfl)⟩)
    (run_seq scopedRefs_eq scopedSems_eq defs main (fun _ => ops) main_eq (fun _ => ops_sub) m ρ
      (fun _ op h => List.forall_iff_forall_mem.1 ops_fresh op h))

end Cert.ReferenceIdeal.ValueP

end
-- ==== Proof.lean ====
import proofs.«413962_j523986010479_1_alg».proof.Defs
import proofs.«413962_j523986010479_1_alg».proof.Proof.Gen.Kernel
import proofs.«413962_j523986010479_1_alg».proof.Proof.Gen.KernelIdeal
import proofs.«413962_j523986010479_1_alg».proof.Proof.Gen.ReferenceIdeal
import proofs.«413962_j523986010479_1_alg».proof.Proof.Gen.Pre_finite_inputs
import proofs.«413962_j523986010479_1_alg».proof.Proof.KRun
import proofs.«413962_j523986010479_1_alg».proof.Proof.KIRun
import proofs.«413962_j523986010479_1_alg».proof.Proof.KIChainT
import proofs.«413962_j523986010479_1_alg».proof.Proof.RefRun
import Idealize.ShloMosaic.Adequacy
import Idealize.ShloMosaic.Init

noncomputable section

namespace Cert.Proof

open Idealize.ShloMosaic Idealize.ShloMosaic.TcCoe Idealize.SL.Sem

-- Each program's frame is its run with the result dropped.
theorem frame_k : Cert.frame_Kernel := fun m ρ _ =>
  (θ_run Cert.Kernel.defs _ _).mono (fun _ h c => (h c).2) (Cert.Kernel.Hand.run_result (F := Bits) m ρ)

theorem frame_ki : Cert.frame_KernelIdeal := fun m ρ _ =>
  (θ_run Cert.KernelIdeal.defs _ _).mono (fun _ h c => (h c).2) (Cert.KernelIdeal.Hand.run_result (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

-- With every source index in range both results are the mean of the four graphs' two layers of the arguments.
theorem algebraic : Cert.algebraic_KernelIdeal_ReferenceIdeal := by
  intro m ρ m' ρ' hpre hagree
  refine ⟨fun c => Cert.KernelIdeal.Hand.W37 m c Cert.KernelIdeal.main_v133, Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  refine (?_ : Cert.ReferenceIdeal.ValueP.res_main_v293 m' c = _).trans (Cert.KernelIdeal.Hand.kernel_result m hpre c).symm
  unfold Cert.ReferenceIdeal.ValueP.res_main_v293
  rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
